-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S8400x84 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v479) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8400x4 : Shape := ⟨3, ![32, 8400, 4]⟩
abbrev S32x8400x80 : Shape := ⟨3, ![32, 8400, 80]⟩
abbrev S32x50x4 : Shape := ⟨3, ![32, 50, 4]⟩
abbrev S32x50 : Shape := ⟨2, ![32, 50]⟩
abbrev S_ : Shape := ⟨0, ![]⟩

class Facts : Prop where
  bcast_S_S32x8400x4 : S_.BroadcastsInDim S32x8400x4 (![] : Fin 0 → Fin S32x8400x4.rank)
  reducesTo_S32x8400x4_S_d0_1_2 : S32x8400x4.ReducesTo [0, 1, 2] S_
  h_S_ : 0 < S_.numel
  bcast_S_S32x8400x80 : S_.BroadcastsInDim S32x8400x80 (![] : Fin 0 → Fin S32x8400x80.rank)
  reducesTo_S32x8400x80_S_d0_1_2 : S32x8400x80.ReducesTo [0, 1, 2] S_
  bcast_S_S32x50x4 : S_.BroadcastsInDim S32x50x4 (![] : Fin 0 → Fin S32x50x4.rank)
  reducesTo_S32x50x4_S_d0_1_2 : S32x50x4.ReducesTo [0, 1, 2] S_

variable [Facts]

def fn {F : FTy → Type} [FloatOps F] (main_arg0 : FVec F S32x8400x4 .f32) (main_arg1 : FVec F S32x8400x80 .f32) (main_arg2 : FVec F S32x50x4 .f32) (main_arg3 : IVec S32x50 32) (main_arg4 : IVec S32x50 1) : IVec S_ 1 :=
  let main_v0 : FVec F S32x8400x4 .f32 := Host.absf main_arg0
  let main_cst : FVec F S_ .f32 := constant S_ .f32 0x7F800000#32
  let main_v1 : FVec F S32x8400x4 .f32 := broadcastInDim S32x8400x4 ![] bcast_S_S32x8400x4 main_cst
  let main_v2 : IVec S32x8400x4 1 := cmpf .olt main_v0 main_v1
  let main_c : IVec S_ 1 := constantI S_ 1 1#1
  let main_v3 : IVec S_ 1 := (fun x v => Host.reduce IntOp.andi x v reducesTo_S32x8400x4_S_d0_1_2 h_S_) main_v2 main_c
  let main_v4 : FVec F S32x8400x80 .f32 := Host.absf main_arg1
  let main_cst_0 : FVec F S_ .f32 := constant S_ .f32 0x7F800000#32
  let main_v5 : FVec F S32x8400x80 .f32 := broadcastInDim S32x8400x80 ![] bcast_S_S32x8400x80 main_cst_0
  let main_v6 : IVec S32x8400x80 1 := cmpf .olt main_v4 main_v5
  let main_c_1 : IVec S_ 1 := constantI S_ 1 1#1
  let main_v7 : IVec S_ 1 := (fun x v => Host.reduce IntOp.andi x v reducesTo_S32x8400x80_S_d0_1_2 h_S_) main_v6 main_c_1
  let main_v8 : IVec S_ 1 := andi main_v3 main_v7
  let main_v9 : FVec F S32x50x4 .f32 := Host.absf main_arg2
  let main_cst_2 : FVec F S_ .f32 := constant S_ .f32 0x7F800000#32
  let main_v10 : FVec F S32x50x4 .f32 := broadcastInDim S32x50x4 ![] bcast_S_S32x50x4 main_cst_2
  let main_v11 : IVec S32x50x4 1 := cmpf .olt main_v9 main_v10
  let main_c_3 : IVec S_ 1 := constantI S_ 1 1#1
  let main_v12 : IVec S_ 1 := (fun x v => Host.reduce IntOp.andi x v reducesTo_S32x50x4_S_d0_1_2 h_S_) main_v11 main_c_3
  let main_v13 : IVec S_ 1 := andi main_v8 main_v12
  main_v13
-- ==== Kernel.lean ====
abbrev S32x8400x4 : Shape := ⟨3, ![32, 8400, 4]⟩
abbrev S32x8400x80 : Shape := ⟨3, ![32, 8400, 80]⟩
abbrev S32x50x4 : Shape := ⟨3, ![32, 50, 4]⟩
abbrev S32x50 : Shape := ⟨2, ![32, 50]⟩
abbrev S32x50x1 : Shape := ⟨3, ![32, 50, 1]⟩
abbrev S_ : Shape := ⟨0, ![]⟩
abbrev S1x1x80 : Shape := ⟨3, ![1, 1, 80]⟩
abbrev S32x50x80 : Shape := ⟨3, ![32, 50, 80]⟩
abbrev S32x50x3 : Shape := ⟨3, ![32, 50, 3]⟩
abbrev S32x150 : Shape := ⟨2, ![32, 150]⟩
abbrev S32x50x1x4 : Shape := ⟨4, ![32, 50, 1, 4]⟩
abbrev S32x50x3x4 : Shape := ⟨4, ![32, 50, 3, 4]⟩
abbrev S32x150x4 : Shape := ⟨3, ![32, 150, 4]⟩
abbrev S32x50x1x80 : Shape := ⟨4, ![32, 50, 1, 80]⟩
abbrev S32x50x3x80 : Shape := ⟨4, ![32, 50, 3, 80]⟩
abbrev S32x150x80 : Shape := ⟨3, ![32, 150, 80]⟩
abbrev S32x150x1 : Shape := ⟨3, ![32, 150, 1]⟩
abbrev S32x1x3 : Shape := ⟨3, ![32, 1, 3]⟩
abbrev S1x150x1 : Shape := ⟨3, ![1, 150, 1]⟩
abbrev S1x150x4 : Shape := ⟨3, ![1, 150, 4]⟩
abbrev S1x150x80 : Shape := ⟨3, ![1, 150, 80]⟩
abbrev S1x8400x4 : Shape := ⟨3, ![1, 8400, 4]⟩
abbrev S1x8400x80 : Shape := ⟨3, ![1, 8400, 80]⟩
abbrev S1x1x3 : Shape := ⟨3, ![1, 1, 3]⟩
abbrev S150x1 : Shape := ⟨2, ![150, 1]⟩
abbrev S150 : Shape := ⟨1, ![150]⟩
abbrev S150x4 : Shape := ⟨2, ![150, 4]⟩
abbrev S150x80 : Shape := ⟨2, ![150, 80]⟩
abbrev S8400x4 : Shape := ⟨2, ![8400, 4]⟩
abbrev S8400x80 : Shape := ⟨2, ![8400, 80]⟩
abbrev S1x8400 : Shape := ⟨2, ![1, 8400]⟩
abbrev S150x8400 : Shape := ⟨2, ![150, 8400]⟩
abbrev S8400x84 : Shape := ⟨2, ![8400, 84]⟩
abbrev S150x84 : Shape := ⟨2, ![150, 84]⟩
abbrev S1x150 : Shape := ⟨2, ![1, 150]⟩
abbrev S1 : Shape := ⟨1, ![1]⟩
abbrev S1x1 : Shape := ⟨2, ![1, 1]⟩
abbrev S3 : Shape := ⟨1, ![3]⟩
abbrev S32x3 : Shape := ⟨2, ![32, 3]⟩
abbrev S32x1 : Shape := ⟨2, ![32, 1]⟩
abbrev S32 : Shape := ⟨1, ![32]⟩

abbrev nBuf : Space → Nat
  | .hbm => 181
  | .vmem => 14
  | .smem => 0
  | _ => 0

abbrev hbmTy0_0 (i : Nat) : BufTy := match i % 128 with
  | 0 => ⟨S32x8400x4, .f32⟩
  | 1 => ⟨S32x8400x80, .f32⟩
  | 2 => ⟨S32x50x4, .f32⟩
  | 3 => ⟨S32x50, .i32⟩
  | 4 => ⟨S32x50, .i1⟩
  | 5 => ⟨S32x50x1, .f32⟩
  | 6 => ⟨S32x50, .f32⟩
  | 7 => ⟨S32x50x1, .f32⟩
  | 8 => ⟨S32x50, .f32⟩
  | 9 => ⟨S32x50, .f32⟩
  | 10 => ⟨S_, .f32⟩
  | 11 => ⟨S32x50, .f32⟩
  | 12 => ⟨S32x50, .f32⟩
  | 13 => ⟨S32x50x1, .f32⟩
  | 14 => ⟨S32x50, .f32⟩
  | 15 => ⟨S32x50x1, .f32⟩
  | 16 => ⟨S32x50, .f32⟩
  | 17 => ⟨S32x50, .f32⟩
  | 18 => ⟨S_, .f32⟩
  | 19 => ⟨S32x50, .f32⟩
  | 20 => ⟨S32x50, .f32⟩
  | 21 => ⟨S32x50x1, .i32⟩
  | 22 => ⟨S1x1x80, .i32⟩
  | 23 => ⟨S32x50x80, .i32⟩
  | 24 => ⟨S32x50x80, .i32⟩
  | 25 => ⟨S32x50x80, .i1⟩
  | 26 => ⟨S32x50x80, .f32⟩
  | 27 => ⟨S_, .f32⟩
  | 28 => ⟨S32x50, .f32⟩
  | 29 => ⟨S32x50, .f32⟩
  | 30 => ⟨S32x50, .f32⟩
  | 31 => ⟨S32x50, .i32⟩
  | 32 => ⟨S_, .f32⟩
  | 33 => ⟨S32x50, .f32⟩
  | 34 => ⟨S32x50, .f32⟩
  | 35 => ⟨S32x50, .f32⟩
  | 36 => ⟨S32x50, .i32⟩
  | 37 => ⟨S_, .i32⟩
  | 38 => ⟨S32x50, .i32⟩
  | 39 => ⟨S32x50, .i1⟩
  | 40 => ⟨S32x50, .i1⟩
  | 41 => ⟨S_, .i32⟩
  | 42 => ⟨S32x50, .i32⟩
  | 43 => ⟨S32x50, .i1⟩
  | 44 => ⟨S32x50, .i1⟩
  | 45 => ⟨S_, .i32⟩
  | 46 => ⟨S32x50, .i32⟩
  | 47 => ⟨S32x50, .i1⟩
  | 48 => ⟨S32x50, .i1⟩
  | 49 => ⟨S_, .i32⟩
  | 50 => ⟨S32x50, .i32⟩
  | 51 => ⟨S32x50, .i1⟩
  | 52 => ⟨S32x50, .i1⟩
  | 53 => ⟨S_, .i32⟩
  | 54 => ⟨S32x50, .i32⟩
  | 55 => ⟨S32x50, .i32⟩
  | 56 => ⟨S_, .i32⟩
  | 57 => ⟨S32x50, .i32⟩
  | 58 => ⟨S32x50, .i32⟩
  | 59 => ⟨S32x50, .i32⟩
  | 60 => ⟨S_, .i32⟩
  | 61 => ⟨S_, .i32⟩
  | 62 => ⟨S32x50, .i32⟩
  | 63 => ⟨S32x50, .i32⟩
  | 64 => ⟨S32x50, .f32⟩
  | 65 => ⟨S_, .f32⟩
  | 66 => ⟨S32x50, .f32⟩
  | 67 => ⟨S32x50, .f32⟩
  | 68 => ⟨S32x50, .f32⟩
  | 69 => ⟨S32x50, .i32⟩
  | 70 => ⟨S_, .f32⟩
  | 71 => ⟨S32x50, .f32⟩
  | 72 => ⟨S32x50, .f32⟩
  | 73 => ⟨S32x50, .f32⟩
  | 74 => ⟨S32x50, .i32⟩
  | 75 => ⟨S_, .i32⟩
  | 76 => ⟨S32x50, .i32⟩
  | 77 => ⟨S32x50, .i1⟩
  | 78 => ⟨S32x50, .i1⟩
  | 79 => ⟨S_, .i32⟩
  | 80 => ⟨S32x50, .i32⟩
  | 81 => ⟨S32x50, .i1⟩
  | 82 => ⟨S32x50, .i1⟩
  | 83 => ⟨S_, .i32⟩
  | 84 => ⟨S32x50, .i32⟩
  | 85 => ⟨S32x50, .i1⟩
  | 86 => ⟨S32x50, .i1⟩
  | 87 => ⟨S_, .i32⟩
  | 88 => ⟨S32x50, .i32⟩
  | 89 => ⟨S32x50, .i1⟩
  | 90 => ⟨S32x50, .i1⟩
  | 91 => ⟨S_, .i32⟩
  | 92 => ⟨S32x50, .i32⟩
  | 93 => ⟨S32x50, .i32⟩
  | 94 => ⟨S_, .i32⟩
  | 95 => ⟨S32x50, .i32⟩
  | 96 => ⟨S32x50, .i32⟩
  | 97 => ⟨S32x50, .i32⟩
  | 98 => ⟨S_, .i32⟩
  | 99 => ⟨S_, .i32⟩
  | 100 => ⟨S32x50, .i32⟩
  | 101 => ⟨S32x50, .i32⟩
  | 102 => ⟨S32x50, .f32⟩
  | 103 => ⟨S_, .f32⟩
  | 104 => ⟨S32x50, .f32⟩
  | 105 => ⟨S32x50, .f32⟩
  | 106 => ⟨S32x50, .f32⟩
  | 107 => ⟨S32x50, .i32⟩
  | 108 => ⟨S_, .f32⟩
  | 109 => ⟨S32x50, .f32⟩
  | 110 => ⟨S32x50, .f32⟩
  | 111 => ⟨S32x50, .f32⟩
  | 112 => ⟨S32x50, .i32⟩
  | 113 => ⟨S_, .i32⟩
  | 114 => ⟨S32x50, .i32⟩
  | 115 => ⟨S32x50, .i1⟩
  | 116 => ⟨S32x50, .i1⟩
  | 117 => ⟨S_, .i32⟩
  | 118 => ⟨S32x50, .i32⟩
  | 119 => ⟨S32x50, .i1⟩
  | 120 => ⟨S32x50, .i1⟩
  | 121 => ⟨S_, .i32⟩
  | 122 => ⟨S32x50, .i32⟩
  | 123 => ⟨S32x50, .i1⟩
  | 124 => ⟨S32x50, .i1⟩
  | 125 => ⟨S_, .i32⟩
  | 126 => ⟨S32x50, .i32⟩
  | 127 => ⟨S32x50, .i1⟩
  | _ => ⟨S32x8400x4, .f32⟩

abbrev hbmTy0_1 (i : Nat) : BufTy := match i % 128 with
  | 0 => ⟨S32x50, .i1⟩
  | 1 => ⟨S_, .i32⟩
  | 2 => ⟨S32x50, .i32⟩
  | 3 => ⟨S32x50, .i32⟩
  | 4 => ⟨S_, .i32⟩
  | 5 => ⟨S32x50, .i32⟩
  | 6 => ⟨S32x50, .i32⟩
  | 7 => ⟨S32x50, .i32⟩
  | 8 => ⟨S_, .i32⟩
  | 9 => ⟨S_, .i32⟩
  | 10 => ⟨S32x50, .i32⟩
  | 11 => ⟨S32x50, .i32⟩
  | 12 => ⟨S32x50, .f32⟩
  | 13 => ⟨S32x50x1, .i32⟩
  | 14 => ⟨S32x50x1, .i32⟩
  | 15 => ⟨S32x50x1, .i32⟩
  | 16 => ⟨S32x50x3, .i32⟩
  | 17 => ⟨S32x150, .i32⟩
  | 18 => ⟨S32x50x1, .f32⟩
  | 19 => ⟨S32x50x1, .f32⟩
  | 20 => ⟨S32x50x1, .f32⟩
  | 21 => ⟨S32x50x3, .f32⟩
  | 22 => ⟨S32x150, .f32⟩
  | 23 => ⟨S32x50x1x4, .f32⟩
  | 24 => ⟨S32x50x3x4, .f32⟩
  | 25 => ⟨S32x150x4, .f32⟩
  | 26 => ⟨S32x50x1x80, .f32⟩
  | 27 => ⟨S32x50x3x80, .f32⟩
  | 28 => ⟨S32x150x80, .f32⟩
  | 29 => ⟨S32x150x1, .i32⟩
  | 30 => ⟨S32x150x1, .f32⟩
  | 31 => ⟨S32x1x3, .f32⟩
  | 32 => ⟨S32x3, .f32⟩
  | 33 => ⟨S32x1, .f32⟩
  | 34 => ⟨S32, .f32⟩
  | 35 => ⟨S_, .f32⟩
  | 36 => ⟨S_, .f32⟩
  | 37 => ⟨S32x1, .f32⟩
  | 38 => ⟨S32, .f32⟩
  | 39 => ⟨S_, .f32⟩
  | 40 => ⟨S_, .f32⟩
  | 41 => ⟨S32x1, .f32⟩
  | 42 => ⟨S32, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S32x8400x4, .f32⟩

abbrev hbmTy (i : Nat) : BufTy := match i / 128 with
  | 0 => hbmTy0_0 i
  | 1 => hbmTy0_1 i
  | _ => ⟨S32x8400x4, .f32⟩

abbrev bufTy : (tb : Table) → Fin (tcTables nBuf tb) → BufTy
  | .hbm, ⟨i, _⟩ => hbmTy i
  | .local _ .vmem, ⟨0, _⟩ => ⟨S1x150x1, .i32⟩
  | .local _ .vmem, ⟨1, _⟩ => ⟨S1x150x1, .i32⟩
  | .local _ .vmem, ⟨2, _⟩ => ⟨S1x150x1, .f32⟩
  | .local _ .vmem, ⟨3, _⟩ => ⟨S1x150x1, .f32⟩
  | .local _ .vmem, ⟨4, _⟩ => ⟨S1x150x4, .f32⟩
  | .local _ .vmem, ⟨5, _⟩ => ⟨S1x150x4, .f32⟩
  | .local _ .vmem, ⟨6, _⟩ => ⟨S1x150x80, .f32⟩
  | .local _ .vmem, ⟨7, _⟩ => ⟨S1x150x80, .f32⟩
  | .local _ .vmem, ⟨8, _⟩ => ⟨S1x8400x4, .f32⟩
  | .local _ .vmem, ⟨9, _⟩ => ⟨S1x8400x4, .f32⟩
  | .local _ .vmem, ⟨10, _⟩ => ⟨S1x8400x80, .f32⟩
  | .local _ .vmem, ⟨11, _⟩ => ⟨S1x8400x80, .f32⟩
  | .local _ .vmem, ⟨12, _⟩ => ⟨S1x1x3, .f32⟩
  | .local _ .vmem, ⟨13, _⟩ => ⟨S1x1x3, .f32⟩
  | _, _ => ⟨S32x8400x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_call1_v0 : Ref sig .tc := ⟨.hbm, 61, rfl⟩
abbrev main_call1_v1 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_call2_v0 : Ref sig .tc := ⟨.hbm, 99, rfl⟩
abbrev main_call2_v1 : Ref sig .tc := ⟨.hbm, 100, rfl⟩
abbrev main_v67 : Ref sig .tc := ⟨.hbm, 101, rfl⟩
abbrev main_v68 : Ref sig .tc := ⟨.hbm, 102, rfl⟩
abbrev main_cst_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_20 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_21 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_22 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_23 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_24 : Ref sig .tc := ⟨.hbm, 129, rfl⟩
abbrev main_v89 : Ref sig .tc := ⟨.hbm, 130, rfl⟩
abbrev main_v90 : Ref sig .tc := ⟨.hbm, 131, rfl⟩
abbrev main_c_25 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_26 : Ref sig .tc := ⟨.hbm, 136, rfl⟩
abbrev main_call3_v0 : Ref sig .tc := ⟨.hbm, 137, rfl⟩
abbrev main_call3_v1 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_27 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_28 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_29 : Ref sig .tc := ⟨.hbm, 171, rfl⟩
abbrev main_v124 : Ref sig .tc := ⟨.hbm, 172, rfl⟩
abbrev main_cst_30 : Ref sig .tc := ⟨.hbm, 173, rfl⟩
abbrev main_v125 : Ref sig .tc := ⟨.hbm, 174, rfl⟩
abbrev main_cst_31 : Ref sig .tc := ⟨.hbm, 175, rfl⟩
abbrev main_v126 : Ref sig .tc := ⟨.hbm, 176, rfl⟩
abbrev main_cst_32 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x150x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x150x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x150x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x150x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8400x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8400x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S32x50x4_S32x50x1_0_0_0 : S32x50x4.Slices ![0, 0, 0] S32x50x1
  shapeCasts_S32x50x1_S32x50 : S32x50x1.ShapeCasts S32x50
  slices_S32x50x4_S32x50x1_0_0_2 : S32x50x4.Slices ![0, 0, 2] S32x50x1
  bcast_S_S32x50 : S_.BroadcastsInDim S32x50 (![] : Fin 0 → Fin S32x50.rank)
  slices_S32x50x4_S32x50x1_0_0_1 : S32x50x4.Slices ![0, 0, 1] S32x50x1
  slices_S32x50x4_S32x50x1_0_0_3 : S32x50x4.Slices ![0, 0, 3] S32x50x1
  bcast_S32x50_S32x50x1_0_1 : S32x50.BroadcastsInDim S32x50x1 (![0, 1] : Fin 2 → Fin S32x50x1.rank)
  bcast_S32x50x1_S32x50x80_0_1_2 : S32x50x1.BroadcastsInDim S32x50x80 (![0, 1, 2] : Fin 3 → Fin S32x50x80.rank)
  bcast_S1x1x80_S32x50x80_0_1_2 : S1x1x80.BroadcastsInDim S32x50x80 (![0, 1, 2] : Fin 3 → Fin S32x50x80.rank)
  concatenates_S32x50x1_S32x50x1_S32x50x1_S32x50x3_d2 : Shape.Concatenates [S32x50x1, S32x50x1, S32x50x1] S32x50x3 2
  shapeCasts_S32x50x3_S32x150 : S32x50x3.ShapeCasts S32x150
  bcast_S32x50x4_S32x50x1x4_0_1_3 : S32x50x4.BroadcastsInDim S32x50x1x4 (![0, 1, 3] : Fin 3 → Fin S32x50x1x4.rank)
  bcast_S32x50x1x4_S32x50x3x4_0_1_2_3 : S32x50x1x4.BroadcastsInDim S32x50x3x4 (![0, 1, 2, 3] : Fin 4 → Fin S32x50x3x4.rank)
  shapeCasts_S32x50x3x4_S32x150x4 : S32x50x3x4.ShapeCasts S32x150x4
  bcast_S32x50x80_S32x50x1x80_0_1_3 : S32x50x80.BroadcastsInDim S32x50x1x80 (![0, 1, 3] : Fin 3 → Fin S32x50x1x80.rank)
  bcast_S32x50x1x80_S32x50x3x80_0_1_2_3 : S32x50x1x80.BroadcastsInDim S32x50x3x80 (![0, 1, 2, 3] : Fin 4 → Fin S32x50x3x80.rank)
  shapeCasts_S32x50x3x80_S32x150x80 : S32x50x3x80.ShapeCasts S32x150x80
  bcast_S32x150_S32x150x1_0_1 : S32x150.BroadcastsInDim S32x150x1 (![0, 1] : Fin 2 → Fin S32x150x1.rank)
  inb_S1x150x1_S1x150x1_0_0_0 : ∀ a, (![0, 0, 0] : Fin 3 → Nat) a + S1x150x1.size a ≤ S1x150x1.size a
  h_S1x150x1 : 0 < S1x150x1.numel
  shapeCasts_S1x150x1_S150x1 : S1x150x1.ShapeCasts S150x1
  shapeCasts_S1x150x1_S150 : S1x150x1.ShapeCasts S150
  inb_S1x150x4_S1x150x4_0_0_0 : ∀ a, (![0, 0, 0] : Fin 3 → Nat) a + S1x150x4.size a ≤ S1x150x4.size a
  h_S1x150x4 : 0 < S1x150x4.numel
  shapeCasts_S1x150x4_S150x4 : S1x150x4.ShapeCasts S150x4
  inb_S1x150x80_S1x150x80_0_0_0 : ∀ a, (![0, 0, 0] : Fin 3 → Nat) a + S1x150x80.size a ≤ S1x150x80.size a
  h_S1x150x80 : 0 < S1x150x80.numel
  shapeCasts_S1x150x80_S150x80 : S1x150x80.ShapeCasts S150x80
  inb_S1x8400x4_S1x8400x4_0_0_0 : ∀ a, (![0, 0, 0] : Fin 3 → Nat) a + S1x8400x4.size a ≤ S1x8400x4.size a
  h_S1x8400x4 : 0 < S1x8400x4.numel
  shapeCasts_S1x8400x4_S8400x4 : S1x8400x4.ShapeCasts S8400x4
  inb_S1x8400x80_S1x8400x80_0_0_0 : ∀ a, (![0, 0, 0] : Fin 3 → Nat) a + S1x8400x80.size a ≤ S1x8400x80.size a
  h_S1x8400x80 : 0 < S1x8400x80.numel
  shapeCasts_S1x8400x80_S8400x80 : S1x8400x80.ShapeCasts S8400x80
  iota_S1x8400_d1_w32 : S1x8400.Iotas .tc 32 [1]
  broadcasts_S150x1_S150x8400 : S150x1.Broadcasts S150x8400
  broadcasts_S1x8400_S150x8400 : S1x8400.Broadcasts S150x8400
  natLt_1_32 : 1 < 32
  bitsLt_bf16_f32 : FTy.bits .bf16 < FTy.bits .f32
  concatenates_S8400x4_S8400x80_S8400x84_d1 : Shape.Concatenates [S8400x4, S8400x80] S8400x84 1
  slices_S150x84_o0_0_S150x4 : S150x84.Slices ![0, 0] S150x4
  slices_S150x84_o0_4_S150x80 : S150x84.Slices ![0, 4] S150x80
  slices_S150x4_o0_0_S150x1 : S150x4.Slices ![0, 0] S150x1
  shapeCasts_S150x1_S150 : S150x1.ShapeCasts S150
  slices_S150x4_o0_1_S150x1 : S150x4.Slices ![0, 1] S150x1
  slices_S150x4_o0_2_S150x1 : S150x4.Slices ![0, 2] S150x1
  slices_S150x4_o0_3_S150x1 : S150x4.Slices ![0, 3] S150x1
  reduces_S150x80_S150 : S150x80.Reduces [1] S150
  shapeCasts_S150_S1x150 : S150.ShapeCasts S1x150
  reduces_S1x150_S1 : S1x150.Reduces [1] S1
  shapeCasts_S1_S1x1 : S1.ShapeCasts S1x1
  inpos_S1x1_p0_0 : ∀ a, (![0, 0] : Fin 2 → Nat) a < S1x1.size a
  concatenates_S1_S1_S1_S3_d0 : Shape.Concatenates [S1, S1, S1] S3 0
  inb_S1x1x3_S1x1x3_0_0_0 : ∀ a, (![0, 0, 0] : Fin 3 → Nat) a + S1x1x3.size a ≤ S1x1x3.size a
  h_S1x1x3 : 0 < S1x1x3.numel
  shapeCasts_S1x1x3_S3 : S1x1x3.ShapeCasts S3
  shapeCasts_S3_S1x1x3 : S3.ShapeCasts S1x1x3
  shapeCasts_S32x1x3_S32x3 : S32x1x3.ShapeCasts S32x3
  slices_S32x3_S32x1_0_0 : S32x3.Slices ![0, 0] S32x1
  shapeCasts_S32x1_S32 : S32x1.ShapeCasts S32
  reducesTo_S32_S_d0 : S32.ReducesTo [0] S_
  h_S_ : 0 < S_.numel
  slices_S32x3_S32x1_0_1 : S32x3.Slices ![0, 1] S32x1
  slices_S32x3_S32x1_0_2 : S32x3.Slices ![0, 2] S32x1
  dot_S150x8400_S8400x84_S150x84_1_0_0_1_n_n_wf : DotDims.WF S150x8400 S8400x84 S150x84 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x150x1.size a ≤ S32x150x1.size a
  hwx0_0 : ∀ i : grid0.Coords, EltTy.bits .i32 = 32 ∨ (Rect.block (s := S32x150x1) S1x150x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x150x1.size a ≤ S32x150x1.size a
  hwx0_1 : ∀ i : grid0.Coords, EltTy.bits .f32 = 32 ∨ (Rect.block (s := S32x150x1) S1x150x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x150x4.size a ≤ S32x150x4.size a
  hwx0_2 : ∀ i : grid0.Coords, EltTy.bits .f32 = 32 ∨ (Rect.block (s := S32x150x4) S1x150x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x150x80.size a ≤ S32x150x80.size a
  hwx0_3 : ∀ i : grid0.Coords, EltTy.bits .f32 = 32 ∨ (Rect.block (s := S32x150x80) S1x150x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8400x4.size a ≤ S32x8400x4.size a
  hwx0_4 : ∀ i : grid0.Coords, EltTy.bits .f32 = 32 ∨ (Rect.block (s := S32x8400x4) S1x8400x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8400x80.size a ≤ S32x8400x80.size a
  hwx0_5 : ∀ i : grid0.Coords, EltTy.bits .f32 = 32 ∨ (Rect.block (s := S32x8400x80) S1x8400x80.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x3.size a ≤ S32x1x3.size a
  hwx0_6 : ∀ i : grid0.Coords, EltTy.bits .f32 = 32 ∨ (Rect.block (s := S32x1x3) S1x1x3.size (cc0_transform_6 i) (hinb0_6 i)).WholeWords (EltTy.packing .f32)

variable [Facts₀]

def dot_S150x8400_S8400x84_S150x84_1_0_0_1_n_n : DotDims S150x8400 S8400x84 S150x84 where
  lhsContracting := [1]
  rhsContracting := [0]
  lhsNonContracting := [0]
  rhsNonContracting := [1]
  lhsBatch := []
  rhsBatch := []
  wf := dot_S150x8400_S8400x84_S150x84_1_0_0_1_n_n_wf

abbrev win0_0 : Pipeline.Window sig grid0 :=
  Pipeline.Window.ofSpec (Memref.whole main_v112) S1x150x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v113) S1x150x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v108) S1x150x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v111) S1x150x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x8400x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x8400x80.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v114) S1x1x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x8400x4 : Shape := ⟨3, ![32, 8400, 4]⟩
abbrev S32x8400x80 : Shape := ⟨3, ![32, 8400, 80]⟩
abbrev S32x50x4 : Shape := ⟨3, ![32, 50, 4]⟩
abbrev S32x50 : Shape := ⟨2, ![32, 50]⟩
abbrev S32x50x1 : Shape := ⟨3, ![32, 50, 1]⟩
abbrev S_ : Shape := ⟨0, ![]⟩
abbrev S1x1x80 : Shape := ⟨3, ![1, 1, 80]⟩
abbrev S32x50x80 : Shape := ⟨3, ![32, 50, 80]⟩
abbrev S1 : Shape := ⟨1, ![1]⟩
abbrev S1x1x1 : Shape := ⟨3, ![1, 1, 1]⟩

abbrev nBuf : Space → Nat
  | .hbm => 828
  | .vmem => 0
  | .smem => 0
  | _ => 0

abbrev hbmTy0_0 (i : Nat) : BufTy := match i % 128 with
  | 0 => ⟨S32x8400x4, .f32⟩
  | 1 => ⟨S32x8400x80, .f32⟩
  | 2 => ⟨S32x50x4, .f32⟩
  | 3 => ⟨S32x50, .i32⟩
  | 4 => ⟨S32x50, .i1⟩
  | 5 => ⟨S32x50x1, .f32⟩
  | 6 => ⟨S32x50, .f32⟩
  | 7 => ⟨S32x50x1, .f32⟩
  | 8 => ⟨S32x50, .f32⟩
  | 9 => ⟨S32x50, .f32⟩
  | 10 => ⟨S_, .f32⟩
  | 11 => ⟨S32x50, .f32⟩
  | 12 => ⟨S32x50, .f32⟩
  | 13 => ⟨S32x50x1, .f32⟩
  | 14 => ⟨S32x50, .f32⟩
  | 15 => ⟨S32x50x1, .f32⟩
  | 16 => ⟨S32x50, .f32⟩
  | 17 => ⟨S32x50, .f32⟩
  | 18 => ⟨S_, .f32⟩
  | 19 => ⟨S32x50, .f32⟩
  | 20 => ⟨S32x50, .f32⟩
  | 21 => ⟨S32x50x1, .i32⟩
  | 22 => ⟨S1x1x80, .i32⟩
  | 23 => ⟨S32x50x80, .i32⟩
  | 24 => ⟨S32x50x80, .i32⟩
  | 25 => ⟨S32x50x80, .i1⟩
  | 26 => ⟨S32x50x80, .f32⟩
  | 27 => ⟨S_, .f32⟩
  | 28 => ⟨S32x50, .f32⟩
  | 29 => ⟨S32x50, .f32⟩
  | 30 => ⟨S32x50, .f32⟩
  | 31 => ⟨S32x50, .i32⟩
  | 32 => ⟨S_, .f32⟩
  | 33 => ⟨S32x50, .f32⟩
  | 34 => ⟨S32x50, .f32⟩
  | 35 => ⟨S32x50, .f32⟩
  | 36 => ⟨S32x50, .i32⟩
  | 37 => ⟨S_, .i32⟩
  | 38 => ⟨S32x50, .i32⟩
  | 39 => ⟨S32x50, .i1⟩
  | 40 => ⟨S32x50, .i1⟩
  | 41 => ⟨S_, .i32⟩
  | 42 => ⟨S32x50, .i32⟩
  | 43 => ⟨S32x50, .i1⟩
  | 44 => ⟨S32x50, .i1⟩
  | 45 => ⟨S_, .i32⟩
  | 46 => ⟨S32x50, .i32⟩
  | 47 => ⟨S32x50, .i1⟩
  | 48 => ⟨S32x50, .i1⟩
  | 49 => ⟨S_, .i32⟩
  | 50 => ⟨S32x50, .i32⟩
  | 51 => ⟨S32x50, .i1⟩
  | 52 => ⟨S32x50, .i1⟩
  | 53 => ⟨S_, .i32⟩
  | 54 => ⟨S32x50, .i32⟩
  | 55 => ⟨S32x50, .i32⟩
  | 56 => ⟨S_, .i32⟩
  | 57 => ⟨S32x50, .i32⟩
  | 58 => ⟨S32x50, .i32⟩
  | 59 => ⟨S32x50, .i32⟩
  | 60 => ⟨S_, .i32⟩
  | 61 => ⟨S_, .i32⟩
  | 62 => ⟨S32x50, .i32⟩
  | 63 => ⟨S32x50, .i32⟩
  | 64 => ⟨S32x50x1, .i32⟩
  | 65 => ⟨S_, .i32⟩
  | 66 => ⟨S32x50x1, .i32⟩
  | 67 => ⟨S32x50x1, .i1⟩
  | 68 => ⟨S_, .i32⟩
  | 69 => ⟨S32x50x1, .i32⟩
  | 70 => ⟨S32x50x1, .i32⟩
  | 71 => ⟨S32x50x1, .i32⟩
  | 72 => ⟨S1, .i32⟩
  | 73 => ⟨S_, .i32⟩
  | 74 => ⟨S32x50x1, .i32⟩
  | 75 => ⟨S32x50x1, .i1⟩
  | 76 => ⟨S1x1x1, .i32⟩
  | 77 => ⟨S32x50x1, .i32⟩
  | 78 => ⟨S32x50x1, .i1⟩
  | 79 => ⟨S32x50x1, .i1⟩
  | 80 => ⟨S_, .i1⟩
  | 81 => ⟨S32x50, .i1⟩
  | 82 => ⟨S32x50x4, .f32⟩
  | 83 => ⟨S32x50x4, .i1⟩
  | 84 => ⟨S_, .f32⟩
  | 85 => ⟨S32x50x4, .f32⟩
  | 86 => ⟨S32x50x4, .f32⟩
  | 87 => ⟨S32x50x1, .i32⟩
  | 88 => ⟨S_, .i32⟩
  | 89 => ⟨S32x50x1, .i32⟩
  | 90 => ⟨S32x50x1, .i1⟩
  | 91 => ⟨S_, .i32⟩
  | 92 => ⟨S32x50x1, .i32⟩
  | 93 => ⟨S32x50x1, .i32⟩
  | 94 => ⟨S32x50x1, .i32⟩
  | 95 => ⟨S1, .i32⟩
  | 96 => ⟨S_, .i32⟩
  | 97 => ⟨S32x50x1, .i32⟩
  | 98 => ⟨S32x50x1, .i1⟩
  | 99 => ⟨S1x1x1, .i32⟩
  | 100 => ⟨S32x50x1, .i32⟩
  | 101 => ⟨S32x50x1, .i1⟩
  | 102 => ⟨S32x50x1, .i1⟩
  | 103 => ⟨S_, .i1⟩
  | 104 => ⟨S32x50, .i1⟩
  | 105 => ⟨S32x50x80, .f32⟩
  | 106 => ⟨S32x50x80, .i1⟩
  | 107 => ⟨S_, .f32⟩
  | 108 => ⟨S32x50x80, .f32⟩
  | 109 => ⟨S32x50x80, .f32⟩
  | 110 => ⟨S32x50x1, .f32⟩
  | 111 => ⟨S32x50, .f32⟩
  | 112 => ⟨S32x50x1, .f32⟩
  | 113 => ⟨S32x50, .f32⟩
  | 114 => ⟨S32x50, .f32⟩
  | 115 => ⟨S32x50x1, .f32⟩
  | 116 => ⟨S32x50, .f32⟩
  | 117 => ⟨S32x50x1, .f32⟩
  | 118 => ⟨S32x50, .f32⟩
  | 119 => ⟨S32x50, .f32⟩
  | 120 => ⟨S32x50x1, .f32⟩
  | 121 => ⟨S32x50, .f32⟩
  | 122 => ⟨S32x50x1, .f32⟩
  | 123 => ⟨S32x50, .f32⟩
  | 124 => ⟨S32x50, .f32⟩
  | 125 => ⟨S32x50x1, .f32⟩
  | 126 => ⟨S32x50, .f32⟩
  | 127 => ⟨S32x50x1, .f32⟩
  | _ => ⟨S32x8400x4, .f32⟩

abbrev hbmTy0_1 (i : Nat) : BufTy := match i % 128 with
  | 0 => ⟨S32x50, .f32⟩
  | 1 => ⟨S32x50, .f32⟩
  | 2 => ⟨S32x50, .f32⟩
  | 3 => ⟨S_, .f32⟩
  | 4 => ⟨S_, .f32⟩
  | 5 => ⟨S32x50, .f32⟩
  | 6 => ⟨S32x50, .f32⟩
  | 7 => ⟨S32x50, .f32⟩
  | 8 => ⟨S_, .f32⟩
  | 9 => ⟨S_, .f32⟩
  | 10 => ⟨S32x50, .f32⟩
  | 11 => ⟨S32x50, .f32⟩
  | 12 => ⟨S32x50, .f32⟩
  | 13 => ⟨S32x50x1, .f32⟩
  | 14 => ⟨S32x50, .f32⟩
  | 15 => ⟨S32x50x1, .f32⟩
  | 16 => ⟨S32x50, .f32⟩
  | 17 => ⟨S32x50, .f32⟩
  | 18 => ⟨S32x50x1, .f32⟩
  | 19 => ⟨S32x50, .f32⟩
  | 20 => ⟨S32x50x1, .f32⟩
  | 21 => ⟨S32x50, .f32⟩
  | 22 => ⟨S32x50, .f32⟩
  | 23 => ⟨S32x50, .f32⟩
  | 24 => ⟨S32x50x1, .f32⟩
  | 25 => ⟨S32x50, .f32⟩
  | 26 => ⟨S32x50x1, .f32⟩
  | 27 => ⟨S32x50, .f32⟩
  | 28 => ⟨S32x50, .f32⟩
  | 29 => ⟨S32x50x1, .f32⟩
  | 30 => ⟨S32x50, .f32⟩
  | 31 => ⟨S32x50x1, .f32⟩
  | 32 => ⟨S32x50, .f32⟩
  | 33 => ⟨S32x50, .f32⟩
  | 34 => ⟨S32x50, .f32⟩
  | 35 => ⟨S32x50, .f32⟩
  | 36 => ⟨S32x50, .f32⟩
  | 37 => ⟨S32x50, .f32⟩
  | 38 => ⟨S32x50x1, .f32⟩
  | 39 => ⟨S32x50, .f32⟩
  | 40 => ⟨S32x50x1, .f32⟩
  | 41 => ⟨S32x50, .f32⟩
  | 42 => ⟨S32x50, .f32⟩
  | 43 => ⟨S32x50x1, .f32⟩
  | 44 => ⟨S32x50, .f32⟩
  | 45 => ⟨S32x50x1, .f32⟩
  | 46 => ⟨S32x50, .f32⟩
  | 47 => ⟨S32x50, .f32⟩
  | 48 => ⟨S32x50x1, .f32⟩
  | 49 => ⟨S32x50, .f32⟩
  | 50 => ⟨S32x50x1, .f32⟩
  | 51 => ⟨S32x50, .f32⟩
  | 52 => ⟨S32x50, .f32⟩
  | 53 => ⟨S32x50x1, .f32⟩
  | 54 => ⟨S32x50, .f32⟩
  | 55 => ⟨S32x50x1, .f32⟩
  | 56 => ⟨S32x50, .f32⟩
  | 57 => ⟨S32x50, .f32⟩
  | 58 => ⟨S32x50, .f32⟩
  | 59 => ⟨S32x50, .f32⟩
  | 60 => ⟨S32x50, .f32⟩
  | 61 => ⟨S32x50, .f32⟩
  | 62 => ⟨S32x50, .f32⟩
  | 63 => ⟨S32x50, .f32⟩
  | 64 => ⟨S_, .f32⟩
  | 65 => ⟨S32x50, .f32⟩
  | 66 => ⟨S32x50, .f32⟩
  | 67 => ⟨S_, .f32⟩
  | 68 => ⟨S_, .f32⟩
  | 69 => ⟨S32x50, .f32⟩
  | 70 => ⟨S32x50, .f32⟩
  | 71 => ⟨S_, .f32⟩
  | 72 => ⟨S_, .f32⟩
  | 73 => ⟨S_, .f32⟩
  | 74 => ⟨S_, .f32⟩
  | 75 => ⟨S32x50x80, .f32⟩
  | 76 => ⟨S_, .f32⟩
  | 77 => ⟨S32x50x80, .f32⟩
  | 78 => ⟨S32x50x80, .f32⟩
  | 79 => ⟨S32x50x80, .f32⟩
  | 80 => ⟨S32x50x80, .f32⟩
  | 81 => ⟨S32x50x80, .i1⟩
  | 82 => ⟨S32x50x80, .f32⟩
  | 83 => ⟨S32x50x80, .f32⟩
  | 84 => ⟨S32x50x80, .f32⟩
  | 85 => ⟨S32x50x80, .f32⟩
  | 86 => ⟨S32x50x80, .f32⟩
  | 87 => ⟨S32x50x80, .f32⟩
  | 88 => ⟨S32x50x80, .f32⟩
  | 89 => ⟨S32x50x80, .f32⟩
  | 90 => ⟨S32x50x80, .f32⟩
  | 91 => ⟨S32x50x80, .f32⟩
  | 92 => ⟨S_, .f32⟩
  | 93 => ⟨S32x50x80, .f32⟩
  | 94 => ⟨S32x50x80, .f32⟩
  | 95 => ⟨S32x50x80, .f32⟩
  | 96 => ⟨S32x50x80, .f32⟩
  | 97 => ⟨S_, .f32⟩
  | 98 => ⟨S32x50x80, .f32⟩
  | 99 => ⟨S32x50x80, .f32⟩
  | 100 => ⟨S32x50x80, .f32⟩
  | 101 => ⟨S32x50x80, .f32⟩
  | 102 => ⟨S32x50x80, .i1⟩
  | 103 => ⟨S32x50x80, .f32⟩
  | 104 => ⟨S32x50x80, .f32⟩
  | 105 => ⟨S32x50x80, .f32⟩
  | 106 => ⟨S32x50x80, .f32⟩
  | 107 => ⟨S32x50x80, .f32⟩
  | 108 => ⟨S32x50x80, .f32⟩
  | 109 => ⟨S32x50x80, .f32⟩
  | 110 => ⟨S32x50x80, .f32⟩
  | 111 => ⟨S32x50x80, .f32⟩
  | 112 => ⟨S32x50x80, .f32⟩
  | 113 => ⟨S32x50x80, .f32⟩
  | 114 => ⟨S32x50x80, .f32⟩
  | 115 => ⟨S32x50x80, .f32⟩
  | 116 => ⟨S32x50x80, .f32⟩
  | 117 => ⟨S_, .f32⟩
  | 118 => ⟨S32x50x80, .f32⟩
  | 119 => ⟨S32x50x80, .f32⟩
  | 120 => ⟨S_, .f32⟩
  | 121 => ⟨S32x50x80, .f32⟩
  | 122 => ⟨S32x50x80, .f32⟩
  | 123 => ⟨S32x50x80, .f32⟩
  | 124 => ⟨S_, .f32⟩
  | 125 => ⟨S32x50x80, .f32⟩
  | 126 => ⟨S32x50x80, .f32⟩
  | 127 => ⟨S_, .f32⟩
  | _ => ⟨S32x8400x4, .f32⟩

abbrev hbmTy0_2 (i : Nat) : BufTy := match i % 128 with
  | 0 => ⟨S32x50x80, .f32⟩
  | 1 => ⟨S32x50x80, .f32⟩
  | 2 => ⟨S32x50x80, .f32⟩
  | 3 => ⟨S32x50x80, .f32⟩
  | 4 => ⟨S_, .f32⟩
  | 5 => ⟨S32x50x80, .f32⟩
  | 6 => ⟨S32x50x80, .f32⟩
  | 7 => ⟨S_, .f32⟩
  | 8 => ⟨S32x50x80, .f32⟩
  | 9 => ⟨S32x50x80, .f32⟩
  | 10 => ⟨S_, .f32⟩
  | 11 => ⟨S32x50x80, .f32⟩
  | 12 => ⟨S32x50x80, .f32⟩
  | 13 => ⟨S32x50x80, .f32⟩
  | 14 => ⟨S_, .f32⟩
  | 15 => ⟨S32x50x80, .f32⟩
  | 16 => ⟨S32x50x80, .f32⟩
  | 17 => ⟨S_, .f32⟩
  | 18 => ⟨S32x50x80, .f32⟩
  | 19 => ⟨S32x50x80, .f32⟩
  | 20 => ⟨S32x50x80, .f32⟩
  | 21 => ⟨S32x50x80, .f32⟩
  | 22 => ⟨S_, .f32⟩
  | 23 => ⟨S32x50, .f32⟩
  | 24 => ⟨S_, .f32⟩
  | 25 => ⟨S_, .f32⟩
  | 26 => ⟨S32x50, .f32⟩
  | 27 => ⟨S32x50, .f32⟩
  | 28 => ⟨S_, .f32⟩
  | 29 => ⟨S_, .f32⟩
  | 30 => ⟨S_, .f32⟩
  | 31 => ⟨S_, .f32⟩
  | 32 => ⟨S32x50, .i32⟩
  | 33 => ⟨S_, .i32⟩
  | 34 => ⟨S_, .i32⟩
  | 35 => ⟨S_, .i32⟩
  | 36 => ⟨S_, .i32⟩
  | 37 => ⟨S_, .f32⟩
  | 38 => ⟨S32x50, .f32⟩
  | 39 => ⟨S32x50, .f32⟩
  | 40 => ⟨S32x50, .f32⟩
  | 41 => ⟨S32x50, .i32⟩
  | 42 => ⟨S_, .f32⟩
  | 43 => ⟨S32x50, .f32⟩
  | 44 => ⟨S32x50, .f32⟩
  | 45 => ⟨S32x50, .f32⟩
  | 46 => ⟨S32x50, .i32⟩
  | 47 => ⟨S_, .i32⟩
  | 48 => ⟨S32x50, .i32⟩
  | 49 => ⟨S32x50, .i1⟩
  | 50 => ⟨S32x50, .i1⟩
  | 51 => ⟨S_, .i32⟩
  | 52 => ⟨S32x50, .i32⟩
  | 53 => ⟨S32x50, .i1⟩
  | 54 => ⟨S32x50, .i1⟩
  | 55 => ⟨S_, .i32⟩
  | 56 => ⟨S32x50, .i32⟩
  | 57 => ⟨S32x50, .i1⟩
  | 58 => ⟨S32x50, .i1⟩
  | 59 => ⟨S_, .i32⟩
  | 60 => ⟨S32x50, .i32⟩
  | 61 => ⟨S32x50, .i1⟩
  | 62 => ⟨S32x50, .i1⟩
  | 63 => ⟨S_, .i32⟩
  | 64 => ⟨S32x50, .i32⟩
  | 65 => ⟨S32x50, .i32⟩
  | 66 => ⟨S_, .i32⟩
  | 67 => ⟨S32x50, .i32⟩
  | 68 => ⟨S32x50, .i32⟩
  | 69 => ⟨S32x50, .i32⟩
  | 70 => ⟨S_, .i32⟩
  | 71 => ⟨S_, .i32⟩
  | 72 => ⟨S32x50, .i32⟩
  | 73 => ⟨S32x50, .i32⟩
  | 74 => ⟨S32x50x1, .i32⟩
  | 75 => ⟨S_, .i32⟩
  | 76 => ⟨S32x50x1, .i32⟩
  | 77 => ⟨S32x50x1, .i1⟩
  | 78 => ⟨S_, .i32⟩
  | 79 => ⟨S32x50x1, .i32⟩
  | 80 => ⟨S32x50x1, .i32⟩
  | 81 => ⟨S32x50x1, .i32⟩
  | 82 => ⟨S1, .i32⟩
  | 83 => ⟨S_, .i32⟩
  | 84 => ⟨S32x50x1, .i32⟩
  | 85 => ⟨S32x50x1, .i1⟩
  | 86 => ⟨S1x1x1, .i32⟩
  | 87 => ⟨S32x50x1, .i32⟩
  | 88 => ⟨S32x50x1, .i1⟩
  | 89 => ⟨S32x50x1, .i1⟩
  | 90 => ⟨S_, .i1⟩
  | 91 => ⟨S32x50, .i1⟩
  | 92 => ⟨S32x50x4, .f32⟩
  | 93 => ⟨S32x50x4, .i1⟩
  | 94 => ⟨S_, .f32⟩
  | 95 => ⟨S32x50x4, .f32⟩
  | 96 => ⟨S32x50x4, .f32⟩
  | 97 => ⟨S32x50x1, .i32⟩
  | 98 => ⟨S_, .i32⟩
  | 99 => ⟨S32x50x1, .i32⟩
  | 100 => ⟨S32x50x1, .i1⟩
  | 101 => ⟨S_, .i32⟩
  | 102 => ⟨S32x50x1, .i32⟩
  | 103 => ⟨S32x50x1, .i32⟩
  | 104 => ⟨S32x50x1, .i32⟩
  | 105 => ⟨S1, .i32⟩
  | 106 => ⟨S_, .i32⟩
  | 107 => ⟨S32x50x1, .i32⟩
  | 108 => ⟨S32x50x1, .i1⟩
  | 109 => ⟨S1x1x1, .i32⟩
  | 110 => ⟨S32x50x1, .i32⟩
  | 111 => ⟨S32x50x1, .i1⟩
  | 112 => ⟨S32x50x1, .i1⟩
  | 113 => ⟨S_, .i1⟩
  | 114 => ⟨S32x50, .i1⟩
  | 115 => ⟨S32x50x80, .f32⟩
  | 116 => ⟨S32x50x80, .i1⟩
  | 117 => ⟨S_, .f32⟩
  | 118 => ⟨S32x50x80, .f32⟩
  | 119 => ⟨S32x50x80, .f32⟩
  | 120 => ⟨S32x50x1, .f32⟩
  | 121 => ⟨S32x50, .f32⟩
  | 122 => ⟨S32x50x1, .f32⟩
  | 123 => ⟨S32x50, .f32⟩
  | 124 => ⟨S32x50, .f32⟩
  | 125 => ⟨S32x50x1, .f32⟩
  | 126 => ⟨S32x50, .f32⟩
  | 127 => ⟨S32x50x1, .f32⟩
  | _ => ⟨S32x8400x4, .f32⟩

abbrev hbmTy0_3 (i : Nat) : BufTy := match i % 128 with
  | 0 => ⟨S32x50, .f32⟩
  | 1 => ⟨S32x50, .f32⟩
  | 2 => ⟨S32x50x1, .f32⟩
  | 3 => ⟨S32x50, .f32⟩
  | 4 => ⟨S32x50x1, .f32⟩
  | 5 => ⟨S32x50, .f32⟩
  | 6 => ⟨S32x50, .f32⟩
  | 7 => ⟨S32x50x1, .f32⟩
  | 8 => ⟨S32x50, .f32⟩
  | 9 => ⟨S32x50x1, .f32⟩
  | 10 => ⟨S32x50, .f32⟩
  | 11 => ⟨S32x50, .f32⟩
  | 12 => ⟨S32x50, .f32⟩
  | 13 => ⟨S_, .f32⟩
  | 14 => ⟨S_, .f32⟩
  | 15 => ⟨S32x50, .f32⟩
  | 16 => ⟨S32x50, .f32⟩
  | 17 => ⟨S32x50, .f32⟩
  | 18 => ⟨S_, .f32⟩
  | 19 => ⟨S_, .f32⟩
  | 20 => ⟨S32x50, .f32⟩
  | 21 => ⟨S32x50, .f32⟩
  | 22 => ⟨S32x50, .f32⟩
  | 23 => ⟨S32x50x1, .f32⟩
  | 24 => ⟨S32x50, .f32⟩
  | 25 => ⟨S32x50x1, .f32⟩
  | 26 => ⟨S32x50, .f32⟩
  | 27 => ⟨S32x50, .f32⟩
  | 28 => ⟨S32x50x1, .f32⟩
  | 29 => ⟨S32x50, .f32⟩
  | 30 => ⟨S32x50x1, .f32⟩
  | 31 => ⟨S32x50, .f32⟩
  | 32 => ⟨S32x50, .f32⟩
  | 33 => ⟨S32x50, .f32⟩
  | 34 => ⟨S32x50x1, .f32⟩
  | 35 => ⟨S32x50, .f32⟩
  | 36 => ⟨S32x50x1, .f32⟩
  | 37 => ⟨S32x50, .f32⟩
  | 38 => ⟨S32x50, .f32⟩
  | 39 => ⟨S32x50x1, .f32⟩
  | 40 => ⟨S32x50, .f32⟩
  | 41 => ⟨S32x50x1, .f32⟩
  | 42 => ⟨S32x50, .f32⟩
  | 43 => ⟨S32x50, .f32⟩
  | 44 => ⟨S32x50, .f32⟩
  | 45 => ⟨S32x50, .f32⟩
  | 46 => ⟨S32x50, .f32⟩
  | 47 => ⟨S32x50, .f32⟩
  | 48 => ⟨S32x50x1, .f32⟩
  | 49 => ⟨S32x50, .f32⟩
  | 50 => ⟨S32x50x1, .f32⟩
  | 51 => ⟨S32x50, .f32⟩
  | 52 => ⟨S32x50, .f32⟩
  | 53 => ⟨S32x50x1, .f32⟩
  | 54 => ⟨S32x50, .f32⟩
  | 55 => ⟨S32x50x1, .f32⟩
  | 56 => ⟨S32x50, .f32⟩
  | 57 => ⟨S32x50, .f32⟩
  | 58 => ⟨S32x50x1, .f32⟩
  | 59 => ⟨S32x50, .f32⟩
  | 60 => ⟨S32x50x1, .f32⟩
  | 61 => ⟨S32x50, .f32⟩
  | 62 => ⟨S32x50, .f32⟩
  | 63 => ⟨S32x50x1, .f32⟩
  | 64 => ⟨S32x50, .f32⟩
  | 65 => ⟨S32x50x1, .f32⟩
  | 66 => ⟨S32x50, .f32⟩
  | 67 => ⟨S32x50, .f32⟩
  | 68 => ⟨S32x50, .f32⟩
  | 69 => ⟨S32x50, .f32⟩
  | 70 => ⟨S32x50, .f32⟩
  | 71 => ⟨S32x50, .f32⟩
  | 72 => ⟨S32x50, .f32⟩
  | 73 => ⟨S32x50, .f32⟩
  | 74 => ⟨S_, .f32⟩
  | 75 => ⟨S32x50, .f32⟩
  | 76 => ⟨S32x50, .f32⟩
  | 77 => ⟨S_, .f32⟩
  | 78 => ⟨S_, .f32⟩
  | 79 => ⟨S32x50, .f32⟩
  | 80 => ⟨S32x50, .f32⟩
  | 81 => ⟨S_, .f32⟩
  | 82 => ⟨S_, .f32⟩
  | 83 => ⟨S_, .f32⟩
  | 84 => ⟨S32x50x80, .f32⟩
  | 85 => ⟨S_, .f32⟩
  | 86 => ⟨S32x50x80, .f32⟩
  | 87 => ⟨S32x50x80, .f32⟩
  | 88 => ⟨S32x50x80, .f32⟩
  | 89 => ⟨S32x50x80, .f32⟩
  | 90 => ⟨S32x50x80, .i1⟩
  | 91 => ⟨S32x50x80, .f32⟩
  | 92 => ⟨S32x50x80, .f32⟩
  | 93 => ⟨S32x50x80, .f32⟩
  | 94 => ⟨S32x50x80, .f32⟩
  | 95 => ⟨S32x50x80, .f32⟩
  | 96 => ⟨S32x50x80, .f32⟩
  | 97 => ⟨S32x50x80, .f32⟩
  | 98 => ⟨S32x50x80, .f32⟩
  | 99 => ⟨S32x50x80, .f32⟩
  | 100 => ⟨S32x50x80, .f32⟩
  | 101 => ⟨S_, .f32⟩
  | 102 => ⟨S32x50x80, .f32⟩
  | 103 => ⟨S32x50x80, .f32⟩
  | 104 => ⟨S32x50x80, .f32⟩
  | 105 => ⟨S32x50x80, .f32⟩
  | 106 => ⟨S_, .f32⟩
  | 107 => ⟨S32x50x80, .f32⟩
  | 108 => ⟨S32x50x80, .f32⟩
  | 109 => ⟨S32x50x80, .f32⟩
  | 110 => ⟨S32x50x80, .f32⟩
  | 111 => ⟨S32x50x80, .i1⟩
  | 112 => ⟨S32x50x80, .f32⟩
  | 113 => ⟨S32x50x80, .f32⟩
  | 114 => ⟨S32x50x80, .f32⟩
  | 115 => ⟨S32x50x80, .f32⟩
  | 116 => ⟨S32x50x80, .f32⟩
  | 117 => ⟨S32x50x80, .f32⟩
  | 118 => ⟨S32x50x80, .f32⟩
  | 119 => ⟨S32x50x80, .f32⟩
  | 120 => ⟨S32x50x80, .f32⟩
  | 121 => ⟨S32x50x80, .f32⟩
  | 122 => ⟨S32x50x80, .f32⟩
  | 123 => ⟨S32x50x80, .f32⟩
  | 124 => ⟨S32x50x80, .f32⟩
  | 125 => ⟨S32x50x80, .f32⟩
  | 126 => ⟨S_, .f32⟩
  | 127 => ⟨S32x50x80, .f32⟩
  | _ => ⟨S32x8400x4, .f32⟩

abbrev hbmTy0_4 (i : Nat) : BufTy := match i % 128 with
  | 0 => ⟨S32x50x80, .f32⟩
  | 1 => ⟨S_, .f32⟩
  | 2 => ⟨S32x50x80, .f32⟩
  | 3 => ⟨S32x50x80, .f32⟩
  | 4 => ⟨S32x50x80, .f32⟩
  | 5 => ⟨S_, .f32⟩
  | 6 => ⟨S32x50x80, .f32⟩
  | 7 => ⟨S32x50x80, .f32⟩
  | 8 => ⟨S_, .f32⟩
  | 9 => ⟨S32x50x80, .f32⟩
  | 10 => ⟨S32x50x80, .f32⟩
  | 11 => ⟨S32x50x80, .f32⟩
  | 12 => ⟨S32x50x80, .f32⟩
  | 13 => ⟨S_, .f32⟩
  | 14 => ⟨S32x50x80, .f32⟩
  | 15 => ⟨S32x50x80, .f32⟩
  | 16 => ⟨S_, .f32⟩
  | 17 => ⟨S32x50x80, .f32⟩
  | 18 => ⟨S32x50x80, .f32⟩
  | 19 => ⟨S_, .f32⟩
  | 20 => ⟨S32x50x80, .f32⟩
  | 21 => ⟨S32x50x80, .f32⟩
  | 22 => ⟨S32x50x80, .f32⟩
  | 23 => ⟨S_, .f32⟩
  | 24 => ⟨S32x50x80, .f32⟩
  | 25 => ⟨S32x50x80, .f32⟩
  | 26 => ⟨S_, .f32⟩
  | 27 => ⟨S32x50x80, .f32⟩
  | 28 => ⟨S32x50x80, .f32⟩
  | 29 => ⟨S32x50x80, .f32⟩
  | 30 => ⟨S32x50x80, .f32⟩
  | 31 => ⟨S_, .f32⟩
  | 32 => ⟨S32x50, .f32⟩
  | 33 => ⟨S_, .f32⟩
  | 34 => ⟨S_, .f32⟩
  | 35 => ⟨S32x50, .f32⟩
  | 36 => ⟨S32x50, .f32⟩
  | 37 => ⟨S_, .f32⟩
  | 38 => ⟨S_, .f32⟩
  | 39 => ⟨S_, .f32⟩
  | 40 => ⟨S32x50, .i32⟩
  | 41 => ⟨S_, .i32⟩
  | 42 => ⟨S_, .i32⟩
  | 43 => ⟨S_, .i32⟩
  | 44 => ⟨S_, .f32⟩
  | 45 => ⟨S32x50, .f32⟩
  | 46 => ⟨S32x50, .f32⟩
  | 47 => ⟨S32x50, .f32⟩
  | 48 => ⟨S32x50, .i32⟩
  | 49 => ⟨S_, .f32⟩
  | 50 => ⟨S32x50, .f32⟩
  | 51 => ⟨S32x50, .f32⟩
  | 52 => ⟨S32x50, .f32⟩
  | 53 => ⟨S32x50, .i32⟩
  | 54 => ⟨S_, .i32⟩
  | 55 => ⟨S32x50, .i32⟩
  | 56 => ⟨S32x50, .i1⟩
  | 57 => ⟨S32x50, .i1⟩
  | 58 => ⟨S_, .i32⟩
  | 59 => ⟨S32x50, .i32⟩
  | 60 => ⟨S32x50, .i1⟩
  | 61 => ⟨S32x50, .i1⟩
  | 62 => ⟨S_, .i32⟩
  | 63 => ⟨S32x50, .i32⟩
  | 64 => ⟨S32x50, .i1⟩
  | 65 => ⟨S32x50, .i1⟩
  | 66 => ⟨S_, .i32⟩
  | 67 => ⟨S32x50, .i32⟩
  | 68 => ⟨S32x50, .i1⟩
  | 69 => ⟨S32x50, .i1⟩
  | 70 => ⟨S_, .i32⟩
  | 71 => ⟨S32x50, .i32⟩
  | 72 => ⟨S32x50, .i32⟩
  | 73 => ⟨S_, .i32⟩
  | 74 => ⟨S32x50, .i32⟩
  | 75 => ⟨S32x50, .i32⟩
  | 76 => ⟨S32x50, .i32⟩
  | 77 => ⟨S_, .i32⟩
  | 78 => ⟨S_, .i32⟩
  | 79 => ⟨S32x50, .i32⟩
  | 80 => ⟨S32x50, .i32⟩
  | 81 => ⟨S32x50x1, .i32⟩
  | 82 => ⟨S_, .i32⟩
  | 83 => ⟨S32x50x1, .i32⟩
  | 84 => ⟨S32x50x1, .i1⟩
  | 85 => ⟨S_, .i32⟩
  | 86 => ⟨S32x50x1, .i32⟩
  | 87 => ⟨S32x50x1, .i32⟩
  | 88 => ⟨S32x50x1, .i32⟩
  | 89 => ⟨S1, .i32⟩
  | 90 => ⟨S_, .i32⟩
  | 91 => ⟨S32x50x1, .i32⟩
  | 92 => ⟨S32x50x1, .i1⟩
  | 93 => ⟨S1x1x1, .i32⟩
  | 94 => ⟨S32x50x1, .i32⟩
  | 95 => ⟨S32x50x1, .i1⟩
  | 96 => ⟨S32x50x1, .i1⟩
  | 97 => ⟨S_, .i1⟩
  | 98 => ⟨S32x50, .i1⟩
  | 99 => ⟨S32x50x4, .f32⟩
  | 100 => ⟨S32x50x4, .i1⟩
  | 101 => ⟨S_, .f32⟩
  | 102 => ⟨S32x50x4, .f32⟩
  | 103 => ⟨S32x50x4, .f32⟩
  | 104 => ⟨S32x50x1, .i32⟩
  | 105 => ⟨S_, .i32⟩
  | 106 => ⟨S32x50x1, .i32⟩
  | 107 => ⟨S32x50x1, .i1⟩
  | 108 => ⟨S_, .i32⟩
  | 109 => ⟨S32x50x1, .i32⟩
  | 110 => ⟨S32x50x1, .i32⟩
  | 111 => ⟨S32x50x1, .i32⟩
  | 112 => ⟨S1, .i32⟩
  | 113 => ⟨S_, .i32⟩
  | 114 => ⟨S32x50x1, .i32⟩
  | 115 => ⟨S32x50x1, .i1⟩
  | 116 => ⟨S1x1x1, .i32⟩
  | 117 => ⟨S32x50x1, .i32⟩
  | 118 => ⟨S32x50x1, .i1⟩
  | 119 => ⟨S32x50x1, .i1⟩
  | 120 => ⟨S_, .i1⟩
  | 121 => ⟨S32x50, .i1⟩
  | 122 => ⟨S32x50x80, .f32⟩
  | 123 => ⟨S32x50x80, .i1⟩
  | 124 => ⟨S_, .f32⟩
  | 125 => ⟨S32x50x80, .f32⟩
  | 126 => ⟨S32x50x80, .f32⟩
  | 127 => ⟨S32x50x1, .f32⟩
  | _ => ⟨S32x8400x4, .f32⟩

abbrev hbmTy0_5 (i : Nat) : BufTy := match i % 128 with
  | 0 => ⟨S32x50, .f32⟩
  | 1 => ⟨S32x50x1, .f32⟩
  | 2 => ⟨S32x50, .f32⟩
  | 3 => ⟨S32x50, .f32⟩
  | 4 => ⟨S32x50x1, .f32⟩
  | 5 => ⟨S32x50, .f32⟩
  | 6 => ⟨S32x50x1, .f32⟩
  | 7 => ⟨S32x50, .f32⟩
  | 8 => ⟨S32x50, .f32⟩
  | 9 => ⟨S32x50x1, .f32⟩
  | 10 => ⟨S32x50, .f32⟩
  | 11 => ⟨S32x50x1, .f32⟩
  | 12 => ⟨S32x50, .f32⟩
  | 13 => ⟨S32x50, .f32⟩
  | 14 => ⟨S32x50x1, .f32⟩
  | 15 => ⟨S32x50, .f32⟩
  | 16 => ⟨S32x50x1, .f32⟩
  | 17 => ⟨S32x50, .f32⟩
  | 18 => ⟨S32x50, .f32⟩
  | 19 => ⟨S32x50, .f32⟩
  | 20 => ⟨S_, .f32⟩
  | 21 => ⟨S_, .f32⟩
  | 22 => ⟨S32x50, .f32⟩
  | 23 => ⟨S32x50, .f32⟩
  | 24 => ⟨S32x50, .f32⟩
  | 25 => ⟨S_, .f32⟩
  | 26 => ⟨S_, .f32⟩
  | 27 => ⟨S32x50, .f32⟩
  | 28 => ⟨S32x50, .f32⟩
  | 29 => ⟨S32x50, .f32⟩
  | 30 => ⟨S32x50x1, .f32⟩
  | 31 => ⟨S32x50, .f32⟩
  | 32 => ⟨S32x50x1, .f32⟩
  | 33 => ⟨S32x50, .f32⟩
  | 34 => ⟨S32x50, .f32⟩
  | 35 => ⟨S32x50x1, .f32⟩
  | 36 => ⟨S32x50, .f32⟩
  | 37 => ⟨S32x50x1, .f32⟩
  | 38 => ⟨S32x50, .f32⟩
  | 39 => ⟨S32x50, .f32⟩
  | 40 => ⟨S32x50, .f32⟩
  | 41 => ⟨S32x50x1, .f32⟩
  | 42 => ⟨S32x50, .f32⟩
  | 43 => ⟨S32x50x1, .f32⟩
  | 44 => ⟨S32x50, .f32⟩
  | 45 => ⟨S32x50, .f32⟩
  | 46 => ⟨S32x50x1, .f32⟩
  | 47 => ⟨S32x50, .f32⟩
  | 48 => ⟨S32x50x1, .f32⟩
  | 49 => ⟨S32x50, .f32⟩
  | 50 => ⟨S32x50, .f32⟩
  | 51 => ⟨S32x50, .f32⟩
  | 52 => ⟨S32x50, .f32⟩
  | 53 => ⟨S32x50, .f32⟩
  | 54 => ⟨S32x50, .f32⟩
  | 55 => ⟨S32x50x1, .f32⟩
  | 56 => ⟨S32x50, .f32⟩
  | 57 => ⟨S32x50x1, .f32⟩
  | 58 => ⟨S32x50, .f32⟩
  | 59 => ⟨S32x50, .f32⟩
  | 60 => ⟨S32x50x1, .f32⟩
  | 61 => ⟨S32x50, .f32⟩
  | 62 => ⟨S32x50x1, .f32⟩
  | 63 => ⟨S32x50, .f32⟩
  | 64 => ⟨S32x50, .f32⟩
  | 65 => ⟨S32x50x1, .f32⟩
  | 66 => ⟨S32x50, .f32⟩
  | 67 => ⟨S32x50x1, .f32⟩
  | 68 => ⟨S32x50, .f32⟩
  | 69 => ⟨S32x50, .f32⟩
  | 70 => ⟨S32x50x1, .f32⟩
  | 71 => ⟨S32x50, .f32⟩
  | 72 => ⟨S32x50x1, .f32⟩
  | 73 => ⟨S32x50, .f32⟩
  | 74 => ⟨S32x50, .f32⟩
  | 75 => ⟨S32x50, .f32⟩
  | 76 => ⟨S32x50, .f32⟩
  | 77 => ⟨S32x50, .f32⟩
  | 78 => ⟨S32x50, .f32⟩
  | 79 => ⟨S32x50, .f32⟩
  | 80 => ⟨S32x50, .f32⟩
  | 81 => ⟨S_, .f32⟩
  | 82 => ⟨S32x50, .f32⟩
  | 83 => ⟨S32x50, .f32⟩
  | 84 => ⟨S_, .f32⟩
  | 85 => ⟨S_, .f32⟩
  | 86 => ⟨S32x50, .f32⟩
  | 87 => ⟨S32x50, .f32⟩
  | 88 => ⟨S_, .f32⟩
  | 89 => ⟨S_, .f32⟩
  | 90 => ⟨S_, .f32⟩
  | 91 => ⟨S32x50x80, .f32⟩
  | 92 => ⟨S_, .f32⟩
  | 93 => ⟨S32x50x80, .f32⟩
  | 94 => ⟨S32x50x80, .f32⟩
  | 95 => ⟨S32x50x80, .f32⟩
  | 96 => ⟨S32x50x80, .f32⟩
  | 97 => ⟨S32x50x80, .i1⟩
  | 98 => ⟨S32x50x80, .f32⟩
  | 99 => ⟨S32x50x80, .f32⟩
  | 100 => ⟨S32x50x80, .f32⟩
  | 101 => ⟨S32x50x80, .f32⟩
  | 102 => ⟨S32x50x80, .f32⟩
  | 103 => ⟨S32x50x80, .f32⟩
  | 104 => ⟨S32x50x80, .f32⟩
  | 105 => ⟨S32x50x80, .f32⟩
  | 106 => ⟨S32x50x80, .f32⟩
  | 107 => ⟨S32x50x80, .f32⟩
  | 108 => ⟨S_, .f32⟩
  | 109 => ⟨S32x50x80, .f32⟩
  | 110 => ⟨S32x50x80, .f32⟩
  | 111 => ⟨S32x50x80, .f32⟩
  | 112 => ⟨S32x50x80, .f32⟩
  | 113 => ⟨S_, .f32⟩
  | 114 => ⟨S32x50x80, .f32⟩
  | 115 => ⟨S32x50x80, .f32⟩
  | 116 => ⟨S32x50x80, .f32⟩
  | 117 => ⟨S32x50x80, .f32⟩
  | 118 => ⟨S32x50x80, .i1⟩
  | 119 => ⟨S32x50x80, .f32⟩
  | 120 => ⟨S32x50x80, .f32⟩
  | 121 => ⟨S32x50x80, .f32⟩
  | 122 => ⟨S32x50x80, .f32⟩
  | 123 => ⟨S32x50x80, .f32⟩
  | 124 => ⟨S32x50x80, .f32⟩
  | 125 => ⟨S32x50x80, .f32⟩
  | 126 => ⟨S32x50x80, .f32⟩
  | 127 => ⟨S32x50x80, .f32⟩
  | _ => ⟨S32x8400x4, .f32⟩

abbrev hbmTy0_6 (i : Nat) : BufTy := match i % 128 with
  | 0 => ⟨S32x50x80, .f32⟩
  | 1 => ⟨S32x50x80, .f32⟩
  | 2 => ⟨S32x50x80, .f32⟩
  | 3 => ⟨S32x50x80, .f32⟩
  | 4 => ⟨S32x50x80, .f32⟩
  | 5 => ⟨S_, .f32⟩
  | 6 => ⟨S32x50x80, .f32⟩
  | 7 => ⟨S32x50x80, .f32⟩
  | 8 => ⟨S_, .f32⟩
  | 9 => ⟨S32x50x80, .f32⟩
  | 10 => ⟨S32x50x80, .f32⟩
  | 11 => ⟨S32x50x80, .f32⟩
  | 12 => ⟨S_, .f32⟩
  | 13 => ⟨S32x50x80, .f32⟩
  | 14 => ⟨S32x50x80, .f32⟩
  | 15 => ⟨S_, .f32⟩
  | 16 => ⟨S32x50x80, .f32⟩
  | 17 => ⟨S32x50x80, .f32⟩
  | 18 => ⟨S32x50x80, .f32⟩
  | 19 => ⟨S32x50x80, .f32⟩
  | 20 => ⟨S_, .f32⟩
  | 21 => ⟨S32x50x80, .f32⟩
  | 22 => ⟨S32x50x80, .f32⟩
  | 23 => ⟨S_, .f32⟩
  | 24 => ⟨S32x50x80, .f32⟩
  | 25 => ⟨S32x50x80, .f32⟩
  | 26 => ⟨S_, .f32⟩
  | 27 => ⟨S32x50x80, .f32⟩
  | 28 => ⟨S32x50x80, .f32⟩
  | 29 => ⟨S32x50x80, .f32⟩
  | 30 => ⟨S_, .f32⟩
  | 31 => ⟨S32x50x80, .f32⟩
  | 32 => ⟨S32x50x80, .f32⟩
  | 33 => ⟨S_, .f32⟩
  | 34 => ⟨S32x50x80, .f32⟩
  | 35 => ⟨S32x50x80, .f32⟩
  | 36 => ⟨S32x50x80, .f32⟩
  | 37 => ⟨S32x50x80, .f32⟩
  | 38 => ⟨S_, .f32⟩
  | 39 => ⟨S32x50, .f32⟩
  | 40 => ⟨S_, .f32⟩
  | 41 => ⟨S_, .f32⟩
  | 42 => ⟨S32x50, .f32⟩
  | 43 => ⟨S32x50, .f32⟩
  | 44 => ⟨S_, .f32⟩
  | 45 => ⟨S_, .f32⟩
  | 46 => ⟨S_, .f32⟩
  | 47 => ⟨S32x50, .i32⟩
  | 48 => ⟨S_, .i32⟩
  | 49 => ⟨S_, .i32⟩
  | 50 => ⟨S_, .i32⟩
  | 51 => ⟨S_, .i32⟩
  | 52 => ⟨S_, .i32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | _ => ⟨S32x8400x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S32x8400x4, .f32⟩

abbrev bufTy : (tb : Table) → Fin (tcTables nBuf tb) → BufTy
  | .hbm, ⟨i, _⟩ => hbmTy i
  | _, _ => ⟨S32x8400x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_call1_v0 : Ref sig .tc := ⟨.hbm, 61, rfl⟩
abbrev main_call1_v1 : Ref sig .tc := ⟨.hbm, 62, rfl⟩
abbrev main_v40 : Ref sig .tc := ⟨.hbm, 63, rfl⟩
abbrev main_v41 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_c_2 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_c_3 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_cst : Ref sig .tc := ⟨.hbm, 84, rfl⟩
abbrev main_call2_v14 : Ref sig .tc := ⟨.hbm, 85, rfl⟩
abbrev main_v42 : Ref sig .tc := ⟨.hbm, 86, rfl⟩
abbrev main_v43 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_1 : Ref sig .tc := ⟨.hbm, 95, rfl⟩
abbrev main_call3_c_2 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_c_3 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_cst : Ref sig .tc := ⟨.hbm, 107, rfl⟩
abbrev main_call3_v14 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_9 : Ref sig .tc := ⟨.hbm, 131, rfl⟩
abbrev main_call4_v0 : Ref sig .tc := ⟨.hbm, 132, rfl⟩
abbrev main_call4_v1 : Ref sig .tc := ⟨.hbm, 133, rfl⟩
abbrev main_v66 : Ref sig .tc := ⟨.hbm, 134, rfl⟩
abbrev main_v67 : Ref sig .tc := ⟨.hbm, 135, rfl⟩
abbrev main_cst_10 : Ref sig .tc := ⟨.hbm, 136, rfl⟩
abbrev main_call5_v0 : Ref sig .tc := ⟨.hbm, 137, rfl⟩
abbrev main_call5_v1 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_11 : Ref sig .tc := ⟨.hbm, 192, rfl⟩
abbrev main_v121 : Ref sig .tc := ⟨.hbm, 193, rfl⟩
abbrev main_v122 : Ref sig .tc := ⟨.hbm, 194, rfl⟩
abbrev main_cst_12 : Ref sig .tc := ⟨.hbm, 195, rfl⟩
abbrev main_call6_v0 : Ref sig .tc := ⟨.hbm, 196, rfl⟩
abbrev main_call6_v1 : Ref sig .tc := ⟨.hbm, 197, rfl⟩
abbrev main_v123 : Ref sig .tc := ⟨.hbm, 198, rfl⟩
abbrev main_cst_13 : Ref sig .tc := ⟨.hbm, 199, rfl⟩
abbrev main_v124 : Ref sig .tc := ⟨.hbm, 200, rfl⟩
abbrev main_cst_14 : Ref sig .tc := ⟨.hbm, 201, rfl⟩
abbrev main_v125 : Ref sig .tc := ⟨.hbm, 202, rfl⟩
abbrev main_call7_v0 : Ref sig .tc := ⟨.hbm, 203, rfl⟩
abbrev main_call7_call0_cst : Ref sig .tc := ⟨.hbm, 204, rfl⟩
abbrev main_call7_call0_v0 : Ref sig .tc := ⟨.hbm, 205, rfl⟩
abbrev main_call7_call0_v1 : Ref sig .tc := ⟨.hbm, 206, rfl⟩
abbrev main_call7_call0_v2 : Ref sig .tc := ⟨.hbm, 207, rfl⟩
abbrev main_call7_call0_v3 : Ref sig .tc := ⟨.hbm, 208, rfl⟩
abbrev main_call7_call0_v4 : Ref sig .tc := ⟨.hbm, 209, rfl⟩
abbrev main_call7_call0_v5 : Ref sig .tc := ⟨.hbm, 210, rfl⟩
abbrev main_call7_call0_v6 : Ref sig .tc := ⟨.hbm, 211, rfl⟩
abbrev main_call7_call0_v7 : Ref sig .tc := ⟨.hbm, 212, rfl⟩
abbrev main_call7_call0_v8 : Ref sig .tc := ⟨.hbm, 213, rfl⟩
abbrev main_call7_call0_v9 : Ref sig .tc := ⟨.hbm, 214, rfl⟩
abbrev main_call7_call0_v10 : Ref sig .tc := ⟨.hbm, 215, rfl⟩
abbrev main_call7_call0_v11 : Ref sig .tc := ⟨.hbm, 216, rfl⟩
abbrev main_call7_v1 : Ref sig .tc := ⟨.hbm, 217, rfl⟩
abbrev main_v126 : Ref sig .tc := ⟨.hbm, 218, rfl⟩
abbrev main_v127 : Ref sig .tc := ⟨.hbm, 219, rfl⟩
abbrev main_cst_15 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_call8_v0 : Ref sig .tc := ⟨.hbm, 224, rfl⟩
abbrev main_call8_call0_cst : Ref sig .tc := ⟨.hbm, 225, rfl⟩
abbrev main_call8_call0_v0 : Ref sig .tc := ⟨.hbm, 226, rfl⟩
abbrev main_call8_call0_v1 : Ref sig .tc := ⟨.hbm, 227, rfl⟩
abbrev main_call8_call0_v2 : Ref sig .tc := ⟨.hbm, 228, rfl⟩
abbrev main_call8_call0_v3 : Ref sig .tc := ⟨.hbm, 229, rfl⟩
abbrev main_call8_call0_v4 : Ref sig .tc := ⟨.hbm, 230, rfl⟩
abbrev main_call8_call0_v5 : Ref sig .tc := ⟨.hbm, 231, rfl⟩
abbrev main_call8_call0_v6 : Ref sig .tc := ⟨.hbm, 232, rfl⟩
abbrev main_call8_call0_v7 : Ref sig .tc := ⟨.hbm, 233, rfl⟩
abbrev main_call8_call0_v8 : Ref sig .tc := ⟨.hbm, 234, rfl⟩
abbrev main_call8_call0_v9 : Ref sig .tc := ⟨.hbm, 235, rfl⟩
abbrev main_call8_call0_v10 : Ref sig .tc := ⟨.hbm, 236, rfl⟩
abbrev main_call8_call0_v11 : Ref sig .tc := ⟨.hbm, 237, rfl⟩
abbrev main_call8_v1 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_cst_16 : Ref sig .tc := ⟨.hbm, 245, rfl⟩
abbrev main_v137 : Ref sig .tc := ⟨.hbm, 246, rfl⟩
abbrev main_v138 : Ref sig .tc := ⟨.hbm, 247, rfl⟩
abbrev main_cst_17 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_cst_18 : Ref sig .tc := ⟨.hbm, 252, rfl⟩
abbrev main_v142 : Ref sig .tc := ⟨.hbm, 253, rfl⟩
abbrev main_v143 : Ref sig .tc := ⟨.hbm, 254, rfl⟩
abbrev main_cst_19 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_cst_20 : Ref sig .tc := ⟨.hbm, 260, rfl⟩
abbrev main_v148 : Ref sig .tc := ⟨.hbm, 261, rfl⟩
abbrev main_v149 : Ref sig .tc := ⟨.hbm, 262, rfl⟩
abbrev main_cst_21 : Ref sig .tc := ⟨.hbm, 263, rfl⟩
abbrev main_v150 : Ref sig .tc := ⟨.hbm, 264, rfl⟩
abbrev main_v151 : Ref sig .tc := ⟨.hbm, 265, rfl⟩
abbrev main_cst_22 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_cst_23 : Ref sig .tc := ⟨.hbm, 270, rfl⟩
abbrev main_v155 : Ref sig .tc := ⟨.hbm, 271, rfl⟩
abbrev main_v156 : Ref sig .tc := ⟨.hbm, 272, rfl⟩
abbrev main_cst_24 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_cst_25 : Ref sig .tc := ⟨.hbm, 278, rfl⟩
abbrev main_v161 : Ref sig .tc := ⟨.hbm, 279, rfl⟩
abbrev main_cst_26 : Ref sig .tc := ⟨.hbm, 280, rfl⟩
abbrev main_call9_v0 : Ref sig .tc := ⟨.hbm, 281, rfl⟩
abbrev main_call9_v1 : Ref sig .tc := ⟨.hbm, 282, rfl⟩
abbrev main_v162 : Ref sig .tc := ⟨.hbm, 283, rfl⟩
abbrev main_cst_27 : Ref sig .tc := ⟨.hbm, 284, rfl⟩
abbrev main_v163 : Ref sig .tc := ⟨.hbm, 285, rfl⟩
abbrev main_cst_28 : Ref sig .tc := ⟨.hbm, 286, rfl⟩
abbrev main_v164 : Ref sig .tc := ⟨.hbm, 287, rfl⟩
abbrev main_v165 : Ref sig .tc := ⟨.hbm, 288, rfl⟩
abbrev main_c_29 : Ref sig .tc := ⟨.hbm, 289, rfl⟩
abbrev main_v166 : Ref sig .tc := ⟨.hbm, 290, rfl⟩
abbrev main_c_30 : Ref sig .tc := ⟨.hbm, 291, rfl⟩
abbrev main_v167 : Ref sig .tc := ⟨.hbm, 292, rfl⟩
abbrev main_cst_31 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_cst_32 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_c_33 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_c_34 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_c_35 : Ref sig .tc := ⟨.hbm, 311, rfl⟩
abbrev main_v182 : Ref sig .tc := ⟨.hbm, 312, rfl⟩
abbrev main_v183 : Ref sig .tc := ⟨.hbm, 313, rfl⟩
abbrev main_v184 : Ref sig .tc := ⟨.hbm, 314, rfl⟩
abbrev main_c_36 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_c_37 : Ref sig .tc := ⟨.hbm, 319, rfl⟩
abbrev main_v188 : Ref sig .tc := ⟨.hbm, 320, rfl⟩
abbrev main_v189 : Ref sig .tc := ⟨.hbm, 321, rfl⟩
abbrev main_c_38 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_c_39 : Ref sig .tc := ⟨.hbm, 326, rfl⟩
abbrev main_call10_v0 : Ref sig .tc := ⟨.hbm, 327, rfl⟩
abbrev main_call10_v1 : Ref sig .tc := ⟨.hbm, 328, rfl⟩
abbrev main_v193 : Ref sig .tc := ⟨.hbm, 329, rfl⟩
abbrev main_v194 : Ref sig .tc := ⟨.hbm, 330, rfl⟩
abbrev main_call11_c : Ref sig .tc := ⟨.hbm, 331, rfl⟩
abbrev main_call11_v0 : Ref sig .tc := ⟨.hbm, 332, rfl⟩
abbrev main_call11_v1 : Ref sig .tc := ⟨.hbm, 333, rfl⟩
abbrev main_call11_c_0 : Ref sig .tc := ⟨.hbm, 334, rfl⟩
abbrev main_call11_v2 : Ref sig .tc := ⟨.hbm, 335, rfl⟩
abbrev main_call11_v3 : Ref sig .tc := ⟨.hbm, 336, rfl⟩
abbrev main_call11_v4 : Ref sig .tc := ⟨.hbm, 337, rfl⟩
abbrev main_call11_c_1 : Ref sig .tc := ⟨.hbm, 338, rfl⟩
abbrev main_call11_c_2 : Ref sig .tc := ⟨.hbm, 339, rfl⟩
abbrev main_call11_v5 : Ref sig .tc := ⟨.hbm, 340, rfl⟩
abbrev main_call11_v6 : Ref sig .tc := ⟨.hbm, 341, rfl⟩
abbrev main_call11_v7 : Ref sig .tc := ⟨.hbm, 342, rfl⟩
abbrev main_call11_v8 : Ref sig .tc := ⟨.hbm, 343, rfl⟩
abbrev main_call11_v9 : Ref sig .tc := ⟨.hbm, 344, rfl⟩
abbrev main_call11_v10 : Ref sig .tc := ⟨.hbm, 345, rfl⟩
abbrev main_call11_c_3 : Ref sig .tc := ⟨.hbm, 346, rfl⟩
abbrev main_call11_v11 : Ref sig .tc := ⟨.hbm, 347, rfl⟩
abbrev main_call11_v12 : Ref sig .tc := ⟨.hbm, 348, rfl⟩
abbrev main_call11_v13 : Ref sig .tc := ⟨.hbm, 349, rfl⟩
abbrev main_call11_cst : Ref sig .tc := ⟨.hbm, 350, rfl⟩
abbrev main_call11_v14 : Ref sig .tc := ⟨.hbm, 351, rfl⟩
abbrev main_v195 : Ref sig .tc := ⟨.hbm, 352, rfl⟩
abbrev main_v196 : Ref sig .tc := ⟨.hbm, 353, rfl⟩
abbrev main_call12_c : Ref sig .tc := ⟨.hbm, 354, rfl⟩
abbrev main_call12_v0 : Ref sig .tc := ⟨.hbm, 355, rfl⟩
abbrev main_call12_v1 : Ref sig .tc := ⟨.hbm, 356, rfl⟩
abbrev main_call12_c_0 : Ref sig .tc := ⟨.hbm, 357, rfl⟩
abbrev main_call12_v2 : Ref sig .tc := ⟨.hbm, 358, rfl⟩
abbrev main_call12_v3 : Ref sig .tc := ⟨.hbm, 359, rfl⟩
abbrev main_call12_v4 : Ref sig .tc := ⟨.hbm, 360, rfl⟩
abbrev main_call12_c_1 : Ref sig .tc := ⟨.hbm, 361, rfl⟩
abbrev main_call12_c_2 : Ref sig .tc := ⟨.hbm, 362, rfl⟩
abbrev main_call12_v5 : Ref sig .tc := ⟨.hbm, 363, rfl⟩
abbrev main_call12_v6 : Ref sig .tc := ⟨.hbm, 364, rfl⟩
abbrev main_call12_v7 : Ref sig .tc := ⟨.hbm, 365, rfl⟩
abbrev main_call12_v8 : Ref sig .tc := ⟨.hbm, 366, rfl⟩
abbrev main_call12_v9 : Ref sig .tc := ⟨.hbm, 367, rfl⟩
abbrev main_call12_v10 : Ref sig .tc := ⟨.hbm, 368, rfl⟩
abbrev main_call12_c_3 : Ref sig .tc := ⟨.hbm, 369, rfl⟩
abbrev main_call12_v11 : Ref sig .tc := ⟨.hbm, 370, rfl⟩
abbrev main_call12_v12 : Ref sig .tc := ⟨.hbm, 371, rfl⟩
abbrev main_call12_v13 : Ref sig .tc := ⟨.hbm, 372, rfl⟩
abbrev main_call12_cst : Ref sig .tc := ⟨.hbm, 373, rfl⟩
abbrev main_call12_v14 : Ref sig .tc := ⟨.hbm, 374, rfl⟩
abbrev main_v197 : Ref sig .tc := ⟨.hbm, 375, rfl⟩
abbrev main_v198 : Ref sig .tc := ⟨.hbm, 376, rfl⟩
abbrev main_v199 : Ref sig .tc := ⟨.hbm, 377, rfl⟩
abbrev main_v200 : Ref sig .tc := ⟨.hbm, 378, rfl⟩
abbrev main_v201 : Ref sig .tc := ⟨.hbm, 379, rfl⟩
abbrev main_v202 : Ref sig .tc := ⟨.hbm, 380, rfl⟩
abbrev main_v203 : Ref sig .tc := ⟨.hbm, 381, rfl⟩
abbrev main_v204 : Ref sig .tc := ⟨.hbm, 382, rfl⟩
abbrev main_v205 : Ref sig .tc := ⟨.hbm, 383, rfl⟩
abbrev main_v206 : Ref sig .tc := ⟨.hbm, 384, rfl⟩
abbrev main_v207 : Ref sig .tc := ⟨.hbm, 385, rfl⟩
abbrev main_v208 : Ref sig .tc := ⟨.hbm, 386, rfl⟩
abbrev main_v209 : Ref sig .tc := ⟨.hbm, 387, rfl⟩
abbrev main_v210 : Ref sig .tc := ⟨.hbm, 388, rfl⟩
abbrev main_v211 : Ref sig .tc := ⟨.hbm, 389, rfl⟩
abbrev main_v212 : Ref sig .tc := ⟨.hbm, 390, rfl⟩
abbrev main_v213 : Ref sig .tc := ⟨.hbm, 391, rfl⟩
abbrev main_v214 : Ref sig .tc := ⟨.hbm, 392, rfl⟩
abbrev main_v215 : Ref sig .tc := ⟨.hbm, 393, rfl⟩
abbrev main_v216 : Ref sig .tc := ⟨.hbm, 394, rfl⟩
abbrev main_v217 : Ref sig .tc := ⟨.hbm, 395, rfl⟩
abbrev main_v218 : Ref sig .tc := ⟨.hbm, 396, rfl⟩
abbrev main_cst_40 : Ref sig .tc := ⟨.hbm, 397, rfl⟩
abbrev main_call13_v0 : Ref sig .tc := ⟨.hbm, 398, rfl⟩
abbrev main_call13_v1 : Ref sig .tc := ⟨.hbm, 399, rfl⟩
abbrev main_v219 : Ref sig .tc := ⟨.hbm, 400, rfl⟩
abbrev main_v220 : Ref sig .tc := ⟨.hbm, 401, rfl⟩
abbrev main_cst_41 : Ref sig .tc := ⟨.hbm, 402, rfl⟩
abbrev main_call14_v0 : Ref sig .tc := ⟨.hbm, 403, rfl⟩
abbrev main_call14_v1 : Ref sig .tc := ⟨.hbm, 404, rfl⟩
abbrev main_v221 : Ref sig .tc := ⟨.hbm, 405, rfl⟩
abbrev main_v222 : Ref sig .tc := ⟨.hbm, 406, rfl⟩
abbrev main_v223 : Ref sig .tc := ⟨.hbm, 407, rfl⟩
abbrev main_v224 : Ref sig .tc := ⟨.hbm, 408, rfl⟩
abbrev main_v225 : Ref sig .tc := ⟨.hbm, 409, rfl⟩
abbrev main_v226 : Ref sig .tc := ⟨.hbm, 410, rfl⟩
abbrev main_v227 : Ref sig .tc := ⟨.hbm, 411, rfl⟩
abbrev main_v228 : Ref sig .tc := ⟨.hbm, 412, rfl⟩
abbrev main_v229 : Ref sig .tc := ⟨.hbm, 413, rfl⟩
abbrev main_v230 : Ref sig .tc := ⟨.hbm, 414, rfl⟩
abbrev main_v231 : Ref sig .tc := ⟨.hbm, 415, rfl⟩
abbrev main_v232 : Ref sig .tc := ⟨.hbm, 416, rfl⟩
abbrev main_v233 : Ref sig .tc := ⟨.hbm, 417, rfl⟩
abbrev main_v234 : Ref sig .tc := ⟨.hbm, 418, rfl⟩
abbrev main_v235 : Ref sig .tc := ⟨.hbm, 419, rfl⟩
abbrev main_v236 : Ref sig .tc := ⟨.hbm, 420, rfl⟩
abbrev main_v237 : Ref sig .tc := ⟨.hbm, 421, rfl⟩
abbrev main_v238 : Ref sig .tc := ⟨.hbm, 422, rfl⟩
abbrev main_v239 : Ref sig .tc := ⟨.hbm, 423, rfl⟩
abbrev main_v240 : Ref sig .tc := ⟨.hbm, 424, rfl⟩
abbrev main_v241 : Ref sig .tc := ⟨.hbm, 425, rfl⟩
abbrev main_v242 : Ref sig .tc := ⟨.hbm, 426, rfl⟩
abbrev main_v243 : Ref sig .tc := ⟨.hbm, 427, rfl⟩
abbrev main_v244 : Ref sig .tc := ⟨.hbm, 428, rfl⟩
abbrev main_v245 : Ref sig .tc := ⟨.hbm, 429, rfl⟩
abbrev main_v246 : Ref sig .tc := ⟨.hbm, 430, rfl⟩
abbrev main_v247 : Ref sig .tc := ⟨.hbm, 431, rfl⟩
abbrev main_v248 : Ref sig .tc := ⟨.hbm, 432, rfl⟩
abbrev main_v249 : Ref sig .tc := ⟨.hbm, 433, rfl⟩
abbrev main_v250 : Ref sig .tc := ⟨.hbm, 434, rfl⟩
abbrev main_v251 : Ref sig .tc := ⟨.hbm, 435, rfl⟩
abbrev main_v252 : Ref sig .tc := ⟨.hbm, 436, rfl⟩
abbrev main_v253 : Ref sig .tc := ⟨.hbm, 437, rfl⟩
abbrev main_v254 : Ref sig .tc := ⟨.hbm, 438, rfl⟩
abbrev main_v255 : Ref sig .tc := ⟨.hbm, 439, rfl⟩
abbrev main_v256 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_v260 : Ref sig .tc := ⟨.hbm, 444, rfl⟩
abbrev main_v261 : Ref sig .tc := ⟨.hbm, 445, rfl⟩
abbrev main_v262 : Ref sig .tc := ⟨.hbm, 446, rfl⟩
abbrev main_v263 : Ref sig .tc := ⟨.hbm, 447, rfl⟩
abbrev main_v264 : Ref sig .tc := ⟨.hbm, 448, rfl⟩
abbrev main_v265 : Ref sig .tc := ⟨.hbm, 449, rfl⟩
abbrev main_v266 : Ref sig .tc := ⟨.hbm, 450, rfl⟩
abbrev main_v267 : Ref sig .tc := ⟨.hbm, 451, rfl⟩
abbrev main_v268 : Ref sig .tc := ⟨.hbm, 452, rfl⟩
abbrev main_v269 : Ref sig .tc := ⟨.hbm, 453, rfl⟩
abbrev main_v270 : Ref sig .tc := ⟨.hbm, 454, rfl⟩
abbrev main_v271 : Ref sig .tc := ⟨.hbm, 455, rfl⟩
abbrev main_v272 : Ref sig .tc := ⟨.hbm, 456, rfl⟩
abbrev main_v273 : Ref sig .tc := ⟨.hbm, 457, rfl⟩
abbrev main_cst_42 : Ref sig .tc := ⟨.hbm, 458, rfl⟩
abbrev main_v274 : Ref sig .tc := ⟨.hbm, 459, rfl⟩
abbrev main_v275 : Ref sig .tc := ⟨.hbm, 460, rfl⟩
abbrev main_cst_43 : Ref sig .tc := ⟨.hbm, 461, rfl⟩
abbrev main_call15_v0 : Ref sig .tc := ⟨.hbm, 462, rfl⟩
abbrev main_call15_v1 : Ref sig .tc := ⟨.hbm, 463, rfl⟩
abbrev main_v276 : Ref sig .tc := ⟨.hbm, 464, rfl⟩
abbrev main_cst_44 : Ref sig .tc := ⟨.hbm, 465, rfl⟩
abbrev main_v277 : Ref sig .tc := ⟨.hbm, 466, rfl⟩
abbrev main_v278 : Ref sig .tc := ⟨.hbm, 467, rfl⟩
abbrev main_call16_v0 : Ref sig .tc := ⟨.hbm, 468, rfl⟩
abbrev main_call16_call0_cst : Ref sig .tc := ⟨.hbm, 469, rfl⟩
abbrev main_call16_call0_v0 : Ref sig .tc := ⟨.hbm, 470, rfl⟩
abbrev main_call16_call0_v1 : Ref sig .tc := ⟨.hbm, 471, rfl⟩
abbrev main_call16_call0_v2 : Ref sig .tc := ⟨.hbm, 472, rfl⟩
abbrev main_call16_call0_v3 : Ref sig .tc := ⟨.hbm, 473, rfl⟩
abbrev main_call16_call0_v4 : Ref sig .tc := ⟨.hbm, 474, rfl⟩
abbrev main_call16_call0_v5 : Ref sig .tc := ⟨.hbm, 475, rfl⟩
abbrev main_call16_call0_v6 : Ref sig .tc := ⟨.hbm, 476, rfl⟩
abbrev main_call16_call0_v7 : Ref sig .tc := ⟨.hbm, 477, rfl⟩
abbrev main_call16_call0_v8 : Ref sig .tc := ⟨.hbm, 478, rfl⟩
abbrev main_call16_call0_v9 : Ref sig .tc := ⟨.hbm, 479, rfl⟩
abbrev main_call16_call0_v10 : Ref sig .tc := ⟨.hbm, 480, rfl⟩
abbrev main_call16_call0_v11 : Ref sig .tc := ⟨.hbm, 481, rfl⟩
abbrev main_call16_v1 : Ref sig .tc := ⟨.hbm, 482, rfl⟩
abbrev main_v279 : Ref sig .tc := ⟨.hbm, 483, rfl⟩
abbrev main_v280 : Ref sig .tc := ⟨.hbm, 484, rfl⟩
abbrev main_cst_45 : Ref sig .tc := ⟨.hbm, 485, rfl⟩
abbrev main_v281 : Ref sig .tc := ⟨.hbm, 486, rfl⟩
abbrev main_v282 : Ref sig .tc := ⟨.hbm, 487, rfl⟩
abbrev main_v283 : Ref sig .tc := ⟨.hbm, 488, rfl⟩
abbrev main_call17_v0 : Ref sig .tc := ⟨.hbm, 489, rfl⟩
abbrev main_call17_call0_cst : Ref sig .tc := ⟨.hbm, 490, rfl⟩
abbrev main_call17_call0_v0 : Ref sig .tc := ⟨.hbm, 491, rfl⟩
abbrev main_call17_call0_v1 : Ref sig .tc := ⟨.hbm, 492, rfl⟩
abbrev main_call17_call0_v2 : Ref sig .tc := ⟨.hbm, 493, rfl⟩
abbrev main_call17_call0_v3 : Ref sig .tc := ⟨.hbm, 494, rfl⟩
abbrev main_call17_call0_v4 : Ref sig .tc := ⟨.hbm, 495, rfl⟩
abbrev main_call17_call0_v5 : Ref sig .tc := ⟨.hbm, 496, rfl⟩
abbrev main_call17_call0_v6 : Ref sig .tc := ⟨.hbm, 497, rfl⟩
abbrev main_call17_call0_v7 : Ref sig .tc := ⟨.hbm, 498, rfl⟩
abbrev main_call17_call0_v8 : Ref sig .tc := ⟨.hbm, 499, rfl⟩
abbrev main_call17_call0_v9 : Ref sig .tc := ⟨.hbm, 500, rfl⟩
abbrev main_call17_call0_v10 : Ref sig .tc := ⟨.hbm, 501, rfl⟩
abbrev main_call17_call0_v11 : Ref sig .tc := ⟨.hbm, 502, rfl⟩
abbrev main_call17_v1 : Ref sig .tc := ⟨.hbm, 503, rfl⟩
abbrev main_v284 : Ref sig .tc := ⟨.hbm, 504, rfl⟩
abbrev main_v285 : Ref sig .tc := ⟨.hbm, 505, rfl⟩
abbrev main_v286 : Ref sig .tc := ⟨.hbm, 506, rfl⟩
abbrev main_v287 : Ref sig .tc := ⟨.hbm, 507, rfl⟩
abbrev main_v288 : Ref sig .tc := ⟨.hbm, 508, rfl⟩
abbrev main_v289 : Ref sig .tc := ⟨.hbm, 509, rfl⟩
abbrev main_cst_46 : Ref sig .tc := ⟨.hbm, 510, rfl⟩
abbrev main_v290 : Ref sig .tc := ⟨.hbm, 511, rfl⟩
abbrev main_v291 : Ref sig .tc := ⟨.hbm, 512, rfl⟩
abbrev main_cst_47 : Ref sig .tc := ⟨.hbm, 513, rfl⟩
abbrev main_v292 : Ref sig .tc := ⟨.hbm, 514, rfl⟩
abbrev main_v293 : Ref sig .tc := ⟨.hbm, 515, rfl⟩
abbrev main_v294 : Ref sig .tc := ⟨.hbm, 516, rfl⟩
abbrev main_cst_48 : Ref sig .tc := ⟨.hbm, 517, rfl⟩
abbrev main_v295 : Ref sig .tc := ⟨.hbm, 518, rfl⟩
abbrev main_v296 : Ref sig .tc := ⟨.hbm, 519, rfl⟩
abbrev main_cst_49 : Ref sig .tc := ⟨.hbm, 520, rfl⟩
abbrev main_v297 : Ref sig .tc := ⟨.hbm, 521, rfl⟩
abbrev main_v298 : Ref sig .tc := ⟨.hbm, 522, rfl⟩
abbrev main_v299 : Ref sig .tc := ⟨.hbm, 523, rfl⟩
abbrev main_v300 : Ref sig .tc := ⟨.hbm, 524, rfl⟩
abbrev main_cst_50 : Ref sig .tc := ⟨.hbm, 525, rfl⟩
abbrev main_v301 : Ref sig .tc := ⟨.hbm, 526, rfl⟩
abbrev main_v302 : Ref sig .tc := ⟨.hbm, 527, rfl⟩
abbrev main_cst_51 : Ref sig .tc := ⟨.hbm, 528, rfl⟩
abbrev main_v303 : Ref sig .tc := ⟨.hbm, 529, rfl⟩
abbrev main_v304 : Ref sig .tc := ⟨.hbm, 530, rfl⟩
abbrev main_cst_52 : Ref sig .tc := ⟨.hbm, 531, rfl⟩
abbrev main_v305 : Ref sig .tc := ⟨.hbm, 532, rfl⟩
abbrev main_v306 : Ref sig .tc := ⟨.hbm, 533, rfl⟩
abbrev main_v307 : Ref sig .tc := ⟨.hbm, 534, rfl⟩
abbrev main_cst_53 : Ref sig .tc := ⟨.hbm, 535, rfl⟩
abbrev main_v308 : Ref sig .tc := ⟨.hbm, 536, rfl⟩
abbrev main_v309 : Ref sig .tc := ⟨.hbm, 537, rfl⟩
abbrev main_cst_54 : Ref sig .tc := ⟨.hbm, 538, rfl⟩
abbrev main_v310 : Ref sig .tc := ⟨.hbm, 539, rfl⟩
abbrev main_v311 : Ref sig .tc := ⟨.hbm, 540, rfl⟩
abbrev main_v312 : Ref sig .tc := ⟨.hbm, 541, rfl⟩
abbrev main_v313 : Ref sig .tc := ⟨.hbm, 542, rfl⟩
abbrev main_cst_55 : Ref sig .tc := ⟨.hbm, 543, rfl⟩
abbrev main_v314 : Ref sig .tc := ⟨.hbm, 544, rfl⟩
abbrev main_cst_56 : Ref sig .tc := ⟨.hbm, 545, rfl⟩
abbrev main_call18_v0 : Ref sig .tc := ⟨.hbm, 546, rfl⟩
abbrev main_call18_v1 : Ref sig .tc := ⟨.hbm, 547, rfl⟩
abbrev main_v315 : Ref sig .tc := ⟨.hbm, 548, rfl⟩
abbrev main_cst_57 : Ref sig .tc := ⟨.hbm, 549, rfl⟩
abbrev main_v316 : Ref sig .tc := ⟨.hbm, 550, rfl⟩
abbrev main_v317 : Ref sig .tc := ⟨.hbm, 551, rfl⟩
abbrev main_v318 : Ref sig .tc := ⟨.hbm, 552, rfl⟩
abbrev main_c_58 : Ref sig .tc := ⟨.hbm, 553, rfl⟩
abbrev main_v319 : Ref sig .tc := ⟨.hbm, 554, rfl⟩
abbrev main_v320 : Ref sig .tc := ⟨.hbm, 555, rfl⟩
abbrev main_cst_59 : Ref sig .tc := ⟨.hbm, 556, rfl⟩
abbrev main_v321 : Ref sig .tc := ⟨.hbm, 557, rfl⟩
abbrev main_v322 : Ref sig .tc := ⟨.hbm, 558, rfl⟩
abbrev main_v323 : Ref sig .tc := ⟨.hbm, 559, rfl⟩
abbrev main_v324 : Ref sig .tc := ⟨.hbm, 560, rfl⟩
abbrev main_cst_60 : Ref sig .tc := ⟨.hbm, 561, rfl⟩
abbrev main_v325 : Ref sig .tc := ⟨.hbm, 562, rfl⟩
abbrev main_v326 : Ref sig .tc := ⟨.hbm, 563, rfl⟩
abbrev main_v327 : Ref sig .tc := ⟨.hbm, 564, rfl⟩
abbrev main_v328 : Ref sig .tc := ⟨.hbm, 565, rfl⟩
abbrev main_c_61 : Ref sig .tc := ⟨.hbm, 566, rfl⟩
abbrev main_v329 : Ref sig .tc := ⟨.hbm, 567, rfl⟩
abbrev main_v330 : Ref sig .tc := ⟨.hbm, 568, rfl⟩
abbrev main_v331 : Ref sig .tc := ⟨.hbm, 569, rfl⟩
abbrev main_c_62 : Ref sig .tc := ⟨.hbm, 570, rfl⟩
abbrev main_v332 : Ref sig .tc := ⟨.hbm, 571, rfl⟩
abbrev main_v333 : Ref sig .tc := ⟨.hbm, 572, rfl⟩
abbrev main_v334 : Ref sig .tc := ⟨.hbm, 573, rfl⟩
abbrev main_c_63 : Ref sig .tc := ⟨.hbm, 574, rfl⟩
abbrev main_v335 : Ref sig .tc := ⟨.hbm, 575, rfl⟩
abbrev main_v336 : Ref sig .tc := ⟨.hbm, 576, rfl⟩
abbrev main_v337 : Ref sig .tc := ⟨.hbm, 577, rfl⟩
abbrev main_c_64 : Ref sig .tc := ⟨.hbm, 578, rfl⟩
abbrev main_v338 : Ref sig .tc := ⟨.hbm, 579, rfl⟩
abbrev main_v339 : Ref sig .tc := ⟨.hbm, 580, rfl⟩
abbrev main_v340 : Ref sig .tc := ⟨.hbm, 581, rfl⟩
abbrev main_c_65 : Ref sig .tc := ⟨.hbm, 582, rfl⟩
abbrev main_v341 : Ref sig .tc := ⟨.hbm, 583, rfl⟩
abbrev main_v342 : Ref sig .tc := ⟨.hbm, 584, rfl⟩
abbrev main_c_66 : Ref sig .tc := ⟨.hbm, 585, rfl⟩
abbrev main_v343 : Ref sig .tc := ⟨.hbm, 586, rfl⟩
abbrev main_v344 : Ref sig .tc := ⟨.hbm, 587, rfl⟩
abbrev main_v345 : Ref sig .tc := ⟨.hbm, 588, rfl⟩
abbrev main_c_67 : Ref sig .tc := ⟨.hbm, 589, rfl⟩
abbrev main_call19_v0 : Ref sig .tc := ⟨.hbm, 590, rfl⟩
abbrev main_call19_v1 : Ref sig .tc := ⟨.hbm, 591, rfl⟩
abbrev main_v346 : Ref sig .tc := ⟨.hbm, 592, rfl⟩
abbrev main_v347 : Ref sig .tc := ⟨.hbm, 593, rfl⟩
abbrev main_call20_c : Ref sig .tc := ⟨.hbm, 594, rfl⟩
abbrev main_call20_v0 : Ref sig .tc := ⟨.hbm, 595, rfl⟩
abbrev main_call20_v1 : Ref sig .tc := ⟨.hbm, 596, rfl⟩
abbrev main_call20_c_0 : Ref sig .tc := ⟨.hbm, 597, rfl⟩
abbrev main_call20_v2 : Ref sig .tc := ⟨.hbm, 598, rfl⟩
abbrev main_call20_v3 : Ref sig .tc := ⟨.hbm, 599, rfl⟩
abbrev main_call20_v4 : Ref sig .tc := ⟨.hbm, 600, rfl⟩
abbrev main_call20_c_1 : Ref sig .tc := ⟨.hbm, 601, rfl⟩
abbrev main_call20_c_2 : Ref sig .tc := ⟨.hbm, 602, rfl⟩
abbrev main_call20_v5 : Ref sig .tc := ⟨.hbm, 603, rfl⟩
abbrev main_call20_v6 : Ref sig .tc := ⟨.hbm, 604, rfl⟩
abbrev main_call20_v7 : Ref sig .tc := ⟨.hbm, 605, rfl⟩
abbrev main_call20_v8 : Ref sig .tc := ⟨.hbm, 606, rfl⟩
abbrev main_call20_v9 : Ref sig .tc := ⟨.hbm, 607, rfl⟩
abbrev main_call20_v10 : Ref sig .tc := ⟨.hbm, 608, rfl⟩
abbrev main_call20_c_3 : Ref sig .tc := ⟨.hbm, 609, rfl⟩
abbrev main_call20_v11 : Ref sig .tc := ⟨.hbm, 610, rfl⟩
abbrev main_call20_v12 : Ref sig .tc := ⟨.hbm, 611, rfl⟩
abbrev main_call20_v13 : Ref sig .tc := ⟨.hbm, 612, rfl⟩
abbrev main_call20_cst : Ref sig .tc := ⟨.hbm, 613, rfl⟩
abbrev main_call20_v14 : Ref sig .tc := ⟨.hbm, 614, rfl⟩
abbrev main_v348 : Ref sig .tc := ⟨.hbm, 615, rfl⟩
abbrev main_v349 : Ref sig .tc := ⟨.hbm, 616, rfl⟩
abbrev main_call21_c : Ref sig .tc := ⟨.hbm, 617, rfl⟩
abbrev main_call21_v0 : Ref sig .tc := ⟨.hbm, 618, rfl⟩
abbrev main_call21_v1 : Ref sig .tc := ⟨.hbm, 619, rfl⟩
abbrev main_call21_c_0 : Ref sig .tc := ⟨.hbm, 620, rfl⟩
abbrev main_call21_v2 : Ref sig .tc := ⟨.hbm, 621, rfl⟩
abbrev main_call21_v3 : Ref sig .tc := ⟨.hbm, 622, rfl⟩
abbrev main_call21_v4 : Ref sig .tc := ⟨.hbm, 623, rfl⟩
abbrev main_call21_c_1 : Ref sig .tc := ⟨.hbm, 624, rfl⟩
abbrev main_call21_c_2 : Ref sig .tc := ⟨.hbm, 625, rfl⟩
abbrev main_call21_v5 : Ref sig .tc := ⟨.hbm, 626, rfl⟩
abbrev main_call21_v6 : Ref sig .tc := ⟨.hbm, 627, rfl⟩
abbrev main_call21_v7 : Ref sig .tc := ⟨.hbm, 628, rfl⟩
abbrev main_call21_v8 : Ref sig .tc := ⟨.hbm, 629, rfl⟩
abbrev main_call21_v9 : Ref sig .tc := ⟨.hbm, 630, rfl⟩
abbrev main_call21_v10 : Ref sig .tc := ⟨.hbm, 631, rfl⟩
abbrev main_call21_c_3 : Ref sig .tc := ⟨.hbm, 632, rfl⟩
abbrev main_call21_v11 : Ref sig .tc := ⟨.hbm, 633, rfl⟩
abbrev main_call21_v12 : Ref sig .tc := ⟨.hbm, 634, rfl⟩
abbrev main_call21_v13 : Ref sig .tc := ⟨.hbm, 635, rfl⟩
abbrev main_call21_cst : Ref sig .tc := ⟨.hbm, 636, rfl⟩
abbrev main_call21_v14 : Ref sig .tc := ⟨.hbm, 637, rfl⟩
abbrev main_v350 : Ref sig .tc := ⟨.hbm, 638, rfl⟩
abbrev main_v351 : Ref sig .tc := ⟨.hbm, 639, rfl⟩
abbrev main_v352 : Ref sig .tc := ⟨.hbm, 640, rfl⟩
abbrev main_v353 : Ref sig .tc := ⟨.hbm, 641, rfl⟩
abbrev main_v354 : Ref sig .tc := ⟨.hbm, 642, rfl⟩
abbrev main_v355 : Ref sig .tc := ⟨.hbm, 643, rfl⟩
abbrev main_v356 : Ref sig .tc := ⟨.hbm, 644, rfl⟩
abbrev main_v357 : Ref sig .tc := ⟨.hbm, 645, rfl⟩
abbrev main_v358 : Ref sig .tc := ⟨.hbm, 646, rfl⟩
abbrev main_v359 : Ref sig .tc := ⟨.hbm, 647, rfl⟩
abbrev main_v360 : Ref sig .tc := ⟨.hbm, 648, rfl⟩
abbrev main_v361 : Ref sig .tc := ⟨.hbm, 649, rfl⟩
abbrev main_v362 : Ref sig .tc := ⟨.hbm, 650, rfl⟩
abbrev main_v363 : Ref sig .tc := ⟨.hbm, 651, rfl⟩
abbrev main_v364 : Ref sig .tc := ⟨.hbm, 652, rfl⟩
abbrev main_v365 : Ref sig .tc := ⟨.hbm, 653, rfl⟩
abbrev main_v366 : Ref sig .tc := ⟨.hbm, 654, rfl⟩
abbrev main_v367 : Ref sig .tc := ⟨.hbm, 655, rfl⟩
abbrev main_v368 : Ref sig .tc := ⟨.hbm, 656, rfl⟩
abbrev main_v369 : Ref sig .tc := ⟨.hbm, 657, rfl⟩
abbrev main_v370 : Ref sig .tc := ⟨.hbm, 658, rfl⟩
abbrev main_v371 : Ref sig .tc := ⟨.hbm, 659, rfl⟩
abbrev main_cst_68 : Ref sig .tc := ⟨.hbm, 660, rfl⟩
abbrev main_call22_v0 : Ref sig .tc := ⟨.hbm, 661, rfl⟩
abbrev main_call22_v1 : Ref sig .tc := ⟨.hbm, 662, rfl⟩
abbrev main_v372 : Ref sig .tc := ⟨.hbm, 663, rfl⟩
abbrev main_v373 : Ref sig .tc := ⟨.hbm, 664, rfl⟩
abbrev main_cst_69 : Ref sig .tc := ⟨.hbm, 665, rfl⟩
abbrev main_call23_v0 : Ref sig .tc := ⟨.hbm, 666, rfl⟩
abbrev main_call23_v1 : Ref sig .tc := ⟨.hbm, 667, rfl⟩
abbrev main_v374 : Ref sig .tc := ⟨.hbm, 668, rfl⟩
abbrev main_v375 : Ref sig .tc := ⟨.hbm, 669, rfl⟩
abbrev main_v376 : Ref sig .tc := ⟨.hbm, 670, rfl⟩
abbrev main_v377 : Ref sig .tc := ⟨.hbm, 671, rfl⟩
abbrev main_v378 : Ref sig .tc := ⟨.hbm, 672, rfl⟩
abbrev main_v379 : Ref sig .tc := ⟨.hbm, 673, rfl⟩
abbrev main_v380 : Ref sig .tc := ⟨.hbm, 674, rfl⟩
abbrev main_v381 : Ref sig .tc := ⟨.hbm, 675, rfl⟩
abbrev main_v382 : Ref sig .tc := ⟨.hbm, 676, rfl⟩
abbrev main_v383 : Ref sig .tc := ⟨.hbm, 677, rfl⟩
abbrev main_v384 : Ref sig .tc := ⟨.hbm, 678, rfl⟩
abbrev main_v385 : Ref sig .tc := ⟨.hbm, 679, rfl⟩
abbrev main_v386 : Ref sig .tc := ⟨.hbm, 680, rfl⟩
abbrev main_v387 : Ref sig .tc := ⟨.hbm, 681, rfl⟩
abbrev main_v388 : Ref sig .tc := ⟨.hbm, 682, rfl⟩
abbrev main_v389 : Ref sig .tc := ⟨.hbm, 683, rfl⟩
abbrev main_v390 : Ref sig .tc := ⟨.hbm, 684, rfl⟩
abbrev main_v391 : Ref sig .tc := ⟨.hbm, 685, rfl⟩
abbrev main_v392 : Ref sig .tc := ⟨.hbm, 686, rfl⟩
abbrev main_v393 : Ref sig .tc := ⟨.hbm, 687, rfl⟩
abbrev main_v394 : Ref sig .tc := ⟨.hbm, 688, rfl⟩
abbrev main_v395 : Ref sig .tc := ⟨.hbm, 689, rfl⟩
abbrev main_v396 : Ref sig .tc := ⟨.hbm, 690, rfl⟩
abbrev main_v397 : Ref sig .tc := ⟨.hbm, 691, rfl⟩
abbrev main_v398 : Ref sig .tc := ⟨.hbm, 692, rfl⟩
abbrev main_v399 : Ref sig .tc := ⟨.hbm, 693, rfl⟩
abbrev main_v400 : Ref sig .tc := ⟨.hbm, 694, rfl⟩
abbrev main_v401 : Ref sig .tc := ⟨.hbm, 695, rfl⟩
abbrev main_v402 : Ref sig .tc := ⟨.hbm, 696, rfl⟩
abbrev main_v403 : Ref sig .tc := ⟨.hbm, 697, rfl⟩
abbrev main_v404 : Ref sig .tc := ⟨.hbm, 698, rfl⟩
abbrev main_v405 : Ref sig .tc := ⟨.hbm, 699, rfl⟩
abbrev main_v406 : Ref sig .tc := ⟨.hbm, 700, rfl⟩
abbrev main_v407 : Ref sig .tc := ⟨.hbm, 701, rfl⟩
abbrev main_v408 : Ref sig .tc := ⟨.hbm, 702, rfl⟩
abbrev main_v409 : Ref sig .tc := ⟨.hbm, 703, rfl⟩
abbrev main_v410 : Ref sig .tc := ⟨.hbm, 704, rfl⟩
abbrev main_v411 : Ref sig .tc := ⟨.hbm, 705, rfl⟩
abbrev main_v412 : Ref sig .tc := ⟨.hbm, 706, rfl⟩
abbrev main_v413 : Ref sig .tc := ⟨.hbm, 707, rfl⟩
abbrev main_v414 : Ref sig .tc := ⟨.hbm, 708, rfl⟩
abbrev main_v415 : Ref sig .tc := ⟨.hbm, 709, rfl⟩
abbrev main_v416 : Ref sig .tc := ⟨.hbm, 710, rfl⟩
abbrev main_v417 : Ref sig .tc := ⟨.hbm, 711, rfl⟩
abbrev main_v418 : Ref sig .tc := ⟨.hbm, 712, rfl⟩
abbrev main_v419 : Ref sig .tc := ⟨.hbm, 713, rfl⟩
abbrev main_v420 : Ref sig .tc := ⟨.hbm, 714, rfl⟩
abbrev main_v421 : Ref sig .tc := ⟨.hbm, 715, rfl⟩
abbrev main_v422 : Ref sig .tc := ⟨.hbm, 716, rfl⟩
abbrev main_v423 : Ref sig .tc := ⟨.hbm, 717, rfl⟩
abbrev main_v424 : Ref sig .tc := ⟨.hbm, 718, rfl⟩
abbrev main_v425 : Ref sig .tc := ⟨.hbm, 719, rfl⟩
abbrev main_v426 : Ref sig .tc := ⟨.hbm, 720, rfl⟩
abbrev main_cst_70 : Ref sig .tc := ⟨.hbm, 721, rfl⟩
abbrev main_v427 : Ref sig .tc := ⟨.hbm, 722, rfl⟩
abbrev main_v428 : Ref sig .tc := ⟨.hbm, 723, rfl⟩
abbrev main_cst_71 : Ref sig .tc := ⟨.hbm, 724, rfl⟩
abbrev main_call24_v0 : Ref sig .tc := ⟨.hbm, 725, rfl⟩
abbrev main_call24_v1 : Ref sig .tc := ⟨.hbm, 726, rfl⟩
abbrev main_v429 : Ref sig .tc := ⟨.hbm, 727, rfl⟩
abbrev main_cst_72 : Ref sig .tc := ⟨.hbm, 728, rfl⟩
abbrev main_v430 : Ref sig .tc := ⟨.hbm, 729, rfl⟩
abbrev main_v431 : Ref sig .tc := ⟨.hbm, 730, rfl⟩
abbrev main_call25_v0 : Ref sig .tc := ⟨.hbm, 731, rfl⟩
abbrev main_call25_call0_cst : Ref sig .tc := ⟨.hbm, 732, rfl⟩
abbrev main_call25_call0_v0 : Ref sig .tc := ⟨.hbm, 733, rfl⟩
abbrev main_call25_call0_v1 : Ref sig .tc := ⟨.hbm, 734, rfl⟩
abbrev main_call25_call0_v2 : Ref sig .tc := ⟨.hbm, 735, rfl⟩
abbrev main_call25_call0_v3 : Ref sig .tc := ⟨.hbm, 736, rfl⟩
abbrev main_call25_call0_v4 : Ref sig .tc := ⟨.hbm, 737, rfl⟩
abbrev main_call25_call0_v5 : Ref sig .tc := ⟨.hbm, 738, rfl⟩
abbrev main_call25_call0_v6 : Ref sig .tc := ⟨.hbm, 739, rfl⟩
abbrev main_call25_call0_v7 : Ref sig .tc := ⟨.hbm, 740, rfl⟩
abbrev main_call25_call0_v8 : Ref sig .tc := ⟨.hbm, 741, rfl⟩
abbrev main_call25_call0_v9 : Ref sig .tc := ⟨.hbm, 742, rfl⟩
abbrev main_call25_call0_v10 : Ref sig .tc := ⟨.hbm, 743, rfl⟩
abbrev main_call25_call0_v11 : Ref sig .tc := ⟨.hbm, 744, rfl⟩
abbrev main_call25_v1 : Ref sig .tc := ⟨.hbm, 745, rfl⟩
abbrev main_v432 : Ref sig .tc := ⟨.hbm, 746, rfl⟩
abbrev main_v433 : Ref sig .tc := ⟨.hbm, 747, rfl⟩
abbrev main_cst_73 : Ref sig .tc := ⟨.hbm, 748, rfl⟩
abbrev main_v434 : Ref sig .tc := ⟨.hbm, 749, rfl⟩
abbrev main_v435 : Ref sig .tc := ⟨.hbm, 750, rfl⟩
abbrev main_v436 : Ref sig .tc := ⟨.hbm, 751, rfl⟩
abbrev main_call26_v0 : Ref sig .tc := ⟨.hbm, 752, rfl⟩
abbrev main_call26_call0_cst : Ref sig .tc := ⟨.hbm, 753, rfl⟩
abbrev main_call26_call0_v0 : Ref sig .tc := ⟨.hbm, 754, rfl⟩
abbrev main_call26_call0_v1 : Ref sig .tc := ⟨.hbm, 755, rfl⟩
abbrev main_call26_call0_v2 : Ref sig .tc := ⟨.hbm, 756, rfl⟩
abbrev main_call26_call0_v3 : Ref sig .tc := ⟨.hbm, 757, rfl⟩
abbrev main_call26_call0_v4 : Ref sig .tc := ⟨.hbm, 758, rfl⟩
abbrev main_call26_call0_v5 : Ref sig .tc := ⟨.hbm, 759, rfl⟩
abbrev main_call26_call0_v6 : Ref sig .tc := ⟨.hbm, 760, rfl⟩
abbrev main_call26_call0_v7 : Ref sig .tc := ⟨.hbm, 761, rfl⟩
abbrev main_call26_call0_v8 : Ref sig .tc := ⟨.hbm, 762, rfl⟩
abbrev main_call26_call0_v9 : Ref sig .tc := ⟨.hbm, 763, rfl⟩
abbrev main_call26_call0_v10 : Ref sig .tc := ⟨.hbm, 764, rfl⟩
abbrev main_call26_call0_v11 : Ref sig .tc := ⟨.hbm, 765, rfl⟩
abbrev main_call26_v1 : Ref sig .tc := ⟨.hbm, 766, rfl⟩
abbrev main_v437 : Ref sig .tc := ⟨.hbm, 767, rfl⟩
abbrev main_v438 : Ref sig .tc := ⟨.hbm, 768, rfl⟩
abbrev main_v439 : Ref sig .tc := ⟨.hbm, 769, rfl⟩
abbrev main_v440 : Ref sig .tc := ⟨.hbm, 770, rfl⟩
abbrev main_v441 : Ref sig .tc := ⟨.hbm, 771, rfl⟩
abbrev main_v442 : Ref sig .tc := ⟨.hbm, 772, rfl⟩
abbrev main_cst_74 : Ref sig .tc := ⟨.hbm, 773, rfl⟩
abbrev main_v443 : Ref sig .tc := ⟨.hbm, 774, rfl⟩
abbrev main_v444 : Ref sig .tc := ⟨.hbm, 775, rfl⟩
abbrev main_cst_75 : Ref sig .tc := ⟨.hbm, 776, rfl⟩
abbrev main_v445 : Ref sig .tc := ⟨.hbm, 777, rfl⟩
abbrev main_v446 : Ref sig .tc := ⟨.hbm, 778, rfl⟩
abbrev main_v447 : Ref sig .tc := ⟨.hbm, 779, rfl⟩
abbrev main_cst_76 : Ref sig .tc := ⟨.hbm, 780, rfl⟩
abbrev main_v448 : Ref sig .tc := ⟨.hbm, 781, rfl⟩
abbrev main_v449 : Ref sig .tc := ⟨.hbm, 782, rfl⟩
abbrev main_cst_77 : Ref sig .tc := ⟨.hbm, 783, rfl⟩
abbrev main_v450 : Ref sig .tc := ⟨.hbm, 784, rfl⟩
abbrev main_v451 : Ref sig .tc := ⟨.hbm, 785, rfl⟩
abbrev main_v452 : Ref sig .tc := ⟨.hbm, 786, rfl⟩
abbrev main_v453 : Ref sig .tc := ⟨.hbm, 787, rfl⟩
abbrev main_cst_78 : Ref sig .tc := ⟨.hbm, 788, rfl⟩
abbrev main_v454 : Ref sig .tc := ⟨.hbm, 789, rfl⟩
abbrev main_v455 : Ref sig .tc := ⟨.hbm, 790, rfl⟩
abbrev main_cst_79 : Ref sig .tc := ⟨.hbm, 791, rfl⟩
abbrev main_v456 : Ref sig .tc := ⟨.hbm, 792, rfl⟩
abbrev main_v457 : Ref sig .tc := ⟨.hbm, 793, rfl⟩
abbrev main_cst_80 : Ref sig .tc := ⟨.hbm, 794, rfl⟩
abbrev main_v458 : Ref sig .tc := ⟨.hbm, 795, rfl⟩
abbrev main_v459 : Ref sig .tc := ⟨.hbm, 796, rfl⟩
abbrev main_v460 : Ref sig .tc := ⟨.hbm, 797, rfl⟩
abbrev main_cst_81 : Ref sig .tc := ⟨.hbm, 798, rfl⟩
abbrev main_v461 : Ref sig .tc := ⟨.hbm, 799, rfl⟩
abbrev main_v462 : Ref sig .tc := ⟨.hbm, 800, rfl⟩
abbrev main_cst_82 : Ref sig .tc := ⟨.hbm, 801, rfl⟩
abbrev main_v463 : Ref sig .tc := ⟨.hbm, 802, rfl⟩
abbrev main_v464 : Ref sig .tc := ⟨.hbm, 803, rfl⟩
abbrev main_v465 : Ref sig .tc := ⟨.hbm, 804, rfl⟩
abbrev main_v466 : Ref sig .tc := ⟨.hbm, 805, rfl⟩
abbrev main_cst_83 : Ref sig .tc := ⟨.hbm, 806, rfl⟩
abbrev main_v467 : Ref sig .tc := ⟨.hbm, 807, rfl⟩
abbrev main_cst_84 : Ref sig .tc := ⟨.hbm, 808, rfl⟩
abbrev main_call27_v0 : Ref sig .tc := ⟨.hbm, 809, rfl⟩
abbrev main_call27_v1 : Ref sig .tc := ⟨.hbm, 810, rfl⟩
abbrev main_v468 : Ref sig .tc := ⟨.hbm, 811, rfl⟩
abbrev main_cst_85 : Ref sig .tc := ⟨.hbm, 812, rfl⟩
abbrev main_v469 : Ref sig .tc := ⟨.hbm, 813, rfl⟩
abbrev main_v470 : Ref sig .tc := ⟨.hbm, 814, rfl⟩
abbrev main_v471 : Ref sig .tc := ⟨.hbm, 815, rfl⟩
abbrev main_c_86 : Ref sig .tc := ⟨.hbm, 816, rfl⟩
abbrev main_v472 : Ref sig .tc := ⟨.hbm, 817, rfl⟩
abbrev main_v473 : Ref sig .tc := ⟨.hbm, 818, rfl⟩
abbrev main_c_87 : Ref sig .tc := ⟨.hbm, 819, rfl⟩
abbrev main_v474 : Ref sig .tc := ⟨.hbm, 820, rfl⟩
abbrev main_v475 : Ref sig .tc := ⟨.hbm, 821, rfl⟩
abbrev main_cst_88 : Ref sig .tc := ⟨.hbm, 822, rfl⟩
abbrev main_v476 : Ref sig .tc := ⟨.hbm, 823, rfl⟩
abbrev main_cst_89 : Ref sig .tc := ⟨.hbm, 824, rfl⟩
abbrev main_v477 : Ref sig .tc := ⟨.hbm, 825, rfl⟩
abbrev main_v478 : Ref sig .tc := ⟨.hbm, 826, rfl⟩
abbrev main_v479 : Ref sig .tc := ⟨.hbm, 827, rfl⟩

abbrev nD : Nat := 1
abbrev τ : Topo := Topo.v7x

variable {F : FTy → Type} [FloatOps F]

class Facts₀ : Prop where
  slices_S32x50x4_S32x50x1_0_0_0 : S32x50x4.Slices ![0, 0, 0] S32x50x1
  shapeCasts_S32x50x1_S32x50 : S32x50x1.ShapeCasts S32x50
  slices_S32x50x4_S32x50x1_0_0_2 : S32x50x4.Slices ![0, 0, 2] S32x50x1
  bcast_S_S32x50 : S_.BroadcastsInDim S32x50 (![] : Fin 0 → Fin S32x50.rank)
  slices_S32x50x4_S32x50x1_0_0_1 : S32x50x4.Slices ![0, 0, 1] S32x50x1
  slices_S32x50x4_S32x50x1_0_0_3 : S32x50x4.Slices ![0, 0, 3] S32x50x1
  bcast_S32x50_S32x50x1_0_1 : S32x50.BroadcastsInDim S32x50x1 (![0, 1] : Fin 2 → Fin S32x50x1.rank)
  bcast_S32x50x1_S32x50x80_0_1_2 : S32x50x1.BroadcastsInDim S32x50x80 (![0, 1, 2] : Fin 3 → Fin S32x50x80.rank)
  bcast_S1x1x80_S32x50x80_0_1_2 : S1x1x80.BroadcastsInDim S32x50x80 (![0, 1, 2] : Fin 3 → Fin S32x50x80.rank)
  bcast_S_S32x50x1 : S_.BroadcastsInDim S32x50x1 (![] : Fin 0 → Fin S32x50x1.rank)
  bcast_S1_S1x1x1_2 : S1.BroadcastsInDim S1x1x1 (![2] : Fin 1 → Fin S1x1x1.rank)
  bcast_S1x1x1_S32x50x1_0_1_2 : S1x1x1.BroadcastsInDim S32x50x1 (![0, 1, 2] : Fin 3 → Fin S32x50x1.rank)
  reducesTo_S32x50x1_S32x50_d2 : S32x50x1.ReducesTo [2] S32x50
  h_S_ : 0 < S_.numel
  bcast_S32x50_S32x50x4_0_1 : S32x50.BroadcastsInDim S32x50x4 (![0, 1] : Fin 2 → Fin S32x50x4.rank)
  bcast_S_S32x50x4 : S_.BroadcastsInDim S32x50x4 (![] : Fin 0 → Fin S32x50x4.rank)
  bcast_S32x50_S32x50x80_0_1 : S32x50.BroadcastsInDim S32x50x80 (![0, 1] : Fin 2 → Fin S32x50x80.rank)
  bcast_S_S32x50x80 : S_.BroadcastsInDim S32x50x80 (![] : Fin 0 → Fin S32x50x80.rank)
  reducesTo_S32x50_S_d0_1 : S32x50.ReducesTo [0, 1] S_
  reducesTo_S32x50x80_S32x50_d2 : S32x50x80.ReducesTo [2] S32x50
  natLt_1_32 : 1 < 32
  gather_S32x8400x4_S32x50x1_S32x50x4_2_1_0_0_1_2_114_wf : GatherDims.WF S32x8400x4 S32x50x1 S32x50x4 [2] [1] [0] [1] [0] 2 ![1, 1, 4]
  gather_S32x8400x80_S32x50x1_S32x50x80_2_1_0_0_1_2_1180_wf : GatherDims.WF S32x8400x80 S32x50x1 S32x50x80 [2] [1] [0] [1] [0] 2 ![1, 1, 80]

variable [Facts₀]

def gather_S32x8400x4_S32x50x1_S32x50x4_2_1_0_0_1_2_114 : GatherDims S32x8400x4 S32x50x1 S32x50x4 where
  offsetDims := [2]
  collapsedSliceDims := [1]
  operandBatchingDims := [0]
  startIndicesBatchingDims := [0]
  startIndexMap := [1]
  indexVectorDim := 2
  sliceSizes := ![1, 1, 4]
  wf := gather_S32x8400x4_S32x50x1_S32x50x4_2_1_0_0_1_2_114_wf
def gather_S32x8400x80_S32x50x1_S32x50x80_2_1_0_0_1_2_1180 : GatherDims S32x8400x80 S32x50x1 S32x50x80 where
  offsetDims := [2]
  collapsedSliceDims := [1]
  operandBatchingDims := [0]
  startIndicesBatchingDims := [0]
  startIndexMap := [1]
  indexVectorDim := 2
  sliceSizes := ![1, 1, 80]
  wf := gather_S32x8400x80_S32x50x1_S32x50x80_2_1_0_0_1_2_1180_wf

class Facts : Prop extends Facts₀ where

variable [Facts]
-- ==== Proof.LibWrites.lean ====
import Idealize.ShloMosaic.Lib.StableHlo.Run

namespace Idealize.ShloMosaic.StableHlo

open Idealize.ShloMosaic.TcCoe

variable {τ : Topo} {sig : RefSig} {Val : EltTy → Type}

/-- Running a concatenation is running its second part from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- References with different indices are different buffers. -/
theorem not_mem_single_of_idx {lo hi : Nat} {r y : Ref sig .tc} (hr : r.idx.val < lo ∨ hi ≤ r.idx.val)
    (hy : lo ≤ y.idx.val ∧ y.idx.val < hi) :
    Proc.devRef (τ := τ) .tc r ∉ ({Proc.devRef .tc y} : Finset (DevRef τ sig)) := fun hm => by
  have h : r.idx.val = y.idx.val :=
    congrArg (fun x : Ref sig .tc => x.idx.val) (Proc.devRef_injective _ (Finset.mem_singleton.mp hm))
  omega

/-- Every operation of the line writes only buffers whose index lies in `[lo, hi)`. -/
def WritesIn (lo hi : Nat) (l : List (HloOp τ sig Val)) : Prop :=
  l.Forall fun op => ∀ r : Ref sig .tc, r.idx.val < lo ∨ hi ≤ r.idx.val → Proc.devRef (τ := τ) .tc r ∉ op.writes

theorem WritesIn.mono {lo hi lo' hi' : Nat} {l : List (HloOp τ sig Val)} (h : WritesIn lo hi l) (hlo : lo' ≤ lo) (hhi : hi ≤ hi') :
    WritesIn lo' hi' l :=
  List.Forall.imp (fun op hop r hr => hop r (by omega)) h

theorem WritesIn.append {lo mid hi : Nat} {l₁ l₂ : List (HloOp τ sig Val)} (h₁ : WritesIn lo mid l₁) (h₂ : WritesIn mid hi l₂)
    (h : lo ≤ mid ∧ mid ≤ hi := by decide) : WritesIn lo hi (l₁ ++ l₂) :=
  List.forall_append.mpr ⟨h₁.mono (Nat.le_refl _) h.2, h₂.mono h.1 (Nat.le_refl _)⟩

/-- A buffer whose index is outside the interval passes through the line unchanged. -/
theorem WritesIn.keeps {lo hi : Nat} {l : List (HloOp τ sig Val)} (h : WritesIn lo hi l) (r : Ref sig .tc)
    (hr : r.idx.val < lo ∨ hi ≤ r.idx.val) (V : Valuation τ sig Val) :
    after l V (Proc.devRef .tc r) = V (Proc.devRef .tc r) :=
  after_of_forall_not_mem l V fun op hop => List.forall_iff_forall_mem.mp h op hop r hr

end Idealize.ShloMosaic.StableHlo
-- ==== Proof.KBase.lean ====
import proofs.«423457_j69166153335192_3_alg».proof.Proof.Gen.KernelIdeal.Launch
import proofs.«423457_j69166153335192_3_alg».proof.Proof.Gen.KernelIdeal.Skeleton
import proofs.«423457_j69166153335192_3_alg».proof.Proof.Gen.KernelIdeal.Points
import proofs.«423457_j69166153335192_3_alg».proof.Proof.LibWrites
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

-- The host lines before the region, in program order.
abbrev pre : List (List (HloOp τ sig (Elt F))) :=
  [hostOps0, hostOps0_1, hostOps0_2, hostOps0_3, hostOps0_4, hostOps0_5, hostOps0_6, hostOps0_7, hostOps0_8]

variable (m : (ℓ : Loc nD τ sig) → Buf (Elt F) ℓ)

-- The buffer contents the region finds on core `c`.
abbrev V0 (c : Dev nD) : Valuation τ sig (Elt F) := StableHlo.after (List.flatten pre) (fun b => m (c, b))

abbrev V (c : Dev nD) (b : Ref sig .tc) : Buf (Elt F) ((c : Thread nD τ).loc b) := V0 m c (Proc.devRef .tc b)

-- Window `w`'s block at grid point `t`, read off its array as the region finds it.
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- What one grid point stores for its image: the sum of the box terms, the sum of the class terms, the number of counted slots.
def kpoint (v0 : Vec F S1x150x1 .i32) (v2 : Vec F S1x150x1 .f32) (v4 : Vec F S1x150x4 .f32) (v6 : Vec F S1x150x80 .f32)
    (v8 : Vec F S1x8400x4 .f32) (v10 : Vec F S1x8400x80 .f32) : FVec F S1x1x3 .f32 :=
  have v3 := k0_pay2 v2
  have v5 := k0_pay3 v4
  have v7 := k0_pay4 v6
  have v27 := k0_pay6 v0 v8 v10
  have v28 := k0_pay7 v0 v8 v10
  have v33 := k0_pay8 v0 v4 v8 v10
  have v38 := k0_pay9 v0 v4 v8 v10
  have v79 := k0_pay11 v5 v27 v33 v38
  have v80 := k0_pay12 v5 v27 v33 v38
  have v85 := k0_pay13 v5 v27
  have v90 := k0_pay14 v5 v27
  have v95 := k0_pay15 v5 v27
  have v96 := k0_pay16 v27
  have v106 := k0_pay17 v5 v79 v80 v85 v90 v95 v96
  have v125 := k0_pay18 v7 v28
  have v127 := k0_pay19 v7
  have v145 := k0_pay20 v28
  have v146 : FVec F S150x80 .f32 := k0_pay21 (F := F)
  k0_pay1 (k0_pay23 v3 v106) (k0_pay24 v3 v7 v28 v125 v127 v145 v146) (k0_pay25 v3)

end Cert.KernelIdeal.Hand

end
-- ==== Proof.KFrame.lean ====
import proofs.«423457_j69166153335192_3_alg».proof.Proof.KBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev r0 : Rect S1x150x1 := Rect.unit (s := S1x150x1) ![0, 0, 0] S1x150x1.size inb_S1x150x1_S1x150x1_0_0_0
abbrev r1 : Rect S1x150x1 := Rect.unit (s := S1x150x1) ![0, 0, 0] S1x150x1.size inb_S1x150x1_S1x150x1_0_0_0
abbrev r2 : Rect S1x150x4 := Rect.unit (s := S1x150x4) ![0, 0, 0] S1x150x4.size inb_S1x150x4_S1x150x4_0_0_0
abbrev r3 : Rect S1x150x80 := Rect.unit (s := S1x150x80) ![0, 0, 0] S1x150x80.size inb_S1x150x80_S1x150x80_0_0_0
abbrev r4 : Rect S1x8400x4 := Rect.unit (s := S1x8400x4) ![0, 0, 0] S1x8400x4.size inb_S1x8400x4_S1x8400x4_0_0_0
abbrev r5 : Rect S1x8400x80 := Rect.unit (s := S1x8400x80) ![0, 0, 0] S1x8400x80.size inb_S1x8400x80_S1x8400x80_0_0_0
abbrev r6 : Rect S1x1x3 := Rect.unit (s := S1x1x3) ![0, 0, 0] S1x1x3.size inb_S1x1x3_S1x1x3_0_0_0

def out0_6 (x0 : Vec F S1x150x1 .i32) (x1 : Vec F S1x150x1 .f32) (x2 : Vec F S1x150x4 .f32) (x3 : Vec F S1x150x80 .f32)
    (x4 : Vec F S1x8400x4 .f32) (x5 : Vec F S1x8400x80 .f32) : Vec F S1x1x3 .f32 :=
  View.canon [⟨r6, kpoint (View.ld x0 r0) (View.ld x1 r1) (View.ld x2 r2) (View.ld x3 r3) (View.ld x4 r4) (View.ld x5 r5)⟩]

theorem store_covers (p0 : Vec F S1x1x3 .f32) (y : S1x1x3.Idx) :
    ∃ pc ∈ ([⟨r6, p0⟩] : List (View.Piece (Elt F) S1x1x3 .f32)), y ∈ pc.1.set :=
  View.cover_of_tiled [⟨r6, p0⟩] S1x1x3.size (by rfl) y

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem keeps_idx (c : Dev nD) (t : Fin cfg0.N) : (dats m 0 c).after 0 t = iblk m c 0 t := by dsimp only [dats]
theorem keeps_valid (c : Dev nD) (t : Fin cfg0.N) : (dats m 0 c).after 1 t = iblk m c 1 t := by dsimp only [dats]
theorem keeps_gt (c : Dev nD) (t : Fin cfg0.N) : (dats m 0 c).after 2 t = iblk m c 2 t := by dsimp only [dats]
theorem keeps_onehot (c : Dev nD) (t : Fin cfg0.N) : (dats m 0 c).after 3 t = iblk m c 3 t := by dsimp only [dats]
theorem keeps_boxes (c : Dev nD) (t : Fin cfg0.N) : (dats m 0 c).after 4 t = iblk m c 4 t := by dsimp only [dats]
theorem keeps_logits (c : Dev nD) (t : Fin cfg0.N) : (dats m 0 c).after 5 t = iblk m c 5 t := by dsimp only [dats]

theorem after0_6 (c : Dev nD) (t : Fin cfg0.N) :
    (dats m 0 c).after 6 t = out0_6 (iblk m c 0 t) (iblk m c 1 t) (iblk m c 2 t) (iblk m c 3 t) (iblk m c 4 t) (iblk m c 5 t) := by
  dsimp only [dats]

theorem finds_idx (c : Dev nD) (t : Fin cfg0.N) (d) : (dats m 0 c).before 0 t d = iblk m c 0 t :=
  ((dats m 0 c).before_in_eq_fetched 0 rfl (fun _ => rfl) (fun _ _ _ => rfl)
    (fun t => by rw [keeps_idx]; unfold Dat.blockOf iblk; rw [A_eq]; try rfl) t d).trans
    (by unfold Dat.fetched Dat.blockOf iblk; rw [A_eq]; try rfl)
theorem finds_valid (c : Dev nD) (t : Fin cfg0.N) (d) : (dats m 0 c).before 1 t d = iblk m c 1 t :=
  ((dats m 0 c).before_in_eq_fetched 1 rfl (fun _ => rfl) (fun _ _ _ => rfl)
    (fun t => by rw [keeps_valid]; unfold Dat.blockOf iblk; rw [A_eq]; try rfl) t d).trans
    (by unfold Dat.fetched Dat.blockOf iblk; rw [A_eq]; try rfl)
theorem finds_gt (c : Dev nD) (t : Fin cfg0.N) (d) : (dats m 0 c).before 2 t d = iblk m c 2 t :=
  ((dats m 0 c).before_in_eq_fetched 2 rfl (fun _ => rfl) (fun _ _ _ => rfl)
    (fun t => by rw [keeps_gt]; unfold Dat.blockOf iblk; rw [A_eq]; try rfl) t d).trans
    (by unfold Dat.fetched Dat.blockOf iblk; rw [A_eq]; try rfl)
theorem finds_onehot (c : Dev nD) (t : Fin cfg0.N) (d) : (dats m 0 c).before 3 t d = iblk m c 3 t :=
  ((dats m 0 c).before_in_eq_fetched 3 rfl (fun _ => rfl) (fun _ _ _ => rfl)
    (fun t => by rw [keeps_onehot]; unfold Dat.blockOf iblk; rw [A_eq]; try rfl) t d).trans
    (by unfold Dat.fetched Dat.blockOf iblk; rw [A_eq]; try rfl)
theorem finds_boxes (c : Dev nD) (t : Fin cfg0.N) (d) : (dats m 0 c).before 4 t d = iblk m c 4 t :=
  ((dats m 0 c).before_in_eq_fetched 4 rfl (fun _ => rfl) (fun _ _ _ => rfl)
    (fun t => by rw [keeps_boxes]; unfold Dat.blockOf iblk; rw [A_eq]; try rfl) t d).trans
    (by unfold Dat.fetched Dat.blockOf iblk; rw [A_eq]; try rfl)
theorem finds_logits (c : Dev nD) (t : Fin cfg0.N) (d) : (dats m 0 c).before 5 t d = iblk m c 5 t :=
  ((dats m 0 c).before_in_eq_fetched 5 rfl (fun _ => rfl) (fun _ _ _ => rfl)
    (fun t => by rw [keeps_logits]; unfold Dat.blockOf iblk; rw [A_eq]; try rfl) t d).trans
    (by unfold Dat.fetched Dat.blockOf iblk; rw [A_eq]; try rfl)

set_option maxHeartbeats 1000000 in

theorem image_triple (c : Dev nD) (E : Set ℕ) (i : grid0.Coords)
    (arg1 : Memref sig .tc .vmem S1x150x1 .i32) (harg1 : arg1.IsWhole) (arg2 : Memref sig .tc .vmem S1x150x1 .f32) (harg2 : arg2.IsWhole)
    (arg3 : Memref sig .tc .vmem S1x150x4 .f32) (harg3 : arg3.IsWhole) (arg4 : Memref sig .tc .vmem S1x150x80 .f32) (harg4 : arg4.IsWhole)
    (arg5 : Memref sig .tc .vmem S1x8400x4 .f32) (harg5 : arg5.IsWhole) (arg6 : Memref sig .tc .vmem S1x8400x80 .f32) (harg6 : arg6.IsWhole)
    (arg7 : Memref sig .tc .vmem S1x1x3 .f32) (harg7 : arg7.IsWhole)
    (x0 : Vec F S1x150x1 .i32) (x1 : Vec F S1x150x1 .f32) (x2 : Vec F S1x150x4 .f32) (x3 : Vec F S1x150x80 .f32)
    (x4 : Vec F S1x8400x4 .f32) (x5 : Vec F S1x8400x80 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__yolo_kernel i arg1 harg1 arg2 harg2 arg3 harg3 arg4 harg4 arg5 harg5 arg6 harg6 arg7 harg7) K := by
  simp only [cc0__yolo_kernel_eq_skeleton]; unfold cc0__yolo_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

def atImage (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def afterImage (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem image_step (c : Dev nD) (t : Fin cfg0.N) :
    atImage m c t ⊢ wp frame (wpE (defs₀ (F := F)) Variants.none c none) Set.univ (bodyAt0 t) (fun _ => afterImage m c t) := by
  unfold atImage afterImage bodyAt0
  simp only [finds_idx, finds_valid, finds_gt, finds_onehot, finds_boxes, finds_logits]
  rw [show (dats m 0 c).Φ t.succ = (dats m 0 c).Φ t.castSucc from rfl,
    show (dats m 0 c).owesAt () t.succ = (dats m 0 c).owesAt () t.castSucc from rfl,
    keeps_idx, keeps_valid, keeps_gt, keeps_onehot, keeps_boxes, keeps_logits, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (image_triple c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem every_image (c : Dev nD) : BodyObligation (dats (F := F) m 0 c) (defs₀ (F := F)) Variants.none () Set.univ := fun t => by
  rw [bigSep_W0, bigSep_W0]
  exact image_step m c t

theorem hostOps1_fresh : (hostOps1 : List (HloOp τ sig (Elt F))).Forall fun op => op.fresh = ∅ := by
  simp only [List.Forall]; repeat' constructor

theorem main_around_region (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [pre, List.Forall]
        exact ⟨hostOps0_sub, hostOps0_1_sub, hostOps0_2_sub, hostOps0_3_sub, hostOps0_4_sub, hostOps0_5_sub, hostOps0_6_sub, hostOps0_7_sub, hostOps0_8_sub⟩)
    (by simp only [pre, List.Forall]; repeat' constructor)
    main_chain

theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

-- The lines before the region write buffers 5 … 158 only: no argument array, and not the output's array.
theorem pre_writes : StableHlo.WritesIn 5 159 (List.flatten (pre (F := F))) := by
  simp only [pre, hostOps0, hostOps0_1, hostOps0_2, hostOps0_3, hostOps0_4, hostOps0_5, hostOps0_6, hostOps0_7, hostOps0_8, List.flatten_cons, List.flatten_nil, List.append_nil, List.cons_append, List.nil_append]
  unfold StableHlo.WritesIn
  repeat' apply And.intro
  all_goals exact fun _ hr => StableHlo.not_mem_single_of_idx hr (by decide)

-- The lines after it write buffers 160 … 180 only: no argument array and no window's array.
theorem tail_writes : StableHlo.WritesIn 160 181 ([hostOps1] : List (List (HloOp τ sig (Elt F)))).flatten := by
  simp only [hostOps1, List.flatten_cons, List.flatten_nil, List.append_nil]
  unfold StableHlo.WritesIn
  repeat' apply And.intro
  all_goals exact fun _ hr => StableHlo.not_mem_single_of_idx hr (by decide)

-- An argument that is no window's array bypasses the region and the lines around it.
theorem W_arg (c : Dev nD) (r : Ref sig .tc) (hr : r.idx.val < 5) (hne : ∀ w, Pipeline.arrRef spec0 w ≠ r) :
    Pipeline.afterTail₀ cfgs (dats m) 0 (V0 m) [hostOps1] c r = m ((c : Thread nD τ).loc r) := by
  unfold Pipeline.afterTail₀
  exact (tail_writes.keeps r (Or.inl (by omega)) _).trans
    ((Pipeline.withArrays_of_ne _ c (V0 m c) _ r hne).trans (pre_writes.keeps r (Or.inl hr) _))

theorem tail_keeps_arrays : ∀ ops ∈ ([hostOps1] : List (List (HloOp τ sig (Elt F)))), ∀ op ∈ ops,
    ∀ w, Proc.devRef .tc (Pipeline.arrRef spec0 w) ∉ op.writes := fun ops hops op hop w =>
  List.forall_iff_forall_mem.mp tail_writes op (List.mem_flatten_of_mem hops hop) _
    (Or.inl ((by decide : ∀ w, (Pipeline.arrRef spec0 w).idx.val < 160) w))

-- The five argument arrays hold their launch contents on core `c`.
abbrev ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

theorem args_of_post (r : PUnit × MemSt nD τ sig (Elt F))
    (h : Pipeline.FramePost cfgs (dats m) 0 (Pipeline.afterTail₀ cfgs (dats m) 0 (V0 m) [hostOps1]) r) (c : Dev nD) : ArgsKept m r c :=
  ⟨(((h c).1 4).trans (((dats m 0 c).arrAt_in 4 rfl _).trans (A_eq m c 4))).trans (pre_writes.keeps main_arg0 (Or.inl (by decide)) _),
   (((h c).1 5).trans (((dats m 0 c).arrAt_in 5 rfl _).trans (A_eq m c 5))).trans (pre_writes.keeps main_arg1 (Or.inl (by decide)) _),
   ((h c).2 main_arg2 (Pipeline.mem_restRefs_of main_arg2 (by decide) (by decide))).trans (W_arg m c main_arg2 (by decide) (by decide)),
   ((h c).2 main_arg3 (Pipeline.mem_restRefs_of main_arg3 (by decide) (by decide))).trans (W_arg m c main_arg3 (by decide) (by decide)),
   ((h c).2 main_arg4 (Pipeline.mem_restRefs_of main_arg4 (by decide) (by decide))).trans (W_arg m c main_arg4 (by decide) (by decide))⟩

set_option backward.isDefEq.respectTransparency.types false in

theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (every_image m c).loose) (hshare := fun c => (dats m 0 c).share_full fun _ => rfl)
    (howed := fun _ _ => rfl) (V₀ := V0 m) (opss := [hostOps1]) (hsub := tail_within) (hfresh := tail_allocates_nothing) (hkeep := tail_keeps_arrays)
    (hmain := main_around_region m Variants.none) (hA := A_eq m) (hΦ := fun _ _ => rfl)

theorem frame : θ_run defs (onTc (τ := τ) (main (F := F))) ⟨m, fun _ => 0, ρ⟩ (fun r => ∀ c : Dev nD, ArgsKept m r c) :=
  (θ_run defs _ _).mono (fun r h c => args_of_post m r h c) (run_main m ρ)

end Cert.KernelIdeal.Hand

end
-- ==== Proof.KBaseBits.lean ====
import proofs.«423457_j69166153335192_3_alg».proof.Proof.Gen.Kernel.Launch
import proofs.«423457_j69166153335192_3_alg».proof.Proof.Gen.Kernel.Skeleton
import proofs.«423457_j69166153335192_3_alg».proof.Proof.Gen.Kernel.Points
import proofs.«423457_j69166153335192_3_alg».proof.Proof.LibWrites
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem

variable {F : FTy → Type} [FloatOps F]

-- The host lines before the region, in program order.
abbrev pre : List (List (HloOp τ sig (Elt F))) :=
  [hostOps0, hostOps0_1, hostOps0_2, hostOps0_3, hostOps0_4, hostOps0_5, hostOps0_6, hostOps0_7, hostOps0_8]

variable (m : (ℓ : Loc nD τ sig) → Buf (Elt F) ℓ)

-- The buffer contents the region finds on core `c`.
abbrev V0 (c : Dev nD) : Valuation τ sig (Elt F) := StableHlo.after (List.flatten pre) (fun b => m (c, b))

abbrev V (c : Dev nD) (b : Ref sig .tc) : Buf (Elt F) ((c : Thread nD τ).loc b) := V0 m c (Proc.devRef .tc b)

-- Window `w`'s block at grid point `t`, read off its array as the region finds it.
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- What one grid point stores for its image: the sum of the box terms, the sum of the class terms, the number of counted slots.
def kpoint (v0 : Vec F S1x150x1 .i32) (v2 : Vec F S1x150x1 .f32) (v4 : Vec F S1x150x4 .f32) (v6 : Vec F S1x150x80 .f32)
    (v8 : Vec F S1x8400x4 .f32) (v10 : Vec F S1x8400x80 .f32) : FVec F S1x1x3 .f32 :=
  have v3 := k0_pay2 v2
  have v5 := k0_pay3 v4
  have v7 := k0_pay4 v6
  have v27 := k0_pay6 v0 v8 v10
  have v28 := k0_pay7 v0 v8 v10
  have v33 := k0_pay8 v0 v4 v8 v10
  have v38 := k0_pay9 v0 v4 v8 v10
  have v79 := k0_pay11 v5 v27 v33 v38
  have v80 := k0_pay12 v5 v27 v33 v38
  have v85 := k0_pay13 v5 v27
  have v90 := k0_pay14 v5 v27
  have v95 := k0_pay15 v5 v27
  have v96 := k0_pay16 v27
  have v106 := k0_pay17 v5 v79 v80 v85 v90 v95 v96
  have v125 := k0_pay18 v7 v28
  have v127 := k0_pay19 v7
  have v145 := k0_pay20 v28
  have v146 : FVec F S150x80 .f32 := k0_pay21 (F := F)
  k0_pay1 (k0_pay23 v3 v106) (k0_pay24 v3 v7 v28 v125 v127 v145 v146) (k0_pay25 v3)

end Cert.Kernel.Hand

end
-- ==== Proof.KFrameBits.lean ====
import proofs.«423457_j69166153335192_3_alg».proof.Proof.KBaseBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev r0 : Rect S1x150x1 := Rect.unit (s := S1x150x1) ![0, 0, 0] S1x150x1.size inb_S1x150x1_S1x150x1_0_0_0
abbrev r1 : Rect S1x150x1 := Rect.unit (s := S1x150x1) ![0, 0, 0] S1x150x1.size inb_S1x150x1_S1x150x1_0_0_0
abbrev r2 : Rect S1x150x4 := Rect.unit (s := S1x150x4) ![0, 0, 0] S1x150x4.size inb_S1x150x4_S1x150x4_0_0_0
abbrev r3 : Rect S1x150x80 := Rect.unit (s := S1x150x80) ![0, 0, 0] S1x150x80.size inb_S1x150x80_S1x150x80_0_0_0
abbrev r4 : Rect S1x8400x4 := Rect.unit (s := S1x8400x4) ![0, 0, 0] S1x8400x4.size inb_S1x8400x4_S1x8400x4_0_0_0
abbrev r5 : Rect S1x8400x80 := Rect.unit (s := S1x8400x80) ![0, 0, 0] S1x8400x80.size inb_S1x8400x80_S1x8400x80_0_0_0
abbrev r6 : Rect S1x1x3 := Rect.unit (s := S1x1x3) ![0, 0, 0] S1x1x3.size inb_S1x1x3_S1x1x3_0_0_0

def out0_6 (x0 : Vec F S1x150x1 .i32) (x1 : Vec F S1x150x1 .f32) (x2 : Vec F S1x150x4 .f32) (x3 : Vec F S1x150x80 .f32)
    (x4 : Vec F S1x8400x4 .f32) (x5 : Vec F S1x8400x80 .f32) : Vec F S1x1x3 .f32 :=
  View.canon [⟨r6, kpoint (View.ld x0 r0) (View.ld x1 r1) (View.ld x2 r2) (View.ld x3 r3) (View.ld x4 r4) (View.ld x5 r5)⟩]

theorem store_covers (p0 : Vec F S1x1x3 .f32) (y : S1x1x3.Idx) :
    ∃ pc ∈ ([⟨r6, p0⟩] : List (View.Piece (Elt F) S1x1x3 .f32)), y ∈ pc.1.set :=
  View.cover_of_tiled [⟨r6, p0⟩] S1x1x3.size (by rfl) y

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem keeps_idx (c : Dev nD) (t : Fin cfg0.N) : (dats m 0 c).after 0 t = iblk m c 0 t := by dsimp only [dats]
theorem keeps_valid (c : Dev nD) (t : Fin cfg0.N) : (dats m 0 c).after 1 t = iblk m c 1 t := by dsimp only [dats]
theorem keeps_gt (c : Dev nD) (t : Fin cfg0.N) : (dats m 0 c).after 2 t = iblk m c 2 t := by dsimp only [dats]
theorem keeps_onehot (c : Dev nD) (t : Fin cfg0.N) : (dats m 0 c).after 3 t = iblk m c 3 t := by dsimp only [dats]
theorem keeps_boxes (c : Dev nD) (t : Fin cfg0.N) : (dats m 0 c).after 4 t = iblk m c 4 t := by dsimp only [dats]
theorem keeps_logits (c : Dev nD) (t : Fin cfg0.N) : (dats m 0 c).after 5 t = iblk m c 5 t := by dsimp only [dats]

theorem after0_6 (c : Dev nD) (t : Fin cfg0.N) :
    (dats m 0 c).after 6 t = out0_6 (iblk m c 0 t) (iblk m c 1 t) (iblk m c 2 t) (iblk m c 3 t) (iblk m c 4 t) (iblk m c 5 t) := by
  dsimp only [dats]

theorem finds_idx (c : Dev nD) (t : Fin cfg0.N) (d) : (dats m 0 c).before 0 t d = iblk m c 0 t :=
  ((dats m 0 c).before_in_eq_fetched 0 rfl (fun _ => rfl) (fun _ _ _ => rfl)
    (fun t => by rw [keeps_idx]; unfold Dat.blockOf iblk; rw [A_eq]; try rfl) t d).trans
    (by unfold Dat.fetched Dat.blockOf iblk; rw [A_eq]; try rfl)
theorem finds_valid (c : Dev nD) (t : Fin cfg0.N) (d) : (dats m 0 c).before 1 t d = iblk m c 1 t :=
  ((dats m 0 c).before_in_eq_fetched 1 rfl (fun _ => rfl) (fun _ _ _ => rfl)
    (fun t => by rw [keeps_valid]; unfold Dat.blockOf iblk; rw [A_eq]; try rfl) t d).trans
    (by unfold Dat.fetched Dat.blockOf iblk; rw [A_eq]; try rfl)
theorem finds_gt (c : Dev nD) (t : Fin cfg0.N) (d) : (dats m 0 c).before 2 t d = iblk m c 2 t :=
  ((dats m 0 c).before_in_eq_fetched 2 rfl (fun _ => rfl) (fun _ _ _ => rfl)
    (fun t => by rw [keeps_gt]; unfold Dat.blockOf iblk; rw [A_eq]; try rfl) t d).trans
    (by unfold Dat.fetched Dat.blockOf iblk; rw [A_eq]; try rfl)
theorem finds_onehot (c : Dev nD) (t : Fin cfg0.N) (d) : (dats m 0 c).before 3 t d = iblk m c 3 t :=
  ((dats m 0 c).before_in_eq_fetched 3 rfl (fun _ => rfl) (fun _ _ _ => rfl)
    (fun t => by rw [keeps_onehot]; unfold Dat.blockOf iblk; rw [A_eq]; try rfl) t d).trans
    (by unfold Dat.fetched Dat.blockOf iblk; rw [A_eq]; try rfl)
theorem finds_boxes (c : Dev nD) (t : Fin cfg0.N) (d) : (dats m 0 c).before 4 t d = iblk m c 4 t :=
  ((dats m 0 c).before_in_eq_fetched 4 rfl (fun _ => rfl) (fun _ _ _ => rfl)
    (fun t => by rw [keeps_boxes]; unfold Dat.blockOf iblk; rw [A_eq]; try rfl) t d).trans
    (by unfold Dat.fetched Dat.blockOf iblk; rw [A_eq]; try rfl)
theorem finds_logits (c : Dev nD) (t : Fin cfg0.N) (d) : (dats m 0 c).before 5 t d = iblk m c 5 t :=
  ((dats m 0 c).before_in_eq_fetched 5 rfl (fun _ => rfl) (fun _ _ _ => rfl)
    (fun t => by rw [keeps_logits]; unfold Dat.blockOf iblk; rw [A_eq]; try rfl) t d).trans
    (by unfold Dat.fetched Dat.blockOf iblk; rw [A_eq]; try rfl)

set_option maxHeartbeats 1000000 in

theorem image_triple (c : Dev nD) (E : Set ℕ) (i : grid0.Coords)
    (arg1 : Memref sig .tc .vmem S1x150x1 .i32) (harg1 : arg1.IsWhole) (arg2 : Memref sig .tc .vmem S1x150x1 .f32) (harg2 : arg2.IsWhole)
    (arg3 : Memref sig .tc .vmem S1x150x4 .f32) (harg3 : arg3.IsWhole) (arg4 : Memref sig .tc .vmem S1x150x80 .f32) (harg4 : arg4.IsWhole)
    (arg5 : Memref sig .tc .vmem S1x8400x4 .f32) (harg5 : arg5.IsWhole) (arg6 : Memref sig .tc .vmem S1x8400x80 .f32) (harg6 : arg6.IsWhole)
    (arg7 : Memref sig .tc .vmem S1x1x3 .f32) (harg7 : arg7.IsWhole)
    (x0 : Vec F S1x150x1 .i32) (x1 : Vec F S1x150x1 .f32) (x2 : Vec F S1x150x4 .f32) (x3 : Vec F S1x150x80 .f32)
    (x4 : Vec F S1x8400x4 .f32) (x5 : Vec F S1x8400x80 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__yolo_kernel i arg1 harg1 arg2 harg2 arg3 harg3 arg4 harg4 arg5 harg5 arg6 harg6 arg7 harg7) K := by
  simp only [cc0__yolo_kernel_eq_skeleton]; unfold cc0__yolo_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

def atImage (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def afterImage (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem image_step (c : Dev nD) (t : Fin cfg0.N) :
    atImage m c t ⊢ wp frame (wpE (defs₀ (F := F)) Variants.none c none) Set.univ (bodyAt0 t) (fun _ => afterImage m c t) := by
  unfold atImage afterImage bodyAt0
  simp only [finds_idx, finds_valid, finds_gt, finds_onehot, finds_boxes, finds_logits]
  rw [show (dats m 0 c).Φ t.succ = (dats m 0 c).Φ t.castSucc from rfl,
    show (dats m 0 c).owesAt () t.succ = (dats m 0 c).owesAt () t.castSucc from rfl,
    keeps_idx, keeps_valid, keeps_gt, keeps_onehot, keeps_boxes, keeps_logits, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (image_triple c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem every_image (c : Dev nD) : BodyObligation (dats (F := F) m 0 c) (defs₀ (F := F)) Variants.none () Set.univ := fun t => by
  rw [bigSep_W0, bigSep_W0]
  exact image_step m c t

theorem hostOps1_fresh : (hostOps1 : List (HloOp τ sig (Elt F))).Forall fun op => op.fresh = ∅ := by
  simp only [List.Forall]; repeat' constructor

theorem main_around_region (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [pre, List.Forall]
        exact ⟨hostOps0_sub, hostOps0_1_sub, hostOps0_2_sub, hostOps0_3_sub, hostOps0_4_sub, hostOps0_5_sub, hostOps0_6_sub, hostOps0_7_sub, hostOps0_8_sub⟩)
    (by simp only [pre, List.Forall]; repeat' constructor)
    main_chain

theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

-- The lines before the region write buffers 5 … 158 only: no argument array, and not the output's array.
theorem pre_writes : StableHlo.WritesIn 5 159 (List.flatten (pre (F := F))) := by
  simp only [pre, hostOps0, hostOps0_1, hostOps0_2, hostOps0_3, hostOps0_4, hostOps0_5, hostOps0_6, hostOps0_7, hostOps0_8, List.flatten_cons, List.flatten_nil, List.append_nil, List.cons_append, List.nil_append]
  unfold StableHlo.WritesIn
  repeat' apply And.intro
  all_goals exact fun _ hr => StableHlo.not_mem_single_of_idx hr (by decide)

-- The lines after it write buffers 160 … 180 only: no argument array and no window's array.
theorem tail_writes : StableHlo.WritesIn 160 181 ([hostOps1] : List (List (HloOp τ sig (Elt F)))).flatten := by
  simp only [hostOps1, List.flatten_cons, List.flatten_nil, List.append_nil]
  unfold StableHlo.WritesIn
  repeat' apply And.intro
  all_goals exact fun _ hr => StableHlo.not_mem_single_of_idx hr (by decide)

-- An argument that is no window's array bypasses the region and the lines around it.
theorem W_arg (c : Dev nD) (r : Ref sig .tc) (hr : r.idx.val < 5) (hne : ∀ w, Pipeline.arrRef spec0 w ≠ r) :
    Pipeline.afterTail₀ cfgs (dats m) 0 (V0 m) [hostOps1] c r = m ((c : Thread nD τ).loc r) := by
  unfold Pipeline.afterTail₀
  exact (tail_writes.keeps r (Or.inl (by omega)) _).trans
    ((Pipeline.withArrays_of_ne _ c (V0 m c) _ r hne).trans (pre_writes.keeps r (Or.inl hr) _))

theorem tail_keeps_arrays : ∀ ops ∈ ([hostOps1] : List (List (HloOp τ sig (Elt F)))), ∀ op ∈ ops,
    ∀ w, Proc.devRef .tc (Pipeline.arrRef spec0 w) ∉ op.writes := fun ops hops op hop w =>
  List.forall_iff_forall_mem.mp tail_writes op (List.mem_flatten_of_mem hops hop) _
    (Or.inl ((by decide : ∀ w, (Pipeline.arrRef spec0 w).idx.val < 160) w))

-- The five argument arrays hold their launch contents on core `c`.
abbrev ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

theorem args_of_post (r : PUnit × MemSt nD τ sig (Elt F))
    (h : Pipeline.FramePost cfgs (dats m) 0 (Pipeline.afterTail₀ cfgs (dats m) 0 (V0 m) [hostOps1]) r) (c : Dev nD) : ArgsKept m r c :=
  ⟨(((h c).1 4).trans (((dats m 0 c).arrAt_in 4 rfl _).trans (A_eq m c 4))).trans (pre_writes.keeps main_arg0 (Or.inl (by decide)) _),
   (((h c).1 5).trans (((dats m 0 c).arrAt_in 5 rfl _).trans (A_eq m c 5))).trans (pre_writes.keeps main_arg1 (Or.inl (by decide)) _),
   ((h c).2 main_arg2 (Pipeline.mem_restRefs_of main_arg2 (by decide) (by decide))).trans (W_arg m c main_arg2 (by decide) (by decide)),
   ((h c).2 main_arg3 (Pipeline.mem_restRefs_of main_arg3 (by decide) (by decide))).trans (W_arg m c main_arg3 (by decide) (by decide)),
   ((h c).2 main_arg4 (Pipeline.mem_restRefs_of main_arg4 (by decide) (by decide))).trans (W_arg m c main_arg4 (by decide) (by decide))⟩

set_option backward.isDefEq.respectTransparency.types false in

theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (every_image m c).loose) (hshare := fun c => (dats m 0 c).share_full fun _ => rfl)
    (howed := fun _ _ => rfl) (V₀ := V0 m) (opss := [hostOps1]) (hsub := tail_within) (hfresh := tail_allocates_nothing) (hkeep := tail_keeps_arrays)
    (hmain := main_around_region m Variants.none) (hA := A_eq m) (hΦ := fun _ _ => rfl)

theorem frame : θ_run defs (onTc (τ := τ) (main (F := F))) ⟨m, fun _ => 0, ρ⟩ (fun r => ∀ c : Dev nD, ArgsKept m r c) :=
  (θ_run defs _ _).mono (fun r h c => args_of_post m r h c) (run_main m ρ)

end Cert.Kernel.Hand

end
-- ==== Proof.RefOps.lean ====
import proofs.«423457_j69166153335192_3_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

abbrev ops_head : List (HloOp τ sig (Elt F)) :=
  [ StableHlo.unary main_arg2 main_v0 ((extractStridedSlice S32x50x1 ![0, 0, 0] · slices_S32x50x4_S32x50x1_0_0_0) : Vec F S32x50x4 .f32 → Vec F S32x50x1 .f32),
    StableHlo.reshape main_v0 main_v1 rfl shapeCasts_S32x50x1_S32x50,
    StableHlo.unary main_arg2 main_v2 ((extractStridedSlice S32x50x1 ![0, 0, 2] · slices_S32x50x4_S32x50x1_0_0_2) : Vec F S32x50x4 .f32 → Vec F S32x50x1 .f32),
    StableHlo.reshape main_v2 main_v3 rfl shapeCasts_S32x50x1_S32x50,
    StableHlo.binary main_v1 main_v3 main_v4 (addf : Vec F S32x50 .f32 → Vec F S32x50 .f32 → Vec F S32x50 .f32),
    StableHlo.nullary main_cst (constant S_ .f32 0x3F000000#32),
    StableHlo.unary main_cst main_v5 (broadcastInDim S32x50 ![] bcast_S_S32x50 : Vec F S_ .f32 → Vec F S32x50 .f32),
    StableHlo.binary main_v4 main_v5 main_v6 (mulf : Vec F S32x50 .f32 → Vec F S32x50 .f32 → Vec F S32x50 .f32),
    StableHlo.unary main_arg2 main_v7 ((extractStridedSlice S32x50x1 ![0, 0, 1] · slices_S32x50x4_S32x50x1_0_0_1) : Vec F S32x50x4 .f32 → Vec F S32x50x1 .f32),
    StableHlo.reshape main_v7 main_v8 rfl shapeCasts_S32x50x1_S32x50,
    StableHlo.unary main_arg2 main_v9 ((extractStridedSlice S32x50x1 ![0, 0, 3] · slices_S32x50x4_S32x50x1_0_0_3) : Vec F S32x50x4 .f32 → Vec F S32x50x1 .f32),
    StableHlo.reshape main_v9 main_v10 rfl shapeCasts_S32x50x1_S32x50,
    StableHlo.binary main_v8 main_v10 main_v11 (addf : Vec F S32x50 .f32 → Vec F S32x50 .f32 → Vec F S32x50 .f32),
    StableHlo.nullary main_cst_0 (constant S_ .f32 0x3F000000#32),
    StableHlo.unary main_cst_0 main_v12 (broadcastInDim S32x50 ![] bcast_S_S32x50 : Vec F S_ .f32 → Vec F S32x50 .f32),
    StableHlo.binary main_v11 main_v12 main_v13 (mulf : Vec F S32x50 .f32 → Vec F S32x50 .f32 → Vec F S32x50 .f32),
    StableHlo.TRef.unary (.of main_arg3 : StableHlo.TRef sig ⟨S32x50, .i32⟩) main_call0.v0 (broadcastInDim S32x50x1 ![0, 1] bcast_S32x50_S32x50x1_0_1),
    StableHlo.TRef.nullary main_call0.v1 (iotaInDim S1x1x80 32 2),
    StableHlo.TRef.unary main_call0.v0 main_call0.v2 (broadcastInDim S32x50x80 ![0, 1, 2] bcast_S32x50x1_S32x50x80_0_1_2),
    StableHlo.TRef.unary main_call0.v1 main_call0.v3 (broadcastInDim S32x50x80 ![0, 1, 2] bcast_S1x1x80_S32x50x80_0_1_2),
    StableHlo.TRef.binary main_call0.v2 main_call0.v3 main_call0.v4 (cmpi .eq),
    StableHlo.TRef.unary main_call0.v4 main_call0.v5 (uitofp .f32) ]

abbrev ops_s0_idx : List (HloOp τ sig (Elt F)) :=
  [ StableHlo.nullary main_cst_1 (constant S_ .f32 0x41000000#32),
    StableHlo.unary main_cst_1 main_v15 (broadcastInDim S32x50 ![] bcast_S_S32x50 : Vec F S_ .f32 → Vec F S32x50 .f32),
    StableHlo.binary main_v6 main_v15 main_v16 (Host.divf : Vec F S32x50 .f32 → Vec F S32x50 .f32 → Vec F S32x50 .f32),
    StableHlo.unary main_v16 main_v17 (Host.floor : Vec F S32x50 .f32 → Vec F S32x50 .f32),
    StableHlo.unary main_v17 main_v18 (fptosi 32 : Vec F S32x50 .f32 → Vec F S32x50 .i32),
    StableHlo.nullary main_cst_2 (constant S_ .f32 0x41000000#32),
    StableHlo.unary main_cst_2 main_v19 (broadcastInDim S32x50 ![] bcast_S_S32x50 : Vec F S_ .f32 → Vec F S32x50 .f32),
    StableHlo.binary main_v13 main_v19 main_v20 (Host.divf : Vec F S32x50 .f32 → Vec F S32x50 .f32 → Vec F S32x50 .f32),
    StableHlo.unary main_v20 main_v21 (Host.floor : Vec F S32x50 .f32 → Vec F S32x50 .f32),
    StableHlo.unary main_v21 main_v22 (fptosi 32 : Vec F S32x50 .f32 → Vec F S32x50 .i32),
    StableHlo.nullary main_c (constantI S_ 32 0#32),
    StableHlo.unary main_c main_v23 (broadcastInDim S32x50 ![] bcast_S_S32x50 : Vec F S_ .i32 → Vec F S32x50 .i32),
    StableHlo.binary main_v18 main_v23 main_v24 (cmpi .sge : Vec F S32x50 .i32 → Vec F S32x50 .i32 → Vec F S32x50 .i1),
    StableHlo.binary main_arg4 main_v24 main_v25 (andi : Vec F S32x50 .i1 → Vec F S32x50 .i1 → Vec F S32x50 .i1),
    StableHlo.nullary main_c_3 (constantI S_ 32 0#32),
    StableHlo.unary main_c_3 main_v26 (broadcastInDim S32x50 ![] bcast_S_S32x50 : Vec F S_ .i32 → Vec F S32x50 .i32),
    StableHlo.binary main_v22 main_v26 main_v27 (cmpi .sge : Vec F S32x50 .i32 → Vec F S32x50 .i32 → Vec F S32x50 .i1),
    StableHlo.binary main_v25 main_v27 main_v28 (andi : Vec F S32x50 .i1 → Vec F S32x50 .i1 → Vec F S32x50 .i1),
    StableHlo.nullary main_c_4 (constantI S_ 32 80#32),
    StableHlo.unary main_c_4 main_v29 (broadcastInDim S32x50 ![] bcast_S_S32x50 : Vec F S_ .i32 → Vec F S32x50 .i32),
    StableHlo.binary main_v18 main_v29 main_v30 (cmpi .slt : Vec F S32x50 .i32 → Vec F S32x50 .i32 → Vec F S32x50 .i1),
    StableHlo.binary main_v28 main_v30 main_v31 (andi : Vec F S32x50 .i1 → Vec F S32x50 .i1 → Vec F S32x50 .i1),
    StableHlo.nullary main_c_5 (constantI S_ 32 80#32),
    StableHlo.unary main_c_5 main_v32 (broadcastInDim S32x50 ![] bcast_S_S32x50 : Vec F S_ .i32 → Vec F S32x50 .i32),
    StableHlo.binary main_v22 main_v32 main_v33 (cmpi .slt : Vec F S32x50 .i32 → Vec F S32x50 .i32 → Vec F S32x50 .i1),
    StableHlo.binary main_v31 main_v33 main_v34 (andi : Vec F S32x50 .i1 → Vec F S32x50 .i1 → Vec F S32x50 .i1),
    StableHlo.nullary main_c_6 (constantI S_ 32 80#32),
    StableHlo.unary main_c_6 main_v35 (broadcastInDim S32x50 ![] bcast_S_S32x50 : Vec F S_ .i32 → Vec F S32x50 .i32),
    StableHlo.binary main_v22 main_v35 main_v36 (muli : Vec F S32x50 .i32 → Vec F S32x50 .i32 → Vec F S32x50 .i32),
    StableHlo.nullary main_c_7 (constantI S_ 32 0#32),
    StableHlo.unary main_c_7 main_v37 (broadcastInDim S32x50 ![] bcast_S_S32x50 : Vec F S_ .i32 → Vec F S32x50 .i32),
    StableHlo.binary main_v37 main_v36 main_v38 (addi : Vec F S32x50 .i32 → Vec F S32x50 .i32 → Vec F S32x50 .i32),
    StableHlo.binary main_v38 main_v18 main_v39 (addi : Vec F S32x50 .i32 → Vec F S32x50 .i32 → Vec F S32x50 .i32),
    StableHlo.nullary main_c_8 (constantI S_ 32 0#32),
    StableHlo.TRef.unary (.of main_c_8 : StableHlo.TRef sig ⟨S_, .i32⟩) main_call1.v0 id,
    StableHlo.TRef.unary main_call1.v0 main_call1.v1 (broadcastInDim S32x50 ![] bcast_S_S32x50),
    StableHlo.TRef.ternary (.of main_v34 : StableHlo.TRef sig ⟨S32x50, .i1⟩) (.of main_v39 : StableHlo.TRef sig ⟨S32x50, .i32⟩) main_call1.v1 main_call1.v2 select,
    StableHlo.unary main_v40 main_v41 (broadcastInDim S32x50x1 ![0, 1] bcast_S32x50_S32x50x1_0_1 : Vec F S32x50 .i32 → Vec F S32x50x1 .i32),
    StableHlo.TRef.nullary main_call2.c (constantI S_ 32 0#32),
    StableHlo.TRef.unary main_call2.c main_call2.v0 (broadcastInDim S32x50x1 ![] bcast_S_S32x50x1),
    StableHlo.TRef.binary (.of main_v41 : StableHlo.TRef sig ⟨S32x50x1, .i32⟩) main_call2.v0 main_call2.v1 (cmpi .slt),
    StableHlo.TRef.nullary main_call2.c_0 (constantI S_ 32 8400#32),
    StableHlo.TRef.unary main_call2.c_0 main_call2.v2 (broadcastInDim S32x50x1 ![] bcast_S_S32x50x1),
    StableHlo.TRef.binary (.of main_v41 : StableHlo.TRef sig ⟨S32x50x1, .i32⟩) main_call2.v2 main_call2.v3 addi,
    StableHlo.TRef.ternary main_call2.v1 main_call2.v3 (.of main_v41 : StableHlo.TRef sig ⟨S32x50x1, .i32⟩) main_call2.v4 select,
    StableHlo.TRef.nullary main_call2.c_1 (constantI S1 32 8399#32),
    StableHlo.TRef.nullary main_call2.c_2 (constantI S_ 32 0#32),
    StableHlo.TRef.unary main_call2.c_2 main_call2.v5 (broadcastInDim S32x50x1 ![] bcast_S_S32x50x1),
    StableHlo.TRef.binary main_call2.v4 main_call2.v5 main_call2.v6 (cmpi .sge),
    StableHlo.TRef.unary main_call2.c_1 main_call2.v7 (broadcastInDim S1x1x1 ![2] bcast_S1_S1x1x1_2),
    StableHlo.TRef.unary main_call2.v7 main_call2.v8 (broadcastInDim S32x50x1 ![0, 1, 2] bcast_S1x1x1_S32x50x1_0_1_2),
    StableHlo.TRef.binary main_call2.v4 main_call2.v8 main_call2.v9 (cmpi .sle),
    StableHlo.TRef.binary main_call2.v6 main_call2.v9 main_call2.v10 andi,
    StableHlo.TRef.nullary main_call2.c_3 (constantI S_ 1 1#1),
    StableHlo.TRef.binary main_call2.v10 main_call2.c_3 main_call2.v11 (fun x v => Host.reduce IntOp.andi x v reducesTo_S32x50x1_S32x50_d2 h_S_),
    StableHlo.TRef.binary (.of main_arg0 : StableHlo.TRef sig ⟨S32x8400x4, .f32⟩) main_call2.v4 main_call2.v12 (fun x i => Host.gather gather_S32x8400x4_S32x50x1_S32x50x4_2_1_0_0_1_2_114 x i),
    StableHlo.TRef.unary main_call2.v11 main_call2.v13 (broadcastInDim S32x50x4 ![0, 1] bcast_S32x50_S32x50x4_0_1),
    StableHlo.TRef.nullary main_call2.cst (constant S_ .f32 0x7FC00000#32),
    StableHlo.TRef.unary main_call2.cst main_call2.v14 (broadcastInDim S32x50x4 ![] bcast_S_S32x50x4),
    StableHlo.TRef.ternary main_call2.v13 main_call2.v12 main_call2.v14 main_call2.v15 select,
    StableHlo.unary main_v40 main_v43 (broadcastInDim S32x50x1 ![0, 1] bcast_S32x50_S32x50x1_0_1 : Vec F S32x50 .i32 → Vec F S32x50x1 .i32),
    StableHlo.TRef.nullary main_call3.c (constantI S_ 32 0#32),
    StableHlo.TRef.unary main_call3.c main_call3.v0 (broadcastInDim S32x50x1 ![] bcast_S_S32x50x1),
    StableHlo.TRef.binary (.of main_v43 : StableHlo.TRef sig ⟨S32x50x1, .i32⟩) main_call3.v0 main_call3.v1 (cmpi .slt),
    StableHlo.TRef.nullary main_call3.c_0 (constantI S_ 32 8400#32),
    StableHlo.TRef.unary main_call3.c_0 main_call3.v2 (broadcastInDim S32x50x1 ![] bcast_S_S32x50x1),
    StableHlo.TRef.binary (.of main_v43 : StableHlo.TRef sig ⟨S32x50x1, .i32⟩) main_call3.v2 main_call3.v3 addi,
    StableHlo.TRef.ternary main_call3.v1 main_call3.v3 (.of main_v43 : StableHlo.TRef sig ⟨S32x50x1, .i32⟩) main_call3.v4 select,
    StableHlo.TRef.nullary main_call3.c_1 (constantI S1 32 8399#32),
    StableHlo.TRef.nullary main_call3.c_2 (constantI S_ 32 0#32),
    StableHlo.TRef.unary main_call3.c_2 main_call3.v5 (broadcastInDim S32x50x1 ![] bcast_S_S32x50x1),
    StableHlo.TRef.binary main_call3.v4 main_call3.v5 main_call3.v6 (cmpi .sge),
    StableHlo.TRef.unary main_call3.c_1 main_call3.v7 (broadcastInDim S1x1x1 ![2] bcast_S1_S1x1x1_2),
    StableHlo.TRef.unary main_call3.v7 main_call3.v8 (broadcastInDim S32x50x1 ![0, 1, 2] bcast_S1x1x1_S32x50x1_0_1_2),
    StableHlo.TRef.binary main_call3.v4 main_call3.v8 main_call3.v9 (cmpi .sle),
    StableHlo.TRef.binary main_call3.v6 main_call3.v9 main_call3.v10 andi,
    StableHlo.TRef.nullary main_call3.c_3 (constantI S_ 1 1#1),
    StableHlo.TRef.binary main_call3.v10 main_call3.c_3 main_call3.v11 (fun x v => Host.reduce IntOp.andi x v reducesTo_S32x50x1_S32x50_d2 h_S_),
    StableHlo.TRef.binary (.of main_arg1 : StableHlo.TRef sig ⟨S32x8400x80, .f32⟩) main_call3.v4 main_call3.v12 (fun x i => Host.gather gather_S32x8400x80_S32x50x1_S32x50x80_2_1_0_0_1_2_1180 x i),
    StableHlo.TRef.unary main_call3.v11 main_call3.v13 (broadcastInDim S32x50x80 ![0, 1] bcast_S32x50_S32x50x80_0_1),
    StableHlo.TRef.nullary main_call3.cst (constant S_ .f32 0x7FC00000#32),
    StableHlo.TRef.unary main_call3.cst main_call3.v14 (broadcastInDim S32x50x80 ![] bcast_S_S32x50x80),
    StableHlo.TRef.ternary main_call3.v13 main_call3.v12 main_call3.v14 main_call3.v15 select ]

abbrev ops_s0_box : List (HloOp τ sig (Elt F)) :=
  [ StableHlo.unary main_v42 main_v45 ((extractStridedSlice S32x50x1 ![0, 0, 0] · slices_S32x50x4_S32x50x1_0_0_0) : Vec F S32x50x4 .f32 → Vec F S32x50x1 .f32),
    StableHlo.reshape main_v45 main_v46 rfl shapeCasts_S32x50x1_S32x50,
    StableHlo.unary main_arg2 main_v47 ((extractStridedSlice S32x50x1 ![0, 0, 0] · slices_S32x50x4_S32x50x1_0_0_0) : Vec F S32x50x4 .f32 → Vec F S32x50x1 .f32),
    StableHlo.reshape main_v47 main_v48 rfl shapeCasts_S32x50x1_S32x50,
    StableHlo.binary main_v46 main_v48 main_v49 (maximumf : Vec F S32x50 .f32 → Vec F S32x50 .f32 → Vec F S32x50 .f32),
    StableHlo.unary main_v42 main_v50 ((extractStridedSlice S32x50x1 ![0, 0, 1] · slices_S32x50x4_S32x50x1_0_0_1) : Vec F S32x50x4 .f32 → Vec F S32x50x1 .f32),
    StableHlo.reshape main_v50 main_v51 rfl shapeCasts_S32x50x1_S32x50,
    StableHlo.unary main_arg2 main_v52 ((extractStridedSlice S32x50x1 ![0, 0, 1] · slices_S32x50x4_S32x50x1_0_0_1) : Vec F S32x50x4 .f32 → Vec F S32x50x1 .f32),
    StableHlo.reshape main_v52 main_v53 rfl shapeCasts_S32x50x1_S32x50,
    StableHlo.binary main_v51 main_v53 main_v54 (maximumf : Vec F S32x50 .f32 → Vec F S32x50 .f32 → Vec F S32x50 .f32),
    StableHlo.unary main_v42 main_v55 ((extractStridedSlice S32x50x1 ![0, 0, 2] · slices_S32x50x4_S32x50x1_0_0_2) : Vec F S32x50x4 .f32 → Vec F S32x50x1 .f32),
    StableHlo.reshape main_v55 main_v56 rfl shapeCasts_S32x50x1_S32x50,
    StableHlo.unary main_arg2 main_v57 ((extractStridedSlice S32x50x1 ![0, 0, 2] · slices_S32x50x4_S32x50x1_0_0_2) : Vec F S32x50x4 .f32 → Vec F S32x50x1 .f32),
    StableHlo.reshape main_v57 main_v58 rfl shapeCasts_S32x50x1_S32x50,
    StableHlo.binary main_v56 main_v58 main_v59 (minimumf : Vec F S32x50 .f32 → Vec F S32x50 .f32 → Vec F S32x50 .f32),
    StableHlo.unary main_v42 main_v60 ((extractStridedSlice S32x50x1 ![0, 0, 3] · slices_S32x50x4_S32x50x1_0_0_3) : Vec F S32x50x4 .f32 → Vec F S32x50x1 .f32),
    StableHlo.reshape main_v60 main_v61 rfl shapeCasts_S32x50x1_S32x50,
    StableHlo.unary main_arg2 main_v62 ((extractStridedSlice S32x50x1 ![0, 0, 3] · slices_S32x50x4_S32x50x1_0_0_3) : Vec F S32x50x4 .f32 → Vec F S32x50x1 .f32),
    StableHlo.reshape main_v62 main_v63 rfl shapeCasts_S32x50x1_S32x50,
    StableHlo.binary main_v61 main_v63 main_v64 (minimumf : Vec F S32x50 .f32 → Vec F S32x50 .f32 → Vec F S32x50 .f32),
    StableHlo.binary main_v59 main_v49 main_v65 (subf : Vec F S32x50 .f32 → Vec F S32x50 .f32 → Vec F S32x50 .f32),
    StableHlo.nullary main_cst_9 (constant S_ .f32 0x00000000#32),
    StableHlo.TRef.unary (.of main_cst_9 : StableHlo.TRef sig ⟨S_, .f32⟩) main_call4.v0 id,
    StableHlo.TRef.unary main_call4.v0 main_call4.v1 (broadcastInDim S32x50 ![] bcast_S_S32x50),
    StableHlo.TRef.binary main_call4.v1 (.of main_v65 : StableHlo.TRef sig ⟨S32x50, .f32⟩) main_call4.v2 maximumf,
    StableHlo.binary main_v64 main_v54 main_v67 (subf : Vec F S32x50 .f32 → Vec F S32x50 .f32 → Vec F S32x50 .f32),
    StableHlo.nullary main_cst_10 (constant S_ .f32 0x00000000#32),
    StableHlo.TRef.unary (.of main_cst_10 : StableHlo.TRef sig ⟨S_, .f32⟩) main_call5.v0 id,
    StableHlo.TRef.unary main_call5.v0 main_call5.v1 (broadcastInDim S32x50 ![] bcast_S_S32x50),
    StableHlo.TRef.binary main_call5.v1 (.of main_v67 : StableHlo.TRef sig ⟨S32x50, .f32⟩) main_call5.v2 maximumf,
    StableHlo.binary main_v66 main_v68 main_v69 (mulf : Vec F S32x50 .f32 → Vec F S32x50 .f32 → Vec F S32x50 .f32),
    StableHlo.unary main_v42 main_v70 ((extractStridedSlice S32x50x1 ![0, 0, 2] · slices_S32x50x4_S32x50x1_0_0_2) : Vec F S32x50x4 .f32 → Vec F S32x50x1 .f32),
    StableHlo.reshape main_v70 main_v71 rfl shapeCasts_S32x50x1_S32x50,
    StableHlo.unary main_v42 main_v72 ((extractStridedSlice S32x50x1 ![0, 0, 0] · slices_S32x50x4_S32x50x1_0_0_0) : Vec F S32x50x4 .f32 → Vec F S32x50x1 .f32),
    StableHlo.reshape main_v72 main_v73 rfl shapeCasts_S32x50x1_S32x50,
    StableHlo.binary main_v71 main_v73 main_v74 (subf : Vec F S32x50 .f32 → Vec F S32x50 .f32 → Vec F S32x50 .f32),
    StableHlo.unary main_v42 main_v75 ((extractStridedSlice S32x50x1 ![0, 0, 3] · slices_S32x50x4_S32x50x1_0_0_3) : Vec F S32x50x4 .f32 → Vec F S32x50x1 .f32),
    StableHlo.reshape main_v75 main_v76 rfl shapeCasts_S32x50x1_S32x50,
    StableHlo.unary main_v42 main_v77 ((extractStridedSlice S32x50x1 ![0, 0, 1] · slices_S32x50x4_S32x50x1_0_0_1) : Vec F S32x50x4 .f32 → Vec F S32x50x1 .f32),
    StableHlo.reshape main_v77 main_v78 rfl shapeCasts_S32x50x1_S32x50,
    StableHlo.binary main_v76 main_v78 main_v79 (subf : Vec F S32x50 .f32 → Vec F S32x50 .f32 → Vec F S32x50 .f32),
    StableHlo.binary main_v74 main_v79 main_v80 (mulf : Vec F S32x50 .f32 → Vec F S32x50 .f32 → Vec F S32x50 .f32),
    StableHlo.unary main_arg2 main_v81 ((extractStridedSlice S32x50x1 ![0, 0, 2] · slices_S32x50x4_S32x50x1_0_0_2) : Vec F S32x50x4 .f32 → Vec F S32x50x1 .f32),
    StableHlo.reshape main_v81 main_v82 rfl shapeCasts_S32x50x1_S32x50,
    StableHlo.unary main_arg2 main_v83 ((extractStridedSlice S32x50x1 ![0, 0, 0] · slices_S32x50x4_S32x50x1_0_0_0) : Vec F S32x50x4 .f32 → Vec F S32x50x1 .f32),
    StableHlo.reshape main_v83 main_v84 rfl shapeCasts_S32x50x1_S32x50,
    StableHlo.binary main_v82 main_v84 main_v85 (subf : Vec F S32x50 .f32 → Vec F S32x50 .f32 → Vec F S32x50 .f32),
    StableHlo.unary main_arg2 main_v86 ((extractStridedSlice S32x50x1 ![0, 0, 3] · slices_S32x50x4_S32x50x1_0_0_3) : Vec F S32x50x4 .f32 → Vec F S32x50x1 .f32),
    StableHlo.reshape main_v86 main_v87 rfl shapeCasts_S32x50x1_S32x50,
    StableHlo.unary main_arg2 main_v88 ((extractStridedSlice S32x50x1 ![0, 0, 1] · slices_S32x50x4_S32x50x1_0_0_1) : Vec F S32x50x4 .f32 → Vec F S32x50x1 .f32),
    StableHlo.reshape main_v88 main_v89 rfl shapeCasts_S32x50x1_S32x50,
    StableHlo.binary main_v87 main_v89 main_v90 (subf : Vec F S32x50 .f32 → Vec F S32x50 .f32 → Vec F S32x50 .f32),
    StableHlo.binary main_v85 main_v90 main_v91 (mulf : Vec F S32x50 .f32 → Vec F S32x50 .f32 → Vec F S32x50 .f32),
    StableHlo.binary main_v80 main_v91 main_v92 (addf : Vec F S32x50 .f32 → Vec F S32x50 .f32 → Vec F S32x50 .f32),
    StableHlo.binary main_v92 main_v69 main_v93 (subf : Vec F S32x50 .f32 → Vec F S32x50 .f32 → Vec F S32x50 .f32),
    StableHlo.binary main_v69 main_v93 main_v94 (Host.divf : Vec F S32x50 .f32 → Vec F S32x50 .f32 → Vec F S32x50 .f32),
    StableHlo.unary main_v42 main_v95 ((extractStridedSlice S32x50x1 ![0, 0, 0] · slices_S32x50x4_S32x50x1_0_0_0) : Vec F S32x50x4 .f32 → Vec F S32x50x1 .f32),
    StableHlo.reshape main_v95 main_v96 rfl shapeCasts_S32x50x1_S32x50,
    StableHlo.unary main_arg2 main_v97 ((extractStridedSlice S32x50x1 ![0, 0, 0] · slices_S32x50x4_S32x50x1_0_0_0) : Vec F S32x50x4 .f32 → Vec F S32x50x1 .f32),
    StableHlo.reshape main_v97 main_v98 rfl shapeCasts_S32x50x1_S32x50,
    StableHlo.binary main_v96 main_v98 main_v99 (minimumf : Vec F S32x50 .f32 → Vec F S32x50 .f32 → Vec F S32x50 .f32),
    StableHlo.unary main_v42 main_v100 ((extractStridedSlice S32x50x1 ![0, 0, 1] · slices_S32x50x4_S32x50x1_0_0_1) : Vec F S32x50x4 .f32 → Vec F S32x50x1 .f32),
    StableHlo.reshape main_v100 main_v101 rfl shapeCasts_S32x50x1_S32x50,
    StableHlo.unary main_arg2 main_v102 ((extractStridedSlice S32x50x1 ![0, 0, 1] · slices_S32x50x4_S32x50x1_0_0_1) : Vec F S32x50x4 .f32 → Vec F S32x50x1 .f32),
    StableHlo.reshape main_v102 main_v103 rfl shapeCasts_S32x50x1_S32x50,
    StableHlo.binary main_v101 main_v103 main_v104 (minimumf : Vec F S32x50 .f32 → Vec F S32x50 .f32 → Vec F S32x50 .f32),
    StableHlo.unary main_v42 main_v105 ((extractStridedSlice S32x50x1 ![0, 0, 2] · slices_S32x50x4_S32x50x1_0_0_2) : Vec F S32x50x4 .f32 → Vec F S32x50x1 .f32),
    StableHlo.reshape main_v105 main_v106 rfl shapeCasts_S32x50x1_S32x50,
    StableHlo.unary main_arg2 main_v107 ((extractStridedSlice S32x50x1 ![0, 0, 2] · slices_S32x50x4_S32x50x1_0_0_2) : Vec F S32x50x4 .f32 → Vec F S32x50x1 .f32),
    StableHlo.reshape main_v107 main_v108 rfl shapeCasts_S32x50x1_S32x50,
    StableHlo.binary main_v106 main_v108 main_v109 (maximumf : Vec F S32x50 .f32 → Vec F S32x50 .f32 → Vec F S32x50 .f32),
    StableHlo.unary main_v42 main_v110 ((extractStridedSlice S32x50x1 ![0, 0, 3] · slices_S32x50x4_S32x50x1_0_0_3) : Vec F S32x50x4 .f32 → Vec F S32x50x1 .f32),
    StableHlo.reshape main_v110 main_v111 rfl shapeCasts_S32x50x1_S32x50,
    StableHlo.unary main_arg2 main_v112 ((extractStridedSlice S32x50x1 ![0, 0, 3] · slices_S32x50x4_S32x50x1_0_0_3) : Vec F S32x50x4 .f32 → Vec F S32x50x1 .f32),
    StableHlo.reshape main_v112 main_v113 rfl shapeCasts_S32x50x1_S32x50,
    StableHlo.binary main_v111 main_v113 main_v114 (maximumf : Vec F S32x50 .f32 → Vec F S32x50 .f32 → Vec F S32x50 .f32),
    StableHlo.binary main_v109 main_v99 main_v115 (subf : Vec F S32x50 .f32 → Vec F S32x50 .f32 → Vec F S32x50 .f32),
    StableHlo.binary main_v114 main_v104 main_v116 (subf : Vec F S32x50 .f32 → Vec F S32x50 .f32 → Vec F S32x50 .f32),
    StableHlo.binary main_v115 main_v116 main_v117 (mulf : Vec F S32x50 .f32 → Vec F S32x50 .f32 → Vec F S32x50 .f32),
    StableHlo.binary main_v117 main_v93 main_v118 (subf : Vec F S32x50 .f32 → Vec F S32x50 .f32 → Vec F S32x50 .f32),
    StableHlo.binary main_v118 main_v117 main_v119 (Host.divf : Vec F S32x50 .f32 → Vec F S32x50 .f32 → Vec F S32x50 .f32),
    StableHlo.binary main_v94 main_v119 main_v120 (subf : Vec F S32x50 .f32 → Vec F S32x50 .f32 → Vec F S32x50 .f32),
    StableHlo.nullary main_cst_11 (constant S_ .f32 0x3F800000#32),
    StableHlo.unary main_cst_11 main_v121 (broadcastInDim S32x50 ![] bcast_S_S32x50 : Vec F S_ .f32 → Vec F S32x50 .f32),
    StableHlo.binary main_v121 main_v120 main_v122 (subf : Vec F S32x50 .f32 → Vec F S32x50 .f32 → Vec F S32x50 .f32),
    StableHlo.nullary main_cst_12 (constant S_ .f32 0x00000000#32),
    StableHlo.TRef.unary (.of main_cst_12 : StableHlo.TRef sig ⟨S_, .f32⟩) main_call6.v0 id,
    StableHlo.TRef.unary main_call6.v0 main_call6.v1 (broadcastInDim S32x50 ![] bcast_S_S32x50),
    StableHlo.TRef.ternary (.of main_v34 : StableHlo.TRef sig ⟨S32x50, .i1⟩) (.of main_v122 : StableHlo.TRef sig ⟨S32x50, .f32⟩) main_call6.v1 main_call6.v2 select,
    StableHlo.nullary main_cst_13 (constant S_ .f32 0x00000000#32),
    StableHlo.binary main_v123 main_cst_13 main_v124 ((fun x v => Host.reduceAdd x v reducesTo_S32x50_S_d0_1 h_S_) : Vec F S32x50 .f32 → Vec F S_ .f32 → Vec F S_ .f32),
    StableHlo.nullary main_cst_14 (constant S_ .f32 0x00000000#32),
    StableHlo.binary main_cst_14 main_v124 main_v125 (addf : Vec F S_ .f32 → Vec F S_ .f32 → Vec F S_ .f32) ]

abbrev ops_s0_cls : List (HloOp τ sig (Elt F)) :=
  [ StableHlo.TRef.unary (.of main_v44 : StableHlo.TRef sig ⟨S32x50x80, .f32⟩) main_call7.v0 Host.negf,
    StableHlo.TRef.nullary main_call7.call0.cst (constant S_ .f32 0x00000000#32),
    StableHlo.TRef.unary main_call7.call0.cst main_call7.call0.v0 (broadcastInDim S32x50x80 ![] bcast_S_S32x50x80),
    StableHlo.TRef.binary main_call7.v0 main_call7.call0.v0 main_call7.call0.v1 maximumf,
    StableHlo.TRef.unary main_call7.call0.cst main_call7.call0.v2 (broadcastInDim S32x50x80 ![] bcast_S_S32x50x80),
    StableHlo.TRef.binary main_call7.v0 main_call7.call0.v2 main_call7.call0.v3 subf,
    StableHlo.TRef.binary main_call7.call0.v3 main_call7.call0.v3 main_call7.call0.v4 (cmpf .une),
    StableHlo.TRef.unary main_call7.call0.cst main_call7.call0.v5 (broadcastInDim S32x50x80 ![] bcast_S_S32x50x80),
    StableHlo.TRef.binary main_call7.v0 main_call7.call0.v5 main_call7.call0.v6 addf,
    StableHlo.TRef.unary main_call7.call0.v3 main_call7.call0.v7 Host.absf,
    StableHlo.TRef.unary main_call7.call0.v7 main_call7.call0.v8 Host.negf,
    StableHlo.TRef.unary main_call7.call0.v8 main_call7.call0.v9 Host.exp,
    StableHlo.TRef.unary main_call7.call0.v9 main_call7.call0.v10 Host.log1p,
    StableHlo.TRef.binary main_call7.call0.v1 main_call7.call0.v10 main_call7.call0.v11 addf,
    StableHlo.TRef.ternary main_call7.call0.v4 main_call7.call0.v6 main_call7.call0.v11 main_call7.call0.v12 select,
    StableHlo.TRef.unary main_call7.call0.v12 main_call7.v2 Host.negf,
    StableHlo.binary main_v14 main_v126 main_v127 (mulf : Vec F S32x50x80 .f32 → Vec F S32x50x80 .f32 → Vec F S32x50x80 .f32),
    StableHlo.nullary main_cst_15 (constant S_ .f32 0x3F800000#32),
    StableHlo.unary main_cst_15 main_v128 (broadcastInDim S32x50x80 ![] bcast_S_S32x50x80 : Vec F S_ .f32 → Vec F S32x50x80 .f32),
    StableHlo.binary main_v128 main_v14 main_v129 (subf : Vec F S32x50x80 .f32 → Vec F S32x50x80 .f32 → Vec F S32x50x80 .f32),
    StableHlo.unary main_v44 main_v130 (Host.negf : Vec F S32x50x80 .f32 → Vec F S32x50x80 .f32),
    StableHlo.TRef.unary (.of main_v130 : StableHlo.TRef sig ⟨S32x50x80, .f32⟩) main_call8.v0 Host.negf,
    StableHlo.TRef.nullary main_call8.call0.cst (constant S_ .f32 0x00000000#32),
    StableHlo.TRef.unary main_call8.call0.cst main_call8.call0.v0 (broadcastInDim S32x50x80 ![] bcast_S_S32x50x80),
    StableHlo.TRef.binary main_call8.v0 main_call8.call0.v0 main_call8.call0.v1 maximumf,
    StableHlo.TRef.unary main_call8.call0.cst main_call8.call0.v2 (broadcastInDim S32x50x80 ![] bcast_S_S32x50x80),
    StableHlo.TRef.binary main_call8.v0 main_call8.call0.v2 main_call8.call0.v3 subf,
    StableHlo.TRef.binary main_call8.call0.v3 main_call8.call0.v3 main_call8.call0.v4 (cmpf .une),
    StableHlo.TRef.unary main_call8.call0.cst main_call8.call0.v5 (broadcastInDim S32x50x80 ![] bcast_S_S32x50x80),
    StableHlo.TRef.binary main_call8.v0 main_call8.call0.v5 main_call8.call0.v6 addf,
    StableHlo.TRef.unary main_call8.call0.v3 main_call8.call0.v7 Host.absf,
    StableHlo.TRef.unary main_call8.call0.v7 main_call8.call0.v8 Host.negf,
    StableHlo.TRef.unary main_call8.call0.v8 main_call8.call0.v9 Host.exp,
    StableHlo.TRef.unary main_call8.call0.v9 main_call8.call0.v10 Host.log1p,
    StableHlo.TRef.binary main_call8.call0.v1 main_call8.call0.v10 main_call8.call0.v11 addf,
    StableHlo.TRef.ternary main_call8.call0.v4 main_call8.call0.v6 main_call8.call0.v11 main_call8.call0.v12 select,
    StableHlo.TRef.unary main_call8.call0.v12 main_call8.v2 Host.negf,
    StableHlo.binary main_v129 main_v131 main_v132 (mulf : Vec F S32x50x80 .f32 → Vec F S32x50x80 .f32 → Vec F S32x50x80 .f32),
    StableHlo.binary main_v127 main_v132 main_v133 (addf : Vec F S32x50x80 .f32 → Vec F S32x50x80 .f32 → Vec F S32x50x80 .f32),
    StableHlo.unary main_v133 main_v134 (Host.negf : Vec F S32x50x80 .f32 → Vec F S32x50x80 .f32),
    StableHlo.unary main_v44 main_v135 (Host.negf : Vec F S32x50x80 .f32 → Vec F S32x50x80 .f32),
    StableHlo.unary main_v135 main_v136 (Host.exp : Vec F S32x50x80 .f32 → Vec F S32x50x80 .f32),
    StableHlo.nullary main_cst_16 (constant S_ .f32 0x3F800000#32),
    StableHlo.unary main_cst_16 main_v137 (broadcastInDim S32x50x80 ![] bcast_S_S32x50x80 : Vec F S_ .f32 → Vec F S32x50x80 .f32),
    StableHlo.binary main_v137 main_v136 main_v138 (addf : Vec F S32x50x80 .f32 → Vec F S32x50x80 .f32 → Vec F S32x50x80 .f32),
    StableHlo.nullary main_cst_17 (constant S_ .f32 0x3F800000#32),
    StableHlo.unary main_cst_17 main_v139 (broadcastInDim S32x50x80 ![] bcast_S_S32x50x80 : Vec F S_ .f32 → Vec F S32x50x80 .f32),
    StableHlo.binary main_v139 main_v138 main_v140 (Host.divf : Vec F S32x50x80 .f32 → Vec F S32x50x80 .f32 → Vec F S32x50x80 .f32),
    StableHlo.binary main_v140 main_v14 main_v141 (mulf : Vec F S32x50x80 .f32 → Vec F S32x50x80 .f32 → Vec F S32x50x80 .f32),
    StableHlo.nullary main_cst_18 (constant S_ .f32 0x3F800000#32),
    StableHlo.unary main_cst_18 main_v142 (broadcastInDim S32x50x80 ![] bcast_S_S32x50x80 : Vec F S_ .f32 → Vec F S32x50x80 .f32),
    StableHlo.binary main_v142 main_v140 main_v143 (subf : Vec F S32x50x80 .f32 → Vec F S32x50x80 .f32 → Vec F S32x50x80 .f32),
    StableHlo.nullary main_cst_19 (constant S_ .f32 0x3F800000#32),
    StableHlo.unary main_cst_19 main_v144 (broadcastInDim S32x50x80 ![] bcast_S_S32x50x80 : Vec F S_ .f32 → Vec F S32x50x80 .f32),
    StableHlo.binary main_v144 main_v14 main_v145 (subf : Vec F S32x50x80 .f32 → Vec F S32x50x80 .f32 → Vec F S32x50x80 .f32),
    StableHlo.binary main_v143 main_v145 main_v146 (mulf : Vec F S32x50x80 .f32 → Vec F S32x50x80 .f32 → Vec F S32x50x80 .f32),
    StableHlo.binary main_v141 main_v146 main_v147 (addf : Vec F S32x50x80 .f32 → Vec F S32x50x80 .f32 → Vec F S32x50x80 .f32),
    StableHlo.nullary main_cst_20 (constant S_ .f32 0x3E800000#32),
    StableHlo.unary main_cst_20 main_v148 (broadcastInDim S32x50x80 ![] bcast_S_S32x50x80 : Vec F S_ .f32 → Vec F S32x50x80 .f32),
    StableHlo.binary main_v148 main_v14 main_v149 (mulf : Vec F S32x50x80 .f32 → Vec F S32x50x80 .f32 → Vec F S32x50x80 .f32),
    StableHlo.nullary main_cst_21 (constant S_ .f32 0x3F800000#32),
    StableHlo.unary main_cst_21 main_v150 (broadcastInDim S32x50x80 ![] bcast_S_S32x50x80 : Vec F S_ .f32 → Vec F S32x50x80 .f32),
    StableHlo.binary main_v150 main_v14 main_v151 (subf : Vec F S32x50x80 .f32 → Vec F S32x50x80 .f32 → Vec F S32x50x80 .f32),
    StableHlo.nullary main_cst_22 (constant S_ .f32 0x3F400000#32),
    StableHlo.unary main_cst_22 main_v152 (broadcastInDim S32x50x80 ![] bcast_S_S32x50x80 : Vec F S_ .f32 → Vec F S32x50x80 .f32),
    StableHlo.binary main_v152 main_v151 main_v153 (mulf : Vec F S32x50x80 .f32 → Vec F S32x50x80 .f32 → Vec F S32x50x80 .f32),
    StableHlo.binary main_v149 main_v153 main_v154 (addf : Vec F S32x50x80 .f32 → Vec F S32x50x80 .f32 → Vec F S32x50x80 .f32),
    StableHlo.nullary main_cst_23 (constant S_ .f32 0x3F800000#32),
    StableHlo.unary main_cst_23 main_v155 (broadcastInDim S32x50x80 ![] bcast_S_S32x50x80 : Vec F S_ .f32 → Vec F S32x50x80 .f32),
    StableHlo.binary main_v155 main_v147 main_v156 (subf : Vec F S32x50x80 .f32 → Vec F S32x50x80 .f32 → Vec F S32x50x80 .f32),
    StableHlo.nullary main_cst_24 (constant S_ .f32 0x40000000#32),
    StableHlo.unary main_cst_24 main_v157 (broadcastInDim S32x50x80 ![] bcast_S_S32x50x80 : Vec F S_ .f32 → Vec F S32x50x80 .f32),
    StableHlo.binary main_v156 main_v157 main_v158 (Host.powf : Vec F S32x50x80 .f32 → Vec F S32x50x80 .f32 → Vec F S32x50x80 .f32),
    StableHlo.binary main_v154 main_v158 main_v159 (mulf : Vec F S32x50x80 .f32 → Vec F S32x50x80 .f32 → Vec F S32x50x80 .f32),
    StableHlo.binary main_v159 main_v134 main_v160 (mulf : Vec F S32x50x80 .f32 → Vec F S32x50x80 .f32 → Vec F S32x50x80 .f32),
    StableHlo.nullary main_cst_25 (constant S_ .f32 0x00000000#32),
    StableHlo.binary main_v160 main_cst_25 main_v161 ((fun x v => Host.reduceAdd x v reducesTo_S32x50x80_S32x50_d2 h_S_) : Vec F S32x50x80 .f32 → Vec F S_ .f32 → Vec F S32x50 .f32),
    StableHlo.nullary main_cst_26 (constant S_ .f32 0x00000000#32),
    StableHlo.TRef.unary (.of main_cst_26 : StableHlo.TRef sig ⟨S_, .f32⟩) main_call9.v0 id,
    StableHlo.TRef.unary main_call9.v0 main_call9.v1 (broadcastInDim S32x50 ![] bcast_S_S32x50),
    StableHlo.TRef.ternary (.of main_v34 : StableHlo.TRef sig ⟨S32x50, .i1⟩) (.of main_v161 : StableHlo.TRef sig ⟨S32x50, .f32⟩) main_call9.v1 main_call9.v2 select,
    StableHlo.nullary main_cst_27 (constant S_ .f32 0x00000000#32),
    StableHlo.binary main_v162 main_cst_27 main_v163 ((fun x v => Host.reduceAdd x v reducesTo_S32x50_S_d0_1 h_S_) : Vec F S32x50 .f32 → Vec F S_ .f32 → Vec F S_ .f32),
    StableHlo.nullary main_cst_28 (constant S_ .f32 0x00000000#32),
    StableHlo.binary main_cst_28 main_v163 main_v164 (addf : Vec F S_ .f32 → Vec F S_ .f32 → Vec F S_ .f32) ]

abbrev ops_s0_cnt : List (HloOp τ sig (Elt F)) :=
  [ StableHlo.unary main_v34 main_v165 ((extui 32 · natLt_1_32) : Vec F S32x50 .i1 → Vec F S32x50 .i32),
    StableHlo.nullary main_c_29 (constantI S_ 32 0#32),
    StableHlo.binary main_v165 main_c_29 main_v166 ((fun x v => Host.reduce IntOp.addi x v reducesTo_S32x50_S_d0_1 h_S_) : Vec F S32x50 .i32 → Vec F S_ .i32 → Vec F S_ .i32),
    StableHlo.nullary main_c_30 (constantI S_ 32 0#32),
    StableHlo.binary main_c_30 main_v166 main_v167 (addi : Vec F S_ .i32 → Vec F S_ .i32 → Vec F S_ .i32) ]

abbrev ops_s1_idx : List (HloOp τ sig (Elt F)) :=
  [ StableHlo.nullary main_cst_31 (constant S_ .f32 0x41800000#32),
    StableHlo.unary main_cst_31 main_v168 (broadcastInDim S32x50 ![] bcast_S_S32x50 : Vec F S_ .f32 → Vec F S32x50 .f32),
    StableHlo.binary main_v6 main_v168 main_v169 (Host.divf : Vec F S32x50 .f32 → Vec F S32x50 .f32 → Vec F S32x50 .f32),
    StableHlo.unary main_v169 main_v170 (Host.floor : Vec F S32x50 .f32 → Vec F S32x50 .f32),
    StableHlo.unary main_v170 main_v171 (fptosi 32 : Vec F S32x50 .f32 → Vec F S32x50 .i32),
    StableHlo.nullary main_cst_32 (constant S_ .f32 0x41800000#32),
    StableHlo.unary main_cst_32 main_v172 (broadcastInDim S32x50 ![] bcast_S_S32x50 : Vec F S_ .f32 → Vec F S32x50 .f32),
    StableHlo.binary main_v13 main_v172 main_v173 (Host.divf : Vec F S32x50 .f32 → Vec F S32x50 .f32 → Vec F S32x50 .f32),
    StableHlo.unary main_v173 main_v174 (Host.floor : Vec F S32x50 .f32 → Vec F S32x50 .f32),
    StableHlo.unary main_v174 main_v175 (fptosi 32 : Vec F S32x50 .f32 → Vec F S32x50 .i32),
    StableHlo.nullary main_c_33 (constantI S_ 32 0#32),
    StableHlo.unary main_c_33 main_v176 (broadcastInDim S32x50 ![] bcast_S_S32x50 : Vec F S_ .i32 → Vec F S32x50 .i32),
    StableHlo.binary main_v171 main_v176 main_v177 (cmpi .sge : Vec F S32x50 .i32 → Vec F S32x50 .i32 → Vec F S32x50 .i1),
    StableHlo.binary main_arg4 main_v177 main_v178 (andi : Vec F S32x50 .i1 → Vec F S32x50 .i1 → Vec F S32x50 .i1),
    StableHlo.nullary main_c_34 (constantI S_ 32 0#32),
    StableHlo.unary main_c_34 main_v179 (broadcastInDim S32x50 ![] bcast_S_S32x50 : Vec F S_ .i32 → Vec F S32x50 .i32),
    StableHlo.binary main_v175 main_v179 main_v180 (cmpi .sge : Vec F S32x50 .i32 → Vec F S32x50 .i32 → Vec F S32x50 .i1),
    StableHlo.binary main_v178 main_v180 main_v181 (andi : Vec F S32x50 .i1 → Vec F S32x50 .i1 → Vec F S32x50 .i1),
    StableHlo.nullary main_c_35 (constantI S_ 32 40#32),
    StableHlo.unary main_c_35 main_v182 (broadcastInDim S32x50 ![] bcast_S_S32x50 : Vec F S_ .i32 → Vec F S32x50 .i32),
    StableHlo.binary main_v171 main_v182 main_v183 (cmpi .slt : Vec F S32x50 .i32 → Vec F S32x50 .i32 → Vec F S32x50 .i1),
    StableHlo.binary main_v181 main_v183 main_v184 (andi : Vec F S32x50 .i1 → Vec F S32x50 .i1 → Vec F S32x50 .i1),
    StableHlo.nullary main_c_36 (constantI S_ 32 40#32),
    StableHlo.unary main_c_36 main_v185 (broadcastInDim S32x50 ![] bcast_S_S32x50 : Vec F S_ .i32 → Vec F S32x50 .i32),
    StableHlo.binary main_v175 main_v185 main_v186 (cmpi .slt : Vec F S32x50 .i32 → Vec F S32x50 .i32 → Vec F S32x50 .i1),
    StableHlo.binary main_v184 main_v186 main_v187 (andi : Vec F S32x50 .i1 → Vec F S32x50 .i1 → Vec F S32x50 .i1),
    StableHlo.nullary main_c_37 (constantI S_ 32 40#32),
    StableHlo.unary main_c_37 main_v188 (broadcastInDim S32x50 ![] bcast_S_S32x50 : Vec F S_ .i32 → Vec F S32x50 .i32),
    StableHlo.binary main_v175 main_v188 main_v189 (muli : Vec F S32x50 .i32 → Vec F S32x50 .i32 → Vec F S32x50 .i32),
    StableHlo.nullary main_c_38 (constantI S_ 32 6400#32),
    StableHlo.unary main_c_38 main_v190 (broadcastInDim S32x50 ![] bcast_S_S32x50 : Vec F S_ .i32 → Vec F S32x50 .i32),
    StableHlo.binary main_v190 main_v189 main_v191 (addi : Vec F S32x50 .i32 → Vec F S32x50 .i32 → Vec F S32x50 .i32),
    StableHlo.binary main_v191 main_v171 main_v192 (addi : Vec F S32x50 .i32 → Vec F S32x50 .i32 → Vec F S32x50 .i32),
    StableHlo.nullary main_c_39 (constantI S_ 32 0#32),
    StableHlo.TRef.unary (.of main_c_39 : StableHlo.TRef sig ⟨S_, .i32⟩) main_call10.v0 id,
    StableHlo.TRef.unary main_call10.v0 main_call10.v1 (broadcastInDim S32x50 ![] bcast_S_S32x50),
    StableHlo.TRef.ternary (.of main_v187 : StableHlo.TRef sig ⟨S32x50, .i1⟩) (.of main_v192 : StableHlo.TRef sig ⟨S32x50, .i32⟩) main_call10.v1 main_call10.v2 select,
    StableHlo.unary main_v193 main_v194 (broadcastInDim S32x50x1 ![0, 1] bcast_S32x50_S32x50x1_0_1 : Vec F S32x50 .i32 → Vec F S32x50x1 .i32),
    StableHlo.TRef.nullary main_call11.c (constantI S_ 32 0#32),
    StableHlo.TRef.unary main_call11.c main_call11.v0 (broadcastInDim S32x50x1 ![] bcast_S_S32x50x1),
    StableHlo.TRef.binary (.of main_v194 : StableHlo.TRef sig ⟨S32x50x1, .i32⟩) main_call11.v0 main_call11.v1 (cmpi .slt),
    StableHlo.TRef.nullary main_call11.c_0 (constantI S_ 32 8400#32),
    StableHlo.TRef.unary main_call11.c_0 main_call11.v2 (broadcastInDim S32x50x1 ![] bcast_S_S32x50x1),
    StableHlo.TRef.binary (.of main_v194 : StableHlo.TRef sig ⟨S32x50x1, .i32⟩) main_call11.v2 main_call11.v3 addi,
    StableHlo.TRef.ternary main_call11.v1 main_call11.v3 (.of main_v194 : StableHlo.TRef sig ⟨S32x50x1, .i32⟩) main_call11.v4 select,
    StableHlo.TRef.nullary main_call11.c_1 (constantI S1 32 8399#32),
    StableHlo.TRef.nullary main_call11.c_2 (constantI S_ 32 0#32),
    StableHlo.TRef.unary main_call11.c_2 main_call11.v5 (broadcastInDim S32x50x1 ![] bcast_S_S32x50x1),
    StableHlo.TRef.binary main_call11.v4 main_call11.v5 main_call11.v6 (cmpi .sge),
    StableHlo.TRef.unary main_call11.c_1 main_call11.v7 (broadcastInDim S1x1x1 ![2] bcast_S1_S1x1x1_2),
    StableHlo.TRef.unary main_call11.v7 main_call11.v8 (broadcastInDim S32x50x1 ![0, 1, 2] bcast_S1x1x1_S32x50x1_0_1_2),
    StableHlo.TRef.binary main_call11.v4 main_call11.v8 main_call11.v9 (cmpi .sle),
    StableHlo.TRef.binary main_call11.v6 main_call11.v9 main_call11.v10 andi,
    StableHlo.TRef.nullary main_call11.c_3 (constantI S_ 1 1#1),
    StableHlo.TRef.binary main_call11.v10 main_call11.c_3 main_call11.v11 (fun x v => Host.reduce IntOp.andi x v reducesTo_S32x50x1_S32x50_d2 h_S_),
    StableHlo.TRef.binary (.of main_arg0 : StableHlo.TRef sig ⟨S32x8400x4, .f32⟩) main_call11.v4 main_call11.v12 (fun x i => Host.gather gather_S32x8400x4_S32x50x1_S32x50x4_2_1_0_0_1_2_114 x i),
    StableHlo.TRef.unary main_call11.v11 main_call11.v13 (broadcastInDim S32x50x4 ![0, 1] bcast_S32x50_S32x50x4_0_1),
    StableHlo.TRef.nullary main_call11.cst (constant S_ .f32 0x7FC00000#32),
    StableHlo.TRef.unary main_call11.cst main_call11.v14 (broadcastInDim S32x50x4 ![] bcast_S_S32x50x4),
    StableHlo.TRef.ternary main_call11.v13 main_call11.v12 main_call11.v14 main_call11.v15 select,
    StableHlo.unary main_v193 main_v196 (broadcastInDim S32x50x1 ![0, 1] bcast_S32x50_S32x50x1_0_1 : Vec F S32x50 .i32 → Vec F S32x50x1 .i32),
    StableHlo.TRef.nullary main_call12.c (constantI S_ 32 0#32),
    StableHlo.TRef.unary main_call12.c main_call12.v0 (broadcastInDim S32x50x1 ![] bcast_S_S32x50x1),
    StableHlo.TRef.binary (.of main_v196 : StableHlo.TRef sig ⟨S32x50x1, .i32⟩) main_call12.v0 main_call12.v1 (cmpi .slt),
    StableHlo.TRef.nullary main_call12.c_0 (constantI S_ 32 8400#32),
    StableHlo.TRef.unary main_call12.c_0 main_call12.v2 (broadcastInDim S32x50x1 ![] bcast_S_S32x50x1),
    StableHlo.TRef.binary (.of main_v196 : StableHlo.TRef sig ⟨S32x50x1, .i32⟩) main_call12.v2 main_call12.v3 addi,
    StableHlo.TRef.ternary main_call12.v1 main_call12.v3 (.of main_v196 : StableHlo.TRef sig ⟨S32x50x1, .i32⟩) main_call12.v4 select,
    StableHlo.TRef.nullary main_call12.c_1 (constantI S1 32 8399#32),
    StableHlo.TRef.nullary main_call12.c_2 (constantI S_ 32 0#32),
    StableHlo.TRef.unary main_call12.c_2 main_call12.v5 (broadcastInDim S32x50x1 ![] bcast_S_S32x50x1),
    StableHlo.TRef.binary main_call12.v4 main_call12.v5 main_call12.v6 (cmpi .sge),
    StableHlo.TRef.unary main_call12.c_1 main_call12.v7 (broadcastInDim S1x1x1 ![2] bcast_S1_S1x1x1_2),
    StableHlo.TRef.unary main_call12.v7 main_call12.v8 (broadcastInDim S32x50x1 ![0, 1, 2] bcast_S1x1x1_S32x50x1_0_1_2),
    StableHlo.TRef.binary main_call12.v4 main_call12.v8 main_call12.v9 (cmpi .sle),
    StableHlo.TRef.binary main_call12.v6 main_call12.v9 main_call12.v10 andi,
    StableHlo.TRef.nullary main_call12.c_3 (constantI S_ 1 1#1),
    StableHlo.TRef.binary main_call12.v10 main_call12.c_3 main_call12.v11 (fun x v => Host.reduce IntOp.andi x v reducesTo_S32x50x1_S32x50_d2 h_S_),
    StableHlo.TRef.binary (.of main_arg1 : StableHlo.TRef sig ⟨S32x8400x80, .f32⟩) main_call12.v4 main_call12.v12 (fun x i => Host.gather gather_S32x8400x80_S32x50x1_S32x50x80_2_1_0_0_1_2_1180 x i),
    StableHlo.TRef.unary main_call12.v11 main_call12.v13 (broadcastInDim S32x50x80 ![0, 1] bcast_S32x50_S32x50x80_0_1),
    StableHlo.TRef.nullary main_call12.cst (constant S_ .f32 0x7FC00000#32),
    StableHlo.TRef.unary main_call12.cst main_call12.v14 (broadcastInDim S32x50x80 ![] bcast_S_S32x50x80),
    StableHlo.TRef.ternary main_call12.v13 main_call12.v12 main_call12.v14 main_call12.v15 select ]

abbrev ops_s1_box : List (HloOp τ sig (Elt F)) :=
  [ StableHlo.unary main_v195 main_v198 ((extractStridedSlice S32x50x1 ![0, 0, 0] · slices_S32x50x4_S32x50x1_0_0_0) : Vec F S32x50x4 .f32 → Vec F S32x50x1 .f32),
    StableHlo.reshape main_v198 main_v199 rfl shapeCasts_S32x50x1_S32x50,
    StableHlo.unary main_arg2 main_v200 ((extractStridedSlice S32x50x1 ![0, 0, 0] · slices_S32x50x4_S32x50x1_0_0_0) : Vec F S32x50x4 .f32 → Vec F S32x50x1 .f32),
    StableHlo.reshape main_v200 main_v201 rfl shapeCasts_S32x50x1_S32x50,
    StableHlo.binary main_v199 main_v201 main_v202 (maximumf : Vec F S32x50 .f32 → Vec F S32x50 .f32 → Vec F S32x50 .f32),
    StableHlo.unary main_v195 main_v203 ((extractStridedSlice S32x50x1 ![0, 0, 1] · slices_S32x50x4_S32x50x1_0_0_1) : Vec F S32x50x4 .f32 → Vec F S32x50x1 .f32),
    StableHlo.reshape main_v203 main_v204 rfl shapeCasts_S32x50x1_S32x50,
    StableHlo.unary main_arg2 main_v205 ((extractStridedSlice S32x50x1 ![0, 0, 1] · slices_S32x50x4_S32x50x1_0_0_1) : Vec F S32x50x4 .f32 → Vec F S32x50x1 .f32),
    StableHlo.reshape main_v205 main_v206 rfl shapeCasts_S32x50x1_S32x50,
    StableHlo.binary main_v204 main_v206 main_v207 (maximumf : Vec F S32x50 .f32 → Vec F S32x50 .f32 → Vec F S32x50 .f32),
    StableHlo.unary main_v195 main_v208 ((extractStridedSlice S32x50x1 ![0, 0, 2] · slices_S32x50x4_S32x50x1_0_0_2) : Vec F S32x50x4 .f32 → Vec F S32x50x1 .f32),
    StableHlo.reshape main_v208 main_v209 rfl shapeCasts_S32x50x1_S32x50,
    StableHlo.unary main_arg2 main_v210 ((extractStridedSlice S32x50x1 ![0, 0, 2] · slices_S32x50x4_S32x50x1_0_0_2) : Vec F S32x50x4 .f32 → Vec F S32x50x1 .f32),
    StableHlo.reshape main_v210 main_v211 rfl shapeCasts_S32x50x1_S32x50,
    StableHlo.binary main_v209 main_v211 main_v212 (minimumf : Vec F S32x50 .f32 → Vec F S32x50 .f32 → Vec F S32x50 .f32),
    StableHlo.unary main_v195 main_v213 ((extractStridedSlice S32x50x1 ![0, 0, 3] · slices_S32x50x4_S32x50x1_0_0_3) : Vec F S32x50x4 .f32 → Vec F S32x50x1 .f32),
    StableHlo.reshape main_v213 main_v214 rfl shapeCasts_S32x50x1_S32x50,
    StableHlo.unary main_arg2 main_v215 ((extractStridedSlice S32x50x1 ![0, 0, 3] · slices_S32x50x4_S32x50x1_0_0_3) : Vec F S32x50x4 .f32 → Vec F S32x50x1 .f32),
    StableHlo.reshape main_v215 main_v216 rfl shapeCasts_S32x50x1_S32x50,
    StableHlo.binary main_v214 main_v216 main_v217 (minimumf : Vec F S32x50 .f32 → Vec F S32x50 .f32 → Vec F S32x50 .f32),
    StableHlo.binary main_v212 main_v202 main_v218 (subf : Vec F S32x50 .f32 → Vec F S32x50 .f32 → Vec F S32x50 .f32),
    StableHlo.nullary main_cst_40 (constant S_ .f32 0x00000000#32),
    StableHlo.TRef.unary (.of main_cst_40 : StableHlo.TRef sig ⟨S_, .f32⟩) main_call13.v0 id,
    StableHlo.TRef.unary main_call13.v0 main_call13.v1 (broadcastInDim S32x50 ![] bcast_S_S32x50),
    StableHlo.TRef.binary main_call13.v1 (.of main_v218 : StableHlo.TRef sig ⟨S32x50, .f32⟩) main_call13.v2 maximumf,
    StableHlo.binary main_v217 main_v207 main_v220 (subf : Vec F S32x50 .f32 → Vec F S32x50 .f32 → Vec F S32x50 .f32),
    StableHlo.nullary main_cst_41 (constant S_ .f32 0x00000000#32),
    StableHlo.TRef.unary (.of main_cst_41 : StableHlo.TRef sig ⟨S_, .f32⟩) main_call14.v0 id,
    StableHlo.TRef.unary main_call14.v0 main_call14.v1 (broadcastInDim S32x50 ![] bcast_S_S32x50),
    StableHlo.TRef.binary main_call14.v1 (.of main_v220 : StableHlo.TRef sig ⟨S32x50, .f32⟩) main_call14.v2 maximumf,
    StableHlo.binary main_v219 main_v221 main_v222 (mulf : Vec F S32x50 .f32 → Vec F S32x50 .f32 → Vec F S32x50 .f32),
    StableHlo.unary main_v195 main_v223 ((extractStridedSlice S32x50x1 ![0, 0, 2] · slices_S32x50x4_S32x50x1_0_0_2) : Vec F S32x50x4 .f32 → Vec F S32x50x1 .f32),
    StableHlo.reshape main_v223 main_v224 rfl shapeCasts_S32x50x1_S32x50,
    StableHlo.unary main_v195 main_v225 ((extractStridedSlice S32x50x1 ![0, 0, 0] · slices_S32x50x4_S32x50x1_0_0_0) : Vec F S32x50x4 .f32 → Vec F S32x50x1 .f32),
    StableHlo.reshape main_v225 main_v226 rfl shapeCasts_S32x50x1_S32x50,
    StableHlo.binary main_v224 main_v226 main_v227 (subf : Vec F S32x50 .f32 → Vec F S32x50 .f32 → Vec F S32x50 .f32),
    StableHlo.unary main_v195 main_v228 ((extractStridedSlice S32x50x1 ![0, 0, 3] · slices_S32x50x4_S32x50x1_0_0_3) : Vec F S32x50x4 .f32 → Vec F S32x50x1 .f32),
    StableHlo.reshape main_v228 main_v229 rfl shapeCasts_S32x50x1_S32x50,
    StableHlo.unary main_v195 main_v230 ((extractStridedSlice S32x50x1 ![0, 0, 1] · slices_S32x50x4_S32x50x1_0_0_1) : Vec F S32x50x4 .f32 → Vec F S32x50x1 .f32),
    StableHlo.reshape main_v230 main_v231 rfl shapeCasts_S32x50x1_S32x50,
    StableHlo.binary main_v229 main_v231 main_v232 (subf : Vec F S32x50 .f32 → Vec F S32x50 .f32 → Vec F S32x50 .f32),
    StableHlo.binary main_v227 main_v232 main_v233 (mulf : Vec F S32x50 .f32 → Vec F S32x50 .f32 → Vec F S32x50 .f32),
    StableHlo.unary main_arg2 main_v234 ((extractStridedSlice S32x50x1 ![0, 0, 2] · slices_S32x50x4_S32x50x1_0_0_2) : Vec F S32x50x4 .f32 → Vec F S32x50x1 .f32),
    StableHlo.reshape main_v234 main_v235 rfl shapeCasts_S32x50x1_S32x50,
    StableHlo.unary main_arg2 main_v236 ((extractStridedSlice S32x50x1 ![0, 0, 0] · slices_S32x50x4_S32x50x1_0_0_0) : Vec F S32x50x4 .f32 → Vec F S32x50x1 .f32),
    StableHlo.reshape main_v236 main_v237 rfl shapeCasts_S32x50x1_S32x50,
    StableHlo.binary main_v235 main_v237 main_v238 (subf : Vec F S32x50 .f32 → Vec F S32x50 .f32 → Vec F S32x50 .f32),
    StableHlo.unary main_arg2 main_v239 ((extractStridedSlice S32x50x1 ![0, 0, 3] · slices_S32x50x4_S32x50x1_0_0_3) : Vec F S32x50x4 .f32 → Vec F S32x50x1 .f32),
    StableHlo.reshape main_v239 main_v240 rfl shapeCasts_S32x50x1_S32x50,
    StableHlo.unary main_arg2 main_v241 ((extractStridedSlice S32x50x1 ![0, 0, 1] · slices_S32x50x4_S32x50x1_0_0_1) : Vec F S32x50x4 .f32 → Vec F S32x50x1 .f32),
    StableHlo.reshape main_v241 main_v242 rfl shapeCasts_S32x50x1_S32x50,
    StableHlo.binary main_v240 main_v242 main_v243 (subf : Vec F S32x50 .f32 → Vec F S32x50 .f32 → Vec F S32x50 .f32),
    StableHlo.binary main_v238 main_v243 main_v244 (mulf : Vec F S32x50 .f32 → Vec F S32x50 .f32 → Vec F S32x50 .f32),
    StableHlo.binary main_v233 main_v244 main_v245 (addf : Vec F S32x50 .f32 → Vec F S32x50 .f32 → Vec F S32x50 .f32),
    StableHlo.binary main_v245 main_v222 main_v246 (subf : Vec F S32x50 .f32 → Vec F S32x50 .f32 → Vec F S32x50 .f32),
    StableHlo.binary main_v222 main_v246 main_v247 (Host.divf : Vec F S32x50 .f32 → Vec F S32x50 .f32 → Vec F S32x50 .f32),
    StableHlo.unary main_v195 main_v248 ((extractStridedSlice S32x50x1 ![0, 0, 0] · slices_S32x50x4_S32x50x1_0_0_0) : Vec F S32x50x4 .f32 → Vec F S32x50x1 .f32),
    StableHlo.reshape main_v248 main_v249 rfl shapeCasts_S32x50x1_S32x50,
    StableHlo.unary main_arg2 main_v250 ((extractStridedSlice S32x50x1 ![0, 0, 0] · slices_S32x50x4_S32x50x1_0_0_0) : Vec F S32x50x4 .f32 → Vec F S32x50x1 .f32),
    StableHlo.reshape main_v250 main_v251 rfl shapeCasts_S32x50x1_S32x50,
    StableHlo.binary main_v249 main_v251 main_v252 (minimumf : Vec F S32x50 .f32 → Vec F S32x50 .f32 → Vec F S32x50 .f32),
    StableHlo.unary main_v195 main_v253 ((extractStridedSlice S32x50x1 ![0, 0, 1] · slices_S32x50x4_S32x50x1_0_0_1) : Vec F S32x50x4 .f32 → Vec F S32x50x1 .f32),
    StableHlo.reshape main_v253 main_v254 rfl shapeCasts_S32x50x1_S32x50,
    StableHlo.unary main_arg2 main_v255 ((extractStridedSlice S32x50x1 ![0, 0, 1] · slices_S32x50x4_S32x50x1_0_0_1) : Vec F S32x50x4 .f32 → Vec F S32x50x1 .f32),
    StableHlo.reshape main_v255 main_v256 rfl shapeCasts_S32x50x1_S32x50,
    StableHlo.binary main_v254 main_v256 main_v257 (minimumf : Vec F S32x50 .f32 → Vec F S32x50 .f32 → Vec F S32x50 .f32),
    StableHlo.unary main_v195 main_v258 ((extractStridedSlice S32x50x1 ![0, 0, 2] · slices_S32x50x4_S32x50x1_0_0_2) : Vec F S32x50x4 .f32 → Vec F S32x50x1 .f32),
    StableHlo.reshape main_v258 main_v259 rfl shapeCasts_S32x50x1_S32x50,
    StableHlo.unary main_arg2 main_v260 ((extractStridedSlice S32x50x1 ![0, 0, 2] · slices_S32x50x4_S32x50x1_0_0_2) : Vec F S32x50x4 .f32 → Vec F S32x50x1 .f32),
    StableHlo.reshape main_v260 main_v261 rfl shapeCasts_S32x50x1_S32x50,
    StableHlo.binary main_v259 main_v261 main_v262 (maximumf : Vec F S32x50 .f32 → Vec F S32x50 .f32 → Vec F S32x50 .f32),
    StableHlo.unary main_v195 main_v263 ((extractStridedSlice S32x50x1 ![0, 0, 3] · slices_S32x50x4_S32x50x1_0_0_3) : Vec F S32x50x4 .f32 → Vec F S32x50x1 .f32),
    StableHlo.reshape main_v263 main_v264 rfl shapeCasts_S32x50x1_S32x50,
    StableHlo.unary main_arg2 main_v265 ((extractStridedSlice S32x50x1 ![0, 0, 3] · slices_S32x50x4_S32x50x1_0_0_3) : Vec F S32x50x4 .f32 → Vec F S32x50x1 .f32),
    StableHlo.reshape main_v265 main_v266 rfl shapeCasts_S32x50x1_S32x50,
    StableHlo.binary main_v264 main_v266 main_v267 (maximumf : Vec F S32x50 .f32 → Vec F S32x50 .f32 → Vec F S32x50 .f32),
    StableHlo.binary main_v262 main_v252 main_v268 (subf : Vec F S32x50 .f32 → Vec F S32x50 .f32 → Vec F S32x50 .f32),
    StableHlo.binary main_v267 main_v257 main_v269 (subf : Vec F S32x50 .f32 → Vec F S32x50 .f32 → Vec F S32x50 .f32),
    StableHlo.binary main_v268 main_v269 main_v270 (mulf : Vec F S32x50 .f32 → Vec F S32x50 .f32 → Vec F S32x50 .f32),
    StableHlo.binary main_v270 main_v246 main_v271 (subf : Vec F S32x50 .f32 → Vec F S32x50 .f32 → Vec F S32x50 .f32),
    StableHlo.binary main_v271 main_v270 main_v272 (Host.divf : Vec F S32x50 .f32 → Vec F S32x50 .f32 → Vec F S32x50 .f32),
    StableHlo.binary main_v247 main_v272 main_v273 (subf : Vec F S32x50 .f32 → Vec F S32x50 .f32 → Vec F S32x50 .f32),
    StableHlo.nullary main_cst_42 (constant S_ .f32 0x3F800000#32),
    StableHlo.unary main_cst_42 main_v274 (broadcastInDim S32x50 ![] bcast_S_S32x50 : Vec F S_ .f32 → Vec F S32x50 .f32),
    StableHlo.binary main_v274 main_v273 main_v275 (subf : Vec F S32x50 .f32 → Vec F S32x50 .f32 → Vec F S32x50 .f32),
    StableHlo.nullary main_cst_43 (constant S_ .f32 0x00000000#32),
    StableHlo.TRef.unary (.of main_cst_43 : StableHlo.TRef sig ⟨S_, .f32⟩) main_call15.v0 id,
    StableHlo.TRef.unary main_call15.v0 main_call15.v1 (broadcastInDim S32x50 ![] bcast_S_S32x50),
    StableHlo.TRef.ternary (.of main_v187 : StableHlo.TRef sig ⟨S32x50, .i1⟩) (.of main_v275 : StableHlo.TRef sig ⟨S32x50, .f32⟩) main_call15.v1 main_call15.v2 select,
    StableHlo.nullary main_cst_44 (constant S_ .f32 0x00000000#32),
    StableHlo.binary main_v276 main_cst_44 main_v277 ((fun x v => Host.reduceAdd x v reducesTo_S32x50_S_d0_1 h_S_) : Vec F S32x50 .f32 → Vec F S_ .f32 → Vec F S_ .f32),
    StableHlo.binary main_v125 main_v277 main_v278 (addf : Vec F S_ .f32 → Vec F S_ .f32 → Vec F S_ .f32) ]

abbrev ops_s1_cls : List (HloOp τ sig (Elt F)) :=
  [ StableHlo.TRef.unary (.of main_v197 : StableHlo.TRef sig ⟨S32x50x80, .f32⟩) main_call16.v0 Host.negf,
    StableHlo.TRef.nullary main_call16.call0.cst (constant S_ .f32 0x00000000#32),
    StableHlo.TRef.unary main_call16.call0.cst main_call16.call0.v0 (broadcastInDim S32x50x80 ![] bcast_S_S32x50x80),
    StableHlo.TRef.binary main_call16.v0 main_call16.call0.v0 main_call16.call0.v1 maximumf,
    StableHlo.TRef.unary main_call16.call0.cst main_call16.call0.v2 (broadcastInDim S32x50x80 ![] bcast_S_S32x50x80),
    StableHlo.TRef.binary main_call16.v0 main_call16.call0.v2 main_call16.call0.v3 subf,
    StableHlo.TRef.binary main_call16.call0.v3 main_call16.call0.v3 main_call16.call0.v4 (cmpf .une),
    StableHlo.TRef.unary main_call16.call0.cst main_call16.call0.v5 (broadcastInDim S32x50x80 ![] bcast_S_S32x50x80),
    StableHlo.TRef.binary main_call16.v0 main_call16.call0.v5 main_call16.call0.v6 addf,
    StableHlo.TRef.unary main_call16.call0.v3 main_call16.call0.v7 Host.absf,
    StableHlo.TRef.unary main_call16.call0.v7 main_call16.call0.v8 Host.negf,
    StableHlo.TRef.unary main_call16.call0.v8 main_call16.call0.v9 Host.exp,
    StableHlo.TRef.unary main_call16.call0.v9 main_call16.call0.v10 Host.log1p,
    StableHlo.TRef.binary main_call16.call0.v1 main_call16.call0.v10 main_call16.call0.v11 addf,
    StableHlo.TRef.ternary main_call16.call0.v4 main_call16.call0.v6 main_call16.call0.v11 main_call16.call0.v12 select,
    StableHlo.TRef.unary main_call16.call0.v12 main_call16.v2 Host.negf,
    StableHlo.binary main_v14 main_v279 main_v280 (mulf : Vec F S32x50x80 .f32 → Vec F S32x50x80 .f32 → Vec F S32x50x80 .f32),
    StableHlo.nullary main_cst_45 (constant S_ .f32 0x3F800000#32),
    StableHlo.unary main_cst_45 main_v281 (broadcastInDim S32x50x80 ![] bcast_S_S32x50x80 : Vec F S_ .f32 → Vec F S32x50x80 .f32),
    StableHlo.binary main_v281 main_v14 main_v282 (subf : Vec F S32x50x80 .f32 → Vec F S32x50x80 .f32 → Vec F S32x50x80 .f32),
    StableHlo.unary main_v197 main_v283 (Host.negf : Vec F S32x50x80 .f32 → Vec F S32x50x80 .f32),
    StableHlo.TRef.unary (.of main_v283 : StableHlo.TRef sig ⟨S32x50x80, .f32⟩) main_call17.v0 Host.negf,
    StableHlo.TRef.nullary main_call17.call0.cst (constant S_ .f32 0x00000000#32),
    StableHlo.TRef.unary main_call17.call0.cst main_call17.call0.v0 (broadcastInDim S32x50x80 ![] bcast_S_S32x50x80),
    StableHlo.TRef.binary main_call17.v0 main_call17.call0.v0 main_call17.call0.v1 maximumf,
    StableHlo.TRef.unary main_call17.call0.cst main_call17.call0.v2 (broadcastInDim S32x50x80 ![] bcast_S_S32x50x80),
    StableHlo.TRef.binary main_call17.v0 main_call17.call0.v2 main_call17.call0.v3 subf,
    StableHlo.TRef.binary main_call17.call0.v3 main_call17.call0.v3 main_call17.call0.v4 (cmpf .une),
    StableHlo.TRef.unary main_call17.call0.cst main_call17.call0.v5 (broadcastInDim S32x50x80 ![] bcast_S_S32x50x80),
    StableHlo.TRef.binary main_call17.v0 main_call17.call0.v5 main_call17.call0.v6 addf,
    StableHlo.TRef.unary main_call17.call0.v3 main_call17.call0.v7 Host.absf,
    StableHlo.TRef.unary main_call17.call0.v7 main_call17.call0.v8 Host.negf,
    StableHlo.TRef.unary main_call17.call0.v8 main_call17.call0.v9 Host.exp,
    StableHlo.TRef.unary main_call17.call0.v9 main_call17.call0.v10 Host.log1p,
    StableHlo.TRef.binary main_call17.call0.v1 main_call17.call0.v10 main_call17.call0.v11 addf,
    StableHlo.TRef.ternary main_call17.call0.v4 main_call17.call0.v6 main_call17.call0.v11 main_call17.call0.v12 select,
    StableHlo.TRef.unary main_call17.call0.v12 main_call17.v2 Host.negf,
    StableHlo.binary main_v282 main_v284 main_v285 (mulf : Vec F S32x50x80 .f32 → Vec F S32x50x80 .f32 → Vec F S32x50x80 .f32),
    StableHlo.binary main_v280 main_v285 main_v286 (addf : Vec F S32x50x80 .f32 → Vec F S32x50x80 .f32 → Vec F S32x50x80 .f32),
    StableHlo.unary main_v286 main_v287 (Host.negf : Vec F S32x50x80 .f32 → Vec F S32x50x80 .f32),
    StableHlo.unary main_v197 main_v288 (Host.negf : Vec F S32x50x80 .f32 → Vec F S32x50x80 .f32),
    StableHlo.unary main_v288 main_v289 (Host.exp : Vec F S32x50x80 .f32 → Vec F S32x50x80 .f32),
    StableHlo.nullary main_cst_46 (constant S_ .f32 0x3F800000#32),
    StableHlo.unary main_cst_46 main_v290 (broadcastInDim S32x50x80 ![] bcast_S_S32x50x80 : Vec F S_ .f32 → Vec F S32x50x80 .f32),
    StableHlo.binary main_v290 main_v289 main_v291 (addf : Vec F S32x50x80 .f32 → Vec F S32x50x80 .f32 → Vec F S32x50x80 .f32),
    StableHlo.nullary main_cst_47 (constant S_ .f32 0x3F800000#32),
    StableHlo.unary main_cst_47 main_v292 (broadcastInDim S32x50x80 ![] bcast_S_S32x50x80 : Vec F S_ .f32 → Vec F S32x50x80 .f32),
    StableHlo.binary main_v292 main_v291 main_v293 (Host.divf : Vec F S32x50x80 .f32 → Vec F S32x50x80 .f32 → Vec F S32x50x80 .f32),
    StableHlo.binary main_v293 main_v14 main_v294 (mulf : Vec F S32x50x80 .f32 → Vec F S32x50x80 .f32 → Vec F S32x50x80 .f32),
    StableHlo.nullary main_cst_48 (constant S_ .f32 0x3F800000#32),
    StableHlo.unary main_cst_48 main_v295 (broadcastInDim S32x50x80 ![] bcast_S_S32x50x80 : Vec F S_ .f32 → Vec F S32x50x80 .f32),
    StableHlo.binary main_v295 main_v293 main_v296 (subf : Vec F S32x50x80 .f32 → Vec F S32x50x80 .f32 → Vec F S32x50x80 .f32),
    StableHlo.nullary main_cst_49 (constant S_ .f32 0x3F800000#32),
    StableHlo.unary main_cst_49 main_v297 (broadcastInDim S32x50x80 ![] bcast_S_S32x50x80 : Vec F S_ .f32 → Vec F S32x50x80 .f32),
    StableHlo.binary main_v297 main_v14 main_v298 (subf : Vec F S32x50x80 .f32 → Vec F S32x50x80 .f32 → Vec F S32x50x80 .f32),
    StableHlo.binary main_v296 main_v298 main_v299 (mulf : Vec F S32x50x80 .f32 → Vec F S32x50x80 .f32 → Vec F S32x50x80 .f32),
    StableHlo.binary main_v294 main_v299 main_v300 (addf : Vec F S32x50x80 .f32 → Vec F S32x50x80 .f32 → Vec F S32x50x80 .f32),
    StableHlo.nullary main_cst_50 (constant S_ .f32 0x3E800000#32),
    StableHlo.unary main_cst_50 main_v301 (broadcastInDim S32x50x80 ![] bcast_S_S32x50x80 : Vec F S_ .f32 → Vec F S32x50x80 .f32),
    StableHlo.binary main_v301 main_v14 main_v302 (mulf : Vec F S32x50x80 .f32 → Vec F S32x50x80 .f32 → Vec F S32x50x80 .f32),
    StableHlo.nullary main_cst_51 (constant S_ .f32 0x3F800000#32),
    StableHlo.unary main_cst_51 main_v303 (broadcastInDim S32x50x80 ![] bcast_S_S32x50x80 : Vec F S_ .f32 → Vec F S32x50x80 .f32),
    StableHlo.binary main_v303 main_v14 main_v304 (subf : Vec F S32x50x80 .f32 → Vec F S32x50x80 .f32 → Vec F S32x50x80 .f32),
    StableHlo.nullary main_cst_52 (constant S_ .f32 0x3F400000#32),
    StableHlo.unary main_cst_52 main_v305 (broadcastInDim S32x50x80 ![] bcast_S_S32x50x80 : Vec F S_ .f32 → Vec F S32x50x80 .f32),
    StableHlo.binary main_v305 main_v304 main_v306 (mulf : Vec F S32x50x80 .f32 → Vec F S32x50x80 .f32 → Vec F S32x50x80 .f32),
    StableHlo.binary main_v302 main_v306 main_v307 (addf : Vec F S32x50x80 .f32 → Vec F S32x50x80 .f32 → Vec F S32x50x80 .f32),
    StableHlo.nullary main_cst_53 (constant S_ .f32 0x3F800000#32),
    StableHlo.unary main_cst_53 main_v308 (broadcastInDim S32x50x80 ![] bcast_S_S32x50x80 : Vec F S_ .f32 → Vec F S32x50x80 .f32),
    StableHlo.binary main_v308 main_v300 main_v309 (subf : Vec F S32x50x80 .f32 → Vec F S32x50x80 .f32 → Vec F S32x50x80 .f32),
    StableHlo.nullary main_cst_54 (constant S_ .f32 0x40000000#32),
    StableHlo.unary main_cst_54 main_v310 (broadcastInDim S32x50x80 ![] bcast_S_S32x50x80 : Vec F S_ .f32 → Vec F S32x50x80 .f32),
    StableHlo.binary main_v309 main_v310 main_v311 (Host.powf : Vec F S32x50x80 .f32 → Vec F S32x50x80 .f32 → Vec F S32x50x80 .f32),
    StableHlo.binary main_v307 main_v311 main_v312 (mulf : Vec F S32x50x80 .f32 → Vec F S32x50x80 .f32 → Vec F S32x50x80 .f32),
    StableHlo.binary main_v312 main_v287 main_v313 (mulf : Vec F S32x50x80 .f32 → Vec F S32x50x80 .f32 → Vec F S32x50x80 .f32),
    StableHlo.nullary main_cst_55 (constant S_ .f32 0x00000000#32),
    StableHlo.binary main_v313 main_cst_55 main_v314 ((fun x v => Host.reduceAdd x v reducesTo_S32x50x80_S32x50_d2 h_S_) : Vec F S32x50x80 .f32 → Vec F S_ .f32 → Vec F S32x50 .f32),
    StableHlo.nullary main_cst_56 (constant S_ .f32 0x00000000#32),
    StableHlo.TRef.unary (.of main_cst_56 : StableHlo.TRef sig ⟨S_, .f32⟩) main_call18.v0 id,
    StableHlo.TRef.unary main_call18.v0 main_call18.v1 (broadcastInDim S32x50 ![] bcast_S_S32x50),
    StableHlo.TRef.ternary (.of main_v187 : StableHlo.TRef sig ⟨S32x50, .i1⟩) (.of main_v314 : StableHlo.TRef sig ⟨S32x50, .f32⟩) main_call18.v1 main_call18.v2 select,
    StableHlo.nullary main_cst_57 (constant S_ .f32 0x00000000#32),
    StableHlo.binary main_v315 main_cst_57 main_v316 ((fun x v => Host.reduceAdd x v reducesTo_S32x50_S_d0_1 h_S_) : Vec F S32x50 .f32 → Vec F S_ .f32 → Vec F S_ .f32),
    StableHlo.binary main_v164 main_v316 main_v317 (addf : Vec F S_ .f32 → Vec F S_ .f32 → Vec F S_ .f32) ]

abbrev ops_s1_cnt : List (HloOp τ sig (Elt F)) :=
  [ StableHlo.unary main_v187 main_v318 ((extui 32 · natLt_1_32) : Vec F S32x50 .i1 → Vec F S32x50 .i32),
    StableHlo.nullary main_c_58 (constantI S_ 32 0#32),
    StableHlo.binary main_v318 main_c_58 main_v319 ((fun x v => Host.reduce IntOp.addi x v reducesTo_S32x50_S_d0_1 h_S_) : Vec F S32x50 .i32 → Vec F S_ .i32 → Vec F S_ .i32),
    StableHlo.binary main_v167 main_v319 main_v320 (addi : Vec F S_ .i32 → Vec F S_ .i32 → Vec F S_ .i32) ]

abbrev ops_s2_idx : List (HloOp τ sig (Elt F)) :=
  [ StableHlo.nullary main_cst_59 (constant S_ .f32 0x42000000#32),
    StableHlo.unary main_cst_59 main_v321 (broadcastInDim S32x50 ![] bcast_S_S32x50 : Vec F S_ .f32 → Vec F S32x50 .f32),
    StableHlo.binary main_v6 main_v321 main_v322 (Host.divf : Vec F S32x50 .f32 → Vec F S32x50 .f32 → Vec F S32x50 .f32),
    StableHlo.unary main_v322 main_v323 (Host.floor : Vec F S32x50 .f32 → Vec F S32x50 .f32),
    StableHlo.unary main_v323 main_v324 (fptosi 32 : Vec F S32x50 .f32 → Vec F S32x50 .i32),
    StableHlo.nullary main_cst_60 (constant S_ .f32 0x42000000#32),
    StableHlo.unary main_cst_60 main_v325 (broadcastInDim S32x50 ![] bcast_S_S32x50 : Vec F S_ .f32 → Vec F S32x50 .f32),
    StableHlo.binary main_v13 main_v325 main_v326 (Host.divf : Vec F S32x50 .f32 → Vec F S32x50 .f32 → Vec F S32x50 .f32),
    StableHlo.unary main_v326 main_v327 (Host.floor : Vec F S32x50 .f32 → Vec F S32x50 .f32),
    StableHlo.unary main_v327 main_v328 (fptosi 32 : Vec F S32x50 .f32 → Vec F S32x50 .i32),
    StableHlo.nullary main_c_61 (constantI S_ 32 0#32),
    StableHlo.unary main_c_61 main_v329 (broadcastInDim S32x50 ![] bcast_S_S32x50 : Vec F S_ .i32 → Vec F S32x50 .i32),
    StableHlo.binary main_v324 main_v329 main_v330 (cmpi .sge : Vec F S32x50 .i32 → Vec F S32x50 .i32 → Vec F S32x50 .i1),
    StableHlo.binary main_arg4 main_v330 main_v331 (andi : Vec F S32x50 .i1 → Vec F S32x50 .i1 → Vec F S32x50 .i1),
    StableHlo.nullary main_c_62 (constantI S_ 32 0#32),
    StableHlo.unary main_c_62 main_v332 (broadcastInDim S32x50 ![] bcast_S_S32x50 : Vec F S_ .i32 → Vec F S32x50 .i32),
    StableHlo.binary main_v328 main_v332 main_v333 (cmpi .sge : Vec F S32x50 .i32 → Vec F S32x50 .i32 → Vec F S32x50 .i1),
    StableHlo.binary main_v331 main_v333 main_v334 (andi : Vec F S32x50 .i1 → Vec F S32x50 .i1 → Vec F S32x50 .i1),
    StableHlo.nullary main_c_63 (constantI S_ 32 20#32),
    StableHlo.unary main_c_63 main_v335 (broadcastInDim S32x50 ![] bcast_S_S32x50 : Vec F S_ .i32 → Vec F S32x50 .i32),
    StableHlo.binary main_v324 main_v335 main_v336 (cmpi .slt : Vec F S32x50 .i32 → Vec F S32x50 .i32 → Vec F S32x50 .i1),
    StableHlo.binary main_v334 main_v336 main_v337 (andi : Vec F S32x50 .i1 → Vec F S32x50 .i1 → Vec F S32x50 .i1),
    StableHlo.nullary main_c_64 (constantI S_ 32 20#32),
    StableHlo.unary main_c_64 main_v338 (broadcastInDim S32x50 ![] bcast_S_S32x50 : Vec F S_ .i32 → Vec F S32x50 .i32),
    StableHlo.binary main_v328 main_v338 main_v339 (cmpi .slt : Vec F S32x50 .i32 → Vec F S32x50 .i32 → Vec F S32x50 .i1),
    StableHlo.binary main_v337 main_v339 main_v340 (andi : Vec F S32x50 .i1 → Vec F S32x50 .i1 → Vec F S32x50 .i1),
    StableHlo.nullary main_c_65 (constantI S_ 32 20#32),
    StableHlo.unary main_c_65 main_v341 (broadcastInDim S32x50 ![] bcast_S_S32x50 : Vec F S_ .i32 → Vec F S32x50 .i32),
    StableHlo.binary main_v328 main_v341 main_v342 (muli : Vec F S32x50 .i32 → Vec F S32x50 .i32 → Vec F S32x50 .i32),
    StableHlo.nullary main_c_66 (constantI S_ 32 8000#32),
    StableHlo.unary main_c_66 main_v343 (broadcastInDim S32x50 ![] bcast_S_S32x50 : Vec F S_ .i32 → Vec F S32x50 .i32),
    StableHlo.binary main_v343 main_v342 main_v344 (addi : Vec F S32x50 .i32 → Vec F S32x50 .i32 → Vec F S32x50 .i32),
    StableHlo.binary main_v344 main_v324 main_v345 (addi : Vec F S32x50 .i32 → Vec F S32x50 .i32 → Vec F S32x50 .i32),
    StableHlo.nullary main_c_67 (constantI S_ 32 0#32),
    StableHlo.TRef.unary (.of main_c_67 : StableHlo.TRef sig ⟨S_, .i32⟩) main_call19.v0 id,
    StableHlo.TRef.unary main_call19.v0 main_call19.v1 (broadcastInDim S32x50 ![] bcast_S_S32x50),
    StableHlo.TRef.ternary (.of main_v340 : StableHlo.TRef sig ⟨S32x50, .i1⟩) (.of main_v345 : StableHlo.TRef sig ⟨S32x50, .i32⟩) main_call19.v1 main_call19.v2 select,
    StableHlo.unary main_v346 main_v347 (broadcastInDim S32x50x1 ![0, 1] bcast_S32x50_S32x50x1_0_1 : Vec F S32x50 .i32 → Vec F S32x50x1 .i32),
    StableHlo.TRef.nullary main_call20.c (constantI S_ 32 0#32),
    StableHlo.TRef.unary main_call20.c main_call20.v0 (broadcastInDim S32x50x1 ![] bcast_S_S32x50x1),
    StableHlo.TRef.binary (.of main_v347 : StableHlo.TRef sig ⟨S32x50x1, .i32⟩) main_call20.v0 main_call20.v1 (cmpi .slt),
    StableHlo.TRef.nullary main_call20.c_0 (constantI S_ 32 8400#32),
    StableHlo.TRef.unary main_call20.c_0 main_call20.v2 (broadcastInDim S32x50x1 ![] bcast_S_S32x50x1),
    StableHlo.TRef.binary (.of main_v347 : StableHlo.TRef sig ⟨S32x50x1, .i32⟩) main_call20.v2 main_call20.v3 addi,
    StableHlo.TRef.ternary main_call20.v1 main_call20.v3 (.of main_v347 : StableHlo.TRef sig ⟨S32x50x1, .i32⟩) main_call20.v4 select,
    StableHlo.TRef.nullary main_call20.c_1 (constantI S1 32 8399#32),
    StableHlo.TRef.nullary main_call20.c_2 (constantI S_ 32 0#32),
    StableHlo.TRef.unary main_call20.c_2 main_call20.v5 (broadcastInDim S32x50x1 ![] bcast_S_S32x50x1),
    StableHlo.TRef.binary main_call20.v4 main_call20.v5 main_call20.v6 (cmpi .sge),
    StableHlo.TRef.unary main_call20.c_1 main_call20.v7 (broadcastInDim S1x1x1 ![2] bcast_S1_S1x1x1_2),
    StableHlo.TRef.unary main_call20.v7 main_call20.v8 (broadcastInDim S32x50x1 ![0, 1, 2] bcast_S1x1x1_S32x50x1_0_1_2),
    StableHlo.TRef.binary main_call20.v4 main_call20.v8 main_call20.v9 (cmpi .sle),
    StableHlo.TRef.binary main_call20.v6 main_call20.v9 main_call20.v10 andi,
    StableHlo.TRef.nullary main_call20.c_3 (constantI S_ 1 1#1),
    StableHlo.TRef.binary main_call20.v10 main_call20.c_3 main_call20.v11 (fun x v => Host.reduce IntOp.andi x v reducesTo_S32x50x1_S32x50_d2 h_S_),
    StableHlo.TRef.binary (.of main_arg0 : StableHlo.TRef sig ⟨S32x8400x4, .f32⟩) main_call20.v4 main_call20.v12 (fun x i => Host.gather gather_S32x8400x4_S32x50x1_S32x50x4_2_1_0_0_1_2_114 x i),
    StableHlo.TRef.unary main_call20.v11 main_call20.v13 (broadcastInDim S32x50x4 ![0, 1] bcast_S32x50_S32x50x4_0_1),
    StableHlo.TRef.nullary main_call20.cst (constant S_ .f32 0x7FC00000#32),
    StableHlo.TRef.unary main_call20.cst main_call20.v14 (broadcastInDim S32x50x4 ![] bcast_S_S32x50x4),
    StableHlo.TRef.ternary main_call20.v13 main_call20.v12 main_call20.v14 main_call20.v15 select,
    StableHlo.unary main_v346 main_v349 (broadcastInDim S32x50x1 ![0, 1] bcast_S32x50_S32x50x1_0_1 : Vec F S32x50 .i32 → Vec F S32x50x1 .i32),
    StableHlo.TRef.nullary main_call21.c (constantI S_ 32 0#32),
    StableHlo.TRef.unary main_call21.c main_call21.v0 (broadcastInDim S32x50x1 ![] bcast_S_S32x50x1),
    StableHlo.TRef.binary (.of main_v349 : StableHlo.TRef sig ⟨S32x50x1, .i32⟩) main_call21.v0 main_call21.v1 (cmpi .slt),
    StableHlo.TRef.nullary main_call21.c_0 (constantI S_ 32 8400#32),
    StableHlo.TRef.unary main_call21.c_0 main_call21.v2 (broadcastInDim S32x50x1 ![] bcast_S_S32x50x1),
    StableHlo.TRef.binary (.of main_v349 : StableHlo.TRef sig ⟨S32x50x1, .i32⟩) main_call21.v2 main_call21.v3 addi,
    StableHlo.TRef.ternary main_call21.v1 main_call21.v3 (.of main_v349 : StableHlo.TRef sig ⟨S32x50x1, .i32⟩) main_call21.v4 select,
    StableHlo.TRef.nullary main_call21.c_1 (constantI S1 32 8399#32),
    StableHlo.TRef.nullary main_call21.c_2 (constantI S_ 32 0#32),
    StableHlo.TRef.unary main_call21.c_2 main_call21.v5 (broadcastInDim S32x50x1 ![] bcast_S_S32x50x1),
    StableHlo.TRef.binary main_call21.v4 main_call21.v5 main_call21.v6 (cmpi .sge),
    StableHlo.TRef.unary main_call21.c_1 main_call21.v7 (broadcastInDim S1x1x1 ![2] bcast_S1_S1x1x1_2),
    StableHlo.TRef.unary main_call21.v7 main_call21.v8 (broadcastInDim S32x50x1 ![0, 1, 2] bcast_S1x1x1_S32x50x1_0_1_2),
    StableHlo.TRef.binary main_call21.v4 main_call21.v8 main_call21.v9 (cmpi .sle),
    StableHlo.TRef.binary main_call21.v6 main_call21.v9 main_call21.v10 andi,
    StableHlo.TRef.nullary main_call21.c_3 (constantI S_ 1 1#1),
    StableHlo.TRef.binary main_call21.v10 main_call21.c_3 main_call21.v11 (fun x v => Host.reduce IntOp.andi x v reducesTo_S32x50x1_S32x50_d2 h_S_),
    StableHlo.TRef.binary (.of main_arg1 : StableHlo.TRef sig ⟨S32x8400x80, .f32⟩) main_call21.v4 main_call21.v12 (fun x i => Host.gather gather_S32x8400x80_S32x50x1_S32x50x80_2_1_0_0_1_2_1180 x i),
    StableHlo.TRef.unary main_call21.v11 main_call21.v13 (broadcastInDim S32x50x80 ![0, 1] bcast_S32x50_S32x50x80_0_1),
    StableHlo.TRef.nullary main_call21.cst (constant S_ .f32 0x7FC00000#32),
    StableHlo.TRef.unary main_call21.cst main_call21.v14 (broadcastInDim S32x50x80 ![] bcast_S_S32x50x80),
    StableHlo.TRef.ternary main_call21.v13 main_call21.v12 main_call21.v14 main_call21.v15 select ]

abbrev ops_s2_box : List (HloOp τ sig (Elt F)) :=
  [ StableHlo.unary main_v348 main_v351 ((extractStridedSlice S32x50x1 ![0, 0, 0] · slices_S32x50x4_S32x50x1_0_0_0) : Vec F S32x50x4 .f32 → Vec F S32x50x1 .f32),
    StableHlo.reshape main_v351 main_v352 rfl shapeCasts_S32x50x1_S32x50,
    StableHlo.unary main_arg2 main_v353 ((extractStridedSlice S32x50x1 ![0, 0, 0] · slices_S32x50x4_S32x50x1_0_0_0) : Vec F S32x50x4 .f32 → Vec F S32x50x1 .f32),
    StableHlo.reshape main_v353 main_v354 rfl shapeCasts_S32x50x1_S32x50,
    StableHlo.binary main_v352 main_v354 main_v355 (maximumf : Vec F S32x50 .f32 → Vec F S32x50 .f32 → Vec F S32x50 .f32),
    StableHlo.unary main_v348 main_v356 ((extractStridedSlice S32x50x1 ![0, 0, 1] · slices_S32x50x4_S32x50x1_0_0_1) : Vec F S32x50x4 .f32 → Vec F S32x50x1 .f32),
    StableHlo.reshape main_v356 main_v357 rfl shapeCasts_S32x50x1_S32x50,
    StableHlo.unary main_arg2 main_v358 ((extractStridedSlice S32x50x1 ![0, 0, 1] · slices_S32x50x4_S32x50x1_0_0_1) : Vec F S32x50x4 .f32 → Vec F S32x50x1 .f32),
    StableHlo.reshape main_v358 main_v359 rfl shapeCasts_S32x50x1_S32x50,
    StableHlo.binary main_v357 main_v359 main_v360 (maximumf : Vec F S32x50 .f32 → Vec F S32x50 .f32 → Vec F S32x50 .f32),
    StableHlo.unary main_v348 main_v361 ((extractStridedSlice S32x50x1 ![0, 0, 2] · slices_S32x50x4_S32x50x1_0_0_2) : Vec F S32x50x4 .f32 → Vec F S32x50x1 .f32),
    StableHlo.reshape main_v361 main_v362 rfl shapeCasts_S32x50x1_S32x50,
    StableHlo.unary main_arg2 main_v363 ((extractStridedSlice S32x50x1 ![0, 0, 2] · slices_S32x50x4_S32x50x1_0_0_2) : Vec F S32x50x4 .f32 → Vec F S32x50x1 .f32),
    StableHlo.reshape main_v363 main_v364 rfl shapeCasts_S32x50x1_S32x50,
    StableHlo.binary main_v362 main_v364 main_v365 (minimumf : Vec F S32x50 .f32 → Vec F S32x50 .f32 → Vec F S32x50 .f32),
    StableHlo.unary main_v348 main_v366 ((extractStridedSlice S32x50x1 ![0, 0, 3] · slices_S32x50x4_S32x50x1_0_0_3) : Vec F S32x50x4 .f32 → Vec F S32x50x1 .f32),
    StableHlo.reshape main_v366 main_v367 rfl shapeCasts_S32x50x1_S32x50,
    StableHlo.unary main_arg2 main_v368 ((extractStridedSlice S32x50x1 ![0, 0, 3] · slices_S32x50x4_S32x50x1_0_0_3) : Vec F S32x50x4 .f32 → Vec F S32x50x1 .f32),
    StableHlo.reshape main_v368 main_v369 rfl shapeCasts_S32x50x1_S32x50,
    StableHlo.binary main_v367 main_v369 main_v370 (minimumf : Vec F S32x50 .f32 → Vec F S32x50 .f32 → Vec F S32x50 .f32),
    StableHlo.binary main_v365 main_v355 main_v371 (subf : Vec F S32x50 .f32 → Vec F S32x50 .f32 → Vec F S32x50 .f32),
    StableHlo.nullary main_cst_68 (constant S_ .f32 0x00000000#32),
    StableHlo.TRef.unary (.of main_cst_68 : StableHlo.TRef sig ⟨S_, .f32⟩) main_call22.v0 id,
    StableHlo.TRef.unary main_call22.v0 main_call22.v1 (broadcastInDim S32x50 ![] bcast_S_S32x50),
    StableHlo.TRef.binary main_call22.v1 (.of main_v371 : StableHlo.TRef sig ⟨S32x50, .f32⟩) main_call22.v2 maximumf,
    StableHlo.binary main_v370 main_v360 main_v373 (subf : Vec F S32x50 .f32 → Vec F S32x50 .f32 → Vec F S32x50 .f32),
    StableHlo.nullary main_cst_69 (constant S_ .f32 0x00000000#32),
    StableHlo.TRef.unary (.of main_cst_69 : StableHlo.TRef sig ⟨S_, .f32⟩) main_call23.v0 id,
    StableHlo.TRef.unary main_call23.v0 main_call23.v1 (broadcastInDim S32x50 ![] bcast_S_S32x50),
    StableHlo.TRef.binary main_call23.v1 (.of main_v373 : StableHlo.TRef sig ⟨S32x50, .f32⟩) main_call23.v2 maximumf,
    StableHlo.binary main_v372 main_v374 main_v375 (mulf : Vec F S32x50 .f32 → Vec F S32x50 .f32 → Vec F S32x50 .f32),
    StableHlo.unary main_v348 main_v376 ((extractStridedSlice S32x50x1 ![0, 0, 2] · slices_S32x50x4_S32x50x1_0_0_2) : Vec F S32x50x4 .f32 → Vec F S32x50x1 .f32),
    StableHlo.reshape main_v376 main_v377 rfl shapeCasts_S32x50x1_S32x50,
    StableHlo.unary main_v348 main_v378 ((extractStridedSlice S32x50x1 ![0, 0, 0] · slices_S32x50x4_S32x50x1_0_0_0) : Vec F S32x50x4 .f32 → Vec F S32x50x1 .f32),
    StableHlo.reshape main_v378 main_v379 rfl shapeCasts_S32x50x1_S32x50,
    StableHlo.binary main_v377 main_v379 main_v380 (subf : Vec F S32x50 .f32 → Vec F S32x50 .f32 → Vec F S32x50 .f32),
    StableHlo.unary main_v348 main_v381 ((extractStridedSlice S32x50x1 ![0, 0, 3] · slices_S32x50x4_S32x50x1_0_0_3) : Vec F S32x50x4 .f32 → Vec F S32x50x1 .f32),
    StableHlo.reshape main_v381 main_v382 rfl shapeCasts_S32x50x1_S32x50,
    StableHlo.unary main_v348 main_v383 ((extractStridedSlice S32x50x1 ![0, 0, 1] · slices_S32x50x4_S32x50x1_0_0_1) : Vec F S32x50x4 .f32 → Vec F S32x50x1 .f32),
    StableHlo.reshape main_v383 main_v384 rfl shapeCasts_S32x50x1_S32x50,
    StableHlo.binary main_v382 main_v384 main_v385 (subf : Vec F S32x50 .f32 → Vec F S32x50 .f32 → Vec F S32x50 .f32),
    StableHlo.binary main_v380 main_v385 main_v386 (mulf : Vec F S32x50 .f32 → Vec F S32x50 .f32 → Vec F S32x50 .f32),
    StableHlo.unary main_arg2 main_v387 ((extractStridedSlice S32x50x1 ![0, 0, 2] · slices_S32x50x4_S32x50x1_0_0_2) : Vec F S32x50x4 .f32 → Vec F S32x50x1 .f32),
    StableHlo.reshape main_v387 main_v388 rfl shapeCasts_S32x50x1_S32x50,
    StableHlo.unary main_arg2 main_v389 ((extractStridedSlice S32x50x1 ![0, 0, 0] · slices_S32x50x4_S32x50x1_0_0_0) : Vec F S32x50x4 .f32 → Vec F S32x50x1 .f32),
    StableHlo.reshape main_v389 main_v390 rfl shapeCasts_S32x50x1_S32x50,
    StableHlo.binary main_v388 main_v390 main_v391 (subf : Vec F S32x50 .f32 → Vec F S32x50 .f32 → Vec F S32x50 .f32),
    StableHlo.unary main_arg2 main_v392 ((extractStridedSlice S32x50x1 ![0, 0, 3] · slices_S32x50x4_S32x50x1_0_0_3) : Vec F S32x50x4 .f32 → Vec F S32x50x1 .f32),
    StableHlo.reshape main_v392 main_v393 rfl shapeCasts_S32x50x1_S32x50,
    StableHlo.unary main_arg2 main_v394 ((extractStridedSlice S32x50x1 ![0, 0, 1] · slices_S32x50x4_S32x50x1_0_0_1) : Vec F S32x50x4 .f32 → Vec F S32x50x1 .f32),
    StableHlo.reshape main_v394 main_v395 rfl shapeCasts_S32x50x1_S32x50,
    StableHlo.binary main_v393 main_v395 main_v396 (subf : Vec F S32x50 .f32 → Vec F S32x50 .f32 → Vec F S32x50 .f32),
    StableHlo.binary main_v391 main_v396 main_v397 (mulf : Vec F S32x50 .f32 → Vec F S32x50 .f32 → Vec F S32x50 .f32),
    StableHlo.binary main_v386 main_v397 main_v398 (addf : Vec F S32x50 .f32 → Vec F S32x50 .f32 → Vec F S32x50 .f32),
    StableHlo.binary main_v398 main_v375 main_v399 (subf : Vec F S32x50 .f32 → Vec F S32x50 .f32 → Vec F S32x50 .f32),
    StableHlo.binary main_v375 main_v399 main_v400 (Host.divf : Vec F S32x50 .f32 → Vec F S32x50 .f32 → Vec F S32x50 .f32),
    StableHlo.unary main_v348 main_v401 ((extractStridedSlice S32x50x1 ![0, 0, 0] · slices_S32x50x4_S32x50x1_0_0_0) : Vec F S32x50x4 .f32 → Vec F S32x50x1 .f32),
    StableHlo.reshape main_v401 main_v402 rfl shapeCasts_S32x50x1_S32x50,
    StableHlo.unary main_arg2 main_v403 ((extractStridedSlice S32x50x1 ![0, 0, 0] · slices_S32x50x4_S32x50x1_0_0_0) : Vec F S32x50x4 .f32 → Vec F S32x50x1 .f32),
    StableHlo.reshape main_v403 main_v404 rfl shapeCasts_S32x50x1_S32x50,
    StableHlo.binary main_v402 main_v404 main_v405 (minimumf : Vec F S32x50 .f32 → Vec F S32x50 .f32 → Vec F S32x50 .f32),
    StableHlo.unary main_v348 main_v406 ((extractStridedSlice S32x50x1 ![0, 0, 1] · slices_S32x50x4_S32x50x1_0_0_1) : Vec F S32x50x4 .f32 → Vec F S32x50x1 .f32),
    StableHlo.reshape main_v406 main_v407 rfl shapeCasts_S32x50x1_S32x50,
    StableHlo.unary main_arg2 main_v408 ((extractStridedSlice S32x50x1 ![0, 0, 1] · slices_S32x50x4_S32x50x1_0_0_1) : Vec F S32x50x4 .f32 → Vec F S32x50x1 .f32),
    StableHlo.reshape main_v408 main_v409 rfl shapeCasts_S32x50x1_S32x50,
    StableHlo.binary main_v407 main_v409 main_v410 (minimumf : Vec F S32x50 .f32 → Vec F S32x50 .f32 → Vec F S32x50 .f32),
    StableHlo.unary main_v348 main_v411 ((extractStridedSlice S32x50x1 ![0, 0, 2] · slices_S32x50x4_S32x50x1_0_0_2) : Vec F S32x50x4 .f32 → Vec F S32x50x1 .f32),
    StableHlo.reshape main_v411 main_v412 rfl shapeCasts_S32x50x1_S32x50,
    StableHlo.unary main_arg2 main_v413 ((extractStridedSlice S32x50x1 ![0, 0, 2] · slices_S32x50x4_S32x50x1_0_0_2) : Vec F S32x50x4 .f32 → Vec F S32x50x1 .f32),
    StableHlo.reshape main_v413 main_v414 rfl shapeCasts_S32x50x1_S32x50,
    StableHlo.binary main_v412 main_v414 main_v415 (maximumf : Vec F S32x50 .f32 → Vec F S32x50 .f32 → Vec F S32x50 .f32),
    StableHlo.unary main_v348 main_v416 ((extractStridedSlice S32x50x1 ![0, 0, 3] · slices_S32x50x4_S32x50x1_0_0_3) : Vec F S32x50x4 .f32 → Vec F S32x50x1 .f32),
    StableHlo.reshape main_v416 main_v417 rfl shapeCasts_S32x50x1_S32x50,
    StableHlo.unary main_arg2 main_v418 ((extractStridedSlice S32x50x1 ![0, 0, 3] · slices_S32x50x4_S32x50x1_0_0_3) : Vec F S32x50x4 .f32 → Vec F S32x50x1 .f32),
    StableHlo.reshape main_v418 main_v419 rfl shapeCasts_S32x50x1_S32x50,
    StableHlo.binary main_v417 main_v419 main_v420 (maximumf : Vec F S32x50 .f32 → Vec F S32x50 .f32 → Vec F S32x50 .f32),
    StableHlo.binary main_v415 main_v405 main_v421 (subf : Vec F S32x50 .f32 → Vec F S32x50 .f32 → Vec F S32x50 .f32),
    StableHlo.binary main_v420 main_v410 main_v422 (subf : Vec F S32x50 .f32 → Vec F S32x50 .f32 → Vec F S32x50 .f32),
    StableHlo.binary main_v421 main_v422 main_v423 (mulf : Vec F S32x50 .f32 → Vec F S32x50 .f32 → Vec F S32x50 .f32),
    StableHlo.binary main_v423 main_v399 main_v424 (subf : Vec F S32x50 .f32 → Vec F S32x50 .f32 → Vec F S32x50 .f32),
    StableHlo.binary main_v424 main_v423 main_v425 (Host.divf : Vec F S32x50 .f32 → Vec F S32x50 .f32 → Vec F S32x50 .f32),
    StableHlo.binary main_v400 main_v425 main_v426 (subf : Vec F S32x50 .f32 → Vec F S32x50 .f32 → Vec F S32x50 .f32),
    StableHlo.nullary main_cst_70 (constant S_ .f32 0x3F800000#32),
    StableHlo.unary main_cst_70 main_v427 (broadcastInDim S32x50 ![] bcast_S_S32x50 : Vec F S_ .f32 → Vec F S32x50 .f32),
    StableHlo.binary main_v427 main_v426 main_v428 (subf : Vec F S32x50 .f32 → Vec F S32x50 .f32 → Vec F S32x50 .f32),
    StableHlo.nullary main_cst_71 (constant S_ .f32 0x00000000#32),
    StableHlo.TRef.unary (.of main_cst_71 : StableHlo.TRef sig ⟨S_, .f32⟩) main_call24.v0 id,
    StableHlo.TRef.unary main_call24.v0 main_call24.v1 (broadcastInDim S32x50 ![] bcast_S_S32x50),
    StableHlo.TRef.ternary (.of main_v340 : StableHlo.TRef sig ⟨S32x50, .i1⟩) (.of main_v428 : StableHlo.TRef sig ⟨S32x50, .f32⟩) main_call24.v1 main_call24.v2 select,
    StableHlo.nullary main_cst_72 (constant S_ .f32 0x00000000#32),
    StableHlo.binary main_v429 main_cst_72 main_v430 ((fun x v => Host.reduceAdd x v reducesTo_S32x50_S_d0_1 h_S_) : Vec F S32x50 .f32 → Vec F S_ .f32 → Vec F S_ .f32),
    StableHlo.binary main_v278 main_v430 main_v431 (addf : Vec F S_ .f32 → Vec F S_ .f32 → Vec F S_ .f32) ]

abbrev ops_s2_cls : List (HloOp τ sig (Elt F)) :=
  [ StableHlo.TRef.unary (.of main_v350 : StableHlo.TRef sig ⟨S32x50x80, .f32⟩) main_call25.v0 Host.negf,
    StableHlo.TRef.nullary main_call25.call0.cst (constant S_ .f32 0x00000000#32),
    StableHlo.TRef.unary main_call25.call0.cst main_call25.call0.v0 (broadcastInDim S32x50x80 ![] bcast_S_S32x50x80),
    StableHlo.TRef.binary main_call25.v0 main_call25.call0.v0 main_call25.call0.v1 maximumf,
    StableHlo.TRef.unary main_call25.call0.cst main_call25.call0.v2 (broadcastInDim S32x50x80 ![] bcast_S_S32x50x80),
    StableHlo.TRef.binary main_call25.v0 main_call25.call0.v2 main_call25.call0.v3 subf,
    StableHlo.TRef.binary main_call25.call0.v3 main_call25.call0.v3 main_call25.call0.v4 (cmpf .une),
    StableHlo.TRef.unary main_call25.call0.cst main_call25.call0.v5 (broadcastInDim S32x50x80 ![] bcast_S_S32x50x80),
    StableHlo.TRef.binary main_call25.v0 main_call25.call0.v5 main_call25.call0.v6 addf,
    StableHlo.TRef.unary main_call25.call0.v3 main_call25.call0.v7 Host.absf,
    StableHlo.TRef.unary main_call25.call0.v7 main_call25.call0.v8 Host.negf,
    StableHlo.TRef.unary main_call25.call0.v8 main_call25.call0.v9 Host.exp,
    StableHlo.TRef.unary main_call25.call0.v9 main_call25.call0.v10 Host.log1p,
    StableHlo.TRef.binary main_call25.call0.v1 main_call25.call0.v10 main_call25.call0.v11 addf,
    StableHlo.TRef.ternary main_call25.call0.v4 main_call25.call0.v6 main_call25.call0.v11 main_call25.call0.v12 select,
    StableHlo.TRef.unary main_call25.call0.v12 main_call25.v2 Host.negf,
    StableHlo.binary main_v14 main_v432 main_v433 (mulf : Vec F S32x50x80 .f32 → Vec F S32x50x80 .f32 → Vec F S32x50x80 .f32),
    StableHlo.nullary main_cst_73 (constant S_ .f32 0x3F800000#32),
    StableHlo.unary main_cst_73 main_v434 (broadcastInDim S32x50x80 ![] bcast_S_S32x50x80 : Vec F S_ .f32 → Vec F S32x50x80 .f32),
    StableHlo.binary main_v434 main_v14 main_v435 (subf : Vec F S32x50x80 .f32 → Vec F S32x50x80 .f32 → Vec F S32x50x80 .f32),
    StableHlo.unary main_v350 main_v436 (Host.negf : Vec F S32x50x80 .f32 → Vec F S32x50x80 .f32),
    StableHlo.TRef.unary (.of main_v436 : StableHlo.TRef sig ⟨S32x50x80, .f32⟩) main_call26.v0 Host.negf,
    StableHlo.TRef.nullary main_call26.call0.cst (constant S_ .f32 0x00000000#32),
    StableHlo.TRef.unary main_call26.call0.cst main_call26.call0.v0 (broadcastInDim S32x50x80 ![] bcast_S_S32x50x80),
    StableHlo.TRef.binary main_call26.v0 main_call26.call0.v0 main_call26.call0.v1 maximumf,
    StableHlo.TRef.unary main_call26.call0.cst main_call26.call0.v2 (broadcastInDim S32x50x80 ![] bcast_S_S32x50x80),
    StableHlo.TRef.binary main_call26.v0 main_call26.call0.v2 main_call26.call0.v3 subf,
    StableHlo.TRef.binary main_call26.call0.v3 main_call26.call0.v3 main_call26.call0.v4 (cmpf .une),
    StableHlo.TRef.unary main_call26.call0.cst main_call26.call0.v5 (broadcastInDim S32x50x80 ![] bcast_S_S32x50x80),
    StableHlo.TRef.binary main_call26.v0 main_call26.call0.v5 main_call26.call0.v6 addf,
    StableHlo.TRef.unary main_call26.call0.v3 main_call26.call0.v7 Host.absf,
    StableHlo.TRef.unary main_call26.call0.v7 main_call26.call0.v8 Host.negf,
    StableHlo.TRef.unary main_call26.call0.v8 main_call26.call0.v9 Host.exp,
    StableHlo.TRef.unary main_call26.call0.v9 main_call26.call0.v10 Host.log1p,
    StableHlo.TRef.binary main_call26.call0.v1 main_call26.call0.v10 main_call26.call0.v11 addf,
    StableHlo.TRef.ternary main_call26.call0.v4 main_call26.call0.v6 main_call26.call0.v11 main_call26.call0.v12 select,
    StableHlo.TRef.unary main_call26.call0.v12 main_call26.v2 Host.negf,
    StableHlo.binary main_v435 main_v437 main_v438 (mulf : Vec F S32x50x80 .f32 → Vec F S32x50x80 .f32 → Vec F S32x50x80 .f32),
    StableHlo.binary main_v433 main_v438 main_v439 (addf : Vec F S32x50x80 .f32 → Vec F S32x50x80 .f32 → Vec F S32x50x80 .f32),
    StableHlo.unary main_v439 main_v440 (Host.negf : Vec F S32x50x80 .f32 → Vec F S32x50x80 .f32),
    StableHlo.unary main_v350 main_v441 (Host.negf : Vec F S32x50x80 .f32 → Vec F S32x50x80 .f32),
    StableHlo.unary main_v441 main_v442 (Host.exp : Vec F S32x50x80 .f32 → Vec F S32x50x80 .f32),
    StableHlo.nullary main_cst_74 (constant S_ .f32 0x3F800000#32),
    StableHlo.unary main_cst_74 main_v443 (broadcastInDim S32x50x80 ![] bcast_S_S32x50x80 : Vec F S_ .f32 → Vec F S32x50x80 .f32),
    StableHlo.binary main_v443 main_v442 main_v444 (addf : Vec F S32x50x80 .f32 → Vec F S32x50x80 .f32 → Vec F S32x50x80 .f32),
    StableHlo.nullary main_cst_75 (constant S_ .f32 0x3F800000#32),
    StableHlo.unary main_cst_75 main_v445 (broadcastInDim S32x50x80 ![] bcast_S_S32x50x80 : Vec F S_ .f32 → Vec F S32x50x80 .f32),
    StableHlo.binary main_v445 main_v444 main_v446 (Host.divf : Vec F S32x50x80 .f32 → Vec F S32x50x80 .f32 → Vec F S32x50x80 .f32),
    StableHlo.binary main_v446 main_v14 main_v447 (mulf : Vec F S32x50x80 .f32 → Vec F S32x50x80 .f32 → Vec F S32x50x80 .f32),
    StableHlo.nullary main_cst_76 (constant S_ .f32 0x3F800000#32),
    StableHlo.unary main_cst_76 main_v448 (broadcastInDim S32x50x80 ![] bcast_S_S32x50x80 : Vec F S_ .f32 → Vec F S32x50x80 .f32),
    StableHlo.binary main_v448 main_v446 main_v449 (subf : Vec F S32x50x80 .f32 → Vec F S32x50x80 .f32 → Vec F S32x50x80 .f32),
    StableHlo.nullary main_cst_77 (constant S_ .f32 0x3F800000#32),
    StableHlo.unary main_cst_77 main_v450 (broadcastInDim S32x50x80 ![] bcast_S_S32x50x80 : Vec F S_ .f32 → Vec F S32x50x80 .f32),
    StableHlo.binary main_v450 main_v14 main_v451 (subf : Vec F S32x50x80 .f32 → Vec F S32x50x80 .f32 → Vec F S32x50x80 .f32),
    StableHlo.binary main_v449 main_v451 main_v452 (mulf : Vec F S32x50x80 .f32 → Vec F S32x50x80 .f32 → Vec F S32x50x80 .f32),
    StableHlo.binary main_v447 main_v452 main_v453 (addf : Vec F S32x50x80 .f32 → Vec F S32x50x80 .f32 → Vec F S32x50x80 .f32),
    StableHlo.nullary main_cst_78 (constant S_ .f32 0x3E800000#32),
    StableHlo.unary main_cst_78 main_v454 (broadcastInDim S32x50x80 ![] bcast_S_S32x50x80 : Vec F S_ .f32 → Vec F S32x50x80 .f32),
    StableHlo.binary main_v454 main_v14 main_v455 (mulf : Vec F S32x50x80 .f32 → Vec F S32x50x80 .f32 → Vec F S32x50x80 .f32),
    StableHlo.nullary main_cst_79 (constant S_ .f32 0x3F800000#32),
    StableHlo.unary main_cst_79 main_v456 (broadcastInDim S32x50x80 ![] bcast_S_S32x50x80 : Vec F S_ .f32 → Vec F S32x50x80 .f32),
    StableHlo.binary main_v456 main_v14 main_v457 (subf : Vec F S32x50x80 .f32 → Vec F S32x50x80 .f32 → Vec F S32x50x80 .f32),
    StableHlo.nullary main_cst_80 (constant S_ .f32 0x3F400000#32),
    StableHlo.unary main_cst_80 main_v458 (broadcastInDim S32x50x80 ![] bcast_S_S32x50x80 : Vec F S_ .f32 → Vec F S32x50x80 .f32),
    StableHlo.binary main_v458 main_v457 main_v459 (mulf : Vec F S32x50x80 .f32 → Vec F S32x50x80 .f32 → Vec F S32x50x80 .f32),
    StableHlo.binary main_v455 main_v459 main_v460 (addf : Vec F S32x50x80 .f32 → Vec F S32x50x80 .f32 → Vec F S32x50x80 .f32),
    StableHlo.nullary main_cst_81 (constant S_ .f32 0x3F800000#32),
    StableHlo.unary main_cst_81 main_v461 (broadcastInDim S32x50x80 ![] bcast_S_S32x50x80 : Vec F S_ .f32 → Vec F S32x50x80 .f32),
    StableHlo.binary main_v461 main_v453 main_v462 (subf : Vec F S32x50x80 .f32 → Vec F S32x50x80 .f32 → Vec F S32x50x80 .f32),
    StableHlo.nullary main_cst_82 (constant S_ .f32 0x40000000#32),
    StableHlo.unary main_cst_82 main_v463 (broadcastInDim S32x50x80 ![] bcast_S_S32x50x80 : Vec F S_ .f32 → Vec F S32x50x80 .f32),
    StableHlo.binary main_v462 main_v463 main_v464 (Host.powf : Vec F S32x50x80 .f32 → Vec F S32x50x80 .f32 → Vec F S32x50x80 .f32),
    StableHlo.binary main_v460 main_v464 main_v465 (mulf : Vec F S32x50x80 .f32 → Vec F S32x50x80 .f32 → Vec F S32x50x80 .f32),
    StableHlo.binary main_v465 main_v440 main_v466 (mulf : Vec F S32x50x80 .f32 → Vec F S32x50x80 .f32 → Vec F S32x50x80 .f32),
    StableHlo.nullary main_cst_83 (constant S_ .f32 0x00000000#32),
    StableHlo.binary main_v466 main_cst_83 main_v467 ((fun x v => Host.reduceAdd x v reducesTo_S32x50x80_S32x50_d2 h_S_) : Vec F S32x50x80 .f32 → Vec F S_ .f32 → Vec F S32x50 .f32),
    StableHlo.nullary main_cst_84 (constant S_ .f32 0x00000000#32),
    StableHlo.TRef.unary (.of main_cst_84 : StableHlo.TRef sig ⟨S_, .f32⟩) main_call27.v0 id,
    StableHlo.TRef.unary main_call27.v0 main_call27.v1 (broadcastInDim S32x50 ![] bcast_S_S32x50),
    StableHlo.TRef.ternary (.of main_v340 : StableHlo.TRef sig ⟨S32x50, .i1⟩) (.of main_v467 : StableHlo.TRef sig ⟨S32x50, .f32⟩) main_call27.v1 main_call27.v2 select,
    StableHlo.nullary main_cst_85 (constant S_ .f32 0x00000000#32),
    StableHlo.binary main_v468 main_cst_85 main_v469 ((fun x v => Host.reduceAdd x v reducesTo_S32x50_S_d0_1 h_S_) : Vec F S32x50 .f32 → Vec F S_ .f32 → Vec F S_ .f32),
    StableHlo.binary main_v317 main_v469 main_v470 (addf : Vec F S_ .f32 → Vec F S_ .f32 → Vec F S_ .f32) ]

abbrev ops_s2_cnt : List (HloOp τ sig (Elt F)) :=
  [ StableHlo.unary main_v340 main_v471 ((extui 32 · natLt_1_32) : Vec F S32x50 .i1 → Vec F S32x50 .i32),
    StableHlo.nullary main_c_86 (constantI S_ 32 0#32),
    StableHlo.binary main_v471 main_c_86 main_v472 ((fun x v => Host.reduce IntOp.addi x v reducesTo_S32x50_S_d0_1 h_S_) : Vec F S32x50 .i32 → Vec F S_ .i32 → Vec F S_ .i32),
    StableHlo.binary main_v320 main_v472 main_v473 (addi : Vec F S_ .i32 → Vec F S_ .i32 → Vec F S_ .i32) ]

abbrev ops_tail : List (HloOp τ sig (Elt F)) :=
  [ StableHlo.nullary main_c_87 (constantI S_ 32 1#32),
    StableHlo.binary main_v473 main_c_87 main_v474 (maxsi : Vec F S_ .i32 → Vec F S_ .i32 → Vec F S_ .i32),
    StableHlo.unary main_v474 main_v475 (sitofp .f32 : Vec F S_ .i32 → Vec F S_ .f32),
    StableHlo.nullary main_cst_88 (constant S_ .f32 0x40A00000#32),
    StableHlo.binary main_cst_88 main_v431 main_v476 (mulf : Vec F S_ .f32 → Vec F S_ .f32 → Vec F S_ .f32),
    StableHlo.nullary main_cst_89 (constant S_ .f32 0x3F800000#32),
    StableHlo.binary main_cst_89 main_v470 main_v477 (mulf : Vec F S_ .f32 → Vec F S_ .f32 → Vec F S_ .f32),
    StableHlo.binary main_v476 main_v477 main_v478 (addf : Vec F S_ .f32 → Vec F S_ .f32 → Vec F S_ .f32),
    StableHlo.binary main_v478 main_v475 main_v479 (Host.divf : Vec F S_ .f32 → Vec F S_ .f32 → Vec F S_ .f32) ]

abbrev ops : List (HloOp τ sig (Elt F)) :=
  ops_head ++ ops_s0_idx ++ ops_s0_box ++ ops_s0_cls ++ ops_s0_cnt ++ ops_s1_idx ++ ops_s1_box ++ ops_s1_cls ++ ops_s1_cnt ++ ops_s2_idx ++ ops_s2_box ++ ops_s2_cls ++ ops_s2_cnt ++ ops_tail

end Cert.ReferenceIdeal.Hand

end
-- ==== Proof.RefRun.lean ====
import proofs.«423457_j69166153335192_3_alg».proof.Proof.RefOps
import proofs.«423457_j69166153335192_3_alg».proof.Proof.LibWrites
import Idealize.ShloMosaic.Lib.Pipeline.Regions

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

set_option maxRecDepth 100000 in
-- With every call replaced by its body, @main is the straight line `ops`.
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

-- Every operation touches only the program's own buffers and allocates nothing.
def Ok (op : HloOp τ sig (Elt F)) : Prop := op.bufs ⊆ tcRefs τ sig ∧ op.fresh = ∅

theorem ok_s0 : (ops_head : List (HloOp τ sig (Elt F))).Forall Ok ∧ (ops_s0_idx : List (HloOp τ sig (Elt F))).Forall Ok ∧ (ops_s0_box : List (HloOp τ sig (Elt F))).Forall Ok ∧ (ops_s0_cls : List (HloOp τ sig (Elt F))).Forall Ok ∧ (ops_s0_cnt : List (HloOp τ sig (Elt F))).Forall Ok := by
  unfold Ok
  repeat' apply And.intro
  all_goals first | rfl | simp only [binary_bufs_sub, unary_bufs_sub, nullary_bufs_sub, reshape_bufs_sub, ternary_bufs_sub]
theorem ok_s1 : (ops_s1_idx : List (HloOp τ sig (Elt F))).Forall Ok ∧ (ops_s1_box : List (HloOp τ sig (Elt F))).Forall Ok ∧ (ops_s1_cls : List (HloOp τ sig (Elt F))).Forall Ok ∧ (ops_s1_cnt : List (HloOp τ sig (Elt F))).Forall Ok := by
  unfold Ok
  repeat' apply And.intro
  all_goals first | rfl | simp only [binary_bufs_sub, unary_bufs_sub, nullary_bufs_sub, reshape_bufs_sub, ternary_bufs_sub]
theorem ok_s2 : (ops_s2_idx : List (HloOp τ sig (Elt F))).Forall Ok ∧ (ops_s2_box : List (HloOp τ sig (Elt F))).Forall Ok ∧ (ops_s2_cls : List (HloOp τ sig (Elt F))).Forall Ok ∧ (ops_s2_cnt : List (HloOp τ sig (Elt F))).Forall Ok ∧ (ops_tail : List (HloOp τ sig (Elt F))).Forall Ok := by
  unfold Ok
  repeat' apply And.intro
  all_goals first | rfl | simp only [binary_bufs_sub, unary_bufs_sub, nullary_bufs_sub, reshape_bufs_sub, ternary_bufs_sub]

theorem ops_ok : (ops : List (HloOp τ sig (Elt F))).Forall Ok := by
  unfold ops
  simpa only [List.forall_append, and_assoc] using And.intro (ok_s0 (F := F)) (And.intro ok_s1 ok_s2)

theorem ops_sub : (ops : List (HloOp τ sig (Elt F))).Forall fun op => op.bufs ⊆ tcRefs τ sig := ops_ok.imp fun _ h => h.1

theorem ops_fresh : ∀ op ∈ (ops : List (HloOp τ sig (Elt F))), op.fresh = ∅ :=
  List.forall_iff_forall_mem.mp (ops_ok.imp fun _ h => h.2)

local syntax "conj_writes" : tactic
local macro_rules | `(tactic| conj_writes) => `(tactic| first
  | (refine ⟨fun _ hr => not_mem_single_of_idx hr (by decide), ?_⟩; conj_writes)
  | exact fun _ hr => not_mem_single_of_idx hr (by decide))

theorem ops_head_writes : WritesIn 5 27 (ops_head : List (HloOp τ sig (Elt F))) := by unfold WritesIn; conj_writes
theorem ops_s0_idx_writes : WritesIn 27 110 (ops_s0_idx : List (HloOp τ sig (Elt F))) := by unfold WritesIn; conj_writes
theorem ops_s0_box_writes : WritesIn 110 203 (ops_s0_box : List (HloOp τ sig (Elt F))) := by unfold WritesIn; conj_writes
theorem ops_s0_cls_writes : WritesIn 203 288 (ops_s0_cls : List (HloOp τ sig (Elt F))) := by unfold WritesIn; conj_writes
theorem ops_s0_cnt_writes : WritesIn 288 293 (ops_s0_cnt : List (HloOp τ sig (Elt F))) := by unfold WritesIn; conj_writes
theorem ops_s1_idx_writes : WritesIn 293 376 (ops_s1_idx : List (HloOp τ sig (Elt F))) := by unfold WritesIn; conj_writes
theorem ops_s1_box_writes : WritesIn 376 468 (ops_s1_box : List (HloOp τ sig (Elt F))) := by unfold WritesIn; conj_writes
theorem ops_s1_cls_writes : WritesIn 468 552 (ops_s1_cls : List (HloOp τ sig (Elt F))) := by unfold WritesIn; conj_writes
theorem ops_s1_cnt_writes : WritesIn 552 556 (ops_s1_cnt : List (HloOp τ sig (Elt F))) := by unfold WritesIn; conj_writes
theorem ops_s2_idx_writes : WritesIn 556 639 (ops_s2_idx : List (HloOp τ sig (Elt F))) := by unfold WritesIn; conj_writes
theorem ops_s2_box_writes : WritesIn 639 731 (ops_s2_box : List (HloOp τ sig (Elt F))) := by unfold WritesIn; conj_writes
theorem ops_s2_cls_writes : WritesIn 731 815 (ops_s2_cls : List (HloOp τ sig (Elt F))) := by unfold WritesIn; conj_writes
theorem ops_s2_cnt_writes : WritesIn 815 819 (ops_s2_cnt : List (HloOp τ sig (Elt F))) := by unfold WritesIn; conj_writes
theorem ops_tail_writes : WritesIn 819 828 (ops_tail : List (HloOp τ sig (Elt F))) := by unfold WritesIn; conj_writes

theorem ops_writes : WritesIn 5 828 (ops : List (HloOp τ sig (Elt F))) :=
  (((((((((((((ops_head_writes.append ops_s0_idx_writes).append ops_s0_box_writes).append ops_s0_cls_writes).append ops_s0_cnt_writes).append ops_s1_idx_writes).append ops_s1_box_writes).append ops_s1_cls_writes).append ops_s1_cnt_writes).append ops_s2_idx_writes).append ops_s2_box_writes).append ops_s2_cls_writes).append ops_s2_cnt_writes).append ops_tail_writes)

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

theorem after_arg0 (V : Valuation τ sig (Elt F)) : after ops V (Proc.devRef .tc main_arg0) = V (Proc.devRef .tc main_arg0) :=
  ops_writes.keeps main_arg0 (Or.inl (by decide)) V
theorem after_arg1 (V : Valuation τ sig (Elt F)) : after ops V (Proc.devRef .tc main_arg1) = V (Proc.devRef .tc main_arg1) :=
  ops_writes.keeps main_arg1 (Or.inl (by decide)) V
theorem after_arg2 (V : Valuation τ sig (Elt F)) : after ops V (Proc.devRef .tc main_arg2) = V (Proc.devRef .tc main_arg2) :=
  ops_writes.keeps main_arg2 (Or.inl (by decide)) V
theorem after_arg3 (V : Valuation τ sig (Elt F)) : after ops V (Proc.devRef .tc main_arg3) = V (Proc.devRef .tc main_arg3) :=
  ops_writes.keeps main_arg3 (Or.inl (by decide)) V
theorem after_arg4 (V : Valuation τ sig (Elt F)) : after ops V (Proc.devRef .tc main_arg4) = V (Proc.devRef .tc main_arg4) :=
  ops_writes.keeps main_arg4 (Or.inl (by decide)) V

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_arg0).trans (after_arg0 _), (h c main_arg1).trans (after_arg1 _),
      (h c main_arg2).trans (after_arg2 _), (h c main_arg3).trans (after_arg3 _), (h c main_arg4).trans (after_arg4 _)⟩)
    (run m ρ)

end Cert.ReferenceIdeal.Hand

end
-- ==== Proof.KValue.lean ====
import proofs.«423457_j69166153335192_3_alg».proof.Proof.KFrame
import Idealize.ShloMosaic.Lib.Pipeline.Value
import Idealize.ShloMosaic.Lib.ValueIdx
import Idealize.ShloMosaic.Lib.ValueIdxRank1
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

def image (b : Fin 32) : Fin cfg0.N := ⟨b.val, by rw [show cfg0.N = 32 from N_0]; exact b.isLt⟩

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

def imgOut (c : Dev nD) (t : Fin cfg0.N) : FVec F S1x1x3 .f32 :=
  kpoint (iblk m c 0 t) (iblk m c 1 t) (iblk m c 2 t) (iblk m c 3 t) (iblk m c 4 t) (iblk m c 5 t)

def outArr (c : Dev nD) : FVec F S32x1x3 .f32 := fun i =>
  imgOut m c (image (i 0)) (ix3 0 0 (i 2))

theorem outArr_apply (c : Dev nD) (b : Fin 32) (k : Fin 3) :
    outArr m c (ix3 b 0 k) = imgOut m c (image b) (ix3 0 0 k) := rfl

theorem flushed6_eq (c : Dev nD) (t : Fin cfg0.N) :
    (dats m 0 c).flushed 6 t = ((cfg0.win 6).blk t).view.read (Elt F) (outArr m c) := by
  show (cfg0.win 6).cut (grid0.coords t) ((dats m 0 c).after 6 t) = _
  rw [after0_6]
  unfold out0_6
  rw [View.canon_unit_zero hz]
  simp only [View.ld_unit_zero (S := S1x150x1) hz, View.ld_unit_zero (S := S1x150x4) hz, View.ld_unit_zero (S := S1x150x80) hz,
    View.ld_unit_zero (S := S1x8400x4) hz, View.ld_unit_zero (S := S1x8400x80) hz]
  funext j
  show imgOut m c t j = imgOut m c (image ((((cfg0.win 6).blk t).view.emb j) 0)) (ix3 0 0 ((((cfg0.win 6).blk t).view.emb j) 2))
  obtain ⟨-, -, -, -, -, -, e0, e1, e2⟩ := idx_facts t
  have hj0 : (j 0).val < 1 := (j 0).isLt
  have hj1 : (j 1).val < 1 := (j 1).isLt
  have hj2 : (j 2).val < 3 := (j 2).isLt
  have h0 : image ((((cfg0.win 6).blk t).view.emb j) 0) = t := by
    apply Fin.ext
    show win0_6.index t (0 : Fin 3) * 1 + 1 * (j 0).val = t.val
    omega
  have h2 : (ix3 0 0 ((((cfg0.win 6).blk t).view.emb j) 2) : S1x1x3.Idx) = j := by
    funext a
    apply Fin.ext
    match a with
    | ⟨0, _⟩ => show 0 = (j 0).val; omega
    | ⟨1, _⟩ => show 0 = (j 1).val; omega
    | ⟨2, _⟩ => show win0_6.index t (2 : Fin 3) * 3 + 1 * (j 2).val = (j 2).val; omega
  rw [h0, h2]

theorem mem_blk6 (t : Fin cfg0.N) (i : S32x1x3.Idx) :
    i ∈ ((cfg0.win 6).blk t).view.set ↔ ∀ a : Fin 3, win0_6.index t a * S1x1x3.size a ≤ (i a).val ∧ (i a).val < win0_6.index t a * S1x1x3.size a + S1x1x3.size a := by
  show i ∈ ((View.whole main_v114).slice (win0_6.rect t)).set ↔ _
  rw [View.set_slice_whole, Rect.mem_set_unit]
  exact Iff.rfl

theorem cover6 (i : S32x1x3.Idx) : ∃ t : Fin cfg0.N, (cfg0.win 6).flush t = true ∧ i ∈ ((cfg0.win 6).blk t).view.set := by
  have hi0 : (i 0).val < 32 := (i 0).isLt
  have hi1 : (i 1).val < 1 := (i 1).isLt
  have hi2 : (i 2).val < 3 := (i 2).isLt
  refine ⟨image (i 0), flush0_6 _, ?_⟩
  rw [mem_blk6]
  obtain ⟨-, -, -, -, -, -, e0, e1, e2⟩ := idx_facts (image (i 0))
  have hv : (image (i 0)).val = (i 0).val := rfl
  intro a
  match a with
  | ⟨0, _⟩ => show win0_6.index (image (i 0)) (0 : Fin 3) * 1 ≤ (i 0).val ∧ (i 0).val < win0_6.index (image (i 0)) (0 : Fin 3) * 1 + 1; omega
  | ⟨1, _⟩ => show win0_6.index (image (i 0)) (1 : Fin 3) * 1 ≤ (i 1).val ∧ (i 1).val < win0_6.index (image (i 0)) (1 : Fin 3) * 1 + 1; omega
  | ⟨2, _⟩ => show win0_6.index (image (i 0)) (2 : Fin 3) * 3 ≤ (i 2).val ∧ (i 2).val < win0_6.index (image (i 0)) (2 : Fin 3) * 3 + 3; omega

theorem final6 (c : Dev nD) : (dats m 0 c).arrAt 6 cfg0.N = outArr m c :=
  (dats m 0 c).arrAt_eq_of_cover 6 (outArr m c) (fun t _ => flushed6_eq m c t) cover6

theorem iblk0_apply (c : Dev nD) (b : Fin 32) (j : Fin 150) (k : Fin 1) :
    (iblk m c 0 (image b) : Vec F S1x150x1 .i32) (ix3 0 j k) = (V m c main_v112 : Vec F S32x150x1 .i32) (ix3 b j k) := by
  obtain ⟨f0, f1, f2, f3, f4, f5, f6⟩ := idx_facts (image b)
  have hv : (image b).val = b.val := rfl
  unfold iblk
  rw [View.read_apply]
  show V m c main_v112 _ = V m c main_v112 _
  congr 1
  funext a
  apply Fin.ext
  match a with
  | ⟨0, _⟩ => show win0_0.index (image b) (0 : Fin 3) * 1 + 1 * 0 = b.val; omega
  | ⟨1, _⟩ => show win0_0.index (image b) (1 : Fin 3) * 150 + 1 * j.val = j.val; omega
  | ⟨2, _⟩ => show win0_0.index (image b) (2 : Fin 3) * 1 + 1 * k.val = k.val; omega

theorem iblk1_apply (c : Dev nD) (b : Fin 32) (j : Fin 150) (k : Fin 1) :
    (iblk m c 1 (image b) : Vec F S1x150x1 .f32) (ix3 0 j k) = (V m c main_v113 : Vec F S32x150x1 .f32) (ix3 b j k) := by
  obtain ⟨f0, f1, f2, f3, f4, f5, f6⟩ := idx_facts (image b)
  have hv : (image b).val = b.val := rfl
  unfold iblk
  rw [View.read_apply]
  show V m c main_v113 _ = V m c main_v113 _
  congr 1
  funext a
  apply Fin.ext
  match a with
  | ⟨0, _⟩ => show win0_1.index (image b) (0 : Fin 3) * 1 + 1 * 0 = b.val; omega
  | ⟨1, _⟩ => show win0_1.index (image b) (1 : Fin 3) * 150 + 1 * j.val = j.val; omega
  | ⟨2, _⟩ => show win0_1.index (image b) (2 : Fin 3) * 1 + 1 * k.val = k.val; omega

theorem iblk2_apply (c : Dev nD) (b : Fin 32) (j : Fin 150) (k : Fin 4) :
    (iblk m c 2 (image b) : Vec F S1x150x4 .f32) (ix3 0 j k) = (V m c main_v108 : Vec F S32x150x4 .f32) (ix3 b j k) := by
  obtain ⟨f0, f1, f2, f3, f4, f5, f6⟩ := idx_facts (image b)
  have hv : (image b).val = b.val := rfl
  unfold iblk
  rw [View.read_apply]
  show V m c main_v108 _ = V m c main_v108 _
  congr 1
  funext a
  apply Fin.ext
  match a with
  | ⟨0, _⟩ => show win0_2.index (image b) (0 : Fin 3) * 1 + 1 * 0 = b.val; omega
  | ⟨1, _⟩ => show win0_2.index (image b) (1 : Fin 3) * 150 + 1 * j.val = j.val; omega
  | ⟨2, _⟩ => show win0_2.index (image b) (2 : Fin 3) * 4 + 1 * k.val = k.val; omega

theorem iblk3_apply (c : Dev nD) (b : Fin 32) (j : Fin 150) (k : Fin 80) :
    (iblk m c 3 (image b) : Vec F S1x150x80 .f32) (ix3 0 j k) = (V m c main_v111 : Vec F S32x150x80 .f32) (ix3 b j k) := by
  obtain ⟨f0, f1, f2, f3, f4, f5, f6⟩ := idx_facts (image b)
  have hv : (image b).val = b.val := rfl
  unfold iblk
  rw [View.read_apply]
  show V m c main_v111 _ = V m c main_v111 _
  congr 1
  funext a
  apply Fin.ext
  match a with
  | ⟨0, _⟩ => show win0_3.index (image b) (0 : Fin 3) * 1 + 1 * 0 = b.val; omega
  | ⟨1, _⟩ => show win0_3.index (image b) (1 : Fin 3) * 150 + 1 * j.val = j.val; omega
  | ⟨2, _⟩ => show win0_3.index (image b) (2 : Fin 3) * 80 + 1 * k.val = k.val; omega

theorem iblk4_apply (c : Dev nD) (b : Fin 32) (j : Fin 8400) (k : Fin 4) :
    (iblk m c 4 (image b) : Vec F S1x8400x4 .f32) (ix3 0 j k) = (V m c main_arg0 : Vec F S32x8400x4 .f32) (ix3 b j k) := by
  obtain ⟨f0, f1, f2, f3, f4, f5, f6⟩ := idx_facts (image b)
  have hv : (image b).val = b.val := rfl
  unfold iblk
  rw [View.read_apply]
  show V m c main_arg0 _ = V m c main_arg0 _
  congr 1
  funext a
  apply Fin.ext
  match a with
  | ⟨0, _⟩ => show win0_4.index (image b) (0 : Fin 3) * 1 + 1 * 0 = b.val; omega
  | ⟨1, _⟩ => show win0_4.index (image b) (1 : Fin 3) * 8400 + 1 * j.val = j.val; omega
  | ⟨2, _⟩ => show win0_4.index (image b) (2 : Fin 3) * 4 + 1 * k.val = k.val; omega

theorem iblk5_apply (c : Dev nD) (b : Fin 32) (j : Fin 8400) (k : Fin 80) :
    (iblk m c 5 (image b) : Vec F S1x8400x80 .f32) (ix3 0 j k) = (V m c main_arg1 : Vec F S32x8400x80 .f32) (ix3 b j k) := by
  obtain ⟨f0, f1, f2, f3, f4, f5, f6⟩ := idx_facts (image b)
  have hv : (image b).val = b.val := rfl
  unfold iblk
  rw [View.read_apply]
  show V m c main_arg1 _ = V m c main_arg1 _
  congr 1
  funext a
  apply Fin.ext
  match a with
  | ⟨0, _⟩ => show win0_5.index (image b) (0 : Fin 3) * 1 + 1 * 0 = b.val; omega
  | ⟨1, _⟩ => show win0_5.index (image b) (1 : Fin 3) * 8400 + 1 * j.val = j.val; omega
  | ⟨2, _⟩ => show win0_5.index (image b) (2 : Fin 3) * 80 + 1 * k.val = k.val; omega

def tailK (o : FVec F S32x1x3 .f32) : FVec F S_ .f32 :=
  Host.divf
    (addf
      (mulf (constant (F := F) S_ .f32 0x40A00000#32)
        (Host.reduceAdd
          (fun i => shapeCast S32 (extractStridedSlice S32x1 ![0, 0] (fun i => shapeCast S32x3 o shapeCasts_S32x1x3_S32x3 i) slices_S32x3_S32x1_0_0) shapeCasts_S32x1_S32 i)
          (constant (F := F) S_ .f32 0x00000000#32) reducesTo_S32_S_d0 h_S_))
      (mulf (constant (F := F) S_ .f32 0x3F800000#32)
        (Host.reduceAdd
          (fun i => shapeCast S32 (extractStridedSlice S32x1 ![0, 1] (fun i => shapeCast S32x3 o shapeCasts_S32x1x3_S32x3 i) slices_S32x3_S32x1_0_1) shapeCasts_S32x1_S32 i)
          (constant (F := F) S_ .f32 0x00000000#32) reducesTo_S32_S_d0 h_S_)))
    (maximumf
      (Host.reduceAdd
        (fun i => shapeCast S32 (extractStridedSlice S32x1 ![0, 2] (fun i => shapeCast S32x3 o shapeCasts_S32x1x3_S32x3 i) slices_S32x3_S32x1_0_2) shapeCasts_S32x1_S32 i)
        (constant (F := F) S_ .f32 0x00000000#32) reducesTo_S32_S_d0 h_S_)
      (constant (F := F) S_ .f32 0x3F800000#32))

theorem tail_eq (dats' : (p : Fin 1) → (c : Dev nD) → Dat τ (Elt F) Unit ℕ (UR sig nD τ) ℕ (cfgs p) c) (c : Dev nD) :
    Pipeline.afterTail₀ cfgs dats' 0 (V0 m) [hostOps1] c main_v129 = tailK ((dats' 0 c).arrAt 6 cfg0.N) := by
  unfold Pipeline.afterTail₀
  show StableHlo.after hostOps1 _ (Proc.devRef .tc main_v129) = _
  after_results_simp
  rw [show Pipeline.withArrays (cfgs 0).spec c (V0 m c) (fun w => (dats' 0 c).arrAt w (cfgs 0).N) (Proc.devRef .tc main_v114)
      = (dats' 0 c).arrAt 6 cfg0.N from Pipeline.withArrays_arr spec0 launch0.win.arr_inj c _ _ 6]
  rfl

theorem outCol_apply (o : FVec F S32x1x3 .f32) (off : Fin 2 → Nat) (hs : S32x3.Slices off S32x1) (k : Fin 3)
    (h0 : off 0 = 0) (h1 : off 1 = k.val) (b : Fin 32) :
    shapeCast S32 (extractStridedSlice S32x1 off (fun i => shapeCast S32x3 o shapeCasts_S32x1x3_S32x3 i) hs) shapeCasts_S32x1_S32 (ix1 b)
      = o (ix3 b 0 k) := by
  refine (shapeCast_apply _ shapeCasts_S32x1_S32 (ix1 b) (ix2 b 0) ?_).trans ?_
  · rw [Shape.rowMajor_val_two, Shape.rowMajor_val_one]
    show b.val * 1 + 0 = b.val
    omega
  refine (extractStridedSlice_apply off _ hs (ix2 b 0) (ix2 b k) ?_).trans ?_
  · intro a
    match a with
    | ⟨0, _⟩ => show b.val = off 0 + b.val; omega
    | ⟨1, _⟩ => show k.val = off 1 + 0; omega
  show shapeCast S32x3 o shapeCasts_S32x1x3_S32x3 (ix2 b k) = _
  refine shapeCast_apply o shapeCasts_S32x1x3_S32x3 (ix2 b k) (ix3 b 0 k) ?_
  rw [Shape.rowMajor_val_three, Shape.rowMajor_val_two]
  show (b.val * 1 + 0) * 3 + k.val = b.val * 3 + k.val
  omega

theorem sum_idx1 {M : Type*} [AddCommMonoid M] {n : Nat} (f : (⟨1, ![n]⟩ : Shape).Idx → M) :
    ∑ i, f i = ∑ b : Fin n, f (ix1 b) :=
  (Equiv.sum_comp (idxEquiv1 (n := n)).symm f).symm

theorem tailK_apply (o : FVec Ideal S32x1x3 .f32) :
    tailK o ix0 = Ideal.div
      (Ideal.ofBits .f32 0x40A00000#32 * (0 + ∑ b : Fin 32, o (ix3 b 0 0))
        + Ideal.ofBits .f32 0x3F800000#32 * (0 + ∑ b : Fin 32, o (ix3 b 0 1)))
      (max (0 + ∑ b : Fin 32, o (ix3 b 0 2)) (Ideal.ofBits .f32 0x3F800000#32)) := by
  have c0 : ∀ b : Fin 32, shapeCast S32 (extractStridedSlice S32x1 ![0, 0] (fun i => shapeCast S32x3 o shapeCasts_S32x1x3_S32x3 i) slices_S32x3_S32x1_0_0) shapeCasts_S32x1_S32 (ix1 b) = o (ix3 b 0 0) :=
    fun b => outCol_apply o _ _ 0 rfl rfl b
  have c1 : ∀ b : Fin 32, shapeCast S32 (extractStridedSlice S32x1 ![0, 1] (fun i => shapeCast S32x3 o shapeCasts_S32x1x3_S32x3 i) slices_S32x3_S32x1_0_1) shapeCasts_S32x1_S32 (ix1 b) = o (ix3 b 0 1) :=
    fun b => outCol_apply o _ _ 1 rfl rfl b
  have c2 : ∀ b : Fin 32, shapeCast S32 (extractStridedSlice S32x1 ![0, 2] (fun i => shapeCast S32x3 o shapeCasts_S32x1x3_S32x3 i) slices_S32x3_S32x1_0_2) shapeCasts_S32x1_S32 (ix1 b) = o (ix3 b 0 2) :=
    fun b => outCol_apply o _ _ 2 rfl rfl b
  unfold tailK
  rw [hostDivf_apply, addf_apply, mulf_apply, mulf_apply, maximumf_apply, constant_apply, constant_apply,
    hostReduceAdd_apply, hostReduceAdd_apply, hostReduceAdd_apply, constant_apply,
    Ideal.hostReduceAdd_total reducesTo_S32_S_d0 (fun b => b.elim0), Ideal.hostReduceAdd_total reducesTo_S32_S_d0 (fun b => b.elim0),
    Ideal.hostReduceAdd_total reducesTo_S32_S_d0 (fun b => b.elim0), Ideal.ofBits_zero_f32, sum_idx1, sum_idx1, sum_idx1]
  simp only [c0, c1, c2]

theorem result_bypasses : main_v129 ∈ Pipeline.restRefs sig (cfgs 0).spec :=
  Pipeline.mem_restRefs_of main_v129 (by decide) (by decide)

theorem run_value : θ_run defs (onTc (τ := τ) (main (F := F))) ⟨m, fun _ => 0, ρ⟩ (fun r => ∀ c : Dev nD,
      r.2.mem ((c.tc : Thread nD τ).loc main_v129) = tailK (outArr m c) ∧ ArgsKept m r c) :=
  (θ_run defs _ _).mono (fun r h c =>
      ⟨(((h c).2 main_v129 result_bypasses).trans (tail_eq m (dats m) c)).trans (congrArg tailK (final6 m c)),
        args_of_post m r h c⟩)
    (run_main m ρ)

end Cert.KernelIdeal.Hand

end
-- ==== Proof.KGather.lean ====
import proofs.«423457_j69166153335192_3_alg».proof.Proof.KBase
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx

theorem idxrow_apply (v0 : Vec Ideal S1x150x1 .i32) (h1 : S1x150x1.ShapeCasts S150x1) (h2 : S150x1.Broadcasts S150x8400)
    (j : Fin 150) (n : Fin 8400) :
    broadcastTo S150x8400 (shapeCast S150x1 v0 h1) h2 (ix2 j n) = v0 (ix3 (0 : Fin 1) j (0 : Fin 1)) := by
  refine (broadcastTo_apply _ h2 (ix2 j n) (ix2 j (0 : Fin 1)) fun ax => ?_).trans ?_
  · match ax with
    | ⟨0, _⟩ => rfl
    | ⟨1, _⟩ => rfl
  · exact shapeCast_1ab_ab_apply v0 h1 j (0 : Fin 1)

theorem iotarow_apply (h1 : S1x8400.Iotas .tc 32 [1]) (h2 : S1x8400.Broadcasts S150x8400) (j : Fin 150) (n : Fin 8400) :
    broadcastTo S150x8400 (iota .tc S1x8400 32 [1] h1) h2 (ix2 j n) = BitVec.ofNat 32 n.val := by
  refine (broadcastTo_1b_ab_apply _ h2 j n).trans ?_
  exact iota_single_apply .tc S1x8400 32 1 h1 _

theorem onehot_apply (v0 : Vec Ideal S1x150x1 .i32) (h1 : S1x150x1.ShapeCasts S150x1) (h2 : S150x1.Broadcasts S150x8400)
    (h3 : S1x8400.Iotas .tc 32 [1]) (h4 : S1x8400.Broadcasts S150x8400) (h5 : 1 < 32) (h6 : FTy.bits .bf16 < FTy.bits .f32)
    (j : Fin 150) (n : Fin 8400) :
    (truncf .bf16 (sitofp (F := Ideal) .f32 (extui 32 (cmpi .eq (broadcastTo S150x8400 (shapeCast S150x1 v0 h1) h2)
        (broadcastTo S150x8400 (iota .tc S1x8400 32 [1] h3) h4)) h5)) h6 : FVec Ideal S150x8400 .bf16) (ix2 j n)
      = if (v0 (ix3 (0 : Fin 1) j (0 : Fin 1))).toNat = n.val then (1 : EReal) else 0 := by
  show ((((IntOp.cmpi .eq (broadcastTo S150x8400 (shapeCast S150x1 v0 h1) h2 (ix2 j n))
      (broadcastTo S150x8400 (iota .tc S1x8400 32 [1] h3) h4 (ix2 j n))).setWidth 32).toInt : ℝ) : EReal) = _
  rw [idxrow_apply, iotarow_apply]
  have hn : n.val < 2 ^ 32 := by have := n.isLt; omega
  by_cases h : (v0 (ix3 (0 : Fin 1) j (0 : Fin 1))).toNat = n.val
  · have e : v0 (ix3 (0 : Fin 1) j (0 : Fin 1)) = BitVec.ofNat 32 n.val :=
      BitVec.eq_of_toNat_eq (by rw [h, BitVec.toNat_ofNat, Nat.mod_eq_of_lt hn])
    rw [if_pos h, e]
    simp [IntOp.cmpi]
  · have e : v0 (ix3 (0 : Fin 1) j (0 : Fin 1)) ≠ BitVec.ofNat 32 n.val := fun e =>
      h (by rw [e, BitVec.toNat_ofNat, Nat.mod_eq_of_lt hn])
    rw [if_neg h]
    simp [IntOp.cmpi, beq_eq_false_iff_ne.mpr e]

theorem lhs_ax0 (i : S150x84.Idx) (q : dot_S150x8400_S8400x84_S150x84_1_0_0_1_n_n.contr.Idx) :
    (dot_S150x8400_S8400x84_S150x84_1_0_0_1_n_n.lhsIdx i q 0).val = (i 0).val := by
  unfold DotDims.lhsIdx
  rw [dif_neg (show ¬(0 : Fin S150x8400.rank) ∈ dot_S150x8400_S8400x84_S150x84_1_0_0_1_n_n.lhsBatch by decide),
    dif_pos (show (0 : Fin S150x8400.rank) ∈ dot_S150x8400_S8400x84_S150x84_1_0_0_1_n_n.lhsNonContracting by decide)]
  rfl
theorem lhs_ax1 (i : S150x84.Idx) (q : dot_S150x8400_S8400x84_S150x84_1_0_0_1_n_n.contr.Idx) :
    (dot_S150x8400_S8400x84_S150x84_1_0_0_1_n_n.lhsIdx i q 1).val = (q ⟨0, by decide⟩).val :=
  dot_S150x8400_S8400x84_S150x84_1_0_0_1_n_n.lhsIdx_val_of_single rfl i q
theorem rhs_ax0 (i : S150x84.Idx) (q : dot_S150x8400_S8400x84_S150x84_1_0_0_1_n_n.contr.Idx) :
    (dot_S150x8400_S8400x84_S150x84_1_0_0_1_n_n.rhsIdx i q 0).val = (q ⟨0, by decide⟩).val :=
  dot_S150x8400_S8400x84_S150x84_1_0_0_1_n_n.rhsIdx_val_of_single rfl i q
theorem rhs_ax1 (i : S150x84.Idx) (q : dot_S150x8400_S8400x84_S150x84_1_0_0_1_n_n.contr.Idx) :
    (dot_S150x8400_S8400x84_S150x84_1_0_0_1_n_n.rhsIdx i q 1).val = (i 1).val := by
  unfold DotDims.rhsIdx
  rw [dif_neg (show ¬(1 : Fin S8400x84.rank) ∈ dot_S150x8400_S8400x84_S150x84_1_0_0_1_n_n.rhsBatch by decide),
    dif_pos (show (1 : Fin S8400x84.rank) ∈ dot_S150x8400_S8400x84_S150x84_1_0_0_1_n_n.rhsNonContracting by decide)]
  rfl

theorem matmul_zero_apply (l : FVec Ideal S150x8400 .bf16) (r : FVec Ideal S8400x84 .bf16) (j : Fin 150) (c : Fin 84) :
    matmul dot_S150x8400_S8400x84_S150x84_1_0_0_1_n_n none l r (constant (F := Ideal) S150x84 .f32 0x00000000#32) (ix2 j c)
      = ∑ n : Fin 8400, l (ix2 j n) * r (ix2 n c) := by
  simp only [matmul]
  rw [Ideal.matmul_constant_zero_apply,
    ← Equiv.sum_comp (contrEquiv1 dot_S150x8400_S8400x84_S150x84_1_0_0_1_n_n 8400 rfl rfl).symm]
  refine Finset.sum_congr rfl fun k _ => ?_
  have hk := contrEquiv1_symm_val dot_S150x8400_S8400x84_S150x84_1_0_0_1_n_n 8400 rfl rfl k
  have el : dot_S150x8400_S8400x84_S150x84_1_0_0_1_n_n.lhsIdx (ix2 j c)
      ((contrEquiv1 dot_S150x8400_S8400x84_S150x84_1_0_0_1_n_n 8400 rfl rfl).symm k) = ix2 j k :=
    funext fun a => Fin.ext (by
      match a with
      | ⟨0, _⟩ => exact lhs_ax0 _ _
      | ⟨1, _⟩ => exact (lhs_ax1 _ _).trans hk)
  have er : dot_S150x8400_S8400x84_S150x84_1_0_0_1_n_n.rhsIdx (ix2 j c)
      ((contrEquiv1 dot_S150x8400_S8400x84_S150x84_1_0_0_1_n_n 8400 rfl rfl).symm k) = ix2 k c :=
    funext fun a => Fin.ext (by
      match a with
      | ⟨0, _⟩ => exact (rhs_ax0 _ _).trans hk
      | ⟨1, _⟩ => exact rhs_ax1 _ _)
  rw [el, er]

theorem cat_left (v8 : Vec Ideal S1x8400x4 .f32) (v10 : Vec Ideal S1x8400x80 .f32) (h8 : S1x8400x4.ShapeCasts S8400x4)
    (h10 : S1x8400x80.ShapeCasts S8400x80) (hc : Shape.Concatenates [S8400x4, S8400x80] S8400x84 1)
    (n : Fin 8400) (k : Fin 4) (c : Fin 84) (hck : c.val = k.val) :
    concatenate S8400x84 1 [⟨S8400x4, shapeCast S8400x4 v8 h8⟩, ⟨S8400x80, shapeCast S8400x80 v10 h10⟩] hc (ix2 n c)
      = v8 (ix3 (0 : Fin 1) n k) := by
  refine (concatenate_pair_apply_left (s₁ := S8400x4) (s₂ := S8400x80) (1 : Fin 2) _ _ hc (ix2 n c) rfl (ix2 n k) fun b => ?_).trans ?_
  · match b with
    | ⟨0, _⟩ => rfl
    | ⟨1, _⟩ => exact hck.symm
  · exact shapeCast_1ab_ab_apply v8 h8 n k

theorem cat_right (v8 : Vec Ideal S1x8400x4 .f32) (v10 : Vec Ideal S1x8400x80 .f32) (h8 : S1x8400x4.ShapeCasts S8400x4)
    (h10 : S1x8400x80.ShapeCasts S8400x80) (hc : Shape.Concatenates [S8400x4, S8400x80] S8400x84 1)
    (n : Fin 8400) (k : Fin 80) (c : Fin 84) (hck : c.val = 4 + k.val) :
    concatenate S8400x84 1 [⟨S8400x4, shapeCast S8400x4 v8 h8⟩, ⟨S8400x80, shapeCast S8400x80 v10 h10⟩] hc (ix2 n c)
      = v10 (ix3 (0 : Fin 1) n k) := by
  refine (concatenate_pair_apply_right (s₁ := S8400x4) (s₂ := S8400x80) (1 : Fin 2) _ _ hc (ix2 n c) rfl rfl (ix2 n k) (fun b hb => ?_) ?_).trans ?_
  · match b with
    | ⟨0, _⟩ => rfl
    | ⟨1, _⟩ => exact absurd rfl hb
  · show k.val + 4 = c.val
    omega
  · exact shapeCast_1ab_ab_apply v10 h10 n k

-- x - x = 0 needs x real: at an infinity it fails.
theorem sub_self_of_real {x : EReal} (h : ∃ r : ℝ, x = (r : EReal)) : x - x = 0 := by
  obtain ⟨r, rfl⟩ := h
  rw [← EReal.coe_sub, sub_self, EReal.coe_zero]

theorem cat_real (v8 : Vec Ideal S1x8400x4 .f32) (v10 : Vec Ideal S1x8400x80 .f32) (h8 : S1x8400x4.ShapeCasts S8400x4)
    (h10 : S1x8400x80.ShapeCasts S8400x80) (hc : Shape.Concatenates [S8400x4, S8400x80] S8400x84 1)
    (hf8 : ∀ i, ∃ r : ℝ, v8 i = (r : EReal)) (hf10 : ∀ i, ∃ r : ℝ, v10 i = (r : EReal)) (n : Fin 8400) (c : Fin 84) :
    ∃ r : ℝ, concatenate S8400x84 1 [⟨S8400x4, shapeCast S8400x4 v8 h8⟩, ⟨S8400x80, shapeCast S8400x80 v10 h10⟩] hc (ix2 n c)
      = (r : EReal) := by
  by_cases h : c.val < 4
  · rw [cat_left v8 v10 h8 h10 hc n ⟨c.val, h⟩ c rfl]
    exact hf8 _
  · rw [cat_right v8 v10 h8 h10 hc n ⟨c.val - 4, by have := c.isLt; omega⟩ c (by show c.val = 4 + (c.val - 4); omega)]
    exact hf10 _

-- A row with a single 1, at column m, summed against x picks out x m.
theorem onehot_sum (oh x : Fin 8400 → EReal) (m : Fin 8400) (hoh : ∀ n : Fin 8400, oh n = if m.val = n.val then 1 else 0)
    (hx : ∀ n, ∃ r : ℝ, x n = (r : EReal)) :
    (∑ n : Fin 8400, oh n * x n) + (∑ n : Fin 8400, oh n * (x n - x n)) = x m := by
  have h2 : (∑ n : Fin 8400, oh n * (x n - x n)) = 0 :=
    Finset.sum_eq_zero fun n _ => by rw [sub_self_of_real (hx n), mul_zero]
  have h1 : (∑ n : Fin 8400, oh n * x n) = x m := by
    rw [Finset.sum_eq_single m]
    · rw [hoh m, if_pos rfl, one_mul]
    · intro n _ hne
      rw [hoh n, if_neg (fun e => hne (Fin.ext e.symm)), zero_mul]
    · intro h; exact absurd (Finset.mem_univ m) h
  rw [h1, h2, add_zero]

theorem pay5_apply (v0 : Vec Ideal S1x150x1 .i32) (v8 : Vec Ideal S1x8400x4 .f32) (v10 : Vec Ideal S1x8400x80 .f32)
    (hr : ∀ j : Fin 150, (v0 (ix3 (0 : Fin 1) j (0 : Fin 1))).toNat < 8400)
    (hf8 : ∀ i, ∃ r : ℝ, v8 i = (r : EReal)) (hf10 : ∀ i, ∃ r : ℝ, v10 i = (r : EReal)) (j : Fin 150) (c : Fin 84) :
    k0_pay5 v0 v8 v10 (ix2 j c)
      = concatenate S8400x84 1 [⟨S8400x4, shapeCast S8400x4 v8 shapeCasts_S1x8400x4_S8400x4⟩,
          ⟨S8400x80, shapeCast S8400x80 v10 shapeCasts_S1x8400x80_S8400x80⟩] concatenates_S8400x4_S8400x80_S8400x84_d1
          (ix2 ⟨(v0 (ix3 (0 : Fin 1) j (0 : Fin 1))).toNat, hr j⟩ c) := by
  unfold k0_pay5
  refine (congrArg₂ (· + ·) (matmul_zero_apply _ _ j c) (matmul_zero_apply _ _ j c)).trans ?_
  exact onehot_sum _ (fun n => concatenate S8400x84 1 [⟨S8400x4, shapeCast S8400x4 v8 shapeCasts_S1x8400x4_S8400x4⟩,
          ⟨S8400x80, shapeCast S8400x80 v10 shapeCasts_S1x8400x80_S8400x80⟩] concatenates_S8400x4_S8400x80_S8400x84_d1 (ix2 n c))
    ⟨(v0 (ix3 (0 : Fin 1) j (0 : Fin 1))).toNat, hr j⟩
    (fun n => onehot_apply v0 _ _ _ _ _ _ j n)
    (fun n => cat_real v8 v10 _ _ _ hf8 hf10 n c)

theorem pay6_apply (v0 : Vec Ideal S1x150x1 .i32) (v8 : Vec Ideal S1x8400x4 .f32) (v10 : Vec Ideal S1x8400x80 .f32)
    (hr : ∀ j : Fin 150, (v0 (ix3 (0 : Fin 1) j (0 : Fin 1))).toNat < 8400)
    (hf8 : ∀ i, ∃ r : ℝ, v8 i = (r : EReal)) (hf10 : ∀ i, ∃ r : ℝ, v10 i = (r : EReal)) (j : Fin 150) (k : Fin 4) :
    k0_pay6 v0 v8 v10 (ix2 j k) = v8 (ix3 (0 : Fin 1) ⟨(v0 (ix3 (0 : Fin 1) j (0 : Fin 1))).toNat, hr j⟩ k) := by
  unfold k0_pay6
  refine (slice2_axis1_apply 0 _ slices_S150x84_o0_0_S150x4 j k ⟨k.val, by have := k.isLt; omega⟩ (Nat.zero_add _).symm).trans ?_
  refine (pay5_apply v0 v8 v10 hr hf8 hf10 j _).trans ?_
  exact cat_left v8 v10 _ _ _ _ k _ rfl

theorem pay7_apply (v0 : Vec Ideal S1x150x1 .i32) (v8 : Vec Ideal S1x8400x4 .f32) (v10 : Vec Ideal S1x8400x80 .f32)
    (hr : ∀ j : Fin 150, (v0 (ix3 (0 : Fin 1) j (0 : Fin 1))).toNat < 8400)
    (hf8 : ∀ i, ∃ r : ℝ, v8 i = (r : EReal)) (hf10 : ∀ i, ∃ r : ℝ, v10 i = (r : EReal)) (j : Fin 150) (k : Fin 80) :
    k0_pay7 v0 v8 v10 (ix2 j k) = v10 (ix3 (0 : Fin 1) ⟨(v0 (ix3 (0 : Fin 1) j (0 : Fin 1))).toNat, hr j⟩ k) := by
  unfold k0_pay7
  refine (slice2_axis1_apply 4 _ slices_S150x84_o0_4_S150x80 j k ⟨4 + k.val, by have := k.isLt; omega⟩ rfl).trans ?_
  refine (pay5_apply v0 v8 v10 hr hf8 hf10 j _).trans ?_
  exact cat_right v8 v10 _ _ _ _ k _ rfl

end Cert.KernelIdeal.Hand

end
-- ==== Proof.KPoint.lean ====
import proofs.«423457_j69166153335192_3_alg».proof.Proof.KGather
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx

namespace KS

def inter (p g : Fin 4 → EReal) : EReal :=
  max (Ideal.ofBits .f32 0x00000000#32) (min (p 2) (g 2) - max (p 0) (g 0))
    * max (Ideal.ofBits .f32 0x00000000#32) (min (p 3) (g 3) - max (p 1) (g 1))

def union (p g : Fin 4 → EReal) : EReal :=
  (p 2 - p 0) * (p 3 - p 1) + (g 2 - g 0) * (g 3 - g 1) - inter p g

def encl (p g : Fin 4 → EReal) : EReal :=
  (max (p 2) (g 2) - min (p 0) (g 0)) * (max (p 3) (g 3) - min (p 1) (g 1))

def giou (p g : Fin 4 → EReal) : EReal :=
  Ideal.div (inter p g) (union p g) - Ideal.div (encl p g - union p g) (encl p g)

def boxTerm (vf : EReal) (p g : Fin 4 → EReal) : EReal :=
  Scalar.select (Ideal.cmp .ogt vf (Ideal.ofBits .f32 0x3F000000#32))
    (Ideal.ofBits .f32 0x3F800000#32 - giou p g) (Ideal.ofBits .f32 0x00000000#32)

def softplus (y : EReal) : EReal :=
  Scalar.select (Ideal.cmp .one (y - Ideal.ofBits .f32 0x00000000#32) (y - Ideal.ofBits .f32 0x00000000#32))
    (y + Ideal.ofBits .f32 0x00000000#32)
    (max y (Ideal.ofBits .f32 0x00000000#32)
      + Ideal.log1p (Ideal.exp (Ideal.ofBits .f32 0x00000000#32
          - max (y - Ideal.ofBits .f32 0x00000000#32) (-(y - Ideal.ofBits .f32 0x00000000#32)))))

def ce (x t : EReal) : EReal :=
  Ideal.ofBits .f32 0x00000000#32
    - (t * (Ideal.ofBits .f32 0x00000000#32 - softplus (Ideal.ofBits .f32 0x00000000#32 - x))
      + (Ideal.ofBits .f32 0x3F800000#32 - t)
        * (Ideal.ofBits .f32 0x00000000#32
            - softplus (Ideal.ofBits .f32 0x00000000#32 - (Ideal.ofBits .f32 0x00000000#32 - x))))

def pt (x t : EReal) : EReal :=
  Ideal.logistic x * t + (Ideal.ofBits .f32 0x3F800000#32 - Ideal.logistic x) * (Ideal.ofBits .f32 0x3F800000#32 - t)

def alphaT (t : EReal) : EReal :=
  Ideal.ofBits .f32 0x3E800000#32 * t + Ideal.ofBits .f32 0x3F400000#32 * (Ideal.ofBits .f32 0x3F800000#32 - t)

def focal (x t : EReal) : EReal :=
  alphaT t * ((Ideal.ofBits .f32 0x3F800000#32 - pt x t) * (Ideal.ofBits .f32 0x3F800000#32 - pt x t)) * ce x t

def clsTerm (vf : EReal) (x t : Fin 80 → EReal) : EReal :=
  Scalar.select (Ideal.cmp .ogt vf (Ideal.ofBits .f32 0x3F000000#32))
    (∑ c : Fin 80, focal (x c) (t c)) (Ideal.ofBits .f32 0x00000000#32)

end KS

theorem col_apply {α : Type} (o : Nat) (X : S150x4.Idx → α) (hs : S150x4.Slices ![0, o] S150x1) (hc : S150x1.ShapeCasts S150)
    (j : Fin 150) (k : Fin 4) (hk : k.val = o) :
    shapeCast S150 (extractStridedSlice S150x1 ![0, o] X hs) hc (ix1 j) = X (ix2 j k) := by
  refine (shapeCast_apply _ hc (ix1 j) (ix2 j (0 : Fin 1)) ?_).trans ?_
  · rw [Shape.rowMajor_val_two, Shape.rowMajor_val_one]
    show j.val * 1 + 0 = j.val
    omega
  · exact slice2_axis1_apply o X hs j (0 : Fin 1) k (by rw [hk]; rfl)

theorem col0 (X : FVec Ideal S150x4 .f32) (hs : S150x4.Slices ![0, 0] S150x1) (hc : S150x1.ShapeCasts S150) (j : Fin 150) :
    shapeCast S150 (extractStridedSlice S150x1 ![0, 0] X hs) hc (ix1 j) = X (ix2 j (0 : Fin 4)) := col_apply 0 X hs hc j 0 rfl
theorem col1 (X : FVec Ideal S150x4 .f32) (hs : S150x4.Slices ![0, 1] S150x1) (hc : S150x1.ShapeCasts S150) (j : Fin 150) :
    shapeCast S150 (extractStridedSlice S150x1 ![0, 1] X hs) hc (ix1 j) = X (ix2 j (1 : Fin 4)) := col_apply 1 X hs hc j 1 rfl
theorem col2 (X : FVec Ideal S150x4 .f32) (hs : S150x4.Slices ![0, 2] S150x1) (hc : S150x1.ShapeCasts S150) (j : Fin 150) :
    shapeCast S150 (extractStridedSlice S150x1 ![0, 2] X hs) hc (ix1 j) = X (ix2 j (2 : Fin 4)) := col_apply 2 X hs hc j 2 rfl
theorem col3 (X : FVec Ideal S150x4 .f32) (hs : S150x4.Slices ![0, 3] S150x1) (hc : S150x1.ShapeCasts S150) (j : Fin 150) :
    shapeCast S150 (extractStridedSlice S150x1 ![0, 3] X hs) hc (ix1 j) = X (ix2 j (3 : Fin 4)) := col_apply 3 X hs hc j 3 rfl

theorem lanesum_apply (x : FVec Ideal S150x80 .f32) (h : S150x80.Reduces [1] S150) (hφ : FKind.Formats .f32)
    (hacc : (0x00000000#32 : BitVec 32) = FKind.add.neutral .f32 hφ) (j : Fin 150) :
    multiReduction .add [1] S150 x 0x00000000#32 h hφ hacc (ix1 j) = ∑ c : Fin 80, x (ix2 j c) := by
  refine (Ideal.multiReduction_add_single x _ h hφ hacc (ix1 j)).trans ?_
  refine Finset.sum_congr rfl fun c _ => congrArg x ?_
  funext a
  match a with
  | ⟨0, _⟩ => rfl
  | ⟨1, _⟩ => rfl

theorem rowsum_apply (x : FVec Ideal S150 .f32) (h1 : S150.ShapeCasts S1x150) (h2 : S1x150.Reduces [1] S1)
    (hφ : FKind.Formats .f32) (hacc : (0x00000000#32 : BitVec 32) = FKind.add.neutral .f32 hφ)
    (h3 : S1.ShapeCasts S1x1) (h4 : ∀ a, (![0, 0] : Fin 2 → Nat) a < S1x1.size a) :
    extractAt ![0, 0] (shapeCast S1x1 (multiReduction .add [1] S1 (shapeCast S1x150 x h1) 0x00000000#32 h2 hφ hacc) h3) h4
      = ∑ j : Fin 150, x (ix1 j) := by
  unfold extractAt
  refine (shapeCast_apply _ h3 _ (ix1 (0 : Fin 1)) rfl).trans ?_
  refine (Ideal.multiReduction_add_single _ _ h2 hφ hacc (ix1 (0 : Fin 1))).trans ?_
  refine Finset.sum_congr rfl fun k _ => ?_
  have e : h2.lift (ix1 (0 : Fin 1)) k = ix2 (0 : Fin 1) k := by
    funext a
    match a with
    | ⟨0, _⟩ => rfl
    | ⟨1, _⟩ => rfl
  rw [e]
  exact shapeCast_a_1a_apply x h1 (0 : Fin 1) k

section Box
variable (v5 v27 : FVec Ideal S150x4 .f32) (v33 v38 : FVec Ideal S150 .f32) (j : Fin 150)

theorem pay10_apply :
    k0_pay10 v5 v27 v33 v38 (ix1 j)
      = max (Ideal.ofBits .f32 0x00000000#32) (min (v27 (ix2 j (2 : Fin 4))) (v5 (ix2 j (2 : Fin 4))) - v33 (ix1 j))
        * max (Ideal.ofBits .f32 0x00000000#32) (min (v27 (ix2 j (3 : Fin 4))) (v5 (ix2 j (3 : Fin 4))) - v38 (ix1 j)) := by
  unfold k0_pay10
  simp only [mulf_apply, maximumf_apply, minimumf_apply, subf_apply, broadcast_apply, col2, col3]
  rfl

theorem pay11_apply :
    k0_pay11 v5 v27 v33 v38 (ix1 j)
      = (v27 (ix2 j (2 : Fin 4)) - v27 (ix2 j (0 : Fin 4))) * (v27 (ix2 j (3 : Fin 4)) - v27 (ix2 j (1 : Fin 4)))
          + (v5 (ix2 j (2 : Fin 4)) - v5 (ix2 j (0 : Fin 4))) * (v5 (ix2 j (3 : Fin 4)) - v5 (ix2 j (1 : Fin 4)))
          - k0_pay10 v5 v27 v33 v38 (ix1 j) := by
  unfold k0_pay11
  simp only [mulf_apply, addf_apply, subf_apply, col0, col1, col2, col3]

theorem pay12_apply :
    k0_pay12 v5 v27 v33 v38 (ix1 j) = Ideal.div (k0_pay10 v5 v27 v33 v38 (ix1 j)) (k0_pay11 v5 v27 v33 v38 (ix1 j)) := rfl

theorem pay13_apply : k0_pay13 v5 v27 (ix1 j) = min (v27 (ix2 j (0 : Fin 4))) (v5 (ix2 j (0 : Fin 4))) := by
  unfold k0_pay13
  simp only [minimumf_apply, col0]

theorem pay14_apply : k0_pay14 v5 v27 (ix1 j) = min (v27 (ix2 j (1 : Fin 4))) (v5 (ix2 j (1 : Fin 4))) := by
  unfold k0_pay14
  simp only [minimumf_apply, col1]

theorem pay15_apply : k0_pay15 v5 v27 (ix1 j) = max (v27 (ix2 j (2 : Fin 4))) (v5 (ix2 j (2 : Fin 4))) := by
  unfold k0_pay15
  simp only [maximumf_apply, col2]

theorem pay17_apply (v79 v80 v85 v90 v95 : FVec Ideal S150 .f32) :
    k0_pay17 v5 v79 v80 v85 v90 v95 (k0_pay16 v27) (ix1 j)
      = v80 (ix1 j)
        - Ideal.div ((v95 (ix1 j) - v85 (ix1 j)) * (max (v27 (ix2 j (3 : Fin 4))) (v5 (ix2 j (3 : Fin 4))) - v90 (ix1 j)) - v79 (ix1 j))
            ((v95 (ix1 j) - v85 (ix1 j)) * (max (v27 (ix2 j (3 : Fin 4))) (v5 (ix2 j (3 : Fin 4))) - v90 (ix1 j))) := by
  unfold k0_pay17 k0_pay16
  simp only [mulf_apply, maximumf_apply, subf_apply, divf_apply, col3]

end Box

theorem pay8_apply (v0 : Vec Ideal S1x150x1 .i32) (v4 : Vec Ideal S1x150x4 .f32) (v8 : Vec Ideal S1x8400x4 .f32)
    (v10 : Vec Ideal S1x8400x80 .f32) (j : Fin 150) :
    k0_pay8 v0 v4 v8 v10 (ix1 j) = max (k0_pay6 v0 v8 v10 (ix2 j (0 : Fin 4))) (k0_pay3 v4 (ix2 j (0 : Fin 4))) := by
  unfold k0_pay8
  simp only [maximumf_apply, col0]

theorem pay9_apply (v0 : Vec Ideal S1x150x1 .i32) (v4 : Vec Ideal S1x150x4 .f32) (v8 : Vec Ideal S1x8400x4 .f32)
    (v10 : Vec Ideal S1x8400x80 .f32) (j : Fin 150) :
    k0_pay9 v0 v4 v8 v10 (ix1 j) = max (k0_pay6 v0 v8 v10 (ix2 j (1 : Fin 4))) (k0_pay3 v4 (ix2 j (1 : Fin 4))) := by
  unfold k0_pay9
  simp only [maximumf_apply, col1]

theorem giou_apply (v0 : Vec Ideal S1x150x1 .i32) (v4 : Vec Ideal S1x150x4 .f32) (v8 : Vec Ideal S1x8400x4 .f32)
    (v10 : Vec Ideal S1x8400x80 .f32) (j : Fin 150) :
    k0_pay17 (k0_pay3 v4)
        (k0_pay11 (k0_pay3 v4) (k0_pay6 v0 v8 v10) (k0_pay8 v0 v4 v8 v10) (k0_pay9 v0 v4 v8 v10))
        (k0_pay12 (k0_pay3 v4) (k0_pay6 v0 v8 v10) (k0_pay8 v0 v4 v8 v10) (k0_pay9 v0 v4 v8 v10))
        (k0_pay13 (k0_pay3 v4) (k0_pay6 v0 v8 v10)) (k0_pay14 (k0_pay3 v4) (k0_pay6 v0 v8 v10))
        (k0_pay15 (k0_pay3 v4) (k0_pay6 v0 v8 v10)) (k0_pay16 (k0_pay6 v0 v8 v10)) (ix1 j)
      = KS.giou (fun k => k0_pay6 v0 v8 v10 (ix2 j k)) (fun k => k0_pay3 v4 (ix2 j k)) := by
  rw [pay17_apply, pay12_apply, pay11_apply, pay10_apply, pay13_apply, pay14_apply, pay15_apply, pay8_apply, pay9_apply]
  rfl

theorem pay23_apply (v3 v106 : FVec Ideal S150 .f32) :
    k0_pay23 v3 v106
      = ∑ j : Fin 150, Scalar.select (Ideal.cmp .ogt (v3 (ix1 j)) (Ideal.ofBits .f32 0x3F000000#32))
          (Ideal.ofBits .f32 0x3F800000#32 - v106 (ix1 j)) (Ideal.ofBits .f32 0x00000000#32) := by
  unfold k0_pay23
  exact rowsum_apply _ _ _ _ _ _ _

theorem pay24_apply (v3 : FVec Ideal S150 .f32) (v7 v28 : FVec Ideal S150x80 .f32) :
    k0_pay24 v3 v7 v28 (k0_pay18 v7 v28) (k0_pay19 v7) (k0_pay20 v28) (k0_pay21 (F := Ideal))
      = ∑ j : Fin 150, KS.clsTerm (v3 (ix1 j)) (fun c => v28 (ix2 j c)) (fun c => v7 (ix2 j c)) := by
  unfold k0_pay24
  refine (rowsum_apply _ _ _ _ _ _ _).trans ?_
  refine Finset.sum_congr rfl fun j _ => ?_
  refine (congrArg (fun s => Scalar.select (k0_pay22 v3 (ix1 j)) s (Ideal.ofBits .f32 0x00000000#32))
    (lanesum_apply _ _ _ _ j)).trans ?_
  rfl

theorem pay25_apply (v3 : FVec Ideal S150 .f32) (h4 : ∀ a, (![0, 0] : Fin 2 → Nat) a < S1x1.size a) :
    extractAt ![0, 0] (k0_pay25 v3) h4 = ∑ j : Fin 150, v3 (ix1 j) := by
  unfold k0_pay25
  exact rowsum_apply _ _ _ _ _ _ _

theorem stack3_0 (x y z : S1.Idx → EReal) (h : Shape.Concatenates [S1, S1, S1] S3 0) :
    concatenate S3 0 [⟨S1, x⟩, ⟨S1, y⟩, ⟨S1, z⟩] h (ix1 (0 : Fin 3)) = x (ix1 (0 : Fin 1)) :=
  concatenate_apply_piece (t := S3) (0 : Fin 1) [⟨S1, x⟩, ⟨S1, y⟩, ⟨S1, z⟩] h (ix1 (0 : Fin 3)) 0 (by show 0 < 3; decide) S1 x rfl rfl 0 rfl
    (ix1 (0 : Fin 1)) (fun b hb => absurd (Subsingleton.elim _ _) hb) rfl
theorem stack3_1 (x y z : S1.Idx → EReal) (h : Shape.Concatenates [S1, S1, S1] S3 0) :
    concatenate S3 0 [⟨S1, x⟩, ⟨S1, y⟩, ⟨S1, z⟩] h (ix1 (1 : Fin 3)) = y (ix1 (0 : Fin 1)) :=
  concatenate_apply_piece (t := S3) (0 : Fin 1) [⟨S1, x⟩, ⟨S1, y⟩, ⟨S1, z⟩] h (ix1 (1 : Fin 3)) 1 (by show 1 < 3; decide) S1 y rfl rfl 1 rfl
    (ix1 (0 : Fin 1)) (fun b hb => absurd (Subsingleton.elim _ _) hb) rfl
theorem stack3_2 (x y z : S1.Idx → EReal) (h : Shape.Concatenates [S1, S1, S1] S3 0) :
    concatenate S3 0 [⟨S1, x⟩, ⟨S1, y⟩, ⟨S1, z⟩] h (ix1 (2 : Fin 3)) = z (ix1 (0 : Fin 1)) :=
  concatenate_apply_piece (t := S3) (0 : Fin 1) [⟨S1, x⟩, ⟨S1, y⟩, ⟨S1, z⟩] h (ix1 (2 : Fin 3)) 2 (by show 2 < 3; decide) S1 z rfl rfl 2 rfl
    (ix1 (0 : Fin 1)) (fun b hb => absurd (Subsingleton.elim _ _) hb) rfl

theorem pay1_apply0 (a b : EReal) (v191 : FVec Ideal S1x1 .f32) :
    k0_pay1 (F := Ideal) a b v191 (ix3 (0 : Fin 1) (0 : Fin 1) (0 : Fin 3)) = a := by
  unfold k0_pay1
  refine (shapeCast_apply _ _ _ (ix1 (0 : Fin 3)) rfl).trans ?_
  exact stack3_0 _ _ _ _

theorem pay1_apply1 (a b : EReal) (v191 : FVec Ideal S1x1 .f32) :
    k0_pay1 (F := Ideal) a b v191 (ix3 (0 : Fin 1) (0 : Fin 1) (1 : Fin 3)) = b := by
  unfold k0_pay1
  refine (shapeCast_apply _ _ _ (ix1 (1 : Fin 3)) rfl).trans ?_
  exact stack3_1 _ _ _ _

theorem pay1_apply2 (a b : EReal) (v191 : FVec Ideal S1x1 .f32) :
    k0_pay1 (F := Ideal) a b v191 (ix3 (0 : Fin 1) (0 : Fin 1) (2 : Fin 3)) = extractAt ![0, 0] v191 inpos_S1x1_p0_0 := by
  unfold k0_pay1
  refine (shapeCast_apply _ _ _ (ix1 (2 : Fin 3)) rfl).trans ?_
  exact stack3_2 _ _ _ _

theorem pay2_apply (v2 : Vec Ideal S1x150x1 .f32) (j : Fin 150) : k0_pay2 v2 (ix1 j) = v2 (ix3 (0 : Fin 1) j (0 : Fin 1)) := by
  unfold k0_pay2
  refine shapeCast_apply _ _ _ _ ?_
  rw [Shape.rowMajor_val_three, Shape.rowMajor_val_one]
  show (0 * 150 + j.val) * 1 + 0 = j.val
  omega

theorem pay3_apply (v4 : Vec Ideal S1x150x4 .f32) (j : Fin 150) (k : Fin 4) :
    k0_pay3 v4 (ix2 j k) = v4 (ix3 (0 : Fin 1) j k) := shapeCast_1ab_ab_apply v4 _ j k

theorem pay4_apply (v6 : Vec Ideal S1x150x80 .f32) (j : Fin 150) (c : Fin 80) :
    k0_pay4 v6 (ix2 j c) = v6 (ix3 (0 : Fin 1) j c) := shapeCast_1ab_ab_apply v6 _ j c

section Point
variable (v0 : Vec Ideal S1x150x1 .i32) (v2 : Vec Ideal S1x150x1 .f32) (v4 : Vec Ideal S1x150x4 .f32)
  (v6 : Vec Ideal S1x150x80 .f32) (v8 : Vec Ideal S1x8400x4 .f32) (v10 : Vec Ideal S1x8400x80 .f32)
  (hr : ∀ j : Fin 150, (v0 (ix3 (0 : Fin 1) j (0 : Fin 1))).toNat < 8400)
  (hf8 : ∀ i, ∃ r : ℝ, v8 i = (r : EReal)) (hf10 : ∀ i, ∃ r : ℝ, v10 i = (r : EReal))
include hf8 hf10

theorem kpoint_box :
    kpoint v0 v2 v4 v6 v8 v10 (ix3 (0 : Fin 1) (0 : Fin 1) (0 : Fin 3))
      = ∑ j : Fin 150, KS.boxTerm (v2 (ix3 (0 : Fin 1) j (0 : Fin 1)))
          (fun k => v8 (ix3 (0 : Fin 1) ⟨(v0 (ix3 (0 : Fin 1) j (0 : Fin 1))).toNat, hr j⟩ k))
          (fun k => v4 (ix3 (0 : Fin 1) j k)) := by
  unfold kpoint
  refine (pay1_apply0 _ _ _).trans ?_
  refine (pay23_apply _ _).trans ?_
  refine Finset.sum_congr rfl fun j _ => ?_
  rw [giou_apply, pay2_apply]
  have ep : (fun k => k0_pay6 v0 v8 v10 (ix2 j k))
      = fun k => v8 (ix3 (0 : Fin 1) ⟨(v0 (ix3 (0 : Fin 1) j (0 : Fin 1))).toNat, hr j⟩ k) :=
    funext fun k => pay6_apply v0 v8 v10 hr hf8 hf10 j k
  have eg : (fun k => k0_pay3 v4 (ix2 j k)) = fun k => v4 (ix3 (0 : Fin 1) j k) := funext fun k => pay3_apply v4 j k
  rw [ep, eg]
  rfl

theorem kpoint_cls :
    kpoint v0 v2 v4 v6 v8 v10 (ix3 (0 : Fin 1) (0 : Fin 1) (1 : Fin 3))
      = ∑ j : Fin 150, KS.clsTerm (v2 (ix3 (0 : Fin 1) j (0 : Fin 1)))
          (fun c => v10 (ix3 (0 : Fin 1) ⟨(v0 (ix3 (0 : Fin 1) j (0 : Fin 1))).toNat, hr j⟩ c))
          (fun c => v6 (ix3 (0 : Fin 1) j c)) := by
  unfold kpoint
  refine (pay1_apply1 _ _ _).trans ?_
  refine (pay24_apply _ _ _).trans ?_
  refine Finset.sum_congr rfl fun j _ => ?_
  rw [pay2_apply]
  have ex : (fun c => k0_pay7 v0 v8 v10 (ix2 j c))
      = fun c => v10 (ix3 (0 : Fin 1) ⟨(v0 (ix3 (0 : Fin 1) j (0 : Fin 1))).toNat, hr j⟩ c) :=
    funext fun c => pay7_apply v0 v8 v10 hr hf8 hf10 j c
  have et : (fun c => k0_pay4 v6 (ix2 j c)) = fun c => v6 (ix3 (0 : Fin 1) j c) := funext fun c => pay4_apply v6 j c
  rw [ex, et]

omit hf8 hf10 in

theorem kpoint_count :
    kpoint v0 v2 v4 v6 v8 v10 (ix3 (0 : Fin 1) (0 : Fin 1) (2 : Fin 3))
      = ∑ j : Fin 150, v2 (ix3 (0 : Fin 1) j (0 : Fin 1)) := by
  unfold kpoint
  refine (pay1_apply2 _ _ _).trans ?_
  refine (pay25_apply _ _).trans ?_
  exact Finset.sum_congr rfl fun j _ => pay2_apply v2 j

end Point

end Cert.KernelIdeal.Hand

end
-- ==== Proof.IdxChain.lean ====
import proofs.«423457_j69166153335192_3_alg».proof.Proof.KBase

noncomputable section

namespace Cert.KernelIdeal.Hand

open Cert.KernelIdeal Cert.KernelIdeal.Facts₀
open Idealize.ShloMosaic Idealize.ShloMosaic.TcCoe
open Idealize.SL Idealize.SL.Sem

variable [Cert.KernelIdeal.Facts]
variable {F : FTy → Type} [FloatOps F]

def strideW : Fin 3 → BitVec 32
  | 0 => 0x41000000#32
  | 1 => 0x41800000#32
  | 2 => 0x42000000#32

def sideW : Fin 3 → BitVec 32
  | 0 => 80#32
  | 1 => 40#32
  | 2 => 20#32

def offW : Fin 3 → BitVec 32
  | 0 => 0#32
  | 1 => 6400#32
  | 2 => 8000#32

def bcI (w : BitVec 32) : IVec S32x50 32 := broadcastInDim S32x50 ![] bcast_S_S32x50 (constantI S_ 32 w)

def bcF (w : BitVec 32) : FVec F S32x50 .f32 := broadcastInDim S32x50 ![] bcast_S_S32x50 (constant S_ .f32 w)

def coord0 (gt : FVec F S32x50x4 .f32) : FVec F S32x50 .f32 :=
  shapeCast S32x50 (extractStridedSlice S32x50x1 ![0, 0, 0] gt slices_S32x50x4_S32x50x1_0_0_0) shapeCasts_S32x50x1_S32x50
@[inherit_doc coord0] def coord1 (gt : FVec F S32x50x4 .f32) : FVec F S32x50 .f32 :=
  shapeCast S32x50 (extractStridedSlice S32x50x1 ![0, 0, 1] gt slices_S32x50x4_S32x50x1_0_0_1) shapeCasts_S32x50x1_S32x50
@[inherit_doc coord0] def coord2 (gt : FVec F S32x50x4 .f32) : FVec F S32x50 .f32 :=
  shapeCast S32x50 (extractStridedSlice S32x50x1 ![0, 0, 2] gt slices_S32x50x4_S32x50x1_0_0_2) shapeCasts_S32x50x1_S32x50
@[inherit_doc coord0] def coord3 (gt : FVec F S32x50x4 .f32) : FVec F S32x50 .f32 :=
  shapeCast S32x50 (extractStridedSlice S32x50x1 ![0, 0, 3] gt slices_S32x50x4_S32x50x1_0_0_3) shapeCasts_S32x50x1_S32x50

def ctrX (gt : FVec F S32x50x4 .f32) : FVec F S32x50 .f32 := mulf (addf (coord0 gt) (coord2 gt)) (bcF 0x3F000000#32)

def ctrY (gt : FVec F S32x50x4 .f32) : FVec F S32x50 .f32 := mulf (addf (coord1 gt) (coord3 gt)) (bcF 0x3F000000#32)

def cellI (s : Fin 3) (gt : FVec F S32x50x4 .f32) : IVec S32x50 32 :=
  fptosi 32 (Host.floor (Host.divf (ctrX gt) (bcF (strideW s))))

def cellJ (s : Fin 3) (gt : FVec F S32x50x4 .f32) : IVec S32x50 32 :=
  fptosi 32 (Host.floor (Host.divf (ctrY gt) (bcF (strideW s))))

def validV (s : Fin 3) (gt : FVec F S32x50x4 .f32) (mask : IVec S32x50 1) : IVec S32x50 1 :=
  andi (andi (andi (andi mask (cmpi .sge (cellI s gt) (bcI 0#32))) (cmpi .sge (cellJ s gt) (bcI 0#32)))
    (cmpi .slt (cellI s gt) (bcI (sideW s)))) (cmpi .slt (cellJ s gt) (bcI (sideW s)))

def idxV (s : Fin 3) (gt : FVec F S32x50x4 .f32) (mask : IVec S32x50 1) : IVec S32x50 32 :=
  select (validV s gt mask) (addi (addi (bcI (offW s)) (muli (cellJ s gt) (bcI (sideW s)))) (cellI s gt))
    (broadcastInDim S32x50 ![] bcast_S_S32x50 (id (constantI S_ 32 0#32)))

def tgtV (labels : IVec S32x50 32) : FVec F S32x50x80 .f32 :=
  uitofp .f32 (cmpi .eq
    (broadcastInDim S32x50x80 ![0, 1, 2] bcast_S32x50x1_S32x50x80_0_1_2 (broadcastInDim S32x50x1 ![0, 1] bcast_S32x50_S32x50x1_0_1 labels))
    (broadcastInDim S32x50x80 ![0, 1, 2] bcast_S1x1x80_S32x50x80_0_1_2 (iotaInDim S1x1x80 32 2)))

end Cert.KernelIdeal.Hand

end
-- ==== Proof.IdxPrefix0.lean ====
import proofs.«423457_j69166153335192_3_alg».proof.Proof.IdxChain

noncomputable section

namespace Cert.KernelIdeal.Hand

open Cert.KernelIdeal
open Idealize.ShloMosaic Idealize.ShloMosaic.TcCoe
open Idealize.SL Idealize.SL.Sem

variable [Cert.KernelIdeal.Facts]
variable {F : FTy → Type} [FloatOps F]
variable (m : (ℓ : Loc nD τ sig) → Buf (Elt F) ℓ)

-- Each buffer below is written once before the region, so the region finds it at the index chain's value of the launch contents.
theorem V_main_v14 (c : Dev nD) :
    (V m c main_v14 : FVec F S32x50x80 .f32)
      = tgtV (m (c, Proc.devRef .tc main_arg3)) := by
  dsimp only [V, V0, pre]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

theorem V_main_v40 (c : Dev nD) :
    (V m c main_v40 : IVec S32x50 32)
      = idxV 0 (m (c, Proc.devRef .tc main_arg2)) (m (c, Proc.devRef .tc main_arg4)) := by
  dsimp only [V, V0, pre]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

theorem V_main_v41 (c : Dev nD) :
    (V m c main_v41 : FVec F S32x50 .f32)
      = uitofp .f32 (validV 0 (m (c, Proc.devRef .tc main_arg2)) (m (c, Proc.devRef .tc main_arg4))) := by
  dsimp only [V, V0, pre]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

end Cert.KernelIdeal.Hand

end
-- ==== Proof.IdxPrefix1.lean ====
import proofs.«423457_j69166153335192_3_alg».proof.Proof.IdxChain

noncomputable section

namespace Cert.KernelIdeal.Hand

open Cert.KernelIdeal
open Idealize.ShloMosaic Idealize.ShloMosaic.TcCoe
open Idealize.SL Idealize.SL.Sem

variable [Cert.KernelIdeal.Facts]
variable {F : FTy → Type} [FloatOps F]
variable (m : (ℓ : Loc nD τ sig) → Buf (Elt F) ℓ)

set_option maxHeartbeats 1000000 in

theorem V_main_v67 (c : Dev nD) :
    (V m c main_v67 : IVec S32x50 32)
      = idxV 1 (m (c, Proc.devRef .tc main_arg2)) (m (c, Proc.devRef .tc main_arg4)) := by
  dsimp only [V, V0, pre]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

set_option maxHeartbeats 1000000 in

theorem V_main_v68 (c : Dev nD) :
    (V m c main_v68 : FVec F S32x50 .f32)
      = uitofp .f32 (validV 1 (m (c, Proc.devRef .tc main_arg2)) (m (c, Proc.devRef .tc main_arg4))) := by
  dsimp only [V, V0, pre]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

end Cert.KernelIdeal.Hand

end
-- ==== Proof.IdxPrefix2.lean ====
import proofs.«423457_j69166153335192_3_alg».proof.Proof.IdxChain

noncomputable section

namespace Cert.KernelIdeal.Hand

open Cert.KernelIdeal
open Idealize.ShloMosaic Idealize.ShloMosaic.TcCoe
open Idealize.SL Idealize.SL.Sem

variable [Cert.KernelIdeal.Facts]
variable {F : FTy → Type} [FloatOps F]
variable (m : (ℓ : Loc nD τ sig) → Buf (Elt F) ℓ)

set_option maxHeartbeats 1000000 in

theorem V_main_v88 (c : Dev nD) :
    (V m c main_v88 : IVec S32x50 1)
      = validV 2 (m (c, Proc.devRef .tc main_arg2)) (m (c, Proc.devRef .tc main_arg4)) := by
  dsimp only [V, V0, pre]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

set_option maxHeartbeats 1000000 in

theorem V_main_v94 (c : Dev nD) :
    (V m c main_v94 : IVec S32x50 32)
      = idxV 2 (m (c, Proc.devRef .tc main_arg2)) (m (c, Proc.devRef .tc main_arg4)) := by
  dsimp only [V, V0, pre]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

end Cert.KernelIdeal.Hand

end
-- ==== Proof.KHost.lean ====
import proofs.«423457_j69166153335192_3_alg».proof.Proof.IdxPrefix0
import proofs.«423457_j69166153335192_3_alg».proof.Proof.IdxPrefix1
import proofs.«423457_j69166153335192_3_alg».proof.Proof.IdxPrefix2
import Idealize.ShloMosaic.Lib.ValueLayout

noncomputable section

namespace Cert.KernelIdeal.Hand

open Cert.KernelIdeal Cert.KernelIdeal.Facts₀
open Idealize.ShloMosaic Idealize.ShloMosaic.TcCoe Idealize.ShloMosaic.ValueIdx
open Idealize.SL Idealize.SL.Sem

variable [Cert.KernelIdeal.Facts]
variable {F : FTy → Type} [FloatOps F]

section Layout
variable {α : Type}

theorem plane_unit_apply (a : S32x50.Idx → α) (b : Fin 32) (mm : Fin 50) (z : Fin 1) :
    broadcastInDim S32x50x1 ![0, 1] bcast_S32x50_S32x50x1_0_1 a (ix3 b mm z) = a (ix2 b mm) :=
  broadcastInDim_apply _ _ a _ (ix2 b mm) fun d => match d with | ⟨0, _⟩ => rfl | ⟨1, _⟩ => rfl

theorem stack3_apply (a0 a1 a2 : S32x50.Idx → α) (b : Fin 32) (mm : Fin 50) (s : Fin 3) (j : Fin 150)
    (hj : j.val = 3 * mm.val + s.val) (z : Fin 1) :
    broadcastInDim S32x150x1 ![0, 1] bcast_S32x150_S32x150x1_0_1
        (shapeCast S32x150
          (concatenate S32x50x3 2
            [⟨S32x50x1, broadcastInDim S32x50x1 ![0, 1] bcast_S32x50_S32x50x1_0_1 a0⟩,
             ⟨S32x50x1, broadcastInDim S32x50x1 ![0, 1] bcast_S32x50_S32x50x1_0_1 a1⟩,
             ⟨S32x50x1, broadcastInDim S32x50x1 ![0, 1] bcast_S32x50_S32x50x1_0_1 a2⟩]
            concatenates_S32x50x1_S32x50x1_S32x50x1_S32x50x3_d2)
          shapeCasts_S32x50x3_S32x150) (ix3 b j z)
      = (match s with | 0 => a0 | 1 => a1 | 2 => a2) (ix2 b mm) := by

  refine (broadcastInDim_apply _ _ _ _ (ix2 b j) fun d => match d with | ⟨0, _⟩ => rfl | ⟨1, _⟩ => rfl).trans ?_
  refine (shapeCast_apply _ _ _ (ix3 b mm s) ?_).trans ?_
  · rw [Shape.rowMajor_val_three, Shape.rowMajor_val_two]
    show (b.val * 50 + mm.val) * 3 + s.val = b.val * 150 + j.val
    omega

  have hi : ∀ (q : Fin 3) (d : Fin S32x50x1.rank), d.cast (rfl : S32x50x1.rank = S32x50x3.rank) ≠ (2 : Fin S32x50x3.rank) →
      ((ix3 b mm (0 : Fin 1) : S32x50x1.Idx) d).val = ((ix3 b mm q : S32x50x3.Idx) (d.cast rfl)).val :=
    fun q d hd => match d, hd with
      | ⟨0, _⟩, _ => rfl
      | ⟨1, _⟩, _ => rfl
      | ⟨2, _⟩, h => absurd rfl h
  match s with
  | 0 =>
    refine Eq.trans (concatenate_apply_piece (t := S32x50x3) 2 _ _ _ 0 ?_ S32x50x1 _ rfl rfl 0 rfl (ix3 b mm 0) (hi 0) rfl) ?_
    · show (0 : Nat) < 3
      omega
    · exact plane_unit_apply a0 b mm 0
  | 1 =>
    refine Eq.trans (concatenate_apply_piece (t := S32x50x3) 2 _ _ _ 1 ?_ S32x50x1 _ rfl rfl 1 rfl (ix3 b mm 0) (hi 1) rfl) ?_
    · show (1 : Nat) < 3
      omega
    · exact plane_unit_apply a1 b mm 0
  | 2 =>
    refine Eq.trans (concatenate_apply_piece (t := S32x50x3) 2 _ _ _ 2 ?_ S32x50x1 _ rfl rfl 2 rfl (ix3 b mm 0) (hi 2) rfl) ?_
    · show (2 : Nat) < 3
      omega
    · exact plane_unit_apply a2 b mm 0

theorem repeat_box_apply (g : S32x50x4.Idx → α) (b : Fin 32) (mm : Fin 50) (s : Fin 3) (j : Fin 150)
    (hj : j.val = 3 * mm.val + s.val) (k : Fin 4) :
    shapeCast S32x150x4
        (broadcastInDim S32x50x3x4 ![0, 1, 2, 3] bcast_S32x50x1x4_S32x50x3x4_0_1_2_3
          (broadcastInDim S32x50x1x4 ![0, 1, 3] bcast_S32x50x4_S32x50x1x4_0_1_3 g))
        shapeCasts_S32x50x3x4_S32x150x4 (ix3 b j k)
      = g (ix3 b mm k) := by
  refine (shapeCast_apply _ _ _ (ix4 b mm s k) ?_).trans ?_
  · rw [Shape.rowMajor_val_four, Shape.rowMajor_val_three]
    show ((b.val * 50 + mm.val) * 3 + s.val) * 4 + k.val = (b.val * 150 + j.val) * 4 + k.val
    omega
  refine (broadcastInDim_apply _ _ _ _ (ix4 b mm (0 : Fin 1) k) fun d => match d with
    | ⟨0, _⟩ => rfl | ⟨1, _⟩ => rfl | ⟨2, _⟩ => rfl | ⟨3, _⟩ => rfl).trans ?_
  exact broadcastInDim_apply _ _ g _ (ix3 b mm k) fun d => match d with | ⟨0, _⟩ => rfl | ⟨1, _⟩ => rfl | ⟨2, _⟩ => rfl

theorem repeat_cls_apply (g : S32x50x80.Idx → α) (b : Fin 32) (mm : Fin 50) (s : Fin 3) (j : Fin 150)
    (hj : j.val = 3 * mm.val + s.val) (k : Fin 80) :
    shapeCast S32x150x80
        (broadcastInDim S32x50x3x80 ![0, 1, 2, 3] bcast_S32x50x1x80_S32x50x3x80_0_1_2_3
          (broadcastInDim S32x50x1x80 ![0, 1, 3] bcast_S32x50x80_S32x50x1x80_0_1_3 g))
        shapeCasts_S32x50x3x80_S32x150x80 (ix3 b j k)
      = g (ix3 b mm k) := by
  refine (shapeCast_apply _ _ _ (ix4 b mm s k) ?_).trans ?_
  · rw [Shape.rowMajor_val_four, Shape.rowMajor_val_three]
    show ((b.val * 50 + mm.val) * 3 + s.val) * 80 + k.val = (b.val * 150 + j.val) * 80 + k.val
    omega
  refine (broadcastInDim_apply _ _ _ _ (ix4 b mm (0 : Fin 1) k) fun d => match d with
    | ⟨0, _⟩ => rfl | ⟨1, _⟩ => rfl | ⟨2, _⟩ => rfl | ⟨3, _⟩ => rfl).trans ?_
  exact broadcastInDim_apply _ _ g _ (ix3 b mm k) fun d => match d with | ⟨0, _⟩ => rfl | ⟨1, _⟩ => rfl | ⟨2, _⟩ => rfl

end Layout

variable (m : (ℓ : Loc nD τ sig) → Buf (Elt F) ℓ)

def Wpre (c : Dev nD) : Valuation τ sig (Elt F) :=
  StableHlo.after (List.flatten [Gen.hostOps0, Gen.hostOps0_1, Gen.hostOps0_2, Gen.hostOps0_3, Gen.hostOps0_4, Gen.hostOps0_5,
    Gen.hostOps0_6, Gen.hostOps0_7]) (fun b => m (c, b))

theorem V0_eq (c : Dev nD) : V0 m c = StableHlo.after Gen.hostOps0_8 (Wpre m c) := by
  unfold Wpre
  rw [← StableHlo.after_append]
  show StableHlo.after (List.flatten pre) _ = _
  congr 1

section Last
variable (W : Valuation τ sig (Elt F))

theorem last_v112 :
    (StableHlo.after Gen.hostOps0_8 W (Proc.devRef .tc main_v112) : IVec S32x150x1 32)
      = broadcastInDim S32x150x1 ![0, 1] bcast_S32x150_S32x150x1_0_1
          (shapeCast S32x150
            (concatenate S32x50x3 2
              [⟨S32x50x1, broadcastInDim S32x50x1 ![0, 1] bcast_S32x50_S32x50x1_0_1 (W (Proc.devRef .tc main_v40) : IVec S32x50 32)⟩,
               ⟨S32x50x1, broadcastInDim S32x50x1 ![0, 1] bcast_S32x50_S32x50x1_0_1 (W (Proc.devRef .tc main_v67) : IVec S32x50 32)⟩,
               ⟨S32x50x1, broadcastInDim S32x50x1 ![0, 1] bcast_S32x50_S32x50x1_0_1 (W (Proc.devRef .tc main_v94) : IVec S32x50 32)⟩]
              concatenates_S32x50x1_S32x50x1_S32x50x1_S32x50x3_d2)
            shapeCasts_S32x50x3_S32x150) := by
  after_results_simp
  rfl

theorem last_v113 :
    (StableHlo.after Gen.hostOps0_8 W (Proc.devRef .tc main_v113) : FVec F S32x150x1 .f32)
      = broadcastInDim S32x150x1 ![0, 1] bcast_S32x150_S32x150x1_0_1
          (shapeCast S32x150
            (concatenate S32x50x3 2
              [⟨S32x50x1, broadcastInDim S32x50x1 ![0, 1] bcast_S32x50_S32x50x1_0_1 (W (Proc.devRef .tc main_v41) : FVec F S32x50 .f32)⟩,
               ⟨S32x50x1, broadcastInDim S32x50x1 ![0, 1] bcast_S32x50_S32x50x1_0_1 (W (Proc.devRef .tc main_v68) : FVec F S32x50 .f32)⟩,
               ⟨S32x50x1, broadcastInDim S32x50x1 ![0, 1] bcast_S32x50_S32x50x1_0_1 (uitofp .f32 (W (Proc.devRef .tc main_v88) : IVec S32x50 1) : FVec F S32x50 .f32)⟩]
              concatenates_S32x50x1_S32x50x1_S32x50x1_S32x50x3_d2)
            shapeCasts_S32x50x3_S32x150) := by
  after_results_simp
  rfl

theorem last_v108 :
    (StableHlo.after Gen.hostOps0_8 W (Proc.devRef .tc main_v108) : FVec F S32x150x4 .f32)
      = shapeCast S32x150x4
          (broadcastInDim S32x50x3x4 ![0, 1, 2, 3] bcast_S32x50x1x4_S32x50x3x4_0_1_2_3
            (broadcastInDim S32x50x1x4 ![0, 1, 3] bcast_S32x50x4_S32x50x1x4_0_1_3 (W (Proc.devRef .tc main_arg2) : FVec F S32x50x4 .f32)))
          shapeCasts_S32x50x3x4_S32x150x4 := by
  after_results_simp
  rfl

theorem last_v111 :
    (StableHlo.after Gen.hostOps0_8 W (Proc.devRef .tc main_v111) : FVec F S32x150x80 .f32)
      = shapeCast S32x150x80
          (broadcastInDim S32x50x3x80 ![0, 1, 2, 3] bcast_S32x50x1x80_S32x50x3x80_0_1_2_3
            (broadcastInDim S32x50x1x80 ![0, 1, 3] bcast_S32x50x80_S32x50x1x80_0_1_3 (W (Proc.devRef .tc main_v14) : FVec F S32x50x80 .f32)))
          shapeCasts_S32x50x3x80_S32x150x80 := by
  after_results_simp
  rfl

theorem last_keeps :
    StableHlo.after Gen.hostOps0_8 W (Proc.devRef .tc main_v40) = W (Proc.devRef .tc main_v40)
    ∧ StableHlo.after Gen.hostOps0_8 W (Proc.devRef .tc main_v67) = W (Proc.devRef .tc main_v67)
    ∧ StableHlo.after Gen.hostOps0_8 W (Proc.devRef .tc main_v94) = W (Proc.devRef .tc main_v94)
    ∧ StableHlo.after Gen.hostOps0_8 W (Proc.devRef .tc main_v41) = W (Proc.devRef .tc main_v41)
    ∧ StableHlo.after Gen.hostOps0_8 W (Proc.devRef .tc main_v68) = W (Proc.devRef .tc main_v68)
    ∧ StableHlo.after Gen.hostOps0_8 W (Proc.devRef .tc main_v88) = W (Proc.devRef .tc main_v88)
    ∧ StableHlo.after Gen.hostOps0_8 W (Proc.devRef .tc main_v14) = W (Proc.devRef .tc main_v14) := by
  refine ⟨?_, ?_, ?_, ?_, ?_, ?_, ?_⟩ <;> after_results_simp

end Last

theorem Wpre_arg2 (c : Dev nD) : Wpre m c (Proc.devRef .tc main_arg2) = m (c, Proc.devRef .tc main_arg2) := by
  unfold Wpre
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp

theorem Wpre_v40 (c : Dev nD) :
    (Wpre m c (Proc.devRef .tc main_v40) : IVec S32x50 32) = idxV 0 (m (c, Proc.devRef .tc main_arg2)) (m (c, Proc.devRef .tc main_arg4)) :=
  (((last_keeps (Wpre m c)).1).symm.trans (congrFun (V0_eq m c).symm _)).trans (V_main_v40 m c)

theorem Wpre_v67 (c : Dev nD) :
    (Wpre m c (Proc.devRef .tc main_v67) : IVec S32x50 32) = idxV 1 (m (c, Proc.devRef .tc main_arg2)) (m (c, Proc.devRef .tc main_arg4)) :=
  (((last_keeps (Wpre m c)).2.1).symm.trans (congrFun (V0_eq m c).symm _)).trans (V_main_v67 m c)

theorem Wpre_v94 (c : Dev nD) :
    (Wpre m c (Proc.devRef .tc main_v94) : IVec S32x50 32) = idxV 2 (m (c, Proc.devRef .tc main_arg2)) (m (c, Proc.devRef .tc main_arg4)) :=
  (((last_keeps (Wpre m c)).2.2.1).symm.trans (congrFun (V0_eq m c).symm _)).trans (V_main_v94 m c)

theorem Wpre_v41 (c : Dev nD) :
    (Wpre m c (Proc.devRef .tc main_v41) : FVec F S32x50 .f32) = uitofp .f32 (validV 0 (m (c, Proc.devRef .tc main_arg2)) (m (c, Proc.devRef .tc main_arg4))) :=
  (((last_keeps (Wpre m c)).2.2.2.1).symm.trans (congrFun (V0_eq m c).symm _)).trans (V_main_v41 m c)

theorem Wpre_v68 (c : Dev nD) :
    (Wpre m c (Proc.devRef .tc main_v68) : FVec F S32x50 .f32) = uitofp .f32 (validV 1 (m (c, Proc.devRef .tc main_arg2)) (m (c, Proc.devRef .tc main_arg4))) :=
  (((last_keeps (Wpre m c)).2.2.2.2.1).symm.trans (congrFun (V0_eq m c).symm _)).trans (V_main_v68 m c)

theorem Wpre_v88 (c : Dev nD) :
    (Wpre m c (Proc.devRef .tc main_v88) : IVec S32x50 1) = validV 2 (m (c, Proc.devRef .tc main_arg2)) (m (c, Proc.devRef .tc main_arg4)) :=
  (((last_keeps (Wpre m c)).2.2.2.2.2.1).symm.trans (congrFun (V0_eq m c).symm _)).trans (V_main_v88 m c)

theorem Wpre_v14 (c : Dev nD) :
    (Wpre m c (Proc.devRef .tc main_v14) : FVec F S32x50x80 .f32) = tgtV (m (c, Proc.devRef .tc main_arg3)) :=
  (((last_keeps (Wpre m c)).2.2.2.2.2.2).symm.trans (congrFun (V0_eq m c).symm _)).trans (V_main_v14 m c)

section Slots
variable (c : Dev nD) (b : Fin 32) (mm : Fin 50) (s : Fin 3) (j : Fin 150) (hj : j.val = 3 * mm.val + s.val)
include hj

theorem V_main_v112_slot :
    (V m c main_v112 : IVec S32x150x1 32) (ix3 b j 0) = idxV s (m (c, Proc.devRef .tc main_arg2)) (m (c, Proc.devRef .tc main_arg4)) (ix2 b mm) := by
  have e : (V m c main_v112 : IVec S32x150x1 32) = _ := (congrFun (V0_eq m c) _).trans (last_v112 (Wpre m c))
  rw [e, stack3_apply _ _ _ b mm s j hj 0]
  match s with
  | 0 => exact congrFun (Wpre_v40 m c) _
  | 1 => exact congrFun (Wpre_v67 m c) _
  | 2 => exact congrFun (Wpre_v94 m c) _

theorem V_main_v113_slot :
    (V m c main_v113 : FVec F S32x150x1 .f32) (ix3 b j 0)
      = (uitofp .f32 (validV s (m (c, Proc.devRef .tc main_arg2)) (m (c, Proc.devRef .tc main_arg4))) : FVec F S32x50 .f32) (ix2 b mm) := by
  have e : (V m c main_v113 : FVec F S32x150x1 .f32) = _ := (congrFun (V0_eq m c) _).trans (last_v113 (Wpre m c))
  rw [e, stack3_apply _ _ _ b mm s j hj 0]
  match s with
  | 0 => exact congrFun (Wpre_v41 m c) _
  | 1 => exact congrFun (Wpre_v68 m c) _
  | 2 => exact congrFun (congrArg (uitofp .f32) (Wpre_v88 m c)) _

theorem V_main_v108_slot (k : Fin 4) :
    (V m c main_v108 : FVec F S32x150x4 .f32) (ix3 b j k) = (m (c, Proc.devRef .tc main_arg2) : FVec F S32x50x4 .f32) (ix3 b mm k) := by
  have e : (V m c main_v108 : FVec F S32x150x4 .f32) = _ := (congrFun (V0_eq m c) _).trans (last_v108 (Wpre m c))
  rw [e, repeat_box_apply _ b mm s j hj k, Wpre_arg2]

theorem V_main_v111_slot (k : Fin 80) :
    (V m c main_v111 : FVec F S32x150x80 .f32) (ix3 b j k) = (tgtV (m (c, Proc.devRef .tc main_arg3)) : FVec F S32x50x80 .f32) (ix3 b mm k) := by
  have e : (V m c main_v111 : FVec F S32x150x80 .f32) = _ := (congrFun (V0_eq m c) _).trans (last_v111 (Wpre m c))
  rw [e, repeat_cls_apply _ b mm s j hj k]
  exact congrFun (Wpre_v14 m c) _

end Slots

end Cert.KernelIdeal.Hand

end
-- ==== Proof.IdxRange.lean ====
import proofs.«423457_j69166153335192_3_alg».proof.Proof.IdxChain

noncomputable section

namespace Cert.KernelIdeal.Hand

open Cert.KernelIdeal Cert.KernelIdeal.Facts₀
open Idealize.ShloMosaic Idealize.ShloMosaic.TcCoe

variable [Cert.KernelIdeal.Facts]
variable {F : FTy → Type} [FloatOps F]

theorem idxV_apply (s : Fin 3) (gt : FVec F S32x50x4 .f32) (mask : IVec S32x50 1) (i : S32x50.Idx) :
    idxV s gt mask i =
      if validV s gt mask i = 1#1 then offW s + cellJ s gt i * sideW s + cellI s gt i else 0#32 := rfl

theorem validV_apply (s : Fin 3) (gt : FVec F S32x50x4 .f32) (mask : IVec S32x50 1) (i : S32x50.Idx) :
    validV s gt mask i =
      IntOp.andi (IntOp.andi (IntOp.andi (IntOp.andi (mask i) (IntOp.cmpi .sge (cellI s gt i) 0#32))
        (IntOp.cmpi .sge (cellJ s gt i) 0#32)) (IntOp.cmpi .slt (cellI s gt i) (sideW s)))
        (IntOp.cmpi .slt (cellJ s gt i) (sideW s)) := rfl

theorem validV_eq_one (s : Fin 3) (gt : FVec F S32x50x4 .f32) (mask : IVec S32x50 1) (i : S32x50.Idx) :
    validV s gt mask i = 1#1 ↔
      mask i = 1#1 ∧ 0 ≤ (cellI s gt i).toInt ∧ 0 ≤ (cellJ s gt i).toInt ∧
        (cellI s gt i).toInt < (sideW s).toInt ∧ (cellJ s gt i).toInt < (sideW s).toInt := by
  rw [validV_apply]
  simp only [IntOp.andi_eq_one, IntOp.cmpi_sge, IntOp.cmpi_slt, and_assoc]
  rfl

theorem idx_of_invalid (s : Fin 3) (gt : FVec F S32x50x4 .f32) (mask : IVec S32x50 1) (i : S32x50.Idx)
    (hv : ¬ validV s gt mask i = 1#1) : idxV s gt mask i = 0#32 := by
  rw [idxV_apply, if_neg hv]

private theorem toNat_of_toInt {x : BitVec 32} (h0 : 0 ≤ x.toInt) : (x.toNat : Int) = x.toInt := by
  rw [BitVec.toInt_eq_toNat_cond] at h0 ⊢
  split at h0 <;> split <;> omega

private theorem toInt_lit {S : Nat} (hS : S ≤ 80) : (BitVec.ofNat 32 S).toInt = S := by
  have h : (BitVec.ofNat 32 S).toNat = S := by rw [BitVec.toNat_ofNat]; exact Nat.mod_eq_of_lt (by omega)
  rw [BitVec.toInt_eq_toNat_cond, h]
  split <;> omega

private theorem toInt_of_toNat_lt {x : BitVec 32} (h : x.toNat < 8400) : x.toInt = x.toNat := by
  rw [BitVec.toInt_eq_toNat_cond]
  split <;> omega

private theorem word_gen {S O : Nat} (hS : S ≤ 80) (hO : O ≤ 8000) {gi gj : BitVec 32}
    (h0i : 0 ≤ gi.toInt) (h0j : 0 ≤ gj.toInt)
    (hi : gi.toInt < (BitVec.ofNat 32 S).toInt) (hj : gj.toInt < (BitVec.ofNat 32 S).toInt) :
    (BitVec.ofNat 32 O + gj * BitVec.ofNat 32 S + gi).toNat = O + gj.toNat * S + gi.toNat ∧
      gi.toNat < S ∧ gj.toNat < S := by
  rw [toInt_lit hS] at hi hj
  have ei := toNat_of_toInt h0i
  have ej := toNat_of_toInt h0j
  have hi' : gi.toNat < S := by omega
  have hj' : gj.toNat < S := by omega
  refine ⟨?_, hi', hj'⟩
  have hm : gj.toNat * S ≤ 79 * 80 := Nat.mul_le_mul (by omega) hS
  rw [BitVec.toNat_add, BitVec.toNat_add, BitVec.toNat_mul, BitVec.toNat_ofNat, BitVec.toNat_ofNat,
    Nat.mod_eq_of_lt (a := S) (by omega), Nat.mod_eq_of_lt (a := O) (by omega)]
  generalize gj.toNat * S = p at hm ⊢
  rw [Nat.mod_eq_of_lt (a := p) (by omega), Nat.mod_eq_of_lt (a := O + p) (by omega),
    Nat.mod_eq_of_lt (by omega)]

theorem sideW_toNat : (sideW 0).toNat = 80 ∧ (sideW 1).toNat = 40 ∧ (sideW 2).toNat = 20 := by decide
@[inherit_doc sideW_toNat]
theorem offW_toNat : (offW 0).toNat = 0 ∧ (offW 1).toNat = 6400 ∧ (offW 2).toNat = 8000 := by decide

theorem idx_of_valid (s : Fin 3) (gt : FVec F S32x50x4 .f32) (mask : IVec S32x50 1) (i : S32x50.Idx)
    (hv : validV s gt mask i = 1#1) :
    (idxV s gt mask i).toNat
        = (offW s).toNat + (cellJ s gt i).toNat * (sideW s).toNat + (cellI s gt i).toNat ∧
      (cellI s gt i).toNat < (sideW s).toNat ∧ (cellJ s gt i).toNat < (sideW s).toNat := by
  obtain ⟨-, h0i, h0j, hi, hj⟩ := (validV_eq_one s gt mask i).1 hv
  rw [idxV_apply, if_pos hv]
  match s with
  | 0 => exact word_gen (S := 80) (O := 0) (by omega) (by omega) h0i h0j hi hj
  | 1 => exact word_gen (S := 40) (O := 6400) (by omega) (by omega) h0i h0j hi hj
  | 2 => exact word_gen (S := 20) (O := 8000) (by omega) (by omega) h0i h0j hi hj

theorem idx_scale_range (s : Fin 3) (gt : FVec F S32x50x4 .f32) (mask : IVec S32x50 1) (i : S32x50.Idx)
    (hv : validV s gt mask i = 1#1) :
    (offW s).toNat ≤ (idxV s gt mask i).toNat ∧
      (idxV s gt mask i).toNat < (offW s).toNat + (sideW s).toNat * (sideW s).toNat := by
  obtain ⟨he, hi, hj⟩ := idx_of_valid s gt mask i hv
  obtain ⟨s0, s1, s2⟩ := sideW_toNat
  obtain ⟨o0, o1, o2⟩ := offW_toNat
  match s with
  | 0 => rw [s0] at he hi hj ⊢; rw [o0] at he ⊢; omega
  | 1 => rw [s1] at he hi hj ⊢; rw [o1] at he ⊢; omega
  | 2 => rw [s2] at he hi hj ⊢; rw [o2] at he ⊢; omega

-- The blocks [0, 6400), [6400, 8000), [8000, 8400) tile [0, 8400): 80² = 6400, 6400 + 40² = 8000, 8000 + 20² = 8400.
theorem idx_toNat_lt (s : Fin 3) (gt : FVec F S32x50x4 .f32) (mask : IVec S32x50 1) (i : S32x50.Idx) :
    (idxV s gt mask i).toNat < 8400 := by
  by_cases hv : validV s gt mask i = 1#1
  · obtain ⟨-, h⟩ := idx_scale_range s gt mask i hv
    obtain ⟨s0, s1, s2⟩ := sideW_toNat
    obtain ⟨o0, o1, o2⟩ := offW_toNat
    match s with
    | 0 => rw [s0, o0] at h; omega
    | 1 => rw [s1, o1] at h; omega
    | 2 => rw [s2, o2] at h; omega
  · rw [idx_of_invalid s gt mask i hv]; decide

theorem idx_toInt_nonneg (s : Fin 3) (gt : FVec F S32x50x4 .f32) (mask : IVec S32x50 1) (i : S32x50.Idx) :
    0 ≤ (idxV s gt mask i).toInt := by
  rw [toInt_of_toNat_lt (idx_toNat_lt s gt mask i)]; omega

end Cert.KernelIdeal.Hand

end
-- ==== Proof.MathLemmas.lean ====
import Idealize.ShloMosaic.PureOps.Ideal
import Mathlib.Algebra.BigOperators.Fin
import Mathlib.Data.BitVec
import Idealize.ShloMosaic.PureOps.Reduce

noncomputable section

namespace Cert.Hand.Math

open Idealize.ShloMosaic Finset

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem pow_two_real (x : ℝ) : Ideal.pow (x : EReal) ((2 : ℝ) : EReal) = ((x * x : ℝ) : EReal) := by
  rw [Ideal.pow_coe_coe]
  congr 1
  have h : Real.rpow x 2 = x ^ (2 : ℕ) := by
    simpa using Real.rpow_natCast x 2
  rw [h, pow_two]

def slot (mm : Fin 50) (s : Fin 3) : Fin 150 := ⟨3 * mm.val + s.val, by omega⟩

theorem sum_slots {M : Type} [AddCommMonoid M] (f : Fin 150 → M) :
    ∑ j, f j = ∑ mm : Fin 50, ∑ s : Fin 3, f (slot mm s) := by
  rw [← Fintype.sum_prod_type']
  refine (Fintype.sum_equiv (finProdFinEquiv (m := 50) (n := 3)) (fun x => f (slot x.1 x.2)) (fun j => f j) (fun x => ?_)).symm
  congr 1
  ext
  simp only [slot, finProdFinEquiv, Equiv.coe_fn_mk]
  omega

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem fold_addi_eq_sum {ι : Type} (s : Finset ι) (g : ι → BitVec 32) (b : BitVec 32) :
    s.fold (IntOp.addi (w := 32)) b g = b + ∑ i ∈ s, g i := by
  induction s using Finset.cons_induction with
  | empty => simp
  | cons a S ha ih =>
    rw [Finset.fold_cons, Finset.sum_cons, ih]
    show g a + (b + _) = b + (g a + _)
    exact add_left_comm _ _ _

theorem toNat_sum_bits {ι : Type} (s : Finset ι) (g : ι → BitVec 32) (n : ι → ℕ) (hg : ∀ i, (g i).toNat = n i)
    (hn : ∀ i, n i ≤ 1) (hs : s.card < 2 ^ 32) : (∑ i ∈ s, g i).toNat = ∑ i ∈ s, n i := by
  classical
  induction s using Finset.induction_on with
  | empty => simp
  | insert a s ha ih =>
    have hcard : s.card < 2 ^ 32 := by
      have := Finset.card_insert_of_notMem ha; omega
    have hle : ∑ i ∈ s, n i ≤ s.card := by
      calc ∑ i ∈ s, n i ≤ ∑ _i ∈ s, 1 := Finset.sum_le_sum fun i _ => hn i
        _ = s.card := by simp
    rw [Finset.sum_insert ha, Finset.sum_insert ha, BitVec.toNat_add, ih hcard, hg]
    have h1 := hn a
    have h2 := Finset.card_insert_of_notMem ha
    omega

end Cert.Hand.Math

end
-- ==== Proof.Scalars.lean ====
import proofs.«423457_j69166153335192_3_alg».proof.Proof.KPoint
import proofs.«423457_j69166153335192_3_alg».proof.Proof.MathLemmas

noncomputable section

namespace Cert.Hand.Scalars

open Idealize.ShloMosaic Cert.KernelIdeal.Hand Cert.Hand.Math

namespace RF

def softplus (y : EReal) : EReal :=
  Scalar.select (Ideal.cmp .une (y - (Ideal.ofBits .f32 0x00000000#32)) (y - (Ideal.ofBits .f32 0x00000000#32))) (y + (Ideal.ofBits .f32 0x00000000#32))
    (max y (Ideal.ofBits .f32 0x00000000#32) + Ideal.log1p (Ideal.exp (-(max (y - (Ideal.ofBits .f32 0x00000000#32)) (-(y - (Ideal.ofBits .f32 0x00000000#32)))))))

def logsig (x : EReal) : EReal := -(softplus (-x))

def ce (x t : EReal) : EReal := -(t * logsig x + ((Ideal.ofBits .f32 0x3F800000#32) - t) * logsig (-x))

def sig (x : EReal) : EReal := Ideal.div (Ideal.ofBits .f32 0x3F800000#32) ((Ideal.ofBits .f32 0x3F800000#32) + Ideal.exp (-x))

def pt (x t : EReal) : EReal := sig x * t + ((Ideal.ofBits .f32 0x3F800000#32) - sig x) * ((Ideal.ofBits .f32 0x3F800000#32) - t)

def focal (x t : EReal) : EReal := KS.alphaT t * Ideal.pow ((Ideal.ofBits .f32 0x3F800000#32) - pt x t) (Ideal.ofBits .f32 0x40000000#32) * ce x t

def clsTerm (v : BitVec 1) (x t : Fin 80 → EReal) : EReal :=
  Scalar.select v ((Ideal.ofBits .f32 0x00000000#32) + ∑ c : Fin 80, focal (x c) (t c)) (Ideal.ofBits .f32 0x00000000#32)

def boxTerm (v : BitVec 1) (p g : Fin 4 → EReal) : EReal :=
  Scalar.select v ((Ideal.ofBits .f32 0x3F800000#32) - KS.giou p g) (Ideal.ofBits .f32 0x00000000#32)

end RF

theorem softplus_eq (y : EReal) : KS.softplus y = RF.softplus y := by
  unfold KS.softplus RF.softplus
  rw [ofBits_zero, zero_sub]
  rfl

theorem ce_eq (x t : EReal) : KS.ce x t = RF.ce x t := by
  unfold KS.ce RF.ce RF.logsig
  simp only [softplus_eq, ofBits_zero, zero_sub]

theorem pt_eq (x t : EReal) : KS.pt x t = RF.pt x t := by
  unfold KS.pt RF.pt RF.sig
  rw [ofBits_one]
  rfl

theorem pt_real (x t : ℝ) : ∃ q : ℝ, (Ideal.ofBits .f32 0x3F800000#32) - RF.pt (x : EReal) (t : EReal) = (q : EReal) := by
  refine ⟨1 - ((1 + Real.exp (-x))⁻¹ * t + (1 - (1 + Real.exp (-x))⁻¹) * (1 - t)), ?_⟩
  rw [← pt_eq]
  unfold KS.pt
  rw [ofBits_one, Ideal.logistic_coe]
  simp only [← EReal.coe_one, ← EReal.coe_sub, ← EReal.coe_mul, ← EReal.coe_add]

-- A real number to the power 2 is its square: this is where the logits and targets being real is used.
theorem focal_eq (x t : ℝ) : KS.focal (x : EReal) (t : EReal) = RF.focal (x : EReal) (t : EReal) := by
  unfold KS.focal RF.focal
  obtain ⟨q, hq⟩ := pt_real x t
  rw [pt_eq, ce_eq, hq, ofBits_two, pow_two_real, EReal.coe_mul]

theorem cmp_ogt_half (v : BitVec 1) :
    Ideal.cmp .ogt (((v.toNat : ℝ)) : EReal) (Ideal.ofBits .f32 0x3F000000#32) = v := by
  rw [ofBits_half]
  have key : ∀ a : ℝ, Ideal.cmp .ogt ((a : ℝ) : EReal) (((1 / 2 : ℝ)) : EReal)
      = BitVec.ofBool (decide ((1 / 2 : ℝ) < a)) := by
    intro a; simp only [Ideal.cmp, EReal.coe_lt_coe_iff]
  rcases BitVec.eq_zero_or_eq_one v with h | h <;> subst h
  · rw [key]
    have : ¬ ((1 / 2 : ℝ) < (((0#1 : BitVec 1).toNat : ℕ) : ℝ)) := by norm_num
    rw [decide_eq_false this]; rfl
  · rw [key]
    have : ((1 / 2 : ℝ) < (((1#1 : BitVec 1).toNat : ℕ) : ℝ)) := by norm_num
    rw [decide_eq_true this]; rfl

theorem boxTerm_eq (v : BitVec 1) (p g : Fin 4 → EReal) :
    KS.boxTerm (((v.toNat : ℝ)) : EReal) p g = RF.boxTerm v p g := by
  unfold KS.boxTerm RF.boxTerm
  rw [cmp_ogt_half]

theorem clsTerm_eq (v : BitVec 1) (x t : Fin 80 → EReal) (hx : ∀ c, ∃ r : ℝ, x c = (r : EReal))
    (ht : ∀ c, ∃ r : ℝ, t c = (r : EReal)) :
    KS.clsTerm (((v.toNat : ℝ)) : EReal) x t = RF.clsTerm v x t := by
  unfold KS.clsTerm RF.clsTerm
  rw [cmp_ogt_half, ofBits_zero, zero_add]
  congr 1
  refine Finset.sum_congr rfl fun c _ => ?_
  obtain ⟨r, hr⟩ := hx c
  obtain ⟨s, hs⟩ := ht c
  rw [hr, hs, focal_eq]

end Cert.Hand.Scalars

end
-- ==== Proof.RBox.lean ====
import proofs.«423457_j69166153335192_3_alg».proof.Proof.RefOps
import Idealize.ShloMosaic.Lib.ValueIdx
import Idealize.ShloMosaic.Lib.Pipeline.Value
import Idealize.ShloMosaic.PureOps.Ideal.Laws

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

def boxCol0 (x : FVec F S32x50x4 .f32) : FVec F S32x50 .f32 :=
  shapeCast S32x50 (extractStridedSlice S32x50x1 ![0, 0, 0] x slices_S32x50x4_S32x50x1_0_0_0) shapeCasts_S32x50x1_S32x50

def boxCol1 (x : FVec F S32x50x4 .f32) : FVec F S32x50 .f32 :=
  shapeCast S32x50 (extractStridedSlice S32x50x1 ![0, 0, 1] x slices_S32x50x4_S32x50x1_0_0_1) shapeCasts_S32x50x1_S32x50

def boxCol2 (x : FVec F S32x50x4 .f32) : FVec F S32x50 .f32 :=
  shapeCast S32x50 (extractStridedSlice S32x50x1 ![0, 0, 2] x slices_S32x50x4_S32x50x1_0_0_2) shapeCasts_S32x50x1_S32x50

def boxCol3 (x : FVec F S32x50x4 .f32) : FVec F S32x50 .f32 :=
  shapeCast S32x50 (extractStridedSlice S32x50x1 ![0, 0, 3] x slices_S32x50x4_S32x50x1_0_0_3) shapeCasts_S32x50x1_S32x50

def boxClip (x : FVec F S32x50 .f32) : FVec F S32x50 .f32 :=
  maximumf (broadcastInDim S32x50 ![] bcast_S_S32x50 (id (constant (F := F) S_ .f32 0x00000000#32))) x

def boxInter (p g : FVec F S32x50x4 .f32) : FVec F S32x50 .f32 :=
  mulf (boxClip (subf (minimumf (boxCol2 p) (boxCol2 g)) (maximumf (boxCol0 p) (boxCol0 g))))
       (boxClip (subf (minimumf (boxCol3 p) (boxCol3 g)) (maximumf (boxCol1 p) (boxCol1 g))))

def boxUnion (p g : FVec F S32x50x4 .f32) : FVec F S32x50 .f32 :=
  subf (addf (mulf (subf (boxCol2 p) (boxCol0 p)) (subf (boxCol3 p) (boxCol1 p)))
             (mulf (subf (boxCol2 g) (boxCol0 g)) (subf (boxCol3 g) (boxCol1 g))))
       (boxInter p g)

def boxHull (p g : FVec F S32x50x4 .f32) : FVec F S32x50 .f32 :=
  mulf (subf (maximumf (boxCol2 p) (boxCol2 g)) (minimumf (boxCol0 p) (boxCol0 g)))
       (subf (maximumf (boxCol3 p) (boxCol3 g)) (minimumf (boxCol1 p) (boxCol1 g)))

def boxGiou (p g : FVec F S32x50x4 .f32) : FVec F S32x50 .f32 :=
  subf (Host.divf (F := F) (boxInter p g) (boxUnion p g)) (Host.divf (F := F) (subf (boxHull p g) (boxUnion p g)) (boxHull p g))

def boxMasked (p g : FVec F S32x50x4 .f32) (valid : IVec S32x50 1) : FVec F S32x50 .f32 :=
  select valid (subf (broadcastInDim S32x50 ![] bcast_S_S32x50 (constant (F := F) S_ .f32 0x3F800000#32)) (boxGiou p g))
    (broadcastInDim S32x50 ![] bcast_S_S32x50 (id (constant (F := F) S_ .f32 0x00000000#32)))

def boxStage (p g : FVec F S32x50x4 .f32) (valid : IVec S32x50 1) : FVec F S_ .f32 :=
  Host.reduceAdd (F := F) (boxMasked p g valid) (constant (F := F) S_ .f32 0x00000000#32) reducesTo_S32x50_S_d0_1 h_S_

theorem after_s0_box (Vin : Valuation τ sig (Elt F)) :
    StableHlo.after ops_s0_box Vin (Proc.devRef .tc main_v125)
      = addf (constant (F := F) S_ .f32 0x00000000#32)
          (boxStage (Vin (Proc.devRef .tc main_v42)) (Vin (Proc.devRef .tc main_arg2)) (Vin (Proc.devRef .tc main_v34))) :=
  rfl

namespace RS

def boxClip (x : EReal) : EReal := max (Ideal.ofBits .f32 0x00000000#32) x

def boxInter (p g : Fin 4 → EReal) : EReal :=
  boxClip (min (p 2) (g 2) - max (p 0) (g 0)) * boxClip (min (p 3) (g 3) - max (p 1) (g 1))

def boxUnion (p g : Fin 4 → EReal) : EReal :=
  (p 2 - p 0) * (p 3 - p 1) + (g 2 - g 0) * (g 3 - g 1) - boxInter p g

def boxHull (p g : Fin 4 → EReal) : EReal :=
  (max (p 2) (g 2) - min (p 0) (g 0)) * (max (p 3) (g 3) - min (p 1) (g 1))

def giou (p g : Fin 4 → EReal) : EReal :=
  Ideal.div (boxInter p g) (boxUnion p g) - Ideal.div (boxHull p g - boxUnion p g) (boxHull p g)

def boxTerm (v : BitVec 1) (p g : Fin 4 → EReal) : EReal :=
  if v = 1#1 then Ideal.ofBits .f32 0x3F800000#32 - giou p g else Ideal.ofBits .f32 0x00000000#32

end RS

open Idealize.ShloMosaic.ValueIdx

theorem boxCol0_apply (x : FVec F S32x50x4 .f32) (a : Fin 32) (b : Fin 50) : boxCol0 x (ix2 a b) = x (ix3 a b (0 : Fin 4)) := by
  unfold boxCol0
  refine (shapeCast_apply _ _ (ix2 a b) (ix3 a b (0 : Fin 1)) ?_).trans ?_
  · rw [Shape.rowMajor_val_three, Shape.rowMajor_val_two]
    show (a.val * 50 + b.val) * 1 + 0 = a.val * 50 + b.val
    omega
  · exact extractStridedSlice_apply _ x _ _ (ix3 a b (0 : Fin 4)) fun c => match c with
      | ⟨0, _⟩ => by show a.val = 0 + a.val; omega
      | ⟨1, _⟩ => by show b.val = 0 + b.val; omega
      | ⟨2, _⟩ => by show (0 : ℕ) = 0 + 0; omega
theorem boxCol1_apply (x : FVec F S32x50x4 .f32) (a : Fin 32) (b : Fin 50) : boxCol1 x (ix2 a b) = x (ix3 a b (1 : Fin 4)) := by
  unfold boxCol1
  refine (shapeCast_apply _ _ (ix2 a b) (ix3 a b (0 : Fin 1)) ?_).trans ?_
  · rw [Shape.rowMajor_val_three, Shape.rowMajor_val_two]
    show (a.val * 50 + b.val) * 1 + 0 = a.val * 50 + b.val
    omega
  · exact extractStridedSlice_apply _ x _ _ (ix3 a b (1 : Fin 4)) fun c => match c with
      | ⟨0, _⟩ => by show a.val = 0 + a.val; omega
      | ⟨1, _⟩ => by show b.val = 0 + b.val; omega
      | ⟨2, _⟩ => by show (1 : ℕ) = 1 + 0; omega
theorem boxCol2_apply (x : FVec F S32x50x4 .f32) (a : Fin 32) (b : Fin 50) : boxCol2 x (ix2 a b) = x (ix3 a b (2 : Fin 4)) := by
  unfold boxCol2
  refine (shapeCast_apply _ _ (ix2 a b) (ix3 a b (0 : Fin 1)) ?_).trans ?_
  · rw [Shape.rowMajor_val_three, Shape.rowMajor_val_two]
    show (a.val * 50 + b.val) * 1 + 0 = a.val * 50 + b.val
    omega
  · exact extractStridedSlice_apply _ x _ _ (ix3 a b (2 : Fin 4)) fun c => match c with
      | ⟨0, _⟩ => by show a.val = 0 + a.val; omega
      | ⟨1, _⟩ => by show b.val = 0 + b.val; omega
      | ⟨2, _⟩ => by show (2 : ℕ) = 2 + 0; omega
theorem boxCol3_apply (x : FVec F S32x50x4 .f32) (a : Fin 32) (b : Fin 50) : boxCol3 x (ix2 a b) = x (ix3 a b (3 : Fin 4)) := by
  unfold boxCol3
  refine (shapeCast_apply _ _ (ix2 a b) (ix3 a b (0 : Fin 1)) ?_).trans ?_
  · rw [Shape.rowMajor_val_three, Shape.rowMajor_val_two]
    show (a.val * 50 + b.val) * 1 + 0 = a.val * 50 + b.val
    omega
  · exact extractStridedSlice_apply _ x _ _ (ix3 a b (3 : Fin 4)) fun c => match c with
      | ⟨0, _⟩ => by show a.val = 0 + a.val; omega
      | ⟨1, _⟩ => by show b.val = 0 + b.val; omega
      | ⟨2, _⟩ => by show (3 : ℕ) = 3 + 0; omega

theorem boxGiou_apply_of (p g : FVec Ideal S32x50x4 .f32) (j : S32x50.Idx) (P G : Fin 4 → EReal)
    (hp0 : boxCol0 p j = P 0) (hp1 : boxCol1 p j = P 1) (hp2 : boxCol2 p j = P 2) (hp3 : boxCol3 p j = P 3)
    (hg0 : boxCol0 g j = G 0) (hg1 : boxCol1 g j = G 1) (hg2 : boxCol2 g j = G 2) (hg3 : boxCol3 g j = G 3) :
    boxGiou p g j = RS.giou P G := by
  unfold RS.giou RS.boxHull RS.boxUnion RS.boxInter RS.boxClip
  rw [← hp0, ← hp1, ← hp2, ← hp3, ← hg0, ← hg1, ← hg2, ← hg3]
  rfl

theorem boxMasked_apply (p g : FVec Ideal S32x50x4 .f32) (valid : IVec S32x50 1) (a : Fin 32) (b : Fin 50) :
    boxMasked p g valid (ix2 a b) = RS.boxTerm (valid (ix2 a b)) (fun k => p (ix3 a b k)) (fun k => g (ix3 a b k)) := by
  have h := boxGiou_apply_of p g (ix2 a b) (fun k => p (ix3 a b k)) (fun k => g (ix3 a b k))
    (boxCol0_apply p a b) (boxCol1_apply p a b) (boxCol2_apply p a b) (boxCol3_apply p a b)
    (boxCol0_apply g a b) (boxCol1_apply g a b) (boxCol2_apply g a b) (boxCol3_apply g a b)
  unfold RS.boxTerm
  rw [← h]
  rfl

theorem boxStage_apply (p g : FVec Ideal S32x50x4 .f32) (valid : IVec S32x50 1) :
    boxStage p g valid ix0
      = Ideal.ofBits .f32 0x00000000#32
        + ∑ a : Fin 32, ∑ b : Fin 50, RS.boxTerm (valid (ix2 a b)) (fun k => p (ix3 a b k)) (fun k => g (ix3 a b k)) := by
  unfold boxStage
  show Ideal.hostReduceAdd reducesTo_S32x50_S_d0_1 (boxMasked p g valid) (Ideal.ofBits .f32 0x00000000#32) ix0 = _
  rw [Ideal.hostReduceAdd_total _ (fun b => b.elim0), sum_idx2]
  exact congrArg (Ideal.ofBits .f32 0x00000000#32 + ·)
    (Finset.sum_congr rfl fun a _ => Finset.sum_congr rfl fun b _ => boxMasked_apply p g valid a b)

end Cert.ReferenceIdeal.Hand

end
-- ==== Proof.RCls.lean ====
import proofs.«423457_j69166153335192_3_alg».proof.Proof.RefOps
import Idealize.ShloMosaic.Lib.ValueIdx
import Idealize.ShloMosaic.PureOps.Ideal.Laws

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

def clsZeroB : FVec F S32x50x80 .f32 :=
  broadcastInDim S32x50x80 ![] bcast_S_S32x50x80 (constant (F := F) S_ .f32 0x00000000#32)

def clsOneB : FVec F S32x50x80 .f32 :=
  broadcastInDim S32x50x80 ![] bcast_S_S32x50x80 (constant (F := F) S_ .f32 0x3F800000#32)

def clsSoftplusV (a : FVec F S32x50x80 .f32) : FVec F S32x50x80 .f32 :=
  select (cmpf .une (subf a clsZeroB) (subf a clsZeroB)) (addf a clsZeroB)
    (addf (maximumf a clsZeroB) (Host.log1p (Host.exp (Host.negf (Host.absf (subf a clsZeroB))))))

def clsLogSigmoidV (x : FVec F S32x50x80 .f32) : FVec F S32x50x80 .f32 :=
  Host.negf (clsSoftplusV (Host.negf x))

def clsFocalV (pl tgt : FVec F S32x50x80 .f32) : FVec F S32x50x80 .f32 :=
  mulf
    (mulf
      (addf (mulf (broadcastInDim S32x50x80 ![] bcast_S_S32x50x80 (constant (F := F) S_ .f32 0x3E800000#32)) tgt)
            (mulf (broadcastInDim S32x50x80 ![] bcast_S_S32x50x80 (constant (F := F) S_ .f32 0x3F400000#32)) (subf clsOneB tgt)))
      (Host.powf
        (subf clsOneB
          (addf (mulf (Host.divf clsOneB (addf clsOneB (Host.exp (Host.negf pl)))) tgt)
                (mulf (subf clsOneB (Host.divf clsOneB (addf clsOneB (Host.exp (Host.negf pl))))) (subf clsOneB tgt))))
        (broadcastInDim S32x50x80 ![] bcast_S_S32x50x80 (constant (F := F) S_ .f32 0x40000000#32))))
    (Host.negf (addf (mulf tgt (clsLogSigmoidV pl)) (mulf (subf clsOneB tgt) (clsLogSigmoidV (Host.negf pl)))))

def clsStage (pl tgt : FVec F S32x50x80 .f32) (valid : IVec S32x50 1) : FVec F S_ .f32 :=
  Host.reduceAdd
    (select valid
      (Host.reduceAdd (clsFocalV pl tgt) (constant (F := F) S_ .f32 0x00000000#32) reducesTo_S32x50x80_S32x50_d2 h_S_)
      (broadcastInDim S32x50 ![] bcast_S_S32x50 (id (constant (F := F) S_ .f32 0x00000000#32))))
    (constant (F := F) S_ .f32 0x00000000#32) reducesTo_S32x50_S_d0_1 h_S_

theorem after_s0_cls (Vin : Valuation τ sig (Elt F)) :
    StableHlo.after ops_s0_cls Vin (Proc.devRef .tc main_v164)
      = addf (constant (F := F) S_ .f32 0x00000000#32)
          (clsStage (Vin (Proc.devRef .tc main_v44)) (Vin (Proc.devRef .tc main_v14)) (Vin (Proc.devRef .tc main_v34))) := by
  after_results_simp
  rfl

open Idealize.ShloMosaic.ValueIdx
open scoped BigOperators

namespace RS

def softplus (a : EReal) : EReal :=
  Scalar.select (Ideal.cmp .une (a - Ideal.ofBits .f32 0x00000000#32) (a - Ideal.ofBits .f32 0x00000000#32))
    (a + Ideal.ofBits .f32 0x00000000#32)
    (max a (Ideal.ofBits .f32 0x00000000#32)
      + Ideal.log1p (Ideal.exp (-(max (a - Ideal.ofBits .f32 0x00000000#32) (-(a - Ideal.ofBits .f32 0x00000000#32))))))

def logSigmoid (x : EReal) : EReal := -(softplus (-x))

def focal (x t : EReal) : EReal :=
  ((Ideal.ofBits .f32 0x3E800000#32 * t
      + Ideal.ofBits .f32 0x3F400000#32 * (Ideal.ofBits .f32 0x3F800000#32 - t))
    * Ideal.pow
        (Ideal.ofBits .f32 0x3F800000#32
          - (Ideal.div (Ideal.ofBits .f32 0x3F800000#32) (Ideal.ofBits .f32 0x3F800000#32 + Ideal.exp (-x)) * t
            + (Ideal.ofBits .f32 0x3F800000#32
                - Ideal.div (Ideal.ofBits .f32 0x3F800000#32) (Ideal.ofBits .f32 0x3F800000#32 + Ideal.exp (-x)))
              * (Ideal.ofBits .f32 0x3F800000#32 - t)))
        (Ideal.ofBits .f32 0x40000000#32))
  * (-(t * logSigmoid x + (Ideal.ofBits .f32 0x3F800000#32 - t) * logSigmoid (-x)))

def clsTerm (v : BitVec 1) (x t : Fin 80 → EReal) : EReal :=
  if v = 1#1 then Ideal.ofBits .f32 0x00000000#32 + ∑ c : Fin 80, focal (x c) (t c) else Ideal.ofBits .f32 0x00000000#32

end RS

theorem clsFocalV_apply (pl tgt : FVec Ideal S32x50x80 .f32) (j : S32x50x80.Idx) :
    clsFocalV pl tgt j = RS.focal (pl j) (tgt j) := rfl

theorem cls_reduces_d2 : S32x50x80.Reduces [2] S32x50 := by decide

theorem cls_lift_d2 (i : S32x50.Idx) (c : Fin 80) : cls_reduces_d2.lift i c = ix3 (i 0) (i 1) c := by
  funext a
  match a with
  | ⟨0, _⟩ => exact Fin.ext rfl
  | ⟨1, _⟩ => exact Fin.ext rfl
  | ⟨2, _⟩ => exact Fin.ext rfl

theorem cls_reduceAdd_classes (w : FVec Ideal S32x50x80 .f32) (i : S32x50.Idx) :
    Host.reduceAdd w (constant (F := Ideal) S_ .f32 0x00000000#32) reducesTo_S32x50x80_S32x50_d2 h_S_ i
      = Ideal.ofBits .f32 0x00000000#32 + ∑ c : Fin 80, w (ix3 (i 0) (i 1) c) := by
  refine (Ideal.hostReduceAdd_single reducesTo_S32x50x80_S32x50_d2 cls_reduces_d2 w _ i).trans ?_
  refine congrArg₂ (· + ·) rfl (Finset.sum_congr rfl fun c _ => ?_)
  exact congrArg w (cls_lift_d2 i c)

theorem cls_reduceAdd_slots (v : FVec Ideal S32x50 .f32) :
    Host.reduceAdd v (constant (F := Ideal) S_ .f32 0x00000000#32) reducesTo_S32x50_S_d0_1 h_S_ ix0
      = Ideal.ofBits .f32 0x00000000#32 + ∑ i : S32x50.Idx, v i :=
  Ideal.hostReduceAdd_total reducesTo_S32x50_S_d0_1 (fun b => b.elim0) v _ ix0

theorem clsStage_apply (pl tgt : FVec Ideal S32x50x80 .f32) (valid : IVec S32x50 1) :
    clsStage pl tgt valid ix0
      = Ideal.ofBits .f32 0x00000000#32
        + ∑ i : S32x50.Idx, RS.clsTerm (valid i) (fun c => pl (ix3 (i 0) (i 1) c)) (fun c => tgt (ix3 (i 0) (i 1) c)) := by
  unfold clsStage
  rw [cls_reduceAdd_slots]
  refine congrArg₂ (· + ·) rfl (Finset.sum_congr rfl fun i _ => ?_)
  rw [select_apply, cls_reduceAdd_classes]
  unfold RS.clsTerm Scalar.select
  simp only [clsFocalV_apply]
  rfl

theorem clsStage_apply2 (pl tgt : FVec Ideal S32x50x80 .f32) (valid : IVec S32x50 1) :
    clsStage pl tgt valid ix0
      = Ideal.ofBits .f32 0x00000000#32
        + ∑ a : Fin 32, ∑ b : Fin 50,
            RS.clsTerm (valid (ix2 a b)) (fun c => pl (ix3 a b c)) (fun c => tgt (ix3 a b c)) := by
  rw [clsStage_apply, sum_idx2]

end Cert.ReferenceIdeal.Hand

end
-- ==== Proof.RTake.lean ====
import proofs.«423457_j69166153335192_3_alg».proof.ReferenceIdeal
import Idealize.ShloMosaic.Lib.ValueIdx
import Idealize.ShloMosaic.PureOps.Reduce

noncomputable section

namespace Cert.ReferenceIdeal.Hand

open Cert.ReferenceIdeal
open Idealize.ShloMosaic Idealize.ShloMosaic.ValueIdx

namespace RTake

theorem toInt_eq_toNat_of_nonneg (w : BitVec 32) (h0 : 0 ≤ w.toInt) : w.toInt = (w.toNat : Int) := by
  rw [BitVec.toInt_eq_toNat_cond] at h0 ⊢
  split at h0 <;> rename_i h
  · rw [if_pos h]
  · exfalso; have := w.isLt; omega

theorem toNat_lt_of_toInt (w : BitVec 32) (h0 : 0 ≤ w.toInt) (h1 : w.toInt < 8400) : w.toNat < 8400 := by
  have := toInt_eq_toNat_of_nonneg w h0; omega

theorem cmpi_slt_zero (w : BitVec 32) (h0 : 0 ≤ w.toInt) : IntOp.cmpi .slt w 0#32 = 0#1 := by
  have h : w.slt 0#32 = false := by
    simp only [BitVec.slt, BitVec.toInt_zero, decide_eq_false_iff_not, not_lt]; exact h0
  simp only [IntOp.cmpi, h]; rfl

theorem cmpi_sge_zero (w : BitVec 32) (h0 : 0 ≤ w.toInt) : IntOp.cmpi .sge w 0#32 = 1#1 := by
  have h : (0#32).sle w = true := by
    simp only [BitVec.sle, BitVec.toInt_zero, decide_eq_true_eq]; exact h0
  simp only [IntOp.cmpi, h]; rfl

theorem cmpi_sle_last (w : BitVec 32) (h1 : w.toInt < 8400) : IntOp.cmpi .sle w 8399#32 = 1#1 := by
  have e : (8399#32).toInt = 8399 := by decide
  have h : w.sle 8399#32 = true := by
    simp only [BitVec.sle, e, decide_eq_true_eq]; omega
  simp only [IntOp.cmpi, h]; rfl

theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_ones f l (fun n hn => h n (List.mem_cons_of_mem _ hn))

section Rows
variable {α : Type}

private theorem one_notMem_zero : (1 : Fin 3) ∉ ([0] : List (Fin 3)) := by decide
private theorem two_notMem_zero : (2 : Fin 3) ∉ ([0] : List (Fin 3)) := by decide
private theorem two_notMem_one : (2 : Fin 3) ∉ ([1] : List (Fin 3)) := by decide

abbrev rowsDims (B N M C : Nat)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

theorem gather_rows_apply {B N M C w : Nat} (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ w) (b : Fin B) (m : Fin M) (k : Fin C) :
    Host.gather (rowsDims B N M C wf) x idx (ix3 b m k)
      = x (ix3 b ⟨min (idx (ix3 b m 0)).toInt.toNat (N - 1), by omega⟩ k) := by
  unfold Host.gather
  congr 1
  funext a
  refine Fin.ext ?_
  have hsi : (rowsDims B N M C wf).siIdx (ix3 b m k) ⟨List.idxOf (1 : Fin 3) (rowsDims B N M C wf).startIndexMap,
      List.idxOf_lt_length_iff.2 (List.mem_singleton.mpr rfl)⟩ = ix3 b m 0 := by
    funext c; refine Fin.ext ?_
    match c with
    | ⟨0, _⟩ => rfl
    | ⟨1, _⟩ => rfl
    | ⟨2, _⟩ => rfl
  have ob0 : (0 : Fin 3) ∈ (rowsDims B N M C wf).operandBatchingDims := List.mem_singleton.mpr rfl
  have ob1 : (1 : Fin 3) ∉ (rowsDims B N M C wf).operandBatchingDims := one_notMem_zero
  have ob2 : (2 : Fin 3) ∉ (rowsDims B N M C wf).operandBatchingDims := two_notMem_zero
  have cd1 : (1 : Fin 3) ∈ (rowsDims B N M C wf).collapsedSliceDims := List.mem_singleton.mpr rfl
  have cd2 : (2 : Fin 3) ∉ (rowsDims B N M C wf).collapsedSliceDims := two_notMem_one
  have sm1 : (1 : Fin 3) ∈ (rowsDims B N M C wf).startIndexMap := List.mem_singleton.mpr rfl
  have sm2 : (2 : Fin 3) ∉ (rowsDims B N M C wf).startIndexMap := two_notMem_one
  match a with
  | ⟨0, _⟩ =>
    show (rowsDims B N M C wf).start (ix3 b m k) idx 0 + (rowsDims B N M C wf).batchCoord (ix3 b m k) 0
      + (rowsDims B N M C wf).offCoord (ix3 b m k) 0 = b.val
    rw [GatherDims.start_batching _ _ _ _ ob0,
      GatherDims.offCoord_eq_zero _ _ _ (fun h => ((GatherDims.mem_sKept _ _).mp h).2 ob0)]
    simp only [Nat.zero_add, Nat.add_zero]
    unfold GatherDims.batchCoord
    rw [dif_pos ob0]
    rfl
  | ⟨1, _⟩ =>
    show (rowsDims B N M C wf).start (ix3 b m k) idx 1 + (rowsDims B N M C wf).batchCoord (ix3 b m k) 1
      + (rowsDims B N M C wf).offCoord (ix3 b m k) 1 = min (idx (ix3 b m 0)).toInt.toNat (N - 1)
    rw [GatherDims.batchCoord_eq_zero _ _ _ ob1,
      GatherDims.offCoord_eq_zero _ _ _ (fun h => ((GatherDims.mem_sKept _ _).mp h).1 cd1)]
    simp only [Nat.add_zero]
    unfold GatherDims.start
    rw [dif_pos sm1, hsi]
    rfl
  | ⟨2, _⟩ =>
    show (rowsDims B N M C wf).start (ix3 b m k) idx 2 + (rowsDims B N M C wf).batchCoord (ix3 b m k) 2
      + (rowsDims B N M C wf).offCoord (ix3 b m k) 2 = k.val
    have hk : (2 : Fin 3) ∈ (rowsDims B N M C wf).sKept := (GatherDims.mem_sKept _ _).mpr ⟨cd2, ob2⟩
    rw [GatherDims.batchCoord_eq_zero _ _ _ ob2]
    unfold GatherDims.start GatherDims.offCoord
    rw [dif_neg sm2, dif_pos hk]
    simp only [Nat.zero_add, Nat.add_zero]
    rfl

end Rows

end RTake

open RTake

variable {F : FTy → Type} [FloatOps F] [Facts]
open Facts₀ Facts

def takeWrap (i : IVec S32x50x1 32) : IVec S32x50x1 32 :=
  select (cmpi .slt i (broadcastInDim S32x50x1 ![] bcast_S_S32x50x1 (constantI S_ 32 0#32)))
    (addi i (broadcastInDim S32x50x1 ![] bcast_S_S32x50x1 (constantI S_ 32 8400#32))) i

def takeOk (i' : IVec S32x50x1 32) : IVec S32x50 1 :=
  Host.reduce IntOp.andi
    (andi (cmpi .sge i' (broadcastInDim S32x50x1 ![] bcast_S_S32x50x1 (constantI S_ 32 0#32)))
      (cmpi .sle i' (broadcastInDim S32x50x1 ![0, 1, 2] bcast_S1x1x1_S32x50x1_0_1_2
        (broadcastInDim S1x1x1 ![2] bcast_S1_S1x1x1_2 (constantI S1 32 8399#32)))))
    (constantI S_ 1 1#1) reducesTo_S32x50x1_S32x50_d2 h_S_

def takeBox (x : FVec F S32x8400x4 .f32) (i : IVec S32x50x1 32) : FVec F S32x50x4 .f32 :=
  select (broadcastInDim S32x50x4 ![0, 1] bcast_S32x50_S32x50x4_0_1 (takeOk (takeWrap i)))
    (Host.gather gather_S32x8400x4_S32x50x1_S32x50x4_2_1_0_0_1_2_114 x (takeWrap i))
    (broadcastInDim S32x50x4 ![] bcast_S_S32x50x4 (constant S_ .f32 0x7FC00000#32))

def takeCls (x : FVec F S32x8400x80 .f32) (i : IVec S32x50x1 32) : FVec F S32x50x80 .f32 :=
  select (broadcastInDim S32x50x80 ![0, 1] bcast_S32x50_S32x50x80_0_1 (takeOk (takeWrap i)))
    (Host.gather gather_S32x8400x80_S32x50x1_S32x50x80_2_1_0_0_1_2_1180 x (takeWrap i))
    (broadcastInDim S32x50x80 ![] bcast_S_S32x50x80 (constant S_ .f32 0x7FC00000#32))

theorem takeWrap_apply (i : IVec S32x50x1 32) (j : S32x50x1.Idx) (h0 : 0 ≤ (i j).toInt) : takeWrap i j = i j := by
  show Scalar.select (IntOp.cmpi .slt (i j) 0#32) (IntOp.addi (i j) 8400#32) (i j) = i j
  rw [cmpi_slt_zero _ h0, select_zero]

theorem takeOk_apply (i' : IVec S32x50x1 32) (b : Fin 32) (mm : Fin 50)
    (h0 : 0 ≤ (i' (ix3 b mm 0)).toInt) (h1 : (i' (ix3 b mm 0)).toInt < 8400) : takeOk i' (ix2 b mm) = 1#1 := by
  unfold takeOk
  rw [Host.reduce_eq_foldl]
  refine foldl_andi_ones _ _ (fun i3 hi3 => ?_)
  have hd : reducesTo_S32x50x1_S32x50_d2.drop i3 = ix2 b mm := of_decide_eq_true (List.mem_filter.1 hi3).2
  have e0 : (i3 0).val = b.val := by
    rw [← Shape.ReducesTo.drop_apply_val_of_eq reducesTo_S32x50x1_S32x50_d2 i3 0 0, hd]
  have e1 : (i3 1).val = mm.val := by
    rw [← Shape.ReducesTo.drop_apply_val_of_eq reducesTo_S32x50x1_S32x50_d2 i3 1 1, hd]
  have e : i3 = ix3 b mm 0 := by
    rw [eq_ix3 i3]
    have h2 : i3 2 = (0 : Fin 1) := Fin.ext (show (i3 2).val = 0 from Nat.lt_one_iff.mp (i3 2).isLt)
    rw [show i3 0 = b from Fin.ext e0, show i3 1 = mm from Fin.ext e1, h2]
    rfl
  subst e
  show IntOp.andi (IntOp.cmpi .sge (i' (ix3 b mm 0)) 0#32) (IntOp.cmpi .sle (i' (ix3 b mm 0)) 8399#32) = 1#1
  rw [cmpi_sge_zero _ h0, cmpi_sle_last _ h1]; rfl

namespace RTake

theorem bcastOk4_apply (ok : IVec S32x50 1) (b : Fin 32) (mm : Fin 50) (k : Fin 4) :
    broadcastInDim S32x50x4 ![0, 1] bcast_S32x50_S32x50x4_0_1 ok (ix3 b mm k) = ok (ix2 b mm) := by
  unfold broadcastInDim
  congr 1; funext a
  match a with
  | ⟨0, _⟩ => rfl
  | ⟨1, _⟩ => rfl

theorem bcastOk80_apply (ok : IVec S32x50 1) (b : Fin 32) (mm : Fin 50) (k : Fin 80) :
    broadcastInDim S32x50x80 ![0, 1] bcast_S32x50_S32x50x80_0_1 ok (ix3 b mm k) = ok (ix2 b mm) := by
  unfold broadcastInDim
  congr 1; funext a
  match a with
  | ⟨0, _⟩ => rfl
  | ⟨1, _⟩ => rfl

theorem clampRow (w : BitVec 32) (h0 : 0 ≤ w.toInt) (h1 : w.toInt < 8400) : min w.toInt.toNat (8400 - 1) = w.toNat := by
  have := toInt_eq_toNat_of_nonneg w h0
  omega

end RTake

-- For an index word that reads signed in [0, 8400) the take reads exactly that row.
theorem takeBox_apply (x : FVec F S32x8400x4 .f32) (i : IVec S32x50x1 32) (b : Fin 32) (mm : Fin 50) (k : Fin 4)
    (h0 : 0 ≤ (i (ix3 b mm 0)).toInt) (h1 : (i (ix3 b mm 0)).toInt < 8400) :
    takeBox x i (ix3 b mm k) = x (ix3 b ⟨(i (ix3 b mm 0)).toNat, toNat_lt_of_toInt _ h0 h1⟩ k) := by
  have hw : takeWrap i (ix3 b mm 0) = i (ix3 b mm 0) := takeWrap_apply i _ h0
  unfold takeBox
  rw [select_apply, bcastOk4_apply, takeOk_apply _ b mm (by rw [hw]; exact h0) (by rw [hw]; exact h1), select_one]
  have hg : gather_S32x8400x4_S32x50x1_S32x50x4_2_1_0_0_1_2_114
      = rowsDims 32 8400 50 4 gather_S32x8400x4_S32x50x1_S32x50x4_2_1_0_0_1_2_114_wf := rfl
  rw [hg, gather_rows_apply (by decide)]
  refine congrArg x (funext fun a => ?_)
  match a with
  | ⟨0, _⟩ => rfl
  | ⟨1, _⟩ =>
    refine Fin.ext ?_
    show min (takeWrap i (ix3 b mm 0)).toInt.toNat (8400 - 1) = (i (ix3 b mm 0)).toNat
    rw [hw]; exact clampRow _ h0 h1
  | ⟨2, _⟩ => rfl

theorem takeCls_apply (x : FVec F S32x8400x80 .f32) (i : IVec S32x50x1 32) (b : Fin 32) (mm : Fin 50) (k : Fin 80)
    (h0 : 0 ≤ (i (ix3 b mm 0)).toInt) (h1 : (i (ix3 b mm 0)).toInt < 8400) :
    takeCls x i (ix3 b mm k) = x (ix3 b ⟨(i (ix3 b mm 0)).toNat, toNat_lt_of_toInt _ h0 h1⟩ k) := by
  have hw : takeWrap i (ix3 b mm 0) = i (ix3 b mm 0) := takeWrap_apply i _ h0
  unfold takeCls
  rw [select_apply, bcastOk80_apply, takeOk_apply _ b mm (by rw [hw]; exact h0) (by rw [hw]; exact h1), select_one]
  have hg : gather_S32x8400x80_S32x50x1_S32x50x80_2_1_0_0_1_2_1180
      = rowsDims 32 8400 50 80 gather_S32x8400x80_S32x50x1_S32x50x80_2_1_0_0_1_2_1180_wf := rfl
  rw [hg, gather_rows_apply (by decide)]
  refine congrArg x (funext fun a => ?_)
  match a with
  | ⟨0, _⟩ => rfl
  | ⟨1, _⟩ =>
    refine Fin.ext ?_
    show min (takeWrap i (ix3 b mm 0)).toInt.toNat (8400 - 1) = (i (ix3 b mm 0)).toNat
    rw [hw]; exact clampRow _ h0 h1
  | ⟨2, _⟩ => rfl

theorem takeBox_apply_row (x : FVec F S32x8400x4 .f32) (i : IVec S32x50x1 32) (b : Fin 32) (mm : Fin 50) (k : Fin 4)
    (r : Fin 8400) (hr : (i (ix3 b mm 0)).toInt = (r.val : Int)) : takeBox x i (ix3 b mm k) = x (ix3 b r k) := by
  have h0 : 0 ≤ (i (ix3 b mm 0)).toInt := by rw [hr]; exact Int.natCast_nonneg _
  have h1 : (i (ix3 b mm 0)).toInt < 8400 := by rw [hr]; have := r.isLt; omega
  rw [takeBox_apply x i b mm k h0 h1]
  have e : (⟨(i (ix3 b mm 0)).toNat, toNat_lt_of_toInt _ h0 h1⟩ : Fin 8400) = r :=
    Fin.ext (by have := toInt_eq_toNat_of_nonneg _ h0; show (i (ix3 b mm 0)).toNat = r.val; omega)
  rw [e]

theorem takeCls_apply_row (x : FVec F S32x8400x80 .f32) (i : IVec S32x50x1 32) (b : Fin 32) (mm : Fin 50) (k : Fin 80)
    (r : Fin 8400) (hr : (i (ix3 b mm 0)).toInt = (r.val : Int)) : takeCls x i (ix3 b mm k) = x (ix3 b r k) := by
  have h0 : 0 ≤ (i (ix3 b mm 0)).toInt := by rw [hr]; exact Int.natCast_nonneg _
  have h1 : (i (ix3 b mm 0)).toInt < 8400 := by rw [hr]; have := r.isLt; omega
  rw [takeCls_apply x i b mm k h0 h1]
  have e : (⟨(i (ix3 b mm 0)).toNat, toNat_lt_of_toInt _ h0 h1⟩ : Fin 8400) = r :=
    Fin.ext (by have := toInt_eq_toNat_of_nonneg _ h0; show (i (ix3 b mm 0)).toNat = r.val; omega)
  rw [e]

end Cert.ReferenceIdeal.Hand

end
-- ==== Proof.RCnt.lean ====
import proofs.«423457_j69166153335192_3_alg».proof.Proof.RefOps
import proofs.«423457_j69166153335192_3_alg».proof.Proof.MathLemmas

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

def cntStage (valid : IVec S32x50 1) : IVec S_ 32 :=
  Host.reduce IntOp.addi (extui 32 valid natLt_1_32) (constantI S_ 32 0#32) reducesTo_S32x50_S_d0_1 h_S_

theorem s0_cnt (Vin : Valuation τ sig (Elt F)) :
    after ops_s0_cnt Vin (Proc.devRef .tc main_v167)
      = addi (constantI S_ 32 0#32) (cntStage (Vin (Proc.devRef .tc main_v34))) := by
  after_results; rfl

theorem s1_cnt (Vin : Valuation τ sig (Elt F)) :
    after ops_s1_cnt Vin (Proc.devRef .tc main_v320)
      = addi (Vin (Proc.devRef .tc main_v167)) (cntStage (Vin (Proc.devRef .tc main_v187))) := by
  after_results; rfl

theorem s2_cnt (Vin : Valuation τ sig (Elt F)) :
    after ops_s2_cnt Vin (Proc.devRef .tc main_v473)
      = addi (Vin (Proc.devRef .tc main_v320)) (cntStage (Vin (Proc.devRef .tc main_v340))) := by
  after_results; rfl

def tailR (tb tc : FVec F S_ .f32) (cnt : IVec S_ 32) : FVec F S_ .f32 :=
  Host.divf (addf (mulf (constant (F := F) S_ .f32 0x40A00000#32) tb) (mulf (constant (F := F) S_ .f32 0x3F800000#32) tc))
    (sitofp .f32 (maxsi cnt (constantI S_ 32 1#32)))

theorem tail_res (Vin : Valuation τ sig (Elt F)) :
    after ops_tail Vin (Proc.devRef .tc main_v479)
      = tailR (Vin (Proc.devRef .tc main_v431)) (Vin (Proc.devRef .tc main_v470)) (Vin (Proc.devRef .tc main_v473)) := by
  after_results; rfl

end Cert.ReferenceIdeal.Hand

end
-- ==== Proof.RCntVal.lean ====
import proofs.«423457_j69166153335192_3_alg».proof.Proof.RCnt
import Idealize.ShloMosaic.Lib.ValueIdx
import Idealize.ShloMosaic.PureOps.Reduce

noncomputable section

namespace Cert.ReferenceIdeal.Hand

open Cert.ReferenceIdeal Cert.ReferenceIdeal.Gen
open Idealize.ShloMosaic Idealize.ShloMosaic.ValueIdx Cert.Hand.Math

theorem card_boxes : (Finset.univ : Finset S32x50.Idx).card = 1600 := by
  rw [Finset.card_univ, Fintype.card_congr (idxEquiv2 (n0 := 32) (n1 := 50))]
  simp

theorem bit_toNat_le (b : BitVec 1) : b.toNat ≤ 1 := by
  have := b.isLt; omega

theorem cntStage_toNat (v : IVec S32x50 1) : (cntStage v ix0).toNat = ∑ i : S32x50.Idx, (v i).toNat := by
  unfold cntStage
  rw [Host.reduce_eq_fold, Finset.filter_true_of_mem (fun i _ => funext fun b => b.elim0), fold_addi_eq_sum]
  show ((0#32 : BitVec 32) + _).toNat = _
  rw [BitVec.zero_add]
  refine toNat_sum_bits _ _ _ (fun i => ?_) (fun i => bit_toNat_le (v i)) (by rw [card_boxes]; norm_num)
  show ((v i).setWidth 32).toNat = (v i).toNat
  rw [BitVec.toNat_setWidth]
  have := (v i).isLt
  omega

end Cert.ReferenceIdeal.Hand

end
-- ==== Proof.RBridge.lean ====
import proofs.«423457_j69166153335192_3_alg».proof.Proof.RBox
import proofs.«423457_j69166153335192_3_alg».proof.Proof.RCls
import proofs.«423457_j69166153335192_3_alg».proof.Proof.RTake
import proofs.«423457_j69166153335192_3_alg».proof.Proof.RCntVal
import proofs.«423457_j69166153335192_3_alg».proof.Proof.IdxRange
import Idealize.ShloMosaic.Lib.Pipeline.Value

noncomputable section

namespace Cert.ReferenceIdeal.Hand

open Cert.ReferenceIdeal Cert.ReferenceIdeal.Gen
open Idealize.ShloMosaic Idealize.ShloMosaic.ValueIdx
open Cert.KernelIdeal.Hand (validV idxV tgtV idx_toNat_lt idx_toInt_nonneg)

variable (bx : FVec Ideal S32x8400x4 .f32) (cl : FVec Ideal S32x8400x80 .f32) (gt : FVec Ideal S32x50x4 .f32)
  (lb : IVec S32x50 32) (mk : IVec S32x50 1)

def vbit (s : Fin 3) (a : Fin 32) (mm : Fin 50) : BitVec 1 := validV (F := Ideal) s gt mk (ix2 a mm)

def arow (s : Fin 3) (a : Fin 32) (mm : Fin 50) : Fin 8400 :=
  ⟨(idxV (F := Ideal) s gt mk (ix2 a mm)).toNat, idx_toNat_lt s gt mk (ix2 a mm)⟩

def tbox (s : Fin 3) (a : Fin 32) (mm : Fin 50) : EReal :=
  RS.boxTerm (vbit gt mk s a mm) (fun k => bx (ix3 a (arow gt mk s a mm) k)) (fun k => gt (ix3 a mm k))

def tcls (s : Fin 3) (a : Fin 32) (mm : Fin 50) : EReal :=
  RS.clsTerm (vbit gt mk s a mm) (fun c => cl (ix3 a (arow gt mk s a mm) c)) (fun c => tgtV (F := Ideal) lb (ix3 a mm c))

theorem idx3_at (s : Fin 3) (a : Fin 32) (mm : Fin 50) :
    (broadcastInDim S32x50x1 ![0, 1] bcast_S32x50_S32x50x1_0_1 (idxV (F := Ideal) s gt mk)) (ix3 a mm (0 : Fin 1))
      = idxV (F := Ideal) s gt mk (ix2 a mm) := by
  refine broadcastInDim_apply _ _ _ _ (ix2 a mm) (fun d => ?_)
  match d with
  | ⟨0, _⟩ => rfl
  | ⟨1, _⟩ => rfl

theorem idx3_toInt (s : Fin 3) (a : Fin 32) (mm : Fin 50) :
    ((broadcastInDim S32x50x1 ![0, 1] bcast_S32x50_S32x50x1_0_1 (idxV (F := Ideal) s gt mk)) (ix3 a mm (0 : Fin 1))).toInt
      = ((arow gt mk s a mm).val : Int) := by
  rw [idx3_at]
  exact RTake.toInt_eq_toNat_of_nonneg _ (idx_toInt_nonneg s gt mk (ix2 a mm))

theorem box_rows (s : Fin 3) :
    boxStage (takeBox bx (broadcastInDim S32x50x1 ![0, 1] bcast_S32x50_S32x50x1_0_1 (idxV (F := Ideal) s gt mk))) gt
        (validV (F := Ideal) s gt mk) ix0
      = Ideal.ofBits .f32 0x00000000#32 + ∑ a : Fin 32, ∑ mm : Fin 50, tbox bx gt mk s a mm := by
  rw [boxStage_apply]
  refine congrArg (Ideal.ofBits .f32 0x00000000#32 + ·) (Finset.sum_congr rfl fun a _ => Finset.sum_congr rfl fun mm _ => ?_)
  unfold tbox vbit
  congr 1
  funext k
  exact takeBox_apply_row bx _ a mm k (arow gt mk s a mm) (idx3_toInt gt mk s a mm)

theorem cls_rows (s : Fin 3) :
    clsStage (takeCls cl (broadcastInDim S32x50x1 ![0, 1] bcast_S32x50_S32x50x1_0_1 (idxV (F := Ideal) s gt mk)))
        (tgtV (F := Ideal) lb) (validV (F := Ideal) s gt mk) ix0
      = Ideal.ofBits .f32 0x00000000#32 + ∑ a : Fin 32, ∑ mm : Fin 50, tcls cl gt lb mk s a mm := by
  rw [clsStage_apply2]
  refine congrArg (Ideal.ofBits .f32 0x00000000#32 + ·) (Finset.sum_congr rfl fun a _ => Finset.sum_congr rfl fun mm _ => ?_)
  unfold tcls vbit
  congr 1
  funext c
  exact takeCls_apply_row cl _ a mm c (arow gt mk s a mm) (idx3_toInt gt mk s a mm)

theorem cnt_rows (s : Fin 3) :
    (cntStage (validV (F := Ideal) s gt mk) ix0).toNat = ∑ a : Fin 32, ∑ mm : Fin 50, (vbit gt mk s a mm).toNat := by
  rw [cntStage_toNat, sum_idx2]
  rfl

end Cert.ReferenceIdeal.Hand

end
-- ==== Proof.KBridge.lean ====
import proofs.«423457_j69166153335192_3_alg».proof.Proof.KValue
import proofs.«423457_j69166153335192_3_alg».proof.Proof.KPoint
import proofs.«423457_j69166153335192_3_alg».proof.Proof.KHost
import proofs.«423457_j69166153335192_3_alg».proof.Proof.IdxRange
import proofs.«423457_j69166153335192_3_alg».proof.Proof.Scalars
import proofs.«423457_j69166153335192_3_alg».proof.Proof.RBridge

noncomputable section

namespace Cert.KernelIdeal.Hand

open Cert.KernelIdeal Cert.KernelIdeal.Gen
open Idealize.ShloMosaic Idealize.ShloMosaic.TcCoe Idealize.ShloMosaic.ValueIdx Idealize.SL.Sem
open Cert.Hand.Math Cert.Hand.Scalars
open Cert.ReferenceIdeal.Hand (vbit arow tbox tcls RS.boxTerm RS.clsTerm)

variable (m : (ℓ : Loc nD τ sig) → Buf (Elt Ideal) ℓ) (c : Dev nD)

abbrev aBox : FVec Ideal S32x8400x4 .f32 := m (c, Proc.devRef .tc main_arg0)
abbrev aCls : FVec Ideal S32x8400x80 .f32 := m (c, Proc.devRef .tc main_arg1)
abbrev aGt : FVec Ideal S32x50x4 .f32 := m (c, Proc.devRef .tc main_arg2)
abbrev aLab : IVec S32x50 32 := m (c, Proc.devRef .tc main_arg3)
abbrev aMask : IVec S32x50 1 := m (c, Proc.devRef .tc main_arg4)

def slotBox (j : Fin 150) : Fin 50 := ⟨j.val / 3, by omega⟩
def slotScale (j : Fin 150) : Fin 3 := ⟨j.val % 3, by omega⟩
theorem slot_split (j : Fin 150) : j.val = 3 * (slotBox j).val + (slotScale j).val := by
  show j.val = 3 * (j.val / 3) + j.val % 3
  omega
theorem slotBox_slot (mm : Fin 50) (s : Fin 3) : slotBox (slot mm s) = mm := by
  apply Fin.ext; show (3 * mm.val + s.val) / 3 = mm.val; omega
theorem slotScale_slot (mm : Fin 50) (s : Fin 3) : slotScale (slot mm s) = s := by
  apply Fin.ext; show (3 * mm.val + s.val) % 3 = s.val; omega

theorem box_spellings (v : BitVec 1) (p g : Fin 4 → EReal) :
    Cert.Hand.Scalars.RF.boxTerm v p g = Cert.ReferenceIdeal.Hand.RS.boxTerm v p g := rfl

theorem tgt_real (lb : IVec S32x50 32) (i : S32x50x80.Idx) : ∃ r : ℝ, tgtV (F := Ideal) lb i = (r : EReal) := by
  unfold tgtV
  exact ⟨_, rfl⟩

section image
variable (b : Fin 32)

abbrev xIdx : Vec Ideal S1x150x1 .i32 := iblk m c 0 (image b)
abbrev xFlag : Vec Ideal S1x150x1 .f32 := iblk m c 1 (image b)
abbrev xGt : Vec Ideal S1x150x4 .f32 := iblk m c 2 (image b)
abbrev xHot : Vec Ideal S1x150x80 .f32 := iblk m c 3 (image b)
abbrev xBox : Vec Ideal S1x8400x4 .f32 := iblk m c 4 (image b)
abbrev xCls : Vec Ideal S1x8400x80 .f32 := iblk m c 5 (image b)

theorem blk_idx (j : Fin 150) :
    xIdx m c b (ix3 (0 : Fin 1) j (0 : Fin 1))
      = idxV (F := Ideal) (slotScale j) (aGt m c) (aMask m c) (ix2 b (slotBox j)) :=
  (iblk0_apply m c b j 0).trans (V_main_v112_slot m c b (slotBox j) (slotScale j) j (slot_split j))

theorem blk_flag (j : Fin 150) :
    xFlag m c b (ix3 (0 : Fin 1) j (0 : Fin 1))
      = ((((vbit (aGt m c) (aMask m c) (slotScale j) b (slotBox j)).toNat : ℝ)) : EReal) :=
  (iblk1_apply m c b j 0).trans (V_main_v113_slot m c b (slotBox j) (slotScale j) j (slot_split j))

theorem blk_gt (j : Fin 150) (k : Fin 4) :
    xGt m c b (ix3 (0 : Fin 1) j k) = aGt m c (ix3 b (slotBox j) k) :=
  (iblk2_apply m c b j k).trans (V_main_v108_slot m c b (slotBox j) (slotScale j) j (slot_split j) k)

theorem blk_onehot (j : Fin 150) (k : Fin 80) :
    xHot m c b (ix3 (0 : Fin 1) j k) = tgtV (F := Ideal) (aLab m c) (ix3 b (slotBox j) k) :=
  (iblk3_apply m c b j k).trans (V_main_v111_slot m c b (slotBox j) (slotScale j) j (slot_split j) k)

theorem blk_box (n : Fin 8400) (k : Fin 4) :
    xBox m c b (ix3 (0 : Fin 1) n k) = aBox m c (ix3 b n k) := by
  show (iblk m c 4 (image b) : Vec Ideal S1x8400x4 .f32) (ix3 (0 : Fin 1) n k) = _
  rw [iblk4_apply m c b n k, show V m c main_arg0 = _ from pre_writes.keeps main_arg0 (Or.inl (by decide)) _]

theorem blk_cls (n : Fin 8400) (k : Fin 80) :
    xCls m c b (ix3 (0 : Fin 1) n k) = aCls m c (ix3 b n k) := by
  show (iblk m c 5 (image b) : Vec Ideal S1x8400x80 .f32) (ix3 (0 : Fin 1) n k) = _
  rw [iblk5_apply m c b n k, show V m c main_arg1 = _ from pre_writes.keeps main_arg1 (Or.inl (by decide)) _]

theorem blk_idx_lt (j : Fin 150) : (xIdx m c b (ix3 (0 : Fin 1) j (0 : Fin 1))).toNat < 8400 := by
  rw [blk_idx]
  exact idx_toNat_lt _ _ _ _

theorem row_eq (j : Fin 150) :
    (⟨(xIdx m c b (ix3 (0 : Fin 1) j (0 : Fin 1))).toNat, blk_idx_lt m c b j⟩ : Fin 8400)
      = arow (aGt m c) (aMask m c) (slotScale j) b (slotBox j) := by
  apply Fin.ext
  show (xIdx m c b (ix3 (0 : Fin 1) j (0 : Fin 1))).toNat
      = (idxV (F := Ideal) (slotScale j) (aGt m c) (aMask m c) (ix2 b (slotBox j))).toNat
  rw [blk_idx]

theorem imgOut_eq : imgOut m c (image b)
    = kpoint (xIdx m c b) (xFlag m c b) (xGt m c b) (xHot m c b) (xBox m c b) (xCls m c b) := rfl

theorem out_cnt :
    outArr m c (ix3 b (0 : Fin 1) (2 : Fin 3))
      = ∑ j : Fin 150, ((((vbit (aGt m c) (aMask m c) (slotScale j) b (slotBox j)).toNat : ℝ)) : EReal) := by
  rw [outArr_apply, imgOut_eq, kpoint_count (xIdx m c b) (xFlag m c b) (xGt m c b) (xHot m c b) (xBox m c b) (xCls m c b)]
  exact Finset.sum_congr rfl fun j _ => blk_flag m c b j

variable (hf0 : ∀ i, ∃ r : ℝ, aBox m c i = (r : EReal)) (hf1 : ∀ i, ∃ r : ℝ, aCls m c i = (r : EReal))
include hf0 hf1

theorem blk_box_real (i : S1x8400x4.Idx) : ∃ r : ℝ, xBox m c b i = (r : EReal) := by
  obtain ⟨a, n, k, rfl⟩ : ∃ (a : Fin 1) (n : Fin 8400) (k : Fin 4), i = ix3 a n k := ⟨i 0, i 1, i 2, eq_ix3 i⟩
  obtain rfl : a = 0 := Subsingleton.elim _ _
  rw [blk_box]
  exact hf0 _

theorem blk_cls_real (i : S1x8400x80.Idx) : ∃ r : ℝ, xCls m c b i = (r : EReal) := by
  obtain ⟨a, n, k, rfl⟩ : ∃ (a : Fin 1) (n : Fin 8400) (k : Fin 80), i = ix3 a n k := ⟨i 0, i 1, i 2, eq_ix3 i⟩
  obtain rfl : a = 0 := Subsingleton.elim _ _
  rw [blk_cls]
  exact hf1 _

theorem out_box :
    outArr m c (ix3 b (0 : Fin 1) (0 : Fin 3))
      = ∑ j : Fin 150, tbox (aBox m c) (aGt m c) (aMask m c) (slotScale j) b (slotBox j) := by
  rw [outArr_apply, imgOut_eq,
    kpoint_box (xIdx m c b) (xFlag m c b) (xGt m c b) (xHot m c b) (xBox m c b) (xCls m c b)
      (blk_idx_lt m c b) (blk_box_real m c b hf0 hf1) (blk_cls_real m c b hf0 hf1)]
  refine Finset.sum_congr rfl fun j _ => ?_
  rw [blk_flag m c b j, row_eq m c b j]
  have hp : (fun k => xBox m c b (ix3 (0 : Fin 1) (arow (aGt m c) (aMask m c) (slotScale j) b (slotBox j)) k))
      = fun k => aBox m c (ix3 b (arow (aGt m c) (aMask m c) (slotScale j) b (slotBox j)) k) :=
    funext fun k => blk_box m c b _ k
  have hg : (fun k => xGt m c b (ix3 (0 : Fin 1) j k)) = fun k => aGt m c (ix3 b (slotBox j) k) :=
    funext fun k => blk_gt m c b j k
  rw [hp, hg, boxTerm_eq, box_spellings]
  rfl

theorem out_cls :
    outArr m c (ix3 b (0 : Fin 1) (1 : Fin 3))
      = ∑ j : Fin 150, tcls (aCls m c) (aGt m c) (aLab m c) (aMask m c) (slotScale j) b (slotBox j) := by
  rw [outArr_apply, imgOut_eq,
    kpoint_cls (xIdx m c b) (xFlag m c b) (xGt m c b) (xHot m c b) (xBox m c b) (xCls m c b)
      (blk_idx_lt m c b) (blk_box_real m c b hf0 hf1) (blk_cls_real m c b hf0 hf1)]
  refine Finset.sum_congr rfl fun j _ => ?_
  rw [blk_flag m c b j, row_eq m c b j]
  have hx : (fun k => xCls m c b (ix3 (0 : Fin 1) (arow (aGt m c) (aMask m c) (slotScale j) b (slotBox j)) k))
      = fun k => aCls m c (ix3 b (arow (aGt m c) (aMask m c) (slotScale j) b (slotBox j)) k) :=
    funext fun k => blk_cls m c b _ k
  have ht : (fun k => xHot m c b (ix3 (0 : Fin 1) j k))
      = fun k => tgtV (F := Ideal) (aLab m c) (ix3 b (slotBox j) k) :=
    funext fun k => blk_onehot m c b j k
  rw [hx, ht, clsTerm_eq (vbit (aGt m c) (aMask m c) (slotScale j) b (slotBox j))
    (fun k => aCls m c (ix3 b (arow (aGt m c) (aMask m c) (slotScale j) b (slotBox j)) k))
    (fun k => tgtV (F := Ideal) (aLab m c) (ix3 b (slotBox j) k)) (fun k => hf1 _) (fun k => tgt_real _ _)]
  rfl

end image

end Cert.KernelIdeal.Hand

end
-- ==== Proof.RIdx.lean ====
import proofs.«423457_j69166153335192_3_alg».proof.Proof.RefOps
import proofs.«423457_j69166153335192_3_alg».proof.Proof.RTake
import proofs.«423457_j69166153335192_3_alg».proof.Proof.IdxChain

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

def rBcF (w : BitVec 32) : FVec F S32x50 .f32 := broadcastInDim S32x50 ![] bcast_S_S32x50 (constant (F := F) S_ .f32 w)

def rBcI (w : BitVec 32) : IVec S32x50 32 := broadcastInDim S32x50 ![] bcast_S_S32x50 (constantI S_ 32 w)

def rCell (stride : BitVec 32) (c : FVec F S32x50 .f32) : IVec S32x50 32 :=
  fptosi 32 (Host.floor (F := F) (Host.divf (F := F) c (rBcF stride)))

def rValid (stride side : BitVec 32) (cx cy : FVec F S32x50 .f32) (mask : IVec S32x50 1) : IVec S32x50 1 :=
  andi (andi (andi (andi mask (cmpi .sge (rCell stride cx) (rBcI 0#32))) (cmpi .sge (rCell stride cy) (rBcI 0#32)))
    (cmpi .slt (rCell stride cx) (rBcI side))) (cmpi .slt (rCell stride cy) (rBcI side))

def rIdx (stride side off : BitVec 32) (cx cy : FVec F S32x50 .f32) (mask : IVec S32x50 1) : IVec S32x50 32 :=
  select (rValid stride side cx cy mask)
    (addi (addi (rBcI off) (muli (rCell stride cy) (rBcI side))) (rCell stride cx))
    (broadcastInDim S32x50 ![] bcast_S_S32x50 (id (constantI S_ 32 0#32)))

def rIdx3 (stride side off : BitVec 32) (cx cy : FVec F S32x50 .f32) (mask : IVec S32x50 1) : IVec S32x50x1 32 :=
  broadcastInDim S32x50x1 ![0, 1] bcast_S32x50_S32x50x1_0_1 (rIdx stride side off cx cy mask)

theorem rValid_eq (s : Fin 3) (gt : FVec F S32x50x4 .f32) (mask : IVec S32x50 1) :
    rValid (Cert.KernelIdeal.Hand.strideW s) (Cert.KernelIdeal.Hand.sideW s)
        (Cert.KernelIdeal.Hand.ctrX gt) (Cert.KernelIdeal.Hand.ctrY gt) mask
      = Cert.KernelIdeal.Hand.validV s gt mask := rfl

theorem rIdx3_eq (s : Fin 3) (gt : FVec F S32x50x4 .f32) (mask : IVec S32x50 1) :
    rIdx3 (Cert.KernelIdeal.Hand.strideW s) (Cert.KernelIdeal.Hand.sideW s) (Cert.KernelIdeal.Hand.offW s)
        (Cert.KernelIdeal.Hand.ctrX gt) (Cert.KernelIdeal.Hand.ctrY gt) mask
      = broadcastInDim S32x50x1 ![0, 1] bcast_S32x50_S32x50x1_0_1 (Cert.KernelIdeal.Hand.idxV s gt mask) := rfl

variable (Vin : Valuation τ sig (Elt F))

theorem head_v6 :
    (StableHlo.after ops_head Vin (Proc.devRef .tc main_v6) : FVec F S32x50 .f32)
      = Cert.KernelIdeal.Hand.ctrX (Vin (Proc.devRef .tc main_arg2)) := by
  after_results_simp
  rfl

theorem head_v13 :
    (StableHlo.after ops_head Vin (Proc.devRef .tc main_v13) : FVec F S32x50 .f32)
      = Cert.KernelIdeal.Hand.ctrY (Vin (Proc.devRef .tc main_arg2)) := by
  after_results_simp
  rfl

theorem head_v14 :
    (StableHlo.after ops_head Vin (Proc.devRef .tc main_v14) : FVec F S32x50x80 .f32)
      = Cert.KernelIdeal.Hand.tgtV (Vin (Proc.devRef .tc main_arg3)) := by
  after_results_simp
  simp only [StableHlo.TRef.ofBuf, StableHlo.TRef.toBuf, cast_eq]
  rfl

theorem s0_valid :
    (StableHlo.after ops_s0_idx Vin (Proc.devRef .tc main_v34) : IVec S32x50 1)
      = rValid 0x41000000#32 80#32 (Vin (Proc.devRef .tc main_v6)) (Vin (Proc.devRef .tc main_v13))
          (Vin (Proc.devRef .tc main_arg4)) := by
  after_results_simp
  rfl

theorem s0_box :
    (StableHlo.after ops_s0_idx Vin (Proc.devRef .tc main_v42) : FVec F S32x50x4 .f32)
      = takeBox (Vin (Proc.devRef .tc main_arg0))
          (rIdx3 0x41000000#32 80#32 0#32 (Vin (Proc.devRef .tc main_v6)) (Vin (Proc.devRef .tc main_v13))
            (Vin (Proc.devRef .tc main_arg4))) := by
  after_results_simp
  simp only [StableHlo.TRef.ofBuf, StableHlo.TRef.toBuf, cast_eq]
  rfl

theorem s0_cls :
    (StableHlo.after ops_s0_idx Vin (Proc.devRef .tc main_v44) : FVec F S32x50x80 .f32)
      = takeCls (Vin (Proc.devRef .tc main_arg1))
          (rIdx3 0x41000000#32 80#32 0#32 (Vin (Proc.devRef .tc main_v6)) (Vin (Proc.devRef .tc main_v13))
            (Vin (Proc.devRef .tc main_arg4))) := by
  after_results_simp
  simp only [StableHlo.TRef.ofBuf, StableHlo.TRef.toBuf, cast_eq]
  rfl

end Cert.ReferenceIdeal.Hand

end
-- ==== Proof.RIdx1.lean ====
import proofs.«423457_j69166153335192_3_alg».proof.Proof.RIdx

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

variable (Vin : Valuation τ sig (Elt F))

theorem s1_valid :
    (StableHlo.after ops_s1_idx Vin (Proc.devRef .tc main_v187) : IVec S32x50 1)
      = rValid 0x41800000#32 40#32 (Vin (Proc.devRef .tc main_v6)) (Vin (Proc.devRef .tc main_v13))
          (Vin (Proc.devRef .tc main_arg4)) := by
  after_results_simp
  rfl

theorem s1_box :
    (StableHlo.after ops_s1_idx Vin (Proc.devRef .tc main_v195) : FVec F S32x50x4 .f32)
      = takeBox (Vin (Proc.devRef .tc main_arg0))
          (rIdx3 0x41800000#32 40#32 6400#32 (Vin (Proc.devRef .tc main_v6)) (Vin (Proc.devRef .tc main_v13))
            (Vin (Proc.devRef .tc main_arg4))) := by
  after_results_simp
  simp only [StableHlo.TRef.ofBuf, StableHlo.TRef.toBuf, cast_eq]
  rfl

theorem s1_cls :
    (StableHlo.after ops_s1_idx Vin (Proc.devRef .tc main_v197) : FVec F S32x50x80 .f32)
      = takeCls (Vin (Proc.devRef .tc main_arg1))
          (rIdx3 0x41800000#32 40#32 6400#32 (Vin (Proc.devRef .tc main_v6)) (Vin (Proc.devRef .tc main_v13))
            (Vin (Proc.devRef .tc main_arg4))) := by
  after_results_simp
  simp only [StableHlo.TRef.ofBuf, StableHlo.TRef.toBuf, cast_eq]
  rfl

end Cert.ReferenceIdeal.Hand

end
-- ==== Proof.RIdx2.lean ====
import proofs.«423457_j69166153335192_3_alg».proof.Proof.RIdx

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

variable (Vin : Valuation τ sig (Elt F))

theorem s2_valid :
    (StableHlo.after ops_s2_idx Vin (Proc.devRef .tc main_v340) : IVec S32x50 1)
      = rValid 0x42000000#32 20#32 (Vin (Proc.devRef .tc main_v6)) (Vin (Proc.devRef .tc main_v13))
          (Vin (Proc.devRef .tc main_arg4)) := by
  after_results_simp
  rfl

theorem s2_box :
    (StableHlo.after ops_s2_idx Vin (Proc.devRef .tc main_v348) : FVec F S32x50x4 .f32)
      = takeBox (Vin (Proc.devRef .tc main_arg0))
          (rIdx3 0x42000000#32 20#32 8000#32 (Vin (Proc.devRef .tc main_v6)) (Vin (Proc.devRef .tc main_v13))
            (Vin (Proc.devRef .tc main_arg4))) := by
  after_results_simp
  simp only [StableHlo.TRef.ofBuf, StableHlo.TRef.toBuf, cast_eq]
  rfl

theorem s2_cls :
    (StableHlo.after ops_s2_idx Vin (Proc.devRef .tc main_v350) : FVec F S32x50x80 .f32)
      = takeCls (Vin (Proc.devRef .tc main_arg1))
          (rIdx3 0x42000000#32 20#32 8000#32 (Vin (Proc.devRef .tc main_v6)) (Vin (Proc.devRef .tc main_v13))
            (Vin (Proc.devRef .tc main_arg4))) := by
  after_results_simp
  simp only [StableHlo.TRef.ofBuf, StableHlo.TRef.toBuf, cast_eq]
  rfl

end Cert.ReferenceIdeal.Hand

end
-- ==== Proof.RBox1.lean ====
import proofs.«423457_j69166153335192_3_alg».proof.Proof.RBox

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

theorem after_s1_box (Vin : Valuation τ sig (Elt F)) :
    StableHlo.after ops_s1_box Vin (Proc.devRef .tc main_v278)
      = addf (Vin (Proc.devRef .tc main_v125))
          (boxStage (Vin (Proc.devRef .tc main_v195)) (Vin (Proc.devRef .tc main_arg2)) (Vin (Proc.devRef .tc main_v187))) :=
  rfl

end Cert.ReferenceIdeal.Hand

end
-- ==== Proof.RBox2.lean ====
import proofs.«423457_j69166153335192_3_alg».proof.Proof.RBox

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

theorem after_s2_box (Vin : Valuation τ sig (Elt F)) :
    StableHlo.after ops_s2_box Vin (Proc.devRef .tc main_v431)
      = addf (Vin (Proc.devRef .tc main_v278))
          (boxStage (Vin (Proc.devRef .tc main_v348)) (Vin (Proc.devRef .tc main_arg2)) (Vin (Proc.devRef .tc main_v340))) :=
  rfl

end Cert.ReferenceIdeal.Hand

end
-- ==== Proof.RCls1.lean ====
import proofs.«423457_j69166153335192_3_alg».proof.Proof.RCls

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

theorem after_s1_cls (Vin : Valuation τ sig (Elt F)) :
    StableHlo.after ops_s1_cls Vin (Proc.devRef .tc main_v317)
      = addf (Vin (Proc.devRef .tc main_v164) : FVec F S_ .f32)
          (clsStage (Vin (Proc.devRef .tc main_v197)) (Vin (Proc.devRef .tc main_v14)) (Vin (Proc.devRef .tc main_v187))) := by
  after_results_simp
  rfl

end Cert.ReferenceIdeal.Hand

end
-- ==== Proof.RCls2.lean ====
import proofs.«423457_j69166153335192_3_alg».proof.Proof.RCls

set_option maxRecDepth 4096

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

theorem after_s2_cls (Vin : Valuation τ sig (Elt F)) :
    StableHlo.after ops_s2_cls Vin (Proc.devRef .tc main_v470)
      = addf (Vin (Proc.devRef .tc main_v317) : FVec F S_ .f32)
          (clsStage (Vin (Proc.devRef .tc main_v350)) (Vin (Proc.devRef .tc main_v14)) (Vin (Proc.devRef .tc main_v340))) := by
  after_results_simp
  rfl

end Cert.ReferenceIdeal.Hand

end
-- ==== Proof.RefValue.lean ====
import proofs.«423457_j69166153335192_3_alg».proof.Proof.RefRun
import proofs.«423457_j69166153335192_3_alg».proof.Proof.RIdx
import proofs.«423457_j69166153335192_3_alg».proof.Proof.RIdx1
import proofs.«423457_j69166153335192_3_alg».proof.Proof.RIdx2
import proofs.«423457_j69166153335192_3_alg».proof.Proof.RBox
import proofs.«423457_j69166153335192_3_alg».proof.Proof.RBox1
import proofs.«423457_j69166153335192_3_alg».proof.Proof.RBox2
import proofs.«423457_j69166153335192_3_alg».proof.Proof.RCls
import proofs.«423457_j69166153335192_3_alg».proof.Proof.RCls1
import proofs.«423457_j69166153335192_3_alg».proof.Proof.RCls2
import proofs.«423457_j69166153335192_3_alg».proof.Proof.RCnt

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.KernelIdeal.Hand (ctrX ctrY validV idxV tgtV)

variable {F : FTy → Type} [FloatOps F] (V : Valuation τ sig (Elt F))

-- A stage of the program and the interval of buffer indices it writes.
class Stage (l : List (HloOp τ sig (Elt F))) (lo hi : outParam Nat) : Prop where
  writes : WritesIn lo hi l

instance : Stage (F := F) ops_head 5 27 := ⟨ops_head_writes⟩
instance : Stage (F := F) ops_s0_idx 27 110 := ⟨ops_s0_idx_writes⟩
instance : Stage (F := F) ops_s0_box 110 203 := ⟨ops_s0_box_writes⟩
instance : Stage (F := F) ops_s0_cls 203 288 := ⟨ops_s0_cls_writes⟩
instance : Stage (F := F) ops_s0_cnt 288 293 := ⟨ops_s0_cnt_writes⟩
instance : Stage (F := F) ops_s1_idx 293 376 := ⟨ops_s1_idx_writes⟩
instance : Stage (F := F) ops_s1_box 376 468 := ⟨ops_s1_box_writes⟩
instance : Stage (F := F) ops_s1_cls 468 552 := ⟨ops_s1_cls_writes⟩
instance : Stage (F := F) ops_s1_cnt 552 556 := ⟨ops_s1_cnt_writes⟩
instance : Stage (F := F) ops_s2_idx 556 639 := ⟨ops_s2_idx_writes⟩
instance : Stage (F := F) ops_s2_box 639 731 := ⟨ops_s2_box_writes⟩
instance : Stage (F := F) ops_s2_cls 731 815 := ⟨ops_s2_cls_writes⟩
instance : Stage (F := F) ops_s2_cnt 815 819 := ⟨ops_s2_cnt_writes⟩
instance : Stage (F := F) ops_tail 819 828 := ⟨ops_tail_writes⟩

-- A buffer is carried unchanged through every stage that writes elsewhere, back to the stage that wrote it.
theorem carried {l : List (HloOp τ sig (Elt F))} {lo hi : Nat} [h : Stage l lo hi] (r : Ref sig .tc)
    (hr : r.idx.val < lo ∨ hi ≤ r.idx.val) (V : Valuation τ sig (Elt F)) :
    after l V (Proc.devRef .tc r) = V (Proc.devRef .tc r) := h.writes.keeps r hr V

abbrev W1 : Valuation τ sig (Elt F) := after ops_head V
abbrev W2 : Valuation τ sig (Elt F) := after ops_s0_idx (W1 V)
abbrev W3 : Valuation τ sig (Elt F) := after ops_s0_box (W2 V)
abbrev W4 : Valuation τ sig (Elt F) := after ops_s0_cls (W3 V)
abbrev W5 : Valuation τ sig (Elt F) := after ops_s0_cnt (W4 V)
abbrev W6 : Valuation τ sig (Elt F) := after ops_s1_idx (W5 V)
abbrev W7 : Valuation τ sig (Elt F) := after ops_s1_box (W6 V)
abbrev W8 : Valuation τ sig (Elt F) := after ops_s1_cls (W7 V)
abbrev W9 : Valuation τ sig (Elt F) := after ops_s1_cnt (W8 V)
abbrev W10 : Valuation τ sig (Elt F) := after ops_s2_idx (W9 V)
abbrev W11 : Valuation τ sig (Elt F) := after ops_s2_box (W10 V)
abbrev W12 : Valuation τ sig (Elt F) := after ops_s2_cls (W11 V)
abbrev W13 : Valuation τ sig (Elt F) := after ops_s2_cnt (W12 V)

theorem after_ops : after ops V = after ops_tail (W13 V) := by
  unfold ops
  simp only [after_append]

abbrev idx3 (s : Fin 3) (gt : FVec F S32x50x4 .f32) (mask : IVec S32x50 1) : IVec S32x50x1 32 :=
  broadcastInDim S32x50x1 ![0, 1] bcast_S32x50_S32x50x1_0_1 (idxV s gt mask)

theorem valid0 : ((W2 V) (Proc.devRef .tc main_v34) : IVec S32x50 1) = validV (0 : Fin 3) (V (Proc.devRef .tc main_arg2) : FVec F S32x50x4 .f32) (V (Proc.devRef .tc main_arg4) : IVec S32x50 1) := by
  rw [show (W2 V) (Proc.devRef .tc main_v34) = _ from s0_valid (W1 V)]
  simp (disch := decide) only [carried main_v6, carried main_v13, carried main_arg4, head_v6 V, head_v13 V]
  exact rValid_eq (0 : Fin 3) _ _
theorem boxes0 : ((W2 V) (Proc.devRef .tc main_v42) : FVec F S32x50x4 .f32) = takeBox (V (Proc.devRef .tc main_arg0) : FVec F S32x8400x4 .f32) (idx3 (0 : Fin 3) (V (Proc.devRef .tc main_arg2) : FVec F S32x50x4 .f32) (V (Proc.devRef .tc main_arg4) : IVec S32x50 1)) := by
  rw [show (W2 V) (Proc.devRef .tc main_v42) = _ from s0_box (W1 V)]
  simp (disch := decide) only [carried main_arg0, carried main_v6, carried main_v13, carried main_arg4, head_v6 V, head_v13 V]
  exact congrArg (takeBox _) (rIdx3_eq (0 : Fin 3) _ _)
theorem logits0 : ((W2 V) (Proc.devRef .tc main_v44) : FVec F S32x50x80 .f32) = takeCls (V (Proc.devRef .tc main_arg1) : FVec F S32x8400x80 .f32) (idx3 (0 : Fin 3) (V (Proc.devRef .tc main_arg2) : FVec F S32x50x4 .f32) (V (Proc.devRef .tc main_arg4) : IVec S32x50 1)) := by
  rw [show (W2 V) (Proc.devRef .tc main_v44) = _ from s0_cls (W1 V)]
  simp (disch := decide) only [carried main_arg1, carried main_v6, carried main_v13, carried main_arg4, head_v6 V, head_v13 V]
  exact congrArg (takeCls _) (rIdx3_eq (0 : Fin 3) _ _)
theorem valid1 : ((W6 V) (Proc.devRef .tc main_v187) : IVec S32x50 1) = validV (1 : Fin 3) (V (Proc.devRef .tc main_arg2) : FVec F S32x50x4 .f32) (V (Proc.devRef .tc main_arg4) : IVec S32x50 1) := by
  rw [show (W6 V) (Proc.devRef .tc main_v187) = _ from s1_valid (W5 V)]
  simp (disch := decide) only [carried main_v6, carried main_v13, carried main_arg4, head_v6 V, head_v13 V]
  exact rValid_eq (1 : Fin 3) _ _
theorem boxes1 : ((W6 V) (Proc.devRef .tc main_v195) : FVec F S32x50x4 .f32) = takeBox (V (Proc.devRef .tc main_arg0) : FVec F S32x8400x4 .f32) (idx3 (1 : Fin 3) (V (Proc.devRef .tc main_arg2) : FVec F S32x50x4 .f32) (V (Proc.devRef .tc main_arg4) : IVec S32x50 1)) := by
  rw [show (W6 V) (Proc.devRef .tc main_v195) = _ from s1_box (W5 V)]
  simp (disch := decide) only [carried main_arg0, carried main_v6, carried main_v13, carried main_arg4, head_v6 V, head_v13 V]
  exact congrArg (takeBox _) (rIdx3_eq (1 : Fin 3) _ _)
theorem logits1 : ((W6 V) (Proc.devRef .tc main_v197) : FVec F S32x50x80 .f32) = takeCls (V (Proc.devRef .tc main_arg1) : FVec F S32x8400x80 .f32) (idx3 (1 : Fin 3) (V (Proc.devRef .tc main_arg2) : FVec F S32x50x4 .f32) (V (Proc.devRef .tc main_arg4) : IVec S32x50 1)) := by
  rw [show (W6 V) (Proc.devRef .tc main_v197) = _ from s1_cls (W5 V)]
  simp (disch := decide) only [carried main_arg1, carried main_v6, carried main_v13, carried main_arg4, head_v6 V, head_v13 V]
  exact congrArg (takeCls _) (rIdx3_eq (1 : Fin 3) _ _)
theorem valid2 : ((W10 V) (Proc.devRef .tc main_v340) : IVec S32x50 1) = validV (2 : Fin 3) (V (Proc.devRef .tc main_arg2) : FVec F S32x50x4 .f32) (V (Proc.devRef .tc main_arg4) : IVec S32x50 1) := by
  rw [show (W10 V) (Proc.devRef .tc main_v340) = _ from s2_valid (W9 V)]
  simp (disch := decide) only [carried main_v6, carried main_v13, carried main_arg4, head_v6 V, head_v13 V]
  exact rValid_eq (2 : Fin 3) _ _
theorem boxes2 : ((W10 V) (Proc.devRef .tc main_v348) : FVec F S32x50x4 .f32) = takeBox (V (Proc.devRef .tc main_arg0) : FVec F S32x8400x4 .f32) (idx3 (2 : Fin 3) (V (Proc.devRef .tc main_arg2) : FVec F S32x50x4 .f32) (V (Proc.devRef .tc main_arg4) : IVec S32x50 1)) := by
  rw [show (W10 V) (Proc.devRef .tc main_v348) = _ from s2_box (W9 V)]
  simp (disch := decide) only [carried main_arg0, carried main_v6, carried main_v13, carried main_arg4, head_v6 V, head_v13 V]
  exact congrArg (takeBox _) (rIdx3_eq (2 : Fin 3) _ _)
theorem logits2 : ((W10 V) (Proc.devRef .tc main_v350) : FVec F S32x50x80 .f32) = takeCls (V (Proc.devRef .tc main_arg1) : FVec F S32x8400x80 .f32) (idx3 (2 : Fin 3) (V (Proc.devRef .tc main_arg2) : FVec F S32x50x4 .f32) (V (Proc.devRef .tc main_arg4) : IVec S32x50 1)) := by
  rw [show (W10 V) (Proc.devRef .tc main_v350) = _ from s2_cls (W9 V)]
  simp (disch := decide) only [carried main_arg1, carried main_v6, carried main_v13, carried main_arg4, head_v6 V, head_v13 V]
  exact congrArg (takeCls _) (rIdx3_eq (2 : Fin 3) _ _)

abbrev boxOf (s : Fin 3) : FVec F S_ .f32 :=
  boxStage (takeBox (V (Proc.devRef .tc main_arg0) : FVec F S32x8400x4 .f32) (idx3 s (V (Proc.devRef .tc main_arg2) : FVec F S32x50x4 .f32) (V (Proc.devRef .tc main_arg4) : IVec S32x50 1))) (V (Proc.devRef .tc main_arg2) : FVec F S32x50x4 .f32) (validV s (V (Proc.devRef .tc main_arg2) : FVec F S32x50x4 .f32) (V (Proc.devRef .tc main_arg4) : IVec S32x50 1))

abbrev clsOf (s : Fin 3) : FVec F S_ .f32 :=
  clsStage (takeCls (V (Proc.devRef .tc main_arg1) : FVec F S32x8400x80 .f32) (idx3 s (V (Proc.devRef .tc main_arg2) : FVec F S32x50x4 .f32) (V (Proc.devRef .tc main_arg4) : IVec S32x50 1))) (tgtV (V (Proc.devRef .tc main_arg3) : IVec S32x50 32)) (validV s (V (Proc.devRef .tc main_arg2) : FVec F S32x50x4 .f32) (V (Proc.devRef .tc main_arg4) : IVec S32x50 1))

abbrev cntOf (s : Fin 3) : IVec S_ 32 := cntStage (validV s (V (Proc.devRef .tc main_arg2) : FVec F S32x50x4 .f32) (V (Proc.devRef .tc main_arg4) : IVec S32x50 1))

theorem boxTotal0 : (W3 V) (Proc.devRef .tc main_v125) = addf (constant (F := F) S_ .f32 0x00000000#32) (boxOf V 0) := by
  show after ops_s0_box (W2 V) (Proc.devRef .tc main_v125) = _
  rw [after_s0_box, boxes0 V, valid0 V]
  simp (disch := decide) only [carried main_arg2]
theorem clsTotal0 : (W4 V) (Proc.devRef .tc main_v164) = addf (constant (F := F) S_ .f32 0x00000000#32) (clsOf V 0) := by
  show after ops_s0_cls (W3 V) (Proc.devRef .tc main_v164) = _
  rw [after_s0_cls]
  simp (disch := decide) only [carried main_v14, carried main_v44, carried main_v34, head_v14 V, logits0 V, valid0 V]
theorem cntTotal0 : (W5 V) (Proc.devRef .tc main_v167) = addi (constantI S_ 32 0#32) (cntOf V 0) := by
  show after ops_s0_cnt (W4 V) (Proc.devRef .tc main_v167) = _
  rw [s0_cnt]
  simp (disch := decide) only [carried main_v34, valid0 V]
theorem boxTotal1 : (W7 V) (Proc.devRef .tc main_v278) = addf (addf (constant (F := F) S_ .f32 0x00000000#32) (boxOf V 0)) (boxOf V 1) := by
  show after ops_s1_box (W6 V) (Proc.devRef .tc main_v278) = _
  rw [after_s1_box, boxes1 V, valid1 V]
  simp (disch := decide) only [carried main_arg2, carried main_v125, boxTotal0 V]
theorem clsTotal1 : (W8 V) (Proc.devRef .tc main_v317) = addf (addf (constant (F := F) S_ .f32 0x00000000#32) (clsOf V 0)) (clsOf V 1) := by
  show after ops_s1_cls (W7 V) (Proc.devRef .tc main_v317) = _
  rw [after_s1_cls]
  simp (disch := decide) only [carried main_v14, carried main_v197, carried main_v187, carried main_v164, head_v14 V, logits1 V, valid1 V, clsTotal0 V]
theorem cntTotal1 : (W9 V) (Proc.devRef .tc main_v320) = addi (addi (constantI S_ 32 0#32) (cntOf V 0)) (cntOf V 1) := by
  show after ops_s1_cnt (W8 V) (Proc.devRef .tc main_v320) = _
  rw [s1_cnt]
  simp (disch := decide) only [carried main_v187, carried main_v167, valid1 V, cntTotal0 V]
theorem boxTotal2 : (W11 V) (Proc.devRef .tc main_v431) = addf (addf (addf (constant (F := F) S_ .f32 0x00000000#32) (boxOf V 0)) (boxOf V 1)) (boxOf V 2) := by
  show after ops_s2_box (W10 V) (Proc.devRef .tc main_v431) = _
  rw [after_s2_box, boxes2 V, valid2 V]
  simp (disch := decide) only [carried main_arg2, carried main_v278, boxTotal1 V]
theorem clsTotal2 : (W12 V) (Proc.devRef .tc main_v470) = addf (addf (addf (constant (F := F) S_ .f32 0x00000000#32) (clsOf V 0)) (clsOf V 1)) (clsOf V 2) := by
  show after ops_s2_cls (W11 V) (Proc.devRef .tc main_v470) = _
  rw [after_s2_cls]
  simp (disch := decide) only [carried main_v14, carried main_v350, carried main_v340, carried main_v317, head_v14 V, logits2 V, valid2 V, clsTotal1 V]
theorem cntTotal2 : (W13 V) (Proc.devRef .tc main_v473) = addi (addi (addi (constantI S_ 32 0#32) (cntOf V 0)) (cntOf V 1)) (cntOf V 2) := by
  show after ops_s2_cnt (W12 V) (Proc.devRef .tc main_v473) = _
  rw [s2_cnt]
  simp (disch := decide) only [carried main_v340, carried main_v320, valid2 V, cntTotal1 V]

theorem ref_value :
    after ops V (Proc.devRef .tc main_v479)
      = tailR (addf (addf (addf (constant (F := F) S_ .f32 0x00000000#32) (boxOf V 0)) (boxOf V 1)) (boxOf V 2))
          (addf (addf (addf (constant (F := F) S_ .f32 0x00000000#32) (clsOf V 0)) (clsOf V 1)) (clsOf V 2))
          (addi (addi (addi (constantI S_ 32 0#32) (cntOf V 0)) (cntOf V 1)) (cntOf V 2)) := by
  rw [after_ops, tail_res]
  simp (disch := decide) only [carried main_v431, carried main_v470, boxTotal2 V, clsTotal2 V, cntTotal2 V]

end Cert.ReferenceIdeal.Hand

end
-- ==== Proof.PureBridge.lean ====
import proofs.«423457_j69166153335192_3_alg».proof.Proof.MathLemmas

noncomputable section

namespace Cert.Hand.Pure

open Idealize.ShloMosaic Cert.Hand.Math Finset

-- Slot 3·mm + s of image b and (scale s, image b, box mm) carry the same term, so the totals agree by commutativity and associativity.
theorem sum_bridge (T : Fin 3 → Fin 32 → Fin 50 → EReal) (K : Fin 32 → Fin 150 → EReal)
    (hK : ∀ b mm s, K b (slot mm s) = T s b mm) :
    Ideal.ofBits .f32 0x00000000#32 + ∑ b : Fin 32, ∑ j : Fin 150, K b j
      = ((Ideal.ofBits .f32 0x00000000#32 + (Ideal.ofBits .f32 0x00000000#32 + ∑ a : Fin 32, ∑ mm : Fin 50, T 0 a mm))
          + (Ideal.ofBits .f32 0x00000000#32 + ∑ a : Fin 32, ∑ mm : Fin 50, T 1 a mm))
        + (Ideal.ofBits .f32 0x00000000#32 + ∑ a : Fin 32, ∑ mm : Fin 50, T 2 a mm) := by
  rw [ofBits_zero]
  simp only [zero_add]
  have h : ∀ b : Fin 32, ∑ j : Fin 150, K b j = ∑ mm : Fin 50, T 0 b mm + ∑ mm : Fin 50, T 1 b mm + ∑ mm : Fin 50, T 2 b mm := by
    intro b
    rw [sum_slots]
    simp only [Fin.sum_univ_three, hK, Finset.sum_add_distrib]
  simp only [h, Finset.sum_add_distrib]

theorem bits_le (v : Fin 32 → Fin 50 → BitVec 1) : (∑ a : Fin 32, ∑ mm : Fin 50, (v a mm).toNat) ≤ 1600 := by
  calc (∑ a : Fin 32, ∑ mm : Fin 50, (v a mm).toNat) ≤ ∑ _a : Fin 32, ∑ _mm : Fin 50, 1 :=
        Finset.sum_le_sum fun a _ => Finset.sum_le_sum fun mm _ => by
          have := (v a mm).isLt; omega
    _ = 1600 := by simp

theorem maxsi_count (w : BitVec 32) (N : ℕ) (hN : N ≤ 4800) (hw : w.toNat = N) :
    (IntOp.maxsi w 1#32).toInt = max (N : ℤ) 1 := by
  have hwint : w.toInt = (N : ℤ) := by
    rw [BitVec.toInt_eq_toNat_of_lt (by omega), hw]
  have h1i : (1#32 : BitVec 32).toInt = 1 := by decide
  unfold IntOp.maxsi
  by_cases hlt : (1#32 : BitVec 32).slt w = true
  · rw [if_pos hlt, hwint]
    rw [BitVec.slt, decide_eq_true_eq, h1i, hwint] at hlt
    omega
  · rw [if_neg hlt, h1i]
    rw [BitVec.slt, decide_eq_true_eq, h1i, hwint] at hlt
    omega

theorem kernel_count (vb : Fin 3 → Fin 32 → Fin 50 → BitVec 1) (vf : Fin 32 → Fin 150 → EReal)
    (hvf : ∀ b mm s, vf b (slot mm s) = (((vb s b mm).toNat : ℝ) : EReal)) :
    (∑ b : Fin 32, ∑ j : Fin 150, vf b j)
      = ((((∑ a : Fin 32, ∑ mm : Fin 50, (vb 0 a mm).toNat) + (∑ a : Fin 32, ∑ mm : Fin 50, (vb 1 a mm).toNat)
          + (∑ a : Fin 32, ∑ mm : Fin 50, (vb 2 a mm).toNat) : ℕ) : ℝ) : EReal) := by
  have h : ∀ b : Fin 32, ∑ j : Fin 150, vf b j
      = (((∑ mm : Fin 50, (vb 0 b mm).toNat + ∑ mm : Fin 50, (vb 1 b mm).toNat + ∑ mm : Fin 50, (vb 2 b mm).toNat : ℕ) : ℝ) : EReal) := by
    intro b
    rw [sum_slots]
    simp only [Fin.sum_univ_three, hvf, Finset.sum_add_distrib, coe_sum, ← EReal.coe_add]
    push_cast
    rfl
  simp only [h, coe_sum]
  push_cast
  simp only [Finset.sum_add_distrib, EReal.coe_add]

theorem count_core (N0 N1 N2 : ℕ) (b0 : N0 ≤ 1600) (b1 : N1 ≤ 1600) (b2 : N2 ≤ 1600) (c0 c1 c2 : BitVec 32)
    (h0 : c0.toNat = N0) (h1 : c1.toNat = N1) (h2 : c2.toNat = N2) (S : EReal)
    (hS : S = ((((N0 + N1 + N2 : ℕ)) : ℝ) : EReal)) :
    max (Ideal.ofBits .f32 0x00000000#32 + S) (Ideal.ofBits .f32 0x3F800000#32)
      = ((((IntOp.maxsi (IntOp.addi (IntOp.addi (IntOp.addi 0#32 c0) c1) c2) 1#32).toInt : ℝ)) : EReal) := by
  have hsum : (IntOp.addi (IntOp.addi (IntOp.addi 0#32 c0) c1) c2).toNat = N0 + N1 + N2 := by
    show (((0#32 + c0) + c1) + c2).toNat = _
    rw [BitVec.zero_add, BitVec.toNat_add, BitVec.toNat_add, h0, h1, h2]
    omega
  rw [maxsi_count _ (N0 + N1 + N2) (by omega) hsum, hS, ofBits_zero, zero_add, ofBits_one, ← EReal.coe_one,
    ← (EReal.coe_strictMono.monotone).map_max]
  congr 1
  rw [Int.cast_max]
  simp

-- Both counts are max(number of valid slots, 1), that number being at most 4800.
theorem count_bridge (vb : Fin 3 → Fin 32 → Fin 50 → BitVec 1) (vf : Fin 32 → Fin 150 → EReal)
    (hvf : ∀ b mm s, vf b (slot mm s) = (((vb s b mm).toNat : ℝ) : EReal))
    (c0 c1 c2 : BitVec 32)
    (h0 : c0.toNat = ∑ a : Fin 32, ∑ mm : Fin 50, (vb 0 a mm).toNat)
    (h1 : c1.toNat = ∑ a : Fin 32, ∑ mm : Fin 50, (vb 1 a mm).toNat)
    (h2 : c2.toNat = ∑ a : Fin 32, ∑ mm : Fin 50, (vb 2 a mm).toNat) :
    max (Ideal.ofBits .f32 0x00000000#32 + ∑ b : Fin 32, ∑ j : Fin 150, vf b j) (Ideal.ofBits .f32 0x3F800000#32)
      = ((((IntOp.maxsi (IntOp.addi (IntOp.addi (IntOp.addi 0#32 c0) c1) c2) 1#32).toInt : ℝ)) : EReal) :=
  count_core _ _ _ (bits_le (vb 0)) (bits_le (vb 1)) (bits_le (vb 2)) c0 c1 c2 h0 h1 h2 _ (kernel_count vb vf hvf)

end Cert.Hand.Pure

end
-- ==== Proof.Final.lean ====
import proofs.«423457_j69166153335192_3_alg».proof.Proof.KBridge
import proofs.«423457_j69166153335192_3_alg».proof.Proof.RefValue
import proofs.«423457_j69166153335192_3_alg».proof.Proof.PureBridge

noncomputable section

namespace Cert.Hand.Final

open Idealize.ShloMosaic Idealize.ShloMosaic.TcCoe Idealize.ShloMosaic.ValueIdx Idealize.SL.Sem Idealize.ShloMosaic.StableHlo
open Cert.Hand.Math Cert.Hand.Pure

namespace KH
export Cert.KernelIdeal.Hand (aBox aCls aGt aLab aMask outArr tailK tailK_apply out_box out_cls out_cnt slotBox slotScale
  slotBox_slot slotScale_slot validV idxV tgtV)
end KH
namespace RH
export Cert.ReferenceIdeal.Hand (ops ref_value tailR boxOf clsOf cntOf box_rows cls_rows cnt_rows tbox tcls vbit)
end RH

variable (m : (ℓ : Loc Cert.KernelIdeal.nD Cert.KernelIdeal.τ Cert.KernelIdeal.sig) → Buf (Elt Ideal) ℓ)
  (c : Dev Cert.KernelIdeal.nD)
  (V : Valuation Cert.ReferenceIdeal.τ Cert.ReferenceIdeal.sig (Elt Ideal))

theorem tailR_apply (tb tc : FVec Ideal Cert.ReferenceIdeal.S_ .f32) (cnt : IVec Cert.ReferenceIdeal.S_ 32) :
    RH.tailR tb tc cnt ix0
      = Ideal.div (Ideal.ofBits .f32 0x40A00000#32 * tb ix0 + Ideal.ofBits .f32 0x3F800000#32 * tc ix0)
          ((((IntOp.maxsi (cnt ix0) 1#32).toInt : ℝ)) : EReal) := rfl

-- Both results are (5 · box total + class total) / max(count, 1).
theorem results_eq
    (h0 : (V (Proc.devRef .tc Cert.ReferenceIdeal.main_arg0) : FVec Ideal Cert.ReferenceIdeal.S32x8400x4 .f32) = KH.aBox m c)
    (h1 : (V (Proc.devRef .tc Cert.ReferenceIdeal.main_arg1) : FVec Ideal Cert.ReferenceIdeal.S32x8400x80 .f32) = KH.aCls m c)
    (h2 : (V (Proc.devRef .tc Cert.ReferenceIdeal.main_arg2) : FVec Ideal Cert.ReferenceIdeal.S32x50x4 .f32) = KH.aGt m c)
    (h3 : (V (Proc.devRef .tc Cert.ReferenceIdeal.main_arg3) : IVec Cert.ReferenceIdeal.S32x50 32) = KH.aLab m c)
    (h4 : (V (Proc.devRef .tc Cert.ReferenceIdeal.main_arg4) : IVec Cert.ReferenceIdeal.S32x50 1) = KH.aMask m c)
    (hf0 : ∀ i, ∃ r : ℝ, KH.aBox m c i = (r : EReal)) (hf1 : ∀ i, ∃ r : ℝ, KH.aCls m c i = (r : EReal)) :
    (after RH.ops V (Proc.devRef .tc Cert.ReferenceIdeal.main_v479) : FVec Ideal Cert.ReferenceIdeal.S_ .f32)
      = KH.tailK (KH.outArr m c) := by
  funext i
  rw [eq_ix0 i, RH.ref_value V, tailR_apply, KH.tailK_apply]

  have hb : ∀ s : Fin 3, RH.boxOf V s ix0
      = Ideal.ofBits .f32 0x00000000#32 + ∑ a : Fin 32, ∑ mm : Fin 50, RH.tbox (KH.aBox m c) (KH.aGt m c) (KH.aMask m c) s a mm := by
    intro s
    show Cert.ReferenceIdeal.Hand.boxStage _ _ _ ix0 = _
    rw [h0, h2, h4]
    exact RH.box_rows (KH.aBox m c) (KH.aGt m c) (KH.aMask m c) s
  have hc : ∀ s : Fin 3, RH.clsOf V s ix0
      = Ideal.ofBits .f32 0x00000000#32 + ∑ a : Fin 32, ∑ mm : Fin 50, RH.tcls (KH.aCls m c) (KH.aGt m c) (KH.aLab m c) (KH.aMask m c) s a mm := by
    intro s
    show Cert.ReferenceIdeal.Hand.clsStage _ _ _ ix0 = _
    rw [h1, h2, h3, h4]
    exact RH.cls_rows (KH.aCls m c) (KH.aGt m c) (KH.aLab m c) (KH.aMask m c) s
  have hn : ∀ s : Fin 3, (RH.cntOf V s ix0).toNat
      = ∑ a : Fin 32, ∑ mm : Fin 50, (RH.vbit (KH.aGt m c) (KH.aMask m c) s a mm).toNat := by
    intro s
    show (Cert.ReferenceIdeal.Hand.cntStage _ ix0).toNat = _
    rw [h2, h4]
    exact RH.cnt_rows (KH.aGt m c) (KH.aMask m c) s

  have kb := sum_bridge (fun s a mm => RH.tbox (KH.aBox m c) (KH.aGt m c) (KH.aMask m c) s a mm)
    (fun b j => RH.tbox (KH.aBox m c) (KH.aGt m c) (KH.aMask m c) (KH.slotScale j) b (KH.slotBox j))
    (fun b mm s => by simp only [KH.slotBox_slot, KH.slotScale_slot])
  have kc := sum_bridge (fun s a mm => RH.tcls (KH.aCls m c) (KH.aGt m c) (KH.aLab m c) (KH.aMask m c) s a mm)
    (fun b j => RH.tcls (KH.aCls m c) (KH.aGt m c) (KH.aLab m c) (KH.aMask m c) (KH.slotScale j) b (KH.slotBox j))
    (fun b mm s => by simp only [KH.slotBox_slot, KH.slotScale_slot])
  have kn := count_bridge (fun s a mm => RH.vbit (KH.aGt m c) (KH.aMask m c) s a mm)
    (fun b j => ((((RH.vbit (KH.aGt m c) (KH.aMask m c) (KH.slotScale j) b (KH.slotBox j)).toNat : ℝ)) : EReal))
    (fun b mm s => by simp only [KH.slotBox_slot, KH.slotScale_slot])
    (RH.cntOf V 0 ix0) (RH.cntOf V 1 ix0) (RH.cntOf V 2 ix0) (hn 0) (hn 1) (hn 2)
  rw [ofBits_zero] at kb kc kn

  simp only [KH.out_box m c _ hf0 hf1, KH.out_cls m c _ hf0 hf1, KH.out_cnt m c]
  rw [kb, kc]
  rw [kn]
  show Ideal.div (_ * (((Ideal.ofBits .f32 0x00000000#32 + RH.boxOf V 0 ix0) + RH.boxOf V 1 ix0) + RH.boxOf V 2 ix0)
      + _ * (((Ideal.ofBits .f32 0x00000000#32 + RH.clsOf V 0 ix0) + RH.clsOf V 1 ix0) + RH.clsOf V 2 ix0)) _ = _
  rw [hb 0, hb 1, hb 2, hc 0, hc 1, hc 2, ofBits_zero]
  rfl

end Cert.Hand.Final

end
-- ==== Proof.Finite.lean ====
import proofs.«423457_j69166153335192_3_alg».proof.Pre_finite_inputs
import Idealize.ShloMosaic.Lib.ReduceAll
import Idealize.ShloMosaic.Lib.IdealHost

noncomputable section

namespace Cert.Hand.Finite

open Idealize.ShloMosaic Idealize.ShloMosaic.ValueIdx
open Cert.Pre_finite_inputs

instance : Subsingleton S_.Idx := ⟨fun a b => funext fun d => d.elim0⟩

theorem inf_bits : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

theorem and3 (p q r : IVec S_ 1) (h : andi (andi p q) r ix0 = 1#1) :
    p ix0 = 1#1 ∧ q ix0 = 1#1 ∧ r ix0 = 1#1 := by
  obtain ⟨hpq, hr⟩ := IntOp.andi_eq_one.1 h
  obtain ⟨hp, hq⟩ := IntOp.andi_eq_one.1 hpq
  exact ⟨hp, hq, hr⟩

theorem all_real {S : Shape} {axes : List (Fin S.rank)} (hb : S_.BroadcastsInDim S (![] : Fin 0 → Fin S.rank))
    (hr : S.ReducesTo axes S_) (hu : 0 < S_.numel) (a : FVec Ideal S .f32)
    (e : Host.reduce IntOp.andi
      (cmpf .olt (Host.absf a) (broadcastInDim S ![] hb (constant S_ .f32 0x7F800000#32)))
      (constantI S_ 1 1#1) hr hu ix0 = 1#1) (i : S.Idx) : ∃ r : ℝ, a i = (r : EReal) :=
  real_of_abs_lt_inf (a i) (Host.reduce_andi_all _ _ hr hu ix0 e i)

variable [Facts]

section
variable (a0 : FVec Ideal S32x8400x4 .f32) (a1 : FVec Ideal S32x8400x80 .f32) (a2 : FVec Ideal S32x50x4 .f32)
  (a3 : IVec S32x50 32) (a4 : IVec S32x50 1)

-- Each test |x| < +∞ that came out 1 says every entry of its array is a real number.
theorem decode (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨e0, e1, e2⟩ := and3 _ _ _ h0
  exact ⟨all_real _ _ _ a0 e0, all_real _ _ _ a1 e1, all_real _ _ _ a2 e2⟩

end

end Cert.Hand.Finite

end
-- ==== Proof.lean ====
import proofs.«423457_j69166153335192_3_alg».proof.Defs
import proofs.«423457_j69166153335192_3_alg».proof.Proof.Gen.Pre_finite_inputs
import proofs.«423457_j69166153335192_3_alg».proof.Proof.KFrame
import proofs.«423457_j69166153335192_3_alg».proof.Proof.KFrameBits
import proofs.«423457_j69166153335192_3_alg».proof.Proof.RefRun
import proofs.«423457_j69166153335192_3_alg».proof.Proof.KValue
import proofs.«423457_j69166153335192_3_alg».proof.Proof.Final
import proofs.«423457_j69166153335192_3_alg».proof.Proof.Finite
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ => Cert.ReferenceIdeal.Hand.frame m ρ

theorem preserves : Cert.preserves_Kernel_KernelIdeal :=
  IdealRules.truncf_extf.statement _ .f32 .bf16

theorem algebraic : Cert.algebraic_KernelIdeal_ReferenceIdeal := by
  intro m ρ m' ρ' hpre hagree
  refine ⟨fun c => Cert.KernelIdeal.Hand.tailK (Cert.KernelIdeal.Hand.outArr m c),
    Cert.KernelIdeal.Hand.run_value m ρ, ?_⟩
  refine (θ_run Cert.ReferenceIdeal.defs _ _).mono (fun r h c => ?_) (Cert.ReferenceIdeal.Hand.run m' ρ')
  have hfin := Cert.Hand.Finite.decode _ _ _ _ _ (hpre c)
  obtain ⟨a0, a1, a2, a3, a4⟩ := hagree c
  refine ⟨(h c Cert.ReferenceIdeal.main_v479).trans
      (Cert.Hand.Final.results_eq m c (launchContents m' c) a0 a1 a2 a3 a4 hfin.1 hfin.2.1), ?_, ?_, ?_, ?_, ?_⟩
  · exact (h c Cert.ReferenceIdeal.main_arg0).trans (Cert.ReferenceIdeal.Hand.after_arg0 _)
  · exact (h c Cert.ReferenceIdeal.main_arg1).trans (Cert.ReferenceIdeal.Hand.after_arg1 _)
  · exact (h c Cert.ReferenceIdeal.main_arg2).trans (Cert.ReferenceIdeal.Hand.after_arg2 _)
  · exact (h c Cert.ReferenceIdeal.main_arg3).trans (Cert.ReferenceIdeal.Hand.after_arg3 _)
  · exact (h c Cert.ReferenceIdeal.main_arg4).trans (Cert.ReferenceIdeal.Hand.after_arg4 _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
